-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v259)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v259) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v322) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x6 : Shape := ⟨2, ![131072, 6]⟩
abbrev S6 : Shape := ⟨1, ![6]⟩
abbrev S6x80 : Shape := ⟨2, ![6, 80]⟩
abbrev S80 : Shape := ⟨1, ![80]⟩
abbrev S4x80x80 : Shape := ⟨3, ![4, 80, 80]⟩
abbrev S80x64 : Shape := ⟨2, ![80, 64]⟩
abbrev S64 : Shape := ⟨1, ![64]⟩
abbrev S64x64 : Shape := ⟨2, ![64, 64]⟩
abbrev S64x13 : Shape := ⟨2, ![64, 13]⟩
abbrev S917504 : Shape := ⟨1, ![917504]⟩
abbrev S458752 : Shape := ⟨1, ![458752]⟩
abbrev S229376 : Shape := ⟨1, ![229376]⟩
abbrev S114688 : Shape := ⟨1, ![114688]⟩
abbrev S65536 : Shape := ⟨1, ![65536]⟩
abbrev S32768 : Shape := ⟨1, ![32768]⟩
abbrev S16384 : Shape := ⟨1, ![16384]⟩
abbrev S8192 : Shape := ⟨1, ![8192]⟩
abbrev S_ : Shape := ⟨0, ![]⟩

class Facts : Prop where
  bcast_S_S131072x6 : S_.BroadcastsInDim S131072x6 (![] : Fin 0 → Fin S131072x6.rank)
  reducesTo_S131072x6_S_d0_1 : S131072x6.ReducesTo [0, 1] S_
  h_S_ : 0 < S_.numel
  bcast_S_S6 : S_.BroadcastsInDim S6 (![] : Fin 0 → Fin S6.rank)
  reducesTo_S6_S_d0 : S6.ReducesTo [0] S_
  bcast_S_S6x80 : S_.BroadcastsInDim S6x80 (![] : Fin 0 → Fin S6x80.rank)
  reducesTo_S6x80_S_d0_1 : S6x80.ReducesTo [0, 1] S_
  bcast_S_S80 : S_.BroadcastsInDim S80 (![] : Fin 0 → Fin S80.rank)
  reducesTo_S80_S_d0 : S80.ReducesTo [0] S_
  bcast_S_S4x80x80 : S_.BroadcastsInDim S4x80x80 (![] : Fin 0 → Fin S4x80x80.rank)
  reducesTo_S4x80x80_S_d0_1_2 : S4x80x80.ReducesTo [0, 1, 2] S_
  bcast_S_S80x64 : S_.BroadcastsInDim S80x64 (![] : Fin 0 → Fin S80x64.rank)
  reducesTo_S80x64_S_d0_1 : S80x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x13 : S_.BroadcastsInDim S64x13 (![] : Fin 0 → Fin S64x13.rank)
  reducesTo_S64x13_S_d0_1 : S64x13.ReducesTo [0, 1] S_

variable [Facts]

def fn_part4 {F : FTy → Type} [FloatOps F] (main_arg14 : FVec F S64 .f32) (main_arg15 : FVec F S64x13 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x13 .f32 := Host.absf main_arg15
  let main_cst_28 : FVec F S_ .f32 := constant S_ .f32 0x7F800000#32
  let main_v75 : FVec F S64x13 .f32 := broadcastInDim S64x13 ![] bcast_S_S64x13 main_cst_28
  let main_v76 : IVec S64x13 1 := cmpf .olt main_v74 main_v75
  let main_c_29 : IVec S_ 1 := constantI S_ 1 1#1
  let main_v77 : IVec S_ 1 := (fun x v => Host.reduce IntOp.andi x v reducesTo_S64x13_S_d0_1 h_S_) main_v76 main_c_29
  let main_v78 : IVec S_ 1 := andi main_v73 main_v77
  main_v78

def fn_part3 {F : FTy → Type} [FloatOps F] (main_arg11 : FVec F S64x64 .f32) (main_arg12 : FVec F S64 .f32) (main_arg13 : FVec F S64 .f32) (main_arg14 : FVec F S64 .f32) (main_arg15 : FVec F S64x13 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_v63 main_v67

def fn_part2 {F : FTy → Type} [FloatOps F] (main_arg7 : FVec F S80x64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x13 .f32) (main_v33 : IVec S_ 1) : IVec S_ 1 :=
  let main_v34 : FVec F S80x64 .f32 := Host.absf main_arg7
  let main_cst_12 : FVec F S_ .f32 := constant S_ .f32 0x7F800000#32
  let main_v35 : FVec F S80x64 .f32 := broadcastInDim S80x64 ![] bcast_S_S80x64 main_cst_12
  let main_v36 : IVec S80x64 1 := cmpf .olt main_v34 main_v35
  let main_c_13 : IVec S_ 1 := constantI S_ 1 1#1
  let main_v37 : IVec S_ 1 := (fun x v => Host.reduce IntOp.andi x v reducesTo_S80x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_v48 main_v49 main_v50

def fn_part1 {F : FTy → Type} [FloatOps F] (main_arg4 : FVec F S80 .f32) (main_arg5 : FVec F S80 .f32) (main_arg6 : FVec F S4x80x80 .f32) (main_arg7 : FVec F S80x64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x13 .f32) (main_v13 : IVec S_ 1) (main_v16 : IVec S6x80 1) : IVec S_ 1 :=
  let main_c_5 : IVec S_ 1 := constantI S_ 1 1#1
  let main_v17 : IVec S_ 1 := (fun x v => Host.reduce IntOp.andi x v reducesTo_S6x80_S_d0_1 h_S_) main_v16 main_c_5
  let main_v18 : IVec S_ 1 := andi main_v13 main_v17
  let main_v19 : FVec F S80 .f32 := Host.absf main_arg4
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  let main_v24 : FVec F S80 .f32 := Host.absf main_arg5
  let main_cst_8 : FVec F S_ .f32 := constant S_ .f32 0x7F800000#32
  let main_v25 : FVec F S80 .f32 := broadcastInDim S80 ![] bcast_S_S80 main_cst_8
  let main_v26 : IVec S80 1 := cmpf .olt main_v24 main_v25
  let main_c_9 : IVec S_ 1 := constantI S_ 1 1#1
  let main_v27 : IVec S_ 1 := (fun x v => Host.reduce IntOp.andi x v reducesTo_S80_S_d0 h_S_) main_v26 main_c_9
  let main_v28 : IVec S_ 1 := andi main_v23 main_v27
  let main_v29 : FVec F S4x80x80 .f32 := Host.absf main_arg6
  let main_cst_10 : FVec F S_ .f32 := constant S_ .f32 0x7F800000#32
  let main_v30 : FVec F S4x80x80 .f32 := broadcastInDim S4x80x80 ![] bcast_S_S4x80x80 main_cst_10
  let main_v31 : IVec S4x80x80 1 := cmpf .olt main_v29 main_v30
  let main_c_11 : IVec S_ 1 := constantI S_ 1 1#1
  let main_v32 : IVec S_ 1 := (fun x v => Host.reduce IntOp.andi x v reducesTo_S4x80x80_S_d0_1_2 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S131072x6 .f32) (main_arg1 : FVec F S6 .f32) (main_arg2 : FVec F S6 .f32) (main_arg3 : FVec F S6x80 .f32) (main_arg4 : FVec F S80 .f32) (main_arg5 : FVec F S80 .f32) (main_arg6 : FVec F S4x80x80 .f32) (main_arg7 : FVec F S80x64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x13 .f32) (main_arg16 : IVec S917504 32) (main_arg17 : IVec S917504 32) (main_arg18 : IVec S458752 32) (main_arg19 : IVec S458752 32) (main_arg20 : IVec S229376 32) (main_arg21 : IVec S229376 32) (main_arg22 : IVec S114688 32) (main_arg23 : IVec S114688 32) (main_arg24 : IVec S65536 32) (main_arg25 : IVec S32768 32) (main_arg26 : IVec S16384 32) (main_arg27 : IVec S8192 32) : IVec S_ 1 :=
  let main_v0 : FVec F S131072x6 .f32 := Host.absf main_arg0
  let main_cst : FVec F S_ .f32 := constant S_ .f32 0x7F800000#32
  let main_v1 : FVec F S131072x6 .f32 := broadcastInDim S131072x6 ![] bcast_S_S131072x6 main_cst
  let main_v2 : IVec S131072x6 1 := cmpf .olt main_v0 main_v1
  let main_c : IVec S_ 1 := constantI S_ 1 1#1
  let main_v3 : IVec S_ 1 := (fun x v => Host.reduce IntOp.andi x v reducesTo_S131072x6_S_d0_1 h_S_) main_v2 main_c
  let main_v4 : FVec F S6 .f32 := Host.absf main_arg1
  let main_cst_0 : FVec F S_ .f32 := constant S_ .f32 0x7F800000#32
  let main_v5 : FVec F S6 .f32 := broadcastInDim S6 ![] bcast_S_S6 main_cst_0
  let main_v6 : IVec S6 1 := cmpf .olt main_v4 main_v5
  let main_c_1 : IVec S_ 1 := constantI S_ 1 1#1
  let main_v7 : IVec S_ 1 := (fun x v => Host.reduce IntOp.andi x v reducesTo_S6_S_d0 h_S_) main_v6 main_c_1
  let main_v8 : IVec S_ 1 := andi main_v3 main_v7
  let main_v9 : FVec F S6 .f32 := Host.absf main_arg2
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  let main_v14 : FVec F S6x80 .f32 := Host.absf main_arg3
  let main_cst_4 : FVec F S_ .f32 := constant S_ .f32 0x7F800000#32
  let main_v15 : FVec F S6x80 .f32 := broadcastInDim S6x80 ![] bcast_S_S6x80 main_cst_4
  let main_v16 : IVec S6x80 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S131072x6 : Shape := ⟨2, ![131072, 6]⟩
abbrev S6 : Shape := ⟨1, ![6]⟩
abbrev S6x80 : Shape := ⟨2, ![6, 80]⟩
abbrev S80 : Shape := ⟨1, ![80]⟩
abbrev S4x80x80 : Shape := ⟨3, ![4, 80, 80]⟩
abbrev S80x64 : Shape := ⟨2, ![80, 64]⟩
abbrev S64 : Shape := ⟨1, ![64]⟩
abbrev S64x64 : Shape := ⟨2, ![64, 64]⟩
abbrev S64x13 : Shape := ⟨2, ![64, 13]⟩
abbrev S917504 : Shape := ⟨1, ![917504]⟩
abbrev S458752 : Shape := ⟨1, ![458752]⟩
abbrev S229376 : Shape := ⟨1, ![229376]⟩
abbrev S114688 : Shape := ⟨1, ![114688]⟩
abbrev S65536 : Shape := ⟨1, ![65536]⟩
abbrev S32768 : Shape := ⟨1, ![32768]⟩
abbrev S16384 : Shape := ⟨1, ![16384]⟩
abbrev S8192 : Shape := ⟨1, ![8192]⟩
abbrev S_ : Shape := ⟨0, ![]⟩
abbrev S1x6 : Shape := ⟨2, ![1, 6]⟩
abbrev S131072x80 : Shape := ⟨2, ![131072, 80]⟩
abbrev S8192x6 : Shape := ⟨2, ![8192, 6]⟩
abbrev S8192x80 : Shape := ⟨2, ![8192, 80]⟩
abbrev S1x80 : Shape := ⟨2, ![1, 80]⟩
abbrev S1x80x80 : Shape := ⟨3, ![1, 80, 80]⟩
abbrev S80x80 : Shape := ⟨2, ![80, 80]⟩
abbrev S917504x1 : Shape := ⟨2, ![917504, 1]⟩
abbrev S917504x80 : Shape := ⟨2, ![917504, 80]⟩
abbrev S65536x1 : Shape := ⟨2, ![65536, 1]⟩
abbrev S65536x80 : Shape := ⟨2, ![65536, 80]⟩
abbrev S458752x1 : Shape := ⟨2, ![458752, 1]⟩
abbrev S458752x80 : Shape := ⟨2, ![458752, 80]⟩
abbrev S32768x1 : Shape := ⟨2, ![32768, 1]⟩
abbrev S32768x80 : Shape := ⟨2, ![32768, 80]⟩
abbrev S229376x1 : Shape := ⟨2, ![229376, 1]⟩
abbrev S229376x80 : Shape := ⟨2, ![229376, 80]⟩
abbrev S16384x1 : Shape := ⟨2, ![16384, 1]⟩
abbrev S16384x80 : Shape := ⟨2, ![16384, 80]⟩
abbrev S114688x1 : Shape := ⟨2, ![114688, 1]⟩
abbrev S114688x80 : Shape := ⟨2, ![114688, 80]⟩
abbrev S8192x1 : Shape := ⟨2, ![8192, 1]⟩
abbrev S131072x64 : Shape := ⟨2, ![131072, 64]⟩
abbrev S8192x64 : Shape := ⟨2, ![8192, 64]⟩
abbrev S1x64 : Shape := ⟨2, ![1, 64]⟩
abbrev S131072x13 : Shape := ⟨2, ![131072, 13]⟩
abbrev S8192x13 : Shape := ⟨2, ![8192, 13]⟩

abbrev nBuf : Space → Nat
  | .hbm => 362
  | .vmem => 80
  | .smem => 0
  | _ => 0

abbrev hbmTy0_0 (i : Nat) : BufTy := match i % 128 with
  | 0 => ⟨S131072x6, .f32⟩
  | 1 => ⟨S6, .f32⟩
  | 2 => ⟨S6, .f32⟩
  | 3 => ⟨S6x80, .f32⟩
  | 4 => ⟨S80, .f32⟩
  | 5 => ⟨S80, .f32⟩
  | 6 => ⟨S4x80x80, .f32⟩
  | 7 => ⟨S80x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64x13, .f32⟩
  | 16 => ⟨S917504, .i32⟩
  | 17 => ⟨S917504, .i32⟩
  | 18 => ⟨S458752, .i32⟩
  | 19 => ⟨S458752, .i32⟩
  | 20 => ⟨S229376, .i32⟩
  | 21 => ⟨S229376, .i32⟩
  | 22 => ⟨S114688, .i32⟩
  | 23 => ⟨S114688, .i32⟩
  | 24 => ⟨S65536, .i32⟩
  | 25 => ⟨S32768, .i32⟩
  | 26 => ⟨S16384, .i32⟩
  | 27 => ⟨S8192, .i32⟩
  | 28 => ⟨S_, .f32⟩
  | 29 => ⟨S6, .f32⟩
  | 30 => ⟨S_, .f32⟩
  | 31 => ⟨S6, .f32⟩
  | 32 => ⟨S6, .f32⟩
  | 33 => ⟨S1x6, .f32⟩
  | 34 => ⟨S131072x6, .f32⟩
  | 35 => ⟨S131072x6, .f32⟩
  | 36 => ⟨S131072x6, .f32⟩
  | 37 => ⟨S_, .f32⟩
  | 38 => ⟨S6, .f32⟩
  | 39 => ⟨S_, .f32⟩
  | 40 => ⟨S6, .f32⟩
  | 41 => ⟨S6, .f32⟩
  | 42 => ⟨S131072x80, .f32⟩
  | 43 => ⟨S_, .f32⟩
  | 44 => ⟨S80, .f32⟩
  | 45 => ⟨S_, .f32⟩
  | 46 => ⟨S80, .f32⟩
  | 47 => ⟨S80, .f32⟩
  | 48 => ⟨S1x80, .f32⟩
  | 49 => ⟨S131072x80, .f32⟩
  | 50 => ⟨S131072x80, .f32⟩
  | 51 => ⟨S131072x80, .f32⟩
  | 52 => ⟨S_, .f32⟩
  | 53 => ⟨S80, .f32⟩
  | 54 => ⟨S_, .f32⟩
  | 55 => ⟨S80, .f32⟩
  | 56 => ⟨S80, .f32⟩
  | 57 => ⟨S131072x80, .f32⟩
  | 58 => ⟨S1x80x80, .f32⟩
  | 59 => ⟨S80x80, .f32⟩
  | 60 => ⟨S131072x80, .f32⟩
  | 61 => ⟨S_, .i32⟩
  | 62 => ⟨S917504, .i32⟩
  | 63 => ⟨S917504, .i1⟩
  | 64 => ⟨S_, .i32⟩
  | 65 => ⟨S917504, .i32⟩
  | 66 => ⟨S917504, .i32⟩
  | 67 => ⟨S917504, .i32⟩
  | 68 => ⟨S917504x1, .i32⟩
  | 69 => ⟨S917504x80, .f32⟩
  | 70 => ⟨S_, .f32⟩
  | 71 => ⟨S131072x80, .f32⟩
  | 72 => ⟨S917504x1, .i32⟩
  | 73 => ⟨S131072x80, .f32⟩
  | 74 => ⟨S131072x80, .f32⟩
  | 75 => ⟨S_, .i32⟩
  | 76 => ⟨S65536, .i32⟩
  | 77 => ⟨S65536, .i1⟩
  | 78 => ⟨S_, .i32⟩
  | 79 => ⟨S65536, .i32⟩
  | 80 => ⟨S65536, .i32⟩
  | 81 => ⟨S65536, .i32⟩
  | 82 => ⟨S65536x1, .i32⟩
  | 83 => ⟨S65536x80, .f32⟩
  | 84 => ⟨S_, .i32⟩
  | 85 => ⟨S917504, .i32⟩
  | 86 => ⟨S917504, .i1⟩
  | 87 => ⟨S_, .i32⟩
  | 88 => ⟨S917504, .i32⟩
  | 89 => ⟨S917504, .i32⟩
  | 90 => ⟨S917504, .i32⟩
  | 91 => ⟨S917504x1, .i32⟩
  | 92 => ⟨S917504x80, .f32⟩
  | 93 => ⟨S_, .f32⟩
  | 94 => ⟨S131072x80, .f32⟩
  | 95 => ⟨S917504x1, .i32⟩
  | 96 => ⟨S131072x80, .f32⟩
  | 97 => ⟨S1x80x80, .f32⟩
  | 98 => ⟨S80x80, .f32⟩
  | 99 => ⟨S65536x80, .f32⟩
  | 100 => ⟨S_, .i32⟩
  | 101 => ⟨S458752, .i32⟩
  | 102 => ⟨S458752, .i1⟩
  | 103 => ⟨S_, .i32⟩
  | 104 => ⟨S458752, .i32⟩
  | 105 => ⟨S458752, .i32⟩
  | 106 => ⟨S458752, .i32⟩
  | 107 => ⟨S458752x1, .i32⟩
  | 108 => ⟨S458752x80, .f32⟩
  | 109 => ⟨S_, .f32⟩
  | 110 => ⟨S65536x80, .f32⟩
  | 111 => ⟨S458752x1, .i32⟩
  | 112 => ⟨S65536x80, .f32⟩
  | 113 => ⟨S65536x80, .f32⟩
  | 114 => ⟨S_, .i32⟩
  | 115 => ⟨S32768, .i32⟩
  | 116 => ⟨S32768, .i1⟩
  | 117 => ⟨S_, .i32⟩
  | 118 => ⟨S32768, .i32⟩
  | 119 => ⟨S32768, .i32⟩
  | 120 => ⟨S32768, .i32⟩
  | 121 => ⟨S32768x1, .i32⟩
  | 122 => ⟨S32768x80, .f32⟩
  | 123 => ⟨S_, .i32⟩
  | 124 => ⟨S458752, .i32⟩
  | 125 => ⟨S458752, .i1⟩
  | 126 => ⟨S_, .i32⟩
  | 127 => ⟨S458752, .i32⟩
  | _ => ⟨S131072x6, .f32⟩

abbrev hbmTy0_1 (i : Nat) : BufTy := match i % 128 with
  | 0 => ⟨S458752, .i32⟩
  | 1 => ⟨S458752, .i32⟩
  | 2 => ⟨S458752x1, .i32⟩
  | 3 => ⟨S458752x80, .f32⟩
  | 4 => ⟨S_, .f32⟩
  | 5 => ⟨S65536x80, .f32⟩
  | 6 => ⟨S458752x1, .i32⟩
  | 7 => ⟨S65536x80, .f32⟩
  | 8 => ⟨S_, .i32⟩
  | 9 => ⟨S65536, .i32⟩
  | 10 => ⟨S65536, .i1⟩
  | 11 => ⟨S_, .i32⟩
  | 12 => ⟨S65536, .i32⟩
  | 13 => ⟨S65536, .i32⟩
  | 14 => ⟨S65536, .i32⟩
  | 15 => ⟨S65536x1, .i32⟩
  | 16 => ⟨S131072x80, .f32⟩
  | 17 => ⟨S_, .i32⟩
  | 18 => ⟨S917504, .i32⟩
  | 19 => ⟨S917504, .i1⟩
  | 20 => ⟨S_, .i32⟩
  | 21 => ⟨S917504, .i32⟩
  | 22 => ⟨S917504, .i32⟩
  | 23 => ⟨S917504, .i32⟩
  | 24 => ⟨S917504x1, .i32⟩
  | 25 => ⟨S917504x80, .f32⟩
  | 26 => ⟨S_, .f32⟩
  | 27 => ⟨S131072x80, .f32⟩
  | 28 => ⟨S917504x1, .i32⟩
  | 29 => ⟨S131072x80, .f32⟩
  | 30 => ⟨S1x80x80, .f32⟩
  | 31 => ⟨S80x80, .f32⟩
  | 32 => ⟨S32768x80, .f32⟩
  | 33 => ⟨S_, .i32⟩
  | 34 => ⟨S229376, .i32⟩
  | 35 => ⟨S229376, .i1⟩
  | 36 => ⟨S_, .i32⟩
  | 37 => ⟨S229376, .i32⟩
  | 38 => ⟨S229376, .i32⟩
  | 39 => ⟨S229376, .i32⟩
  | 40 => ⟨S229376x1, .i32⟩
  | 41 => ⟨S229376x80, .f32⟩
  | 42 => ⟨S_, .f32⟩
  | 43 => ⟨S32768x80, .f32⟩
  | 44 => ⟨S229376x1, .i32⟩
  | 45 => ⟨S32768x80, .f32⟩
  | 46 => ⟨S32768x80, .f32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S16384x80, .f32⟩
  | 56 => ⟨S_, .i32⟩
  | 57 => ⟨S229376, .i32⟩
  | 58 => ⟨S229376, .i1⟩
  | 59 => ⟨S_, .i32⟩
  | 60 => ⟨S229376, .i32⟩
  | 61 => ⟨S229376, .i32⟩
  | 62 => ⟨S229376, .i32⟩
  | 63 => ⟨S229376x1, .i32⟩
  | 64 => ⟨S229376x80, .f32⟩
  | 65 => ⟨S_, .f32⟩
  | 66 => ⟨S32768x80, .f32⟩
  | 67 => ⟨S229376x1, .i32⟩
  | 68 => ⟨S32768x80, .f32⟩
  | 69 => ⟨S_, .i32⟩
  | 70 => ⟨S32768, .i32⟩
  | 71 => ⟨S32768, .i1⟩
  | 72 => ⟨S_, .i32⟩
  | 73 => ⟨S32768, .i32⟩
  | 74 => ⟨S32768, .i32⟩
  | 75 => ⟨S32768, .i32⟩
  | 76 => ⟨S32768x1, .i32⟩
  | 77 => ⟨S65536x80, .f32⟩
  | 78 => ⟨S_, .i32⟩
  | 79 => ⟨S458752, .i32⟩
  | 80 => ⟨S458752, .i1⟩
  | 81 => ⟨S_, .i32⟩
  | 82 => ⟨S458752, .i32⟩
  | 83 => ⟨S458752, .i32⟩
  | 84 => ⟨S458752, .i32⟩
  | 85 => ⟨S458752x1, .i32⟩
  | 86 => ⟨S458752x80, .f32⟩
  | 87 => ⟨S_, .f32⟩
  | 88 => ⟨S65536x80, .f32⟩
  | 89 => ⟨S458752x1, .i32⟩
  | 90 => ⟨S65536x80, .f32⟩
  | 91 => ⟨S_, .i32⟩
  | 92 => ⟨S65536, .i32⟩
  | 93 => ⟨S65536, .i1⟩
  | 94 => ⟨S_, .i32⟩
  | 95 => ⟨S65536, .i32⟩
  | 96 => ⟨S65536, .i32⟩
  | 97 => ⟨S65536, .i32⟩
  | 98 => ⟨S65536x1, .i32⟩
  | 99 => ⟨S131072x80, .f32⟩
  | 100 => ⟨S_, .i32⟩
  | 101 => ⟨S917504, .i32⟩
  | 102 => ⟨S917504, .i1⟩
  | 103 => ⟨S_, .i32⟩
  | 104 => ⟨S917504, .i32⟩
  | 105 => ⟨S917504, .i32⟩
  | 106 => ⟨S917504, .i32⟩
  | 107 => ⟨S917504x1, .i32⟩
  | 108 => ⟨S917504x80, .f32⟩
  | 109 => ⟨S_, .f32⟩
  | 110 => ⟨S131072x80, .f32⟩
  | 111 => ⟨S917504x1, .i32⟩
  | 112 => ⟨S131072x80, .f32⟩
  | 113 => ⟨S1x80x80, .f32⟩
  | 114 => ⟨S80x80, .f32⟩
  | 115 => ⟨S16384x80, .f32⟩
  | 116 => ⟨S_, .i32⟩
  | 117 => ⟨S114688, .i32⟩
  | 118 => ⟨S114688, .i1⟩
  | 119 => ⟨S_, .i32⟩
  | 120 => ⟨S114688, .i32⟩
  | 121 => ⟨S114688, .i32⟩
  | 122 => ⟨S114688, .i32⟩
  | 123 => ⟨S114688x1, .i32⟩
  | 124 => ⟨S114688x80, .f32⟩
  | 125 => ⟨S_, .f32⟩
  | 126 => ⟨S16384x80, .f32⟩
  | 127 => ⟨S114688x1, .i32⟩
  | _ => ⟨S131072x6, .f32⟩

abbrev hbmTy0_2 (i : Nat) : BufTy := match i % 128 with
  | 0 => ⟨S16384x80, .f32⟩
  | 1 => ⟨S16384x80, .f32⟩
  | 2 => ⟨S_, .i32⟩
  | 3 => ⟨S8192, .i32⟩
  | 4 => ⟨S8192, .i1⟩
  | 5 => ⟨S_, .i32⟩
  | 6 => ⟨S8192, .i32⟩
  | 7 => ⟨S8192, .i32⟩
  | 8 => ⟨S8192, .i32⟩
  | 9 => ⟨S8192x1, .i32⟩
  | 10 => ⟨S8192x80, .f32⟩
  | 11 => ⟨S_, .i32⟩
  | 12 => ⟨S114688, .i32⟩
  | 13 => ⟨S114688, .i1⟩
  | 14 => ⟨S_, .i32⟩
  | 15 => ⟨S114688, .i32⟩
  | 16 => ⟨S114688, .i32⟩
  | 17 => ⟨S114688, .i32⟩
  | 18 => ⟨S114688x1, .i32⟩
  | 19 => ⟨S114688x80, .f32⟩
  | 20 => ⟨S_, .f32⟩
  | 21 => ⟨S16384x80, .f32⟩
  | 22 => ⟨S114688x1, .i32⟩
  | 23 => ⟨S16384x80, .f32⟩
  | 24 => ⟨S_, .i32⟩
  | 25 => ⟨S16384, .i32⟩
  | 26 => ⟨S16384, .i1⟩
  | 27 => ⟨S_, .i32⟩
  | 28 => ⟨S16384, .i32⟩
  | 29 => ⟨S16384, .i32⟩
  | 30 => ⟨S16384, .i32⟩
  | 31 => ⟨S16384x1, .i32⟩
  | 32 => ⟨S32768x80, .f32⟩
  | 33 => ⟨S_, .i32⟩
  | 34 => ⟨S229376, .i32⟩
  | 35 => ⟨S229376, .i1⟩
  | 36 => ⟨S_, .i32⟩
  | 37 => ⟨S229376, .i32⟩
  | 38 => ⟨S229376, .i32⟩
  | 39 => ⟨S229376, .i32⟩
  | 40 => ⟨S229376x1, .i32⟩
  | 41 => ⟨S229376x80, .f32⟩
  | 42 => ⟨S_, .f32⟩
  | 43 => ⟨S32768x80, .f32⟩
  | 44 => ⟨S229376x1, .i32⟩
  | 45 => ⟨S32768x80, .f32⟩
  | 46 => ⟨S_, .i32⟩
  | 47 => ⟨S32768, .i32⟩
  | 48 => ⟨S32768, .i1⟩
  | 49 => ⟨S_, .i32⟩
  | 50 => ⟨S32768, .i32⟩
  | 51 => ⟨S32768, .i32⟩
  | 52 => ⟨S32768, .i32⟩
  | 53 => ⟨S32768x1, .i32⟩
  | 54 => ⟨S65536x80, .f32⟩
  | 55 => ⟨S_, .i32⟩
  | 56 => ⟨S458752, .i32⟩
  | 57 => ⟨S458752, .i1⟩
  | 58 => ⟨S_, .i32⟩
  | 59 => ⟨S458752, .i32⟩
  | 60 => ⟨S458752, .i32⟩
  | 61 => ⟨S458752, .i32⟩
  | 62 => ⟨S458752x1, .i32⟩
  | 63 => ⟨S458752x80, .f32⟩
  | 64 => ⟨S_, .f32⟩
  | 65 => ⟨S65536x80, .f32⟩
  | 66 => ⟨S458752x1, .i32⟩
  | 67 => ⟨S65536x80, .f32⟩
  | 68 => ⟨S_, .i32⟩
  | 69 => ⟨S65536, .i32⟩
  | 70 => ⟨S65536, .i1⟩
  | 71 => ⟨S_, .i32⟩
  | 72 => ⟨S65536, .i32⟩
  | 73 => ⟨S65536, .i32⟩
  | 74 => ⟨S65536, .i32⟩
  | 75 => ⟨S65536x1, .i32⟩
  | 76 => ⟨S131072x80, .f32⟩
  | 77 => ⟨S_, .i32⟩
  | 78 => ⟨S917504, .i32⟩
  | 79 => ⟨S917504, .i1⟩
  | 80 => ⟨S_, .i32⟩
  | 81 => ⟨S917504, .i32⟩
  | 82 => ⟨S917504, .i32⟩
  | 83 => ⟨S917504, .i32⟩
  | 84 => ⟨S917504x1, .i32⟩
  | 85 => ⟨S917504x80, .f32⟩
  | 86 => ⟨S_, .f32⟩
  | 87 => ⟨S131072x80, .f32⟩
  | 88 => ⟨S917504x1, .i32⟩
  | 89 => ⟨S131072x80, .f32⟩
  | 90 => ⟨S131072x64, .f32⟩
  | 91 => ⟨S_, .f32⟩
  | 92 => ⟨S64, .f32⟩
  | 93 => ⟨S_, .f32⟩
  | 94 => ⟨S64, .f32⟩
  | 95 => ⟨S64, .f32⟩
  | 96 => ⟨S1x64, .f32⟩
  | 97 => ⟨S131072x64, .f32⟩
  | 98 => ⟨S131072x64, .f32⟩
  | 99 => ⟨S131072x64, .f32⟩
  | 100 => ⟨S_, .f32⟩
  | 101 => ⟨S64, .f32⟩
  | 102 => ⟨S_, .f32⟩
  | 103 => ⟨S64, .f32⟩
  | 104 => ⟨S64, .f32⟩
  | 105 => ⟨S131072x13, .f32⟩
  | _ => ⟨S131072x6, .f32⟩

abbrev hbmTy (i : Nat) : BufTy := match i / 128 with
  | 0 => hbmTy0_0 i
  | 1 => hbmTy0_1 i
  | 2 => hbmTy0_2 i
  | _ => ⟨S131072x6, .f32⟩

abbrev bufTy : (tb : Table) → Fin (tcTables nBuf tb) → BufTy
  | .hbm, ⟨i, _⟩ => hbmTy i
  | .local _ .vmem, ⟨0, _⟩ => ⟨S8192x6, .f32⟩
  | .local _ .vmem, ⟨1, _⟩ => ⟨S8192x6, .f32⟩
  | .local _ .vmem, ⟨2, _⟩ => ⟨S6, .f32⟩
  | .local _ .vmem, ⟨3, _⟩ => ⟨S6, .f32⟩
  | .local _ .vmem, ⟨4, _⟩ => ⟨S6, .f32⟩
  | .local _ .vmem, ⟨5, _⟩ => ⟨S6, .f32⟩
  | .local _ .vmem, ⟨6, _⟩ => ⟨S6x80, .f32⟩
  | .local _ .vmem, ⟨7, _⟩ => ⟨S8192x80, .f32⟩
  | .local _ .vmem, ⟨8, _⟩ => ⟨S8192x80, .f32⟩
  | .local _ .vmem, ⟨9, _⟩ => ⟨S8192x80, .f32⟩
  | .local _ .vmem, ⟨10, _⟩ => ⟨S8192x80, .f32⟩
  | .local _ .vmem, ⟨11, _⟩ => ⟨S80, .f32⟩
  | .local _ .vmem, ⟨12, _⟩ => ⟨S80, .f32⟩
  | .local _ .vmem, ⟨13, _⟩ => ⟨S80, .f32⟩
  | .local _ .vmem, ⟨14, _⟩ => ⟨S80, .f32⟩
  | .local _ .vmem, ⟨15, _⟩ => ⟨S8192x80, .f32⟩
  | .local _ .vmem, ⟨16, _⟩ => ⟨S8192x80, .f32⟩
  | .local _ .vmem, ⟨17, _⟩ => ⟨S8192x80, .f32⟩
  | .local _ .vmem, ⟨18, _⟩ => ⟨S8192x80, .f32⟩
  | .local _ .vmem, ⟨19, _⟩ => ⟨S80x80, .f32⟩
  | .local _ .vmem, ⟨20, _⟩ => ⟨S8192x80, .f32⟩
  | .local _ .vmem, ⟨21, _⟩ => ⟨S8192x80, .f32⟩
  | .local _ .vmem, ⟨22, _⟩ => ⟨S8192x80, .f32⟩
  | .local _ .vmem, ⟨23, _⟩ => ⟨S8192x80, .f32⟩
  | .local _ .vmem, ⟨24, _⟩ => ⟨S8192x80, .f32⟩
  | .local _ .vmem, ⟨25, _⟩ => ⟨S8192x80, .f32⟩
  | .local _ .vmem, ⟨26, _⟩ => ⟨S8192x80, .f32⟩
  | .local _ .vmem, ⟨27, _⟩ => ⟨S8192x80, .f32⟩
  | .local _ .vmem, ⟨28, _⟩ => ⟨S8192x80, .f32⟩
  | .local _ .vmem, ⟨29, _⟩ => ⟨S8192x80, .f32⟩
  | .local _ .vmem, ⟨30, _⟩ => ⟨S80x80, .f32⟩
  | .local _ .vmem, ⟨31, _⟩ => ⟨S8192x80, .f32⟩
  | .local _ .vmem, ⟨32, _⟩ => ⟨S8192x80, .f32⟩
  | .local _ .vmem, ⟨33, _⟩ => ⟨S8192x80, .f32⟩
  | .local _ .vmem, ⟨34, _⟩ => ⟨S8192x80, .f32⟩
  | .local _ .vmem, ⟨35, _⟩ => ⟨S8192x80, .f32⟩
  | .local _ .vmem, ⟨36, _⟩ => ⟨S8192x80, .f32⟩
  | .local _ .vmem, ⟨37, _⟩ => ⟨S8192x80, .f32⟩
  | .local _ .vmem, ⟨38, _⟩ => ⟨S8192x80, .f32⟩
  | .local _ .vmem, ⟨39, _⟩ => ⟨S8192x80, .f32⟩
  | .local _ .vmem, ⟨40, _⟩ => ⟨S8192x80, .f32⟩
  | .local _ .vmem, ⟨41, _⟩ => ⟨S80x80, .f32⟩
  | .local _ .vmem, ⟨42, _⟩ => ⟨S8192x80, .f32⟩
  | .local _ .vmem, ⟨43, _⟩ => ⟨S8192x80, .f32⟩
  | .local _ .vmem, ⟨44, _⟩ => ⟨S8192x80, .f32⟩
  | .local _ .vmem, ⟨45, _⟩ => ⟨S8192x80, .f32⟩
  | .local _ .vmem, ⟨46, _⟩ => ⟨S8192x80, .f32⟩
  | .local _ .vmem, ⟨47, _⟩ => ⟨S8192x80, .f32⟩
  | .local _ .vmem, ⟨48, _⟩ => ⟨S8192x80, .f32⟩
  | .local _ .vmem, ⟨49, _⟩ => ⟨S8192x80, .f32⟩
  | .local _ .vmem, ⟨50, _⟩ => ⟨S8192x80, .f32⟩
  | .local _ .vmem, ⟨51, _⟩ => ⟨S8192x80, .f32⟩
  | .local _ .vmem, ⟨52, _⟩ => ⟨S80x80, .f32⟩
  | .local _ .vmem, ⟨53, _⟩ => ⟨S8192x80, .f32⟩
  | .local _ .vmem, ⟨54, _⟩ => ⟨S8192x80, .f32⟩
  | .local _ .vmem, ⟨55, _⟩ => ⟨S8192x80, .f32⟩
  | .local _ .vmem, ⟨56, _⟩ => ⟨S8192x80, .f32⟩
  | .local _ .vmem, ⟨57, _⟩ => ⟨S8192x80, .f32⟩
  | .local _ .vmem, ⟨58, _⟩ => ⟨S8192x80, .f32⟩
  | .local _ .vmem, ⟨59, _⟩ => ⟨S8192x80, .f32⟩
  | .local _ .vmem, ⟨60, _⟩ => ⟨S8192x80, .f32⟩
  | .local _ .vmem, ⟨61, _⟩ => ⟨S8192x80, .f32⟩
  | .local _ .vmem, ⟨62, _⟩ => ⟨S8192x80, .f32⟩
  | .local _ .vmem, ⟨63, _⟩ => ⟨S80x64, .f32⟩
  | .local _ .vmem, ⟨64, _⟩ => ⟨S64, .f32⟩
  | .local _ .vmem, ⟨65, _⟩ => ⟨S64x64, .f32⟩
  | .local _ .vmem, ⟨66, _⟩ => ⟨S64, .f32⟩
  | .local _ .vmem, ⟨67, _⟩ => ⟨S64x64, .f32⟩
  | .local _ .vmem, ⟨68, _⟩ => ⟨S64, .f32⟩
  | .local _ .vmem, ⟨69, _⟩ => ⟨S8192x64, .f32⟩
  | .local _ .vmem, ⟨70, _⟩ => ⟨S8192x64, .f32⟩
  | .local _ .vmem, ⟨71, _⟩ => ⟨S8192x64, .f32⟩
  | .local _ .vmem, ⟨72, _⟩ => ⟨S8192x64, .f32⟩
  | .local _ .vmem, ⟨73, _⟩ => ⟨S64, .f32⟩
  | .local _ .vmem, ⟨74, _⟩ => ⟨S64, .f32⟩
  | .local _ .vmem, ⟨75, _⟩ => ⟨S64, .f32⟩
  | .local _ .vmem, ⟨76, _⟩ => ⟨S64, .f32⟩
  | .local _ .vmem, ⟨77, _⟩ => ⟨S64x13, .f32⟩
  | .local _ .vmem, ⟨78, _⟩ => ⟨S8192x13, .f32⟩
  | .local _ .vmem, ⟨79, _⟩ => ⟨S8192x13, .f32⟩
  | _, _ => ⟨S131072x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_cst_0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_cst_4 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_5 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c : Ref sig .tc := ⟨.hbm, 61, rfl⟩
abbrev main_v25 : Ref sig .tc := ⟨.hbm, 62, rfl⟩
abbrev main_v26 : Ref sig .tc := ⟨.hbm, 63, rfl⟩
abbrev main_c_7 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_8 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_c_9 : Ref sig .tc := ⟨.hbm, 75, rfl⟩
abbrev main_v36 : Ref sig .tc := ⟨.hbm, 76, rfl⟩
abbrev main_v37 : Ref sig .tc := ⟨.hbm, 77, rfl⟩
abbrev main_c_10 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_c_11 : Ref sig .tc := ⟨.hbm, 84, rfl⟩
abbrev main_v43 : Ref sig .tc := ⟨.hbm, 85, rfl⟩
abbrev main_v44 : Ref sig .tc := ⟨.hbm, 86, rfl⟩
abbrev main_c_12 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_13 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_c_14 : Ref sig .tc := ⟨.hbm, 100, rfl⟩
abbrev main_v56 : Ref sig .tc := ⟨.hbm, 101, rfl⟩
abbrev main_v57 : Ref sig .tc := ⟨.hbm, 102, rfl⟩
abbrev main_c_15 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_16 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_c_17 : Ref sig .tc := ⟨.hbm, 114, rfl⟩
abbrev main_v67 : Ref sig .tc := ⟨.hbm, 115, rfl⟩
abbrev main_v68 : Ref sig .tc := ⟨.hbm, 116, rfl⟩
abbrev main_c_18 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_c_19 : Ref sig .tc := ⟨.hbm, 123, rfl⟩
abbrev main_v74 : Ref sig .tc := ⟨.hbm, 124, rfl⟩
abbrev main_v75 : Ref sig .tc := ⟨.hbm, 125, rfl⟩
abbrev main_c_20 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_21 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_c_22 : Ref sig .tc := ⟨.hbm, 136, rfl⟩
abbrev main_v84 : Ref sig .tc := ⟨.hbm, 137, rfl⟩
abbrev main_v85 : Ref sig .tc := ⟨.hbm, 138, rfl⟩
abbrev main_c_23 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_c_24 : Ref sig .tc := ⟨.hbm, 145, rfl⟩
abbrev main_v91 : Ref sig .tc := ⟨.hbm, 146, rfl⟩
abbrev main_v92 : Ref sig .tc := ⟨.hbm, 147, rfl⟩
abbrev main_c_25 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_cst_26 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_c_27 : Ref sig .tc := ⟨.hbm, 161, rfl⟩
abbrev main_v104 : Ref sig .tc := ⟨.hbm, 162, rfl⟩
abbrev main_v105 : Ref sig .tc := ⟨.hbm, 163, rfl⟩
abbrev main_c_28 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_cst_29 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_c_30 : Ref sig .tc := ⟨.hbm, 175, rfl⟩
abbrev main_v115 : Ref sig .tc := ⟨.hbm, 176, rfl⟩
abbrev main_v116 : Ref sig .tc := ⟨.hbm, 177, rfl⟩
abbrev main_c_31 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_c_32 : Ref sig .tc := ⟨.hbm, 184, rfl⟩
abbrev main_v122 : Ref sig .tc := ⟨.hbm, 185, rfl⟩
abbrev main_v123 : Ref sig .tc := ⟨.hbm, 186, rfl⟩
abbrev main_c_33 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_cst_34 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_c_35 : Ref sig .tc := ⟨.hbm, 197, rfl⟩
abbrev main_v132 : Ref sig .tc := ⟨.hbm, 198, rfl⟩
abbrev main_v133 : Ref sig .tc := ⟨.hbm, 199, rfl⟩
abbrev main_c_36 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_c_37 : Ref sig .tc := ⟨.hbm, 206, rfl⟩
abbrev main_v139 : Ref sig .tc := ⟨.hbm, 207, rfl⟩
abbrev main_v140 : Ref sig .tc := ⟨.hbm, 208, rfl⟩
abbrev main_c_38 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_cst_39 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_c_40 : Ref sig .tc := ⟨.hbm, 219, rfl⟩
abbrev main_v149 : Ref sig .tc := ⟨.hbm, 220, rfl⟩
abbrev main_v150 : Ref sig .tc := ⟨.hbm, 221, rfl⟩
abbrev main_c_41 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_c_42 : Ref sig .tc := ⟨.hbm, 228, rfl⟩
abbrev main_v156 : Ref sig .tc := ⟨.hbm, 229, rfl⟩
abbrev main_v157 : Ref sig .tc := ⟨.hbm, 230, rfl⟩
abbrev main_c_43 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_cst_44 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_c_45 : Ref sig .tc := ⟨.hbm, 244, rfl⟩
abbrev main_v169 : Ref sig .tc := ⟨.hbm, 245, rfl⟩
abbrev main_v170 : Ref sig .tc := ⟨.hbm, 246, rfl⟩
abbrev main_c_46 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_cst_47 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_c_48 : Ref sig .tc := ⟨.hbm, 258, rfl⟩
abbrev main_v180 : Ref sig .tc := ⟨.hbm, 259, rfl⟩
abbrev main_v181 : Ref sig .tc := ⟨.hbm, 260, rfl⟩
abbrev main_c_49 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_c_50 : Ref sig .tc := ⟨.hbm, 267, rfl⟩
abbrev main_v187 : Ref sig .tc := ⟨.hbm, 268, rfl⟩
abbrev main_v188 : Ref sig .tc := ⟨.hbm, 269, rfl⟩
abbrev main_c_51 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_cst_52 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_c_53 : Ref sig .tc := ⟨.hbm, 280, rfl⟩
abbrev main_v197 : Ref sig .tc := ⟨.hbm, 281, rfl⟩
abbrev main_v198 : Ref sig .tc := ⟨.hbm, 282, rfl⟩
abbrev main_c_54 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_c_55 : Ref sig .tc := ⟨.hbm, 289, rfl⟩
abbrev main_v204 : Ref sig .tc := ⟨.hbm, 290, rfl⟩
abbrev main_v205 : Ref sig .tc := ⟨.hbm, 291, rfl⟩
abbrev main_c_56 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_v210 : Ref sig .tc := ⟨.hbm, 297, rfl⟩
abbrev main_cst_57 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_c_58 : Ref sig .tc := ⟨.hbm, 302, rfl⟩
abbrev main_v214 : Ref sig .tc := ⟨.hbm, 303, rfl⟩
abbrev main_v215 : Ref sig .tc := ⟨.hbm, 304, rfl⟩
abbrev main_c_59 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_c_60 : Ref sig .tc := ⟨.hbm, 311, rfl⟩
abbrev main_v221 : Ref sig .tc := ⟨.hbm, 312, rfl⟩
abbrev main_v222 : Ref sig .tc := ⟨.hbm, 313, rfl⟩
abbrev main_c_61 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_v227 : Ref sig .tc := ⟨.hbm, 319, rfl⟩
abbrev main_cst_62 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_c_63 : Ref sig .tc := ⟨.hbm, 324, rfl⟩
abbrev main_v231 : Ref sig .tc := ⟨.hbm, 325, rfl⟩
abbrev main_v232 : Ref sig .tc := ⟨.hbm, 326, rfl⟩
abbrev main_c_64 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_c_65 : Ref sig .tc := ⟨.hbm, 333, rfl⟩
abbrev main_v238 : Ref sig .tc := ⟨.hbm, 334, rfl⟩
abbrev main_v239 : Ref sig .tc := ⟨.hbm, 335, rfl⟩
abbrev main_c_66 : Ref sig .tc := ⟨.hbm, 336, rfl⟩
abbrev main_v240 : Ref sig .tc := ⟨.hbm, 337, rfl⟩
abbrev main_v241 : Ref sig .tc := ⟨.hbm, 338, rfl⟩
abbrev main_v242 : Ref sig .tc := ⟨.hbm, 339, rfl⟩
abbrev main_v243 : Ref sig .tc := ⟨.hbm, 340, rfl⟩
abbrev main_v244 : Ref sig .tc := ⟨.hbm, 341, rfl⟩
abbrev main_cst_67 : Ref sig .tc := ⟨.hbm, 342, rfl⟩
abbrev main_v245 : Ref sig .tc := ⟨.hbm, 343, rfl⟩
abbrev main_v246 : Ref sig .tc := ⟨.hbm, 344, rfl⟩
abbrev main_v247 : Ref sig .tc := ⟨.hbm, 345, rfl⟩
abbrev main_v248 : Ref sig .tc := ⟨.hbm, 346, rfl⟩
abbrev main_cst_68 : Ref sig .tc := ⟨.hbm, 347, rfl⟩
abbrev main_v249 : Ref sig .tc := ⟨.hbm, 348, rfl⟩
abbrev main_cst_69 : Ref sig .tc := ⟨.hbm, 349, rfl⟩
abbrev main_v250 : Ref sig .tc := ⟨.hbm, 350, rfl⟩
abbrev main_v251 : Ref sig .tc := ⟨.hbm, 351, rfl⟩
abbrev main_v252 : Ref sig .tc := ⟨.hbm, 352, rfl⟩
abbrev main_v253 : Ref sig .tc := ⟨.hbm, 353, rfl⟩
abbrev main_v254 : Ref sig .tc := ⟨.hbm, 354, rfl⟩
abbrev main_v255 : Ref sig .tc := ⟨.hbm, 355, rfl⟩
abbrev main_cst_70 : Ref sig .tc := ⟨.hbm, 356, rfl⟩
abbrev main_v256 : Ref sig .tc := ⟨.hbm, 357, rfl⟩
abbrev main_cst_71 : Ref sig .tc := ⟨.hbm, 358, rfl⟩
abbrev main_v257 : Ref sig .tc := ⟨.hbm, 359, rfl⟩
abbrev main_v258 : Ref sig .tc := ⟨.hbm, 360, rfl⟩
abbrev main_v259 : Ref sig .tc := ⟨.hbm, 361, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg2_0 : Ref sig .tc := ⟨.vmem, 53, rfl⟩
abbrev cc8_stg2_1 : Ref sig .tc := ⟨.vmem, 54, rfl⟩
abbrev cc9_stg0_0 : Ref sig .tc := ⟨.vmem, 55, rfl⟩
abbrev cc9_stg0_1 : Ref sig .tc := ⟨.vmem, 56, rfl⟩
abbrev cc9_stg1_0 : Ref sig .tc := ⟨.vmem, 57, rfl⟩
abbrev cc9_stg1_1 : Ref sig .tc := ⟨.vmem, 58, rfl⟩
abbrev cc9_stg2_0 : Ref sig .tc := ⟨.vmem, 59, rfl⟩
abbrev cc9_stg2_1 : Ref sig .tc := ⟨.vmem, 60, rfl⟩
abbrev cc10_stg0_0 : Ref sig .tc := ⟨.vmem, 61, rfl⟩
abbrev cc10_stg0_1 : Ref sig .tc := ⟨.vmem, 62, rfl⟩
abbrev cc10_stg1_0 : Ref sig .tc := ⟨.vmem, 63, rfl⟩
abbrev cc10_stg2_0 : Ref sig .tc := ⟨.vmem, 64, rfl⟩
abbrev cc10_stg3_0 : Ref sig .tc := ⟨.vmem, 65, rfl⟩
abbrev cc10_stg4_0 : Ref sig .tc := ⟨.vmem, 66, rfl⟩
abbrev cc10_stg5_0 : Ref sig .tc := ⟨.vmem, 67, rfl⟩
abbrev cc10_stg6_0 : Ref sig .tc := ⟨.vmem, 68, rfl⟩
abbrev cc10_stg7_0 : Ref sig .tc := ⟨.vmem, 69, rfl⟩
abbrev cc10_stg7_1 : Ref sig .tc := ⟨.vmem, 70, rfl⟩
abbrev cc11_stg0_0 : Ref sig .tc := ⟨.vmem, 71, rfl⟩
abbrev cc11_stg0_1 : Ref sig .tc := ⟨.vmem, 72, rfl⟩
abbrev cc11_stg1_0 : Ref sig .tc := ⟨.vmem, 73, rfl⟩
abbrev cc11_stg2_0 : Ref sig .tc := ⟨.vmem, 74, rfl⟩
abbrev cc11_stg3_0 : Ref sig .tc := ⟨.vmem, 75, rfl⟩
abbrev cc11_stg4_0 : Ref sig .tc := ⟨.vmem, 76, rfl⟩
abbrev cc11_stg5_0 : Ref sig .tc := ⟨.vmem, 77, rfl⟩
abbrev cc11_stg6_0 : Ref sig .tc := ⟨.vmem, 78, rfl⟩
abbrev cc11_stg6_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem2_0 : DmaSem sig := 53
abbrev cc8_sem2_1 : DmaSem sig := 54
abbrev cc9_sem0_0 : DmaSem sig := 55
abbrev cc9_sem0_1 : DmaSem sig := 56
abbrev cc9_sem1_0 : DmaSem sig := 57
abbrev cc9_sem1_1 : DmaSem sig := 58
abbrev cc9_sem2_0 : DmaSem sig := 59
abbrev cc9_sem2_1 : DmaSem sig := 60
abbrev cc10_sem0_0 : DmaSem sig := 61
abbrev cc10_sem0_1 : DmaSem sig := 62
abbrev cc10_sem1_0 : DmaSem sig := 63
abbrev cc10_sem2_0 : DmaSem sig := 64
abbrev cc10_sem3_0 : DmaSem sig := 65
abbrev cc10_sem4_0 : DmaSem sig := 66
abbrev cc10_sem5_0 : DmaSem sig := 67
abbrev cc10_sem6_0 : DmaSem sig := 68
abbrev cc10_sem7_0 : DmaSem sig := 69
abbrev cc10_sem7_1 : DmaSem sig := 70
abbrev cc11_sem0_0 : DmaSem sig := 71
abbrev cc11_sem0_1 : DmaSem sig := 72
abbrev cc11_sem1_0 : DmaSem sig := 73
abbrev cc11_sem2_0 : DmaSem sig := 74
abbrev cc11_sem3_0 : DmaSem sig := 75
abbrev cc11_sem4_0 : DmaSem sig := 76
abbrev cc11_sem5_0 : DmaSem sig := 77
abbrev cc11_sem6_0 : DmaSem sig := 78
abbrev cc11_sem6_1 : DmaSem sig := 79

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S80 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S80 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S80 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x80 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x80 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S80x80 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8192x80 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x80 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x80 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x80 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x80 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S80x80 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8192x80 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x80 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x80 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8192x80 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8192x80 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S80x80 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S8192x80 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8192x80 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8192x80 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8192x80 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![2], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8192x80 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S80x80 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S8192x80 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![2], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8192x80 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8192x80 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S8192x80 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![16], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8192x80 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S80x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S64x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S8192x64 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![16], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_2 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_3 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8192x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S64x13 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S8192x13 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

class Facts₀ : Prop where
  reducesTo_S131072x6_S6_d0 : S131072x6.ReducesTo [0] S6
  h_S_ : 0 < S_.numel
  bcast_S_S6 : S_.BroadcastsInDim S6 (![] : Fin 0 → Fin S6.rank)
  bcast_S6_S1x6_1 : S6.BroadcastsInDim S1x6 (![1] : Fin 1 → Fin S1x6.rank)
  bcast_S1x6_S131072x6_0_1 : S1x6.BroadcastsInDim S131072x6 (![0, 1] : Fin 2 → Fin S131072x6.rank)
  inb_S8192x6_S8192x6_0_0 : ∀ a, (![0, 0] : Fin 2 → Nat) a + S8192x6.size a ≤ S8192x6.size a
  h_S8192x6 : 0 < S8192x6.numel
  inb_S6_S6_0 : ∀ a, (![0] : Fin 1 → Nat) a + S6.size a ≤ S6.size a
  h_S6 : 0 < S6.numel
  shapeCasts_S6_S6 : S6.ShapeCasts S6
  shapeCasts_S6_S1x6 : S6.ShapeCasts S1x6
  broadcasts_S1x6_S8192x6 : S1x6.Broadcasts S8192x6
  bitsLt_bf16_f32 : FTy.bits .bf16 < FTy.bits .f32
  inb_S6x80_S6x80_0_0 : ∀ a, (![0, 0] : Fin 2 → Nat) a + S6x80.size a ≤ S6x80.size a
  h_S6x80 : 0 < S6x80.numel
  inb_S8192x80_S8192x80_0_0 : ∀ a, (![0, 0] : Fin 2 → Nat) a + S8192x80.size a ≤ S8192x80.size a
  h_S8192x80 : 0 < S8192x80.numel
  reducesTo_S131072x80_S80_d0 : S131072x80.ReducesTo [0] S80
  bcast_S_S80 : S_.BroadcastsInDim S80 (![] : Fin 0 → Fin S80.rank)
  bcast_S80_S1x80_1 : S80.BroadcastsInDim S1x80 (![1] : Fin 1 → Fin S1x80.rank)
  bcast_S1x80_S131072x80_0_1 : S1x80.BroadcastsInDim S131072x80 (![0, 1] : Fin 2 → Fin S131072x80.rank)
  shapeCasts_S8192x80_S8192x80 : S8192x80.ShapeCasts S8192x80
  inb_S80_S80_0 : ∀ a, (![0] : Fin 1 → Nat) a + S80.size a ≤ S80.size a
  h_S80 : 0 < S80.numel
  shapeCasts_S80_S80 : S80.ShapeCasts S80
  shapeCasts_S80_S1x80 : S80.ShapeCasts S1x80
  broadcasts_S1x80_S8192x80 : S1x80.Broadcasts S8192x80
  slices_S4x80x80_S1x80x80_0_0_0 : S4x80x80.Slices ![0, 0, 0] S1x80x80
  shapeCasts_S1x80x80_S80x80 : S1x80x80.ShapeCasts S80x80
  inb_S80x80_S80x80_0_0 : ∀ a, (![0, 0] : Fin 2 → Nat) a + S80x80.size a ≤ S80x80.size a
  h_S80x80 : 0 < S80x80.numel
  shapeCasts_S80x80_S80x80 : S80x80.ShapeCasts S80x80
  bcast_S_S917504 : S_.BroadcastsInDim S917504 (![] : Fin 0 → Fin S917504.rank)
  bcast_S917504_S917504x1_0 : S917504.BroadcastsInDim S917504x1 (![0] : Fin 1 → Fin S917504x1.rank)
  bcast_S_S131072x80 : S_.BroadcastsInDim S131072x80 (![] : Fin 0 → Fin S131072x80.rank)
  bcast_S_S65536 : S_.BroadcastsInDim S65536 (![] : Fin 0 → Fin S65536.rank)
  bcast_S65536_S65536x1_0 : S65536.BroadcastsInDim S65536x1 (![0] : Fin 1 → Fin S65536x1.rank)
  slices_S4x80x80_S1x80x80_1_0_0 : S4x80x80.Slices ![1, 0, 0] S1x80x80
  bcast_S_S458752 : S_.BroadcastsInDim S458752 (![] : Fin 0 → Fin S458752.rank)
  bcast_S458752_S458752x1_0 : S458752.BroadcastsInDim S458752x1 (![0] : Fin 1 → Fin S458752x1.rank)
  bcast_S_S65536x80 : S_.BroadcastsInDim S65536x80 (![] : Fin 0 → Fin S65536x80.rank)
  bcast_S_S32768 : S_.BroadcastsInDim S32768 (![] : Fin 0 → Fin S32768.rank)
  bcast_S32768_S32768x1_0 : S32768.BroadcastsInDim S32768x1 (![0] : Fin 1 → Fin S32768x1.rank)
  slices_S4x80x80_S1x80x80_2_0_0 : S4x80x80.Slices ![2, 0, 0] S1x80x80
  bcast_S_S229376 : S_.BroadcastsInDim S229376 (![] : Fin 0 → Fin S229376.rank)
  bcast_S229376_S229376x1_0 : S229376.BroadcastsInDim S229376x1 (![0] : Fin 1 → Fin S229376x1.rank)
  bcast_S_S32768x80 : S_.BroadcastsInDim S32768x80 (![] : Fin 0 → Fin S32768x80.rank)
  bcast_S_S16384 : S_.BroadcastsInDim S16384 (![] : Fin 0 → Fin S16384.rank)
  bcast_S16384_S16384x1_0 : S16384.BroadcastsInDim S16384x1 (![0] : Fin 1 → Fin S16384x1.rank)
  slices_S4x80x80_S1x80x80_3_0_0 : S4x80x80.Slices ![3, 0, 0] S1x80x80
  bcast_S_S114688 : S_.BroadcastsInDim S114688 (![] : Fin 0 → Fin S114688.rank)
  bcast_S114688_S114688x1_0 : S114688.BroadcastsInDim S114688x1 (![0] : Fin 1 → Fin S114688x1.rank)
  bcast_S_S16384x80 : S_.BroadcastsInDim S16384x80 (![] : Fin 0 → Fin S16384x80.rank)
  bcast_S_S8192 : S_.BroadcastsInDim S8192 (![] : Fin 0 → Fin S8192.rank)
  bcast_S8192_S8192x1_0 : S8192.BroadcastsInDim S8192x1 (![0] : Fin 1 → Fin S8192x1.rank)
  inb_S80x64_S80x64_0_0 : ∀ a, (![0, 0] : Fin 2 → Nat) a + S80x64.size a ≤ S80x64.size a
  h_S80x64 : 0 < S80x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  inb_S8192x64_S8192x64_0_0 : ∀ a, (![0, 0] : Fin 2 → Nat) a + S8192x64.size a ≤ S8192x64.size a
  h_S8192x64 : 0 < S8192x64.numel
  reducesTo_S131072x64_S64_d0 : S131072x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  shapeCasts_S8192x64_S8192x64 : S8192x64.ShapeCasts S8192x64
  shapeCasts_S64_S64 : S64.ShapeCasts S64
  inb_S64x13_S64x13_0_0 : ∀ a, (![0, 0] : Fin 2 → Nat) a + S64x13.size a ≤ S64x13.size a
  h_S64x13 : 0 < S64x13.numel
  inb_S8192x13_S8192x13_0_0 : ∀ a, (![0, 0] : Fin 2 → Nat) a + S8192x13.size a ≤ S8192x13.size a
  h_S8192x13 : 0 < S8192x13.numel
  dot_S8192x6_S6x80_S8192x80_1_0_0_1_n_n_wf : DotDims.WF S8192x6 S6x80 S8192x80 [1] [0] [0] [1] [] []
  dot_S8192x80_S80x80_S8192x80_1_0_0_1_n_n_wf : DotDims.WF S8192x80 S80x80 S8192x80 [1] [0] [0] [1] [] []
  gather_S131072x80_S917504x1_S917504x80_1_0_n_n_0_1_180_wf : GatherDims.WF S131072x80 S917504x1 S917504x80 [1] [0] [] [0] [] 1 ![1, 80]
  scatter_S131072x80_S917504x1_S917504x80_1_0_0_1_wf : ScatterDims.WF S131072x80 S917504x1 S917504x80 [1] [0] [0] 1
  gather_S131072x80_S65536x1_S65536x80_1_0_n_n_0_1_180_wf : GatherDims.WF S131072x80 S65536x1 S65536x80 [1] [0] [] [0] [] 1 ![1, 80]
  gather_S65536x80_S458752x1_S458752x80_1_0_n_n_0_1_180_wf : GatherDims.WF S65536x80 S458752x1 S458752x80 [1] [0] [] [0] [] 1 ![1, 80]
  scatter_S65536x80_S458752x1_S458752x80_1_0_0_1_wf : ScatterDims.WF S65536x80 S458752x1 S458752x80 [1] [0] [0] 1
  gather_S65536x80_S32768x1_S32768x80_1_0_n_n_0_1_180_wf : GatherDims.WF S65536x80 S32768x1 S32768x80 [1] [0] [] [0] [] 1 ![1, 80]
  scatter_S131072x80_S65536x1_S65536x80_1_0_0_1_wf : ScatterDims.WF S131072x80 S65536x1 S65536x80 [1] [0] [0] 1
  gather_S32768x80_S229376x1_S229376x80_1_0_n_n_0_1_180_wf : GatherDims.WF S32768x80 S229376x1 S229376x80 [1] [0] [] [0] [] 1 ![1, 80]
  scatter_S32768x80_S229376x1_S229376x80_1_0_0_1_wf : ScatterDims.WF S32768x80 S229376x1 S229376x80 [1] [0] [0] 1
  gather_S32768x80_S16384x1_S16384x80_1_0_n_n_0_1_180_wf : GatherDims.WF S32768x80 S16384x1 S16384x80 [1] [0] [] [0] [] 1 ![1, 80]
  scatter_S65536x80_S32768x1_S32768x80_1_0_0_1_wf : ScatterDims.WF S65536x80 S32768x1 S32768x80 [1] [0] [0] 1
  gather_S16384x80_S114688x1_S114688x80_1_0_n_n_0_1_180_wf : GatherDims.WF S16384x80 S114688x1 S114688x80 [1] [0] [] [0] [] 1 ![1, 80]
  scatter_S16384x80_S114688x1_S114688x80_1_0_0_1_wf : ScatterDims.WF S16384x80 S114688x1 S114688x80 [1] [0] [0] 1
  gather_S16384x80_S8192x1_S8192x80_1_0_n_n_0_1_180_wf : GatherDims.WF S16384x80 S8192x1 S8192x80 [1] [0] [] [0] [] 1 ![1, 80]
  scatter_S32768x80_S16384x1_S16384x80_1_0_0_1_wf : ScatterDims.WF S32768x80 S16384x1 S16384x80 [1] [0] [0] 1
  dot_S8192x80_S80x64_S8192x64_1_0_0_1_n_n_wf : DotDims.WF S8192x80 S80x64 S8192x64 [1] [0] [0] [1] [] []
  dot_S8192x64_S64x64_S8192x64_1_0_0_1_n_n_wf : DotDims.WF S8192x64 S64x64 S8192x64 [1] [0] [0] [1] [] []
  dot_S8192x64_S64x13_S8192x13_1_0_0_1_n_n_wf : DotDims.WF S8192x64 S64x13 S8192x13 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x6.size a ≤ S131072x6.size a
  hwx0_0 : ∀ i : grid0.Coords, EltTy.bits .f32 = 32 ∨ (Rect.block (s := S131072x6) S8192x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6.size a ≤ S6.size a
  hwx0_1 : ∀ i : grid0.Coords, EltTy.bits .f32 = 32 ∨ (Rect.block (s := S6) S6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6.size a ≤ S6.size a
  hwx0_2 : ∀ i : grid0.Coords, EltTy.bits .f32 = 32 ∨ (Rect.block (s := S6) S6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6.size a ≤ S6.size a
  hwx0_3 : ∀ i : grid0.Coords, EltTy.bits .f32 = 32 ∨ (Rect.block (s := S6) S6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6.size a ≤ S6.size a
  hwx0_4 : ∀ i : grid0.Coords, EltTy.bits .f32 = 32 ∨ (Rect.block (s := S6) S6.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x80.size a ≤ S6x80.size a
  hwx0_5 : ∀ i : grid0.Coords, EltTy.bits .f32 = 32 ∨ (Rect.block (s := S6x80) S6x80.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x80.size a ≤ S131072x80.size a
  hwx0_6 : ∀ i : grid0.Coords, EltTy.bits .f32 = 32 ∨ (Rect.block (s := S131072x80) S8192x80.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x80.size a ≤ S131072x80.size a
  hwx1_0 : ∀ i : grid1.Coords, EltTy.bits .f32 = 32 ∨ (Rect.block (s := S131072x80) S8192x80.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S80.size a ≤ S80.size a
  hwx1_1 : ∀ i : grid1.Coords, EltTy.bits .f32 = 32 ∨ (Rect.block (s := S80) S80.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S80.size a ≤ S80.size a
  hwx1_2 : ∀ i : grid1.Coords, EltTy.bits .f32 = 32 ∨ (Rect.block (s := S80) S80.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S80.size a ≤ S80.size a
  hwx1_3 : ∀ i : grid1.Coords, EltTy.bits .f32 = 32 ∨ (Rect.block (s := S80) S80.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S80.size a ≤ S80.size a
  hwx1_4 : ∀ i : grid1.Coords, EltTy.bits .f32 = 32 ∨ (Rect.block (s := S80) S80.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x80.size a ≤ S131072x80.size a
  hwx1_5 : ∀ i : grid1.Coords, EltTy.bits .f32 = 32 ∨ (Rect.block (s := S131072x80) S8192x80.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x80.size a ≤ S131072x80.size a
  hwx2_0 : ∀ i : grid2.Coords, EltTy.bits .f32 = 32 ∨ (Rect.block (s := S131072x80) S8192x80.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S80x80.size a ≤ S80x80.size a
  hwx2_1 : ∀ i : grid2.Coords, EltTy.bits .f32 = 32 ∨ (Rect.block (s := S80x80) S80x80.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x80.size a ≤ S131072x80.size a
  hwx2_2 : ∀ i : grid2.Coords, EltTy.bits .f32 = 32 ∨ (Rect.block (s := S131072x80) S8192x80.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x80.size a ≤ S131072x80.size a
  hwx3_0 : ∀ i : grid3.Coords, EltTy.bits .f32 = 32 ∨ (Rect.block (s := S131072x80) S8192x80.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x80.size a ≤ S131072x80.size a
  hwx3_1 : ∀ i : grid3.Coords, EltTy.bits .f32 = 32 ∨ (Rect.block (s := S131072x80) S8192x80.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x80.size a ≤ S131072x80.size a
  hwx3_2 : ∀ i : grid3.Coords, EltTy.bits .f32 = 32 ∨ (Rect.block (s := S131072x80) S8192x80.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x80.size a ≤ S65536x80.size a
  hwx4_0 : ∀ i : grid4.Coords, EltTy.bits .f32 = 32 ∨ (Rect.block (s := S65536x80) S8192x80.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S80x80.size a ≤ S80x80.size a
  hwx4_1 : ∀ i : grid4.Coords, EltTy.bits .f32 = 32 ∨ (Rect.block (s := S80x80) S80x80.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x80.size a ≤ S65536x80.size a
  hwx4_2 : ∀ i : grid4.Coords, EltTy.bits .f32 = 32 ∨ (Rect.block (s := S65536x80) S8192x80.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x80.size a ≤ S65536x80.size a
  hwx5_0 : ∀ i : grid5.Coords, EltTy.bits .f32 = 32 ∨ (Rect.block (s := S65536x80) S8192x80.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x80.size a ≤ S65536x80.size a
  hwx5_1 : ∀ i : grid5.Coords, EltTy.bits .f32 = 32 ∨ (Rect.block (s := S65536x80) S8192x80.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8192x80.size a ≤ S65536x80.size a
  hwx5_2 : ∀ i : grid5.Coords, EltTy.bits .f32 = 32 ∨ (Rect.block (s := S65536x80) S8192x80.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x80.size a ≤ S32768x80.size a
  hwx6_0 : ∀ i : grid6.Coords, EltTy.bits .f32 = 32 ∨ (Rect.block (s := S32768x80) S8192x80.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S80x80.size a ≤ S80x80.size a
  hwx6_1 : ∀ i : grid6.Coords, EltTy.bits .f32 = 32 ∨ (Rect.block (s := S80x80) S80x80.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8192x80.size a ≤ S32768x80.size a
  hwx6_2 : ∀ i : grid6.Coords, EltTy.bits .f32 = 32 ∨ (Rect.block (s := S32768x80) S8192x80.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8192x80.size a ≤ S32768x80.size a
  hwx7_0 : ∀ i : grid7.Coords, EltTy.bits .f32 = 32 ∨ (Rect.block (s := S32768x80) S8192x80.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8192x80.size a ≤ S32768x80.size a
  hwx7_1 : ∀ i : grid7.Coords, EltTy.bits .f32 = 32 ∨ (Rect.block (s := S32768x80) S8192x80.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8192x80.size a ≤ S32768x80.size a
  hwx7_2 : ∀ i : grid7.Coords, EltTy.bits .f32 = 32 ∨ (Rect.block (s := S32768x80) S8192x80.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8192x80.size a ≤ S16384x80.size a
  hwx8_0 : ∀ i : grid8.Coords, EltTy.bits .f32 = 32 ∨ (Rect.block (s := S16384x80) S8192x80.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S80x80.size a ≤ S80x80.size a
  hwx8_1 : ∀ i : grid8.Coords, EltTy.bits .f32 = 32 ∨ (Rect.block (s := S80x80) S80x80.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S8192x80.size a ≤ S16384x80.size a
  hwx8_2 : ∀ i : grid8.Coords, EltTy.bits .f32 = 32 ∨ (Rect.block (s := S16384x80) S8192x80.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8192x80.size a ≤ S16384x80.size a
  hwx9_0 : ∀ i : grid9.Coords, EltTy.bits .f32 = 32 ∨ (Rect.block (s := S16384x80) S8192x80.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8192x80.size a ≤ S16384x80.size a
  hwx9_1 : ∀ i : grid9.Coords, EltTy.bits .f32 = 32 ∨ (Rect.block (s := S16384x80) S8192x80.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8192x80.size a ≤ S16384x80.size a
  hwx9_2 : ∀ i : grid9.Coords, EltTy.bits .f32 = 32 ∨ (Rect.block (s := S16384x80) S8192x80.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8192x80.size a ≤ S131072x80.size a
  hwx10_0 : ∀ i : grid10.Coords, EltTy.bits .f32 = 32 ∨ (Rect.block (s := S131072x80) S8192x80.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S80x64.size a ≤ S80x64.size a
  hwx10_1 : ∀ i : grid10.Coords, EltTy.bits .f32 = 32 ∨ (Rect.block (s := S80x64) S80x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64.size a ≤ S64.size a
  hwx10_2 : ∀ i : grid10.Coords, EltTy.bits .f32 = 32 ∨ (Rect.block (s := S64) S64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x64.size a ≤ S64x64.size a
  hwx10_3 : ∀ i : grid10.Coords, EltTy.bits .f32 = 32 ∨ (Rect.block (s := S64x64) S64x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S64.size a ≤ S64.size a
  hwx10_4 : ∀ i : grid10.Coords, EltTy.bits .f32 = 32 ∨ (Rect.block (s := S64) S64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S64x64.size a ≤ S64x64.size a
  hwx10_5 : ∀ i : grid10.Coords, EltTy.bits .f32 = 32 ∨ (Rect.block (s := S64x64) S64x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S64.size a ≤ S64.size a
  hwx10_6 : ∀ i : grid10.Coords, EltTy.bits .f32 = 32 ∨ (Rect.block (s := S64) S64.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S8192x64.size a ≤ S131072x64.size a
  hwx10_7 : ∀ i : grid10.Coords, EltTy.bits .f32 = 32 ∨ (Rect.block (s := S131072x64) S8192x64.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8192x64.size a ≤ S131072x64.size a
  hwx11_0 : ∀ i : grid11.Coords, EltTy.bits .f32 = 32 ∨ (Rect.block (s := S131072x64) S8192x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64.size a ≤ S64.size a
  hwx11_1 : ∀ i : grid11.Coords, EltTy.bits .f32 = 32 ∨ (Rect.block (s := S64) S64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64.size a ≤ S64.size a
  hwx11_2 : ∀ i : grid11.Coords, EltTy.bits .f32 = 32 ∨ (Rect.block (s := S64) S64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64.size a ≤ S64.size a
  hwx11_3 : ∀ i : grid11.Coords, EltTy.bits .f32 = 32 ∨ (Rect.block (s := S64) S64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S64.size a ≤ S64.size a
  hwx11_4 : ∀ i : grid11.Coords, EltTy.bits .f32 = 32 ∨ (Rect.block (s := S64) S64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S64x13.size a ≤ S64x13.size a
  hwx11_5 : ∀ i : grid11.Coords, EltTy.bits .f32 = 32 ∨ (Rect.block (s := S64x13) S64x13.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S8192x13.size a ≤ S131072x13.size a
  hwx11_6 : ∀ i : grid11.Coords, EltTy.bits .f32 = 32 ∨ (Rect.block (s := S131072x13) S8192x13.size (cc11_transform_6 i) (hinb11_6 i)).WholeWords (EltTy.packing .f32)

variable [Facts₀]

def dot_S8192x6_S6x80_S8192x80_1_0_0_1_n_n : DotDims S8192x6 S6x80 S8192x80 where
  lhsContracting := [1]
  rhsContracting := [0]
  lhsNonContracting := [0]
  rhsNonContracting := [1]
  lhsBatch := []
  rhsBatch := []
  wf := dot_S8192x6_S6x80_S8192x80_1_0_0_1_n_n_wf
def dot_S8192x80_S80x80_S8192x80_1_0_0_1_n_n : DotDims S8192x80 S80x80 S8192x80 where
  lhsContracting := [1]
  rhsContracting := [0]
  lhsNonContracting := [0]
  rhsNonContracting := [1]
  lhsBatch := []
  rhsBatch := []
  wf := dot_S8192x80_S80x80_S8192x80_1_0_0_1_n_n_wf
def gather_S131072x80_S917504x1_S917504x80_1_0_n_n_0_1_180 : GatherDims S131072x80 S917504x1 S917504x80 where
  offsetDims := [1]
  collapsedSliceDims := [0]
  operandBatchingDims := []
  startIndicesBatchingDims := []
  startIndexMap := [0]
  indexVectorDim := 1
  sliceSizes := ![1, 80]
  wf := gather_S131072x80_S917504x1_S917504x80_1_0_n_n_0_1_180_wf
def scatter_S131072x80_S917504x1_S917504x80_1_0_0_1 : ScatterDims S131072x80 S917504x1 S917504x80 where
  updateWindowDims := [1]
  insertedWindowDims := [0]
  scatterDimsToOperandDims := [0]
  indexVectorDim := 1
  wf := scatter_S131072x80_S917504x1_S917504x80_1_0_0_1_wf
def gather_S131072x80_S65536x1_S65536x80_1_0_n_n_0_1_180 : GatherDims S131072x80 S65536x1 S65536x80 where
  offsetDims := [1]
  collapsedSliceDims := [0]
  operandBatchingDims := []
  startIndicesBatchingDims := []
  startIndexMap := [0]
  indexVectorDim := 1
  sliceSizes := ![1, 80]
  wf := gather_S131072x80_S65536x1_S65536x80_1_0_n_n_0_1_180_wf
def gather_S65536x80_S458752x1_S458752x80_1_0_n_n_0_1_180 : GatherDims S65536x80 S458752x1 S458752x80 where
  offsetDims := [1]
  collapsedSliceDims := [0]
  operandBatchingDims := []
  startIndicesBatchingDims := []
  startIndexMap := [0]
  indexVectorDim := 1
  sliceSizes := ![1, 80]
  wf := gather_S65536x80_S458752x1_S458752x80_1_0_n_n_0_1_180_wf
def scatter_S65536x80_S458752x1_S458752x80_1_0_0_1 : ScatterDims S65536x80 S458752x1 S458752x80 where
  updateWindowDims := [1]
  insertedWindowDims := [0]
  scatterDimsToOperandDims := [0]
  indexVectorDim := 1
  wf := scatter_S65536x80_S458752x1_S458752x80_1_0_0_1_wf
def gather_S65536x80_S32768x1_S32768x80_1_0_n_n_0_1_180 : GatherDims S65536x80 S32768x1 S32768x80 where
  offsetDims := [1]
  collapsedSliceDims := [0]
  operandBatchingDims := []
  startIndicesBatchingDims := []
  startIndexMap := [0]
  indexVectorDim := 1
  sliceSizes := ![1, 80]
  wf := gather_S65536x80_S32768x1_S32768x80_1_0_n_n_0_1_180_wf
def scatter_S131072x80_S65536x1_S65536x80_1_0_0_1 : ScatterDims S131072x80 S65536x1 S65536x80 where
  updateWindowDims := [1]
  insertedWindowDims := [0]
  scatterDimsToOperandDims := [0]
  indexVectorDim := 1
  wf := scatter_S131072x80_S65536x1_S65536x80_1_0_0_1_wf
def gather_S32768x80_S229376x1_S229376x80_1_0_n_n_0_1_180 : GatherDims S32768x80 S229376x1 S229376x80 where
  offsetDims := [1]
  collapsedSliceDims := [0]
  operandBatchingDims := []
  startIndicesBatchingDims := []
  startIndexMap := [0]
  indexVectorDim := 1
  sliceSizes := ![1, 80]
  wf := gather_S32768x80_S229376x1_S229376x80_1_0_n_n_0_1_180_wf
def scatter_S32768x80_S229376x1_S229376x80_1_0_0_1 : ScatterDims S32768x80 S229376x1 S229376x80 where
  updateWindowDims := [1]
  insertedWindowDims := [0]
  scatterDimsToOperandDims := [0]
  indexVectorDim := 1
  wf := scatter_S32768x80_S229376x1_S229376x80_1_0_0_1_wf
def gather_S32768x80_S16384x1_S16384x80_1_0_n_n_0_1_180 : GatherDims S32768x80 S16384x1 S16384x80 where
  offsetDims := [1]
  collapsedSliceDims := [0]
  operandBatchingDims := []
  startIndicesBatchingDims := []
  startIndexMap := [0]
  indexVectorDim := 1
  sliceSizes := ![1, 80]
  wf := gather_S32768x80_S16384x1_S16384x80_1_0_n_n_0_1_180_wf
def scatter_S65536x80_S32768x1_S32768x80_1_0_0_1 : ScatterDims S65536x80 S32768x1 S32768x80 where
  updateWindowDims := [1]
  insertedWindowDims := [0]
  scatterDimsToOperandDims := [0]
  indexVectorDim := 1
  wf := scatter_S65536x80_S32768x1_S32768x80_1_0_0_1_wf
def gather_S16384x80_S114688x1_S114688x80_1_0_n_n_0_1_180 : GatherDims S16384x80 S114688x1 S114688x80 where
  offsetDims := [1]
  collapsedSliceDims := [0]
  operandBatchingDims := []
  startIndicesBatchingDims := []
  startIndexMap := [0]
  indexVectorDim := 1
  sliceSizes := ![1, 80]
  wf := gather_S16384x80_S114688x1_S114688x80_1_0_n_n_0_1_180_wf
def scatter_S16384x80_S114688x1_S114688x80_1_0_0_1 : ScatterDims S16384x80 S114688x1 S114688x80 where
  updateWindowDims := [1]
  insertedWindowDims := [0]
  scatterDimsToOperandDims := [0]
  indexVectorDim := 1
  wf := scatter_S16384x80_S114688x1_S114688x80_1_0_0_1_wf
def gather_S16384x80_S8192x1_S8192x80_1_0_n_n_0_1_180 : GatherDims S16384x80 S8192x1 S8192x80 where
  offsetDims := [1]
  collapsedSliceDims := [0]
  operandBatchingDims := []
  startIndicesBatchingDims := []
  startIndexMap := [0]
  indexVectorDim := 1
  sliceSizes := ![1, 80]
  wf := gather_S16384x80_S8192x1_S8192x80_1_0_n_n_0_1_180_wf
def scatter_S32768x80_S16384x1_S16384x80_1_0_0_1 : ScatterDims S32768x80 S16384x1 S16384x80 where
  updateWindowDims := [1]
  insertedWindowDims := [0]
  scatterDimsToOperandDims := [0]
  indexVectorDim := 1
  wf := scatter_S32768x80_S16384x1_S16384x80_1_0_0_1_wf
def dot_S8192x80_S80x64_S8192x64_1_0_0_1_n_n : DotDims S8192x80 S80x64 S8192x64 where
  lhsContracting := [1]
  rhsContracting := [0]
  lhsNonContracting := [0]
  rhsNonContracting := [1]
  lhsBatch := []
  rhsBatch := []
  wf := dot_S8192x80_S80x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x13_S8192x13_1_0_0_1_n_n : DotDims S8192x64 S64x13 S8192x13 where
  lhsContracting := [1]
  rhsContracting := [0]
  lhsNonContracting := [0]
  rhsNonContracting := [1]
  lhsBatch := []
  rhsBatch := []
  wf := dot_S8192x64_S64x13_S8192x13_1_0_0_1_n_n_wf

abbrev win0_0 : Pipeline.Window sig grid0 :=
  Pipeline.Window.ofSpec (Memref.whole main_arg0) S8192x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S6.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S6x80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S8192x80.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S8192x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S80.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S80.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S80.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S80.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S8192x80.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v21) S8192x80.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S80x80.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S8192x80.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v21) S8192x80.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S8192x80.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S8192x80.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v42) S8192x80.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S80x80.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v55) S8192x80.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v42) S8192x80.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S8192x80.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v66) S8192x80.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v73) S8192x80.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S80x80.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v103) S8192x80.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v73) S8192x80.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v113) S8192x80.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v114) S8192x80.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v121) S8192x80.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v167) S80x80.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v168) S8192x80.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v121) S8192x80.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v178) S8192x80.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v179) S8192x80.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v247) S8192x80.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg7) S80x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg8) S64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg9) S64x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_arg10) S64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg11) S64x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_arg12) S64.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v248) S8192x64.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v248) S8192x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v251) S64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v258) S64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_arg13) S64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_arg14) S64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_arg15) S64x13.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v259) S8192x13.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

class Facts : Prop extends Facts₀ where

variable [Facts]
-- ==== ReferenceIdeal.lean ====
abbrev S131072x6 : Shape := ⟨2, ![131072, 6]⟩
abbrev S6 : Shape := ⟨1, ![6]⟩
abbrev S6x80 : Shape := ⟨2, ![6, 80]⟩
abbrev S80 : Shape := ⟨1, ![80]⟩
abbrev S4x80x80 : Shape := ⟨3, ![4, 80, 80]⟩
abbrev S80x64 : Shape := ⟨2, ![80, 64]⟩
abbrev S64 : Shape := ⟨1, ![64]⟩
abbrev S64x64 : Shape := ⟨2, ![64, 64]⟩
abbrev S64x13 : Shape := ⟨2, ![64, 13]⟩
abbrev S917504 : Shape := ⟨1, ![917504]⟩
abbrev S458752 : Shape := ⟨1, ![458752]⟩
abbrev S229376 : Shape := ⟨1, ![229376]⟩
abbrev S114688 : Shape := ⟨1, ![114688]⟩
abbrev S65536 : Shape := ⟨1, ![65536]⟩
abbrev S32768 : Shape := ⟨1, ![32768]⟩
abbrev S16384 : Shape := ⟨1, ![16384]⟩
abbrev S8192 : Shape := ⟨1, ![8192]⟩
abbrev S_ : Shape := ⟨0, ![]⟩
abbrev S1x6 : Shape := ⟨2, ![1, 6]⟩
abbrev S131072x80 : Shape := ⟨2, ![131072, 80]⟩
abbrev S1x80 : Shape := ⟨2, ![1, 80]⟩
abbrev S917504x1 : Shape := ⟨2, ![917504, 1]⟩
abbrev S917504x80 : Shape := ⟨2, ![917504, 80]⟩
abbrev S1x80x80 : Shape := ⟨3, ![1, 80, 80]⟩
abbrev S80x80 : Shape := ⟨2, ![80, 80]⟩
abbrev S65536x1 : Shape := ⟨2, ![65536, 1]⟩
abbrev S65536x80 : Shape := ⟨2, ![65536, 80]⟩
abbrev S458752x1 : Shape := ⟨2, ![458752, 1]⟩
abbrev S458752x80 : Shape := ⟨2, ![458752, 80]⟩
abbrev S32768x1 : Shape := ⟨2, ![32768, 1]⟩
abbrev S32768x80 : Shape := ⟨2, ![32768, 80]⟩
abbrev S229376x1 : Shape := ⟨2, ![229376, 1]⟩
abbrev S229376x80 : Shape := ⟨2, ![229376, 80]⟩
abbrev S16384x1 : Shape := ⟨2, ![16384, 1]⟩
abbrev S16384x80 : Shape := ⟨2, ![16384, 80]⟩
abbrev S114688x1 : Shape := ⟨2, ![114688, 1]⟩
abbrev S114688x80 : Shape := ⟨2, ![114688, 80]⟩
abbrev S8192x1 : Shape := ⟨2, ![8192, 1]⟩
abbrev S8192x80 : Shape := ⟨2, ![8192, 80]⟩
abbrev S131072x64 : Shape := ⟨2, ![131072, 64]⟩
abbrev S1x64 : Shape := ⟨2, ![1, 64]⟩
abbrev S131072x13 : Shape := ⟨2, ![131072, 13]⟩

abbrev nBuf : Space → Nat
  | .hbm => 528
  | .vmem => 0
  | .smem => 0
  | _ => 0

abbrev hbmTy0_0 (i : Nat) : BufTy := match i % 128 with
  | 0 => ⟨S131072x6, .f32⟩
  | 1 => ⟨S6, .f32⟩
  | 2 => ⟨S6, .f32⟩
  | 3 => ⟨S6x80, .f32⟩
  | 4 => ⟨S80, .f32⟩
  | 5 => ⟨S80, .f32⟩
  | 6 => ⟨S4x80x80, .f32⟩
  | 7 => ⟨S80x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64x13, .f32⟩
  | 16 => ⟨S917504, .i32⟩
  | 17 => ⟨S917504, .i32⟩
  | 18 => ⟨S458752, .i32⟩
  | 19 => ⟨S458752, .i32⟩
  | 20 => ⟨S229376, .i32⟩
  | 21 => ⟨S229376, .i32⟩
  | 22 => ⟨S114688, .i32⟩
  | 23 => ⟨S114688, .i32⟩
  | 24 => ⟨S65536, .i32⟩
  | 25 => ⟨S32768, .i32⟩
  | 26 => ⟨S16384, .i32⟩
  | 27 => ⟨S8192, .i32⟩
  | 28 => ⟨S_, .f32⟩
  | 29 => ⟨S6, .f32⟩
  | 30 => ⟨S_, .f32⟩
  | 31 => ⟨S6, .f32⟩
  | 32 => ⟨S6, .f32⟩
  | 33 => ⟨S1x6, .f32⟩
  | 34 => ⟨S131072x6, .f32⟩
  | 35 => ⟨S131072x6, .f32⟩
  | 36 => ⟨S131072x6, .f32⟩
  | 37 => ⟨S_, .f32⟩
  | 38 => ⟨S6, .f32⟩
  | 39 => ⟨S_, .f32⟩
  | 40 => ⟨S6, .f32⟩
  | 41 => ⟨S6, .f32⟩
  | 42 => ⟨S1x6, .f32⟩
  | 43 => ⟨S131072x6, .f32⟩
  | 44 => ⟨S131072x6, .f32⟩
  | 45 => ⟨S_, .f32⟩
  | 46 => ⟨S6, .f32⟩
  | 47 => ⟨S6, .f32⟩
  | 48 => ⟨S6, .f32⟩
  | 49 => ⟨S1x6, .f32⟩
  | 50 => ⟨S131072x6, .f32⟩
  | 51 => ⟨S131072x6, .f32⟩
  | 52 => ⟨S1x6, .f32⟩
  | 53 => ⟨S131072x6, .f32⟩
  | 54 => ⟨S131072x6, .f32⟩
  | 55 => ⟨S1x6, .f32⟩
  | 56 => ⟨S131072x6, .f32⟩
  | 57 => ⟨S131072x6, .f32⟩
  | 58 => ⟨S131072x80, .f32⟩
  | 59 => ⟨S_, .f32⟩
  | 60 => ⟨S80, .f32⟩
  | 61 => ⟨S_, .f32⟩
  | 62 => ⟨S80, .f32⟩
  | 63 => ⟨S80, .f32⟩
  | 64 => ⟨S1x80, .f32⟩
  | 65 => ⟨S131072x80, .f32⟩
  | 66 => ⟨S131072x80, .f32⟩
  | 67 => ⟨S131072x80, .f32⟩
  | 68 => ⟨S_, .f32⟩
  | 69 => ⟨S80, .f32⟩
  | 70 => ⟨S_, .f32⟩
  | 71 => ⟨S80, .f32⟩
  | 72 => ⟨S80, .f32⟩
  | 73 => ⟨S1x80, .f32⟩
  | 74 => ⟨S131072x80, .f32⟩
  | 75 => ⟨S131072x80, .f32⟩
  | 76 => ⟨S_, .f32⟩
  | 77 => ⟨S80, .f32⟩
  | 78 => ⟨S80, .f32⟩
  | 79 => ⟨S80, .f32⟩
  | 80 => ⟨S1x80, .f32⟩
  | 81 => ⟨S131072x80, .f32⟩
  | 82 => ⟨S131072x80, .f32⟩
  | 83 => ⟨S1x80, .f32⟩
  | 84 => ⟨S131072x80, .f32⟩
  | 85 => ⟨S131072x80, .f32⟩
  | 86 => ⟨S1x80, .f32⟩
  | 87 => ⟨S131072x80, .f32⟩
  | 88 => ⟨S131072x80, .f32⟩
  | 89 => ⟨S_, .f32⟩
  | 90 => ⟨S131072x80, .f32⟩
  | 91 => ⟨S131072x80, .f32⟩
  | 92 => ⟨S_, .i32⟩
  | 93 => ⟨S917504, .i32⟩
  | 94 => ⟨S917504, .i1⟩
  | 95 => ⟨S_, .i32⟩
  | 96 => ⟨S917504, .i32⟩
  | 97 => ⟨S917504, .i32⟩
  | 98 => ⟨S917504, .i32⟩
  | 99 => ⟨S917504x1, .i32⟩
  | 100 => ⟨S917504x80, .f32⟩
  | 101 => ⟨S1x80x80, .f32⟩
  | 102 => ⟨S80x80, .f32⟩
  | 103 => ⟨S917504x80, .f32⟩
  | 104 => ⟨S_, .f32⟩
  | 105 => ⟨S131072x80, .f32⟩
  | 106 => ⟨S917504x1, .i32⟩
  | 107 => ⟨S131072x80, .f32⟩
  | 108 => ⟨S131072x80, .f32⟩
  | 109 => ⟨S_, .f32⟩
  | 110 => ⟨S131072x80, .f32⟩
  | 111 => ⟨S131072x80, .i1⟩
  | 112 => ⟨S_, .f32⟩
  | 113 => ⟨S131072x80, .f32⟩
  | 114 => ⟨S131072x80, .i1⟩
  | 115 => ⟨S_, .f32⟩
  | 116 => ⟨S_, .f32⟩
  | 117 => ⟨S131072x80, .f32⟩
  | 118 => ⟨S131072x80, .f32⟩
  | 119 => ⟨S131072x80, .f32⟩
  | 120 => ⟨S_, .f32⟩
  | 121 => ⟨S131072x80, .f32⟩
  | 122 => ⟨S131072x80, .f32⟩
  | 123 => ⟨S131072x80, .f32⟩
  | 124 => ⟨S_, .i32⟩
  | 125 => ⟨S65536, .i32⟩
  | 126 => ⟨S65536, .i1⟩
  | 127 => ⟨S_, .i32⟩
  | _ => ⟨S131072x6, .f32⟩

abbrev hbmTy0_1 (i : Nat) : BufTy := match i % 128 with
  | 0 => ⟨S65536, .i32⟩
  | 1 => ⟨S65536, .i32⟩
  | 2 => ⟨S65536, .i32⟩
  | 3 => ⟨S65536x1, .i32⟩
  | 4 => ⟨S65536x80, .f32⟩
  | 5 => ⟨S_, .i32⟩
  | 6 => ⟨S917504, .i32⟩
  | 7 => ⟨S917504, .i1⟩
  | 8 => ⟨S_, .i32⟩
  | 9 => ⟨S917504, .i32⟩
  | 10 => ⟨S917504, .i32⟩
  | 11 => ⟨S917504, .i32⟩
  | 12 => ⟨S917504x1, .i32⟩
  | 13 => ⟨S917504x80, .f32⟩
  | 14 => ⟨S_, .f32⟩
  | 15 => ⟨S131072x80, .f32⟩
  | 16 => ⟨S917504x1, .i32⟩
  | 17 => ⟨S131072x80, .f32⟩
  | 18 => ⟨S_, .i32⟩
  | 19 => ⟨S458752, .i32⟩
  | 20 => ⟨S458752, .i1⟩
  | 21 => ⟨S_, .i32⟩
  | 22 => ⟨S458752, .i32⟩
  | 23 => ⟨S458752, .i32⟩
  | 24 => ⟨S458752, .i32⟩
  | 25 => ⟨S458752x1, .i32⟩
  | 26 => ⟨S458752x80, .f32⟩
  | 27 => ⟨S1x80x80, .f32⟩
  | 28 => ⟨S80x80, .f32⟩
  | 29 => ⟨S458752x80, .f32⟩
  | 30 => ⟨S_, .f32⟩
  | 31 => ⟨S65536x80, .f32⟩
  | 32 => ⟨S458752x1, .i32⟩
  | 33 => ⟨S65536x80, .f32⟩
  | 34 => ⟨S65536x80, .f32⟩
  | 35 => ⟨S_, .f32⟩
  | 36 => ⟨S65536x80, .f32⟩
  | 37 => ⟨S65536x80, .i1⟩
  | 38 => ⟨S_, .f32⟩
  | 39 => ⟨S65536x80, .f32⟩
  | 40 => ⟨S65536x80, .i1⟩
  | 41 => ⟨S_, .f32⟩
  | 42 => ⟨S_, .f32⟩
  | 43 => ⟨S65536x80, .f32⟩
  | 44 => ⟨S65536x80, .f32⟩
  | 45 => ⟨S65536x80, .f32⟩
  | 46 => ⟨S_, .f32⟩
  | 47 => ⟨S65536x80, .f32⟩
  | 48 => ⟨S65536x80, .f32⟩
  | 49 => ⟨S65536x80, .f32⟩
  | 50 => ⟨S_, .i32⟩
  | 51 => ⟨S32768, .i32⟩
  | 52 => ⟨S32768, .i1⟩
  | 53 => ⟨S_, .i32⟩
  | 54 => ⟨S32768, .i32⟩
  | 55 => ⟨S32768, .i32⟩
  | 56 => ⟨S32768, .i32⟩
  | 57 => ⟨S32768x1, .i32⟩
  | 58 => ⟨S32768x80, .f32⟩
  | 59 => ⟨S_, .i32⟩
  | 60 => ⟨S458752, .i32⟩
  | 61 => ⟨S458752, .i1⟩
  | 62 => ⟨S_, .i32⟩
  | 63 => ⟨S458752, .i32⟩
  | 64 => ⟨S458752, .i32⟩
  | 65 => ⟨S458752, .i32⟩
  | 66 => ⟨S458752x1, .i32⟩
  | 67 => ⟨S458752x80, .f32⟩
  | 68 => ⟨S_, .f32⟩
  | 69 => ⟨S65536x80, .f32⟩
  | 70 => ⟨S458752x1, .i32⟩
  | 71 => ⟨S65536x80, .f32⟩
  | 72 => ⟨S_, .i32⟩
  | 73 => ⟨S65536, .i32⟩
  | 74 => ⟨S65536, .i1⟩
  | 75 => ⟨S_, .i32⟩
  | 76 => ⟨S65536, .i32⟩
  | 77 => ⟨S65536, .i32⟩
  | 78 => ⟨S65536, .i32⟩
  | 79 => ⟨S65536x1, .i32⟩
  | 80 => ⟨S131072x80, .f32⟩
  | 81 => ⟨S_, .i32⟩
  | 82 => ⟨S917504, .i32⟩
  | 83 => ⟨S917504, .i1⟩
  | 84 => ⟨S_, .i32⟩
  | 85 => ⟨S917504, .i32⟩
  | 86 => ⟨S917504, .i32⟩
  | 87 => ⟨S917504, .i32⟩
  | 88 => ⟨S917504x1, .i32⟩
  | 89 => ⟨S917504x80, .f32⟩
  | 90 => ⟨S_, .f32⟩
  | 91 => ⟨S131072x80, .f32⟩
  | 92 => ⟨S917504x1, .i32⟩
  | 93 => ⟨S131072x80, .f32⟩
  | 94 => ⟨S_, .i32⟩
  | 95 => ⟨S229376, .i32⟩
  | 96 => ⟨S229376, .i1⟩
  | 97 => ⟨S_, .i32⟩
  | 98 => ⟨S229376, .i32⟩
  | 99 => ⟨S229376, .i32⟩
  | 100 => ⟨S229376, .i32⟩
  | 101 => ⟨S229376x1, .i32⟩
  | 102 => ⟨S229376x80, .f32⟩
  | 103 => ⟨S1x80x80, .f32⟩
  | 104 => ⟨S80x80, .f32⟩
  | 105 => ⟨S229376x80, .f32⟩
  | 106 => ⟨S_, .f32⟩
  | 107 => ⟨S32768x80, .f32⟩
  | 108 => ⟨S229376x1, .i32⟩
  | 109 => ⟨S32768x80, .f32⟩
  | 110 => ⟨S32768x80, .f32⟩
  | 111 => ⟨S_, .f32⟩
  | 112 => ⟨S32768x80, .f32⟩
  | 113 => ⟨S32768x80, .i1⟩
  | 114 => ⟨S_, .f32⟩
  | 115 => ⟨S32768x80, .f32⟩
  | 116 => ⟨S32768x80, .i1⟩
  | 117 => ⟨S_, .f32⟩
  | 118 => ⟨S_, .f32⟩
  | 119 => ⟨S32768x80, .f32⟩
  | 120 => ⟨S32768x80, .f32⟩
  | 121 => ⟨S32768x80, .f32⟩
  | 122 => ⟨S_, .f32⟩
  | 123 => ⟨S32768x80, .f32⟩
  | 124 => ⟨S32768x80, .f32⟩
  | 125 => ⟨S32768x80, .f32⟩
  | 126 => ⟨S_, .i32⟩
  | 127 => ⟨S16384, .i32⟩
  | _ => ⟨S131072x6, .f32⟩

abbrev hbmTy0_2 (i : Nat) : BufTy := match i % 128 with
  | 0 => ⟨S16384, .i1⟩
  | 1 => ⟨S_, .i32⟩
  | 2 => ⟨S16384, .i32⟩
  | 3 => ⟨S16384, .i32⟩
  | 4 => ⟨S16384, .i32⟩
  | 5 => ⟨S16384x1, .i32⟩
  | 6 => ⟨S16384x80, .f32⟩
  | 7 => ⟨S_, .i32⟩
  | 8 => ⟨S229376, .i32⟩
  | 9 => ⟨S229376, .i1⟩
  | 10 => ⟨S_, .i32⟩
  | 11 => ⟨S229376, .i32⟩
  | 12 => ⟨S229376, .i32⟩
  | 13 => ⟨S229376, .i32⟩
  | 14 => ⟨S229376x1, .i32⟩
  | 15 => ⟨S229376x80, .f32⟩
  | 16 => ⟨S_, .f32⟩
  | 17 => ⟨S32768x80, .f32⟩
  | 18 => ⟨S229376x1, .i32⟩
  | 19 => ⟨S32768x80, .f32⟩
  | 20 => ⟨S_, .i32⟩
  | 21 => ⟨S32768, .i32⟩
  | 22 => ⟨S32768, .i1⟩
  | 23 => ⟨S_, .i32⟩
  | 24 => ⟨S32768, .i32⟩
  | 25 => ⟨S32768, .i32⟩
  | 26 => ⟨S32768, .i32⟩
  | 27 => ⟨S32768x1, .i32⟩
  | 28 => ⟨S65536x80, .f32⟩
  | 29 => ⟨S_, .i32⟩
  | 30 => ⟨S458752, .i32⟩
  | 31 => ⟨S458752, .i1⟩
  | 32 => ⟨S_, .i32⟩
  | 33 => ⟨S458752, .i32⟩
  | 34 => ⟨S458752, .i32⟩
  | 35 => ⟨S458752, .i32⟩
  | 36 => ⟨S458752x1, .i32⟩
  | 37 => ⟨S458752x80, .f32⟩
  | 38 => ⟨S_, .f32⟩
  | 39 => ⟨S65536x80, .f32⟩
  | 40 => ⟨S458752x1, .i32⟩
  | 41 => ⟨S65536x80, .f32⟩
  | 42 => ⟨S_, .i32⟩
  | 43 => ⟨S65536, .i32⟩
  | 44 => ⟨S65536, .i1⟩
  | 45 => ⟨S_, .i32⟩
  | 46 => ⟨S65536, .i32⟩
  | 47 => ⟨S65536, .i32⟩
  | 48 => ⟨S65536, .i32⟩
  | 49 => ⟨S65536x1, .i32⟩
  | 50 => ⟨S131072x80, .f32⟩
  | 51 => ⟨S_, .i32⟩
  | 52 => ⟨S917504, .i32⟩
  | 53 => ⟨S917504, .i1⟩
  | 54 => ⟨S_, .i32⟩
  | 55 => ⟨S917504, .i32⟩
  | 56 => ⟨S917504, .i32⟩
  | 57 => ⟨S917504, .i32⟩
  | 58 => ⟨S917504x1, .i32⟩
  | 59 => ⟨S917504x80, .f32⟩
  | 60 => ⟨S_, .f32⟩
  | 61 => ⟨S131072x80, .f32⟩
  | 62 => ⟨S917504x1, .i32⟩
  | 63 => ⟨S131072x80, .f32⟩
  | 64 => ⟨S_, .i32⟩
  | 65 => ⟨S114688, .i32⟩
  | 66 => ⟨S114688, .i1⟩
  | 67 => ⟨S_, .i32⟩
  | 68 => ⟨S114688, .i32⟩
  | 69 => ⟨S114688, .i32⟩
  | 70 => ⟨S114688, .i32⟩
  | 71 => ⟨S114688x1, .i32⟩
  | 72 => ⟨S114688x80, .f32⟩
  | 73 => ⟨S1x80x80, .f32⟩
  | 74 => ⟨S80x80, .f32⟩
  | 75 => ⟨S114688x80, .f32⟩
  | 76 => ⟨S_, .f32⟩
  | 77 => ⟨S16384x80, .f32⟩
  | 78 => ⟨S114688x1, .i32⟩
  | 79 => ⟨S16384x80, .f32⟩
  | 80 => ⟨S16384x80, .f32⟩
  | 81 => ⟨S_, .f32⟩
  | 82 => ⟨S16384x80, .f32⟩
  | 83 => ⟨S16384x80, .i1⟩
  | 84 => ⟨S_, .f32⟩
  | 85 => ⟨S16384x80, .f32⟩
  | 86 => ⟨S16384x80, .i1⟩
  | 87 => ⟨S_, .f32⟩
  | 88 => ⟨S_, .f32⟩
  | 89 => ⟨S16384x80, .f32⟩
  | 90 => ⟨S16384x80, .f32⟩
  | 91 => ⟨S16384x80, .f32⟩
  | 92 => ⟨S_, .f32⟩
  | 93 => ⟨S16384x80, .f32⟩
  | 94 => ⟨S16384x80, .f32⟩
  | 95 => ⟨S16384x80, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S8192x80, .f32⟩
  | 105 => ⟨S_, .i32⟩
  | 106 => ⟨S114688, .i32⟩
  | 107 => ⟨S114688, .i1⟩
  | 108 => ⟨S_, .i32⟩
  | 109 => ⟨S114688, .i32⟩
  | 110 => ⟨S114688, .i32⟩
  | 111 => ⟨S114688, .i32⟩
  | 112 => ⟨S114688x1, .i32⟩
  | 113 => ⟨S114688x80, .f32⟩
  | 114 => ⟨S_, .f32⟩
  | 115 => ⟨S16384x80, .f32⟩
  | 116 => ⟨S114688x1, .i32⟩
  | 117 => ⟨S16384x80, .f32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S32768x80, .f32⟩
  | 127 => ⟨S_, .i32⟩
  | _ => ⟨S131072x6, .f32⟩

abbrev hbmTy0_3 (i : Nat) : BufTy := match i % 128 with
  | 0 => ⟨S229376, .i32⟩
  | 1 => ⟨S229376, .i1⟩
  | 2 => ⟨S_, .i32⟩
  | 3 => ⟨S229376, .i32⟩
  | 4 => ⟨S229376, .i32⟩
  | 5 => ⟨S229376, .i32⟩
  | 6 => ⟨S229376x1, .i32⟩
  | 7 => ⟨S229376x80, .f32⟩
  | 8 => ⟨S_, .f32⟩
  | 9 => ⟨S32768x80, .f32⟩
  | 10 => ⟨S229376x1, .i32⟩
  | 11 => ⟨S32768x80, .f32⟩
  | 12 => ⟨S_, .i32⟩
  | 13 => ⟨S32768, .i32⟩
  | 14 => ⟨S32768, .i1⟩
  | 15 => ⟨S_, .i32⟩
  | 16 => ⟨S32768, .i32⟩
  | 17 => ⟨S32768, .i32⟩
  | 18 => ⟨S32768, .i32⟩
  | 19 => ⟨S32768x1, .i32⟩
  | 20 => ⟨S65536x80, .f32⟩
  | 21 => ⟨S_, .i32⟩
  | 22 => ⟨S458752, .i32⟩
  | 23 => ⟨S458752, .i1⟩
  | 24 => ⟨S_, .i32⟩
  | 25 => ⟨S458752, .i32⟩
  | 26 => ⟨S458752, .i32⟩
  | 27 => ⟨S458752, .i32⟩
  | 28 => ⟨S458752x1, .i32⟩
  | 29 => ⟨S458752x80, .f32⟩
  | 30 => ⟨S_, .f32⟩
  | 31 => ⟨S65536x80, .f32⟩
  | 32 => ⟨S458752x1, .i32⟩
  | 33 => ⟨S65536x80, .f32⟩
  | 34 => ⟨S_, .i32⟩
  | 35 => ⟨S65536, .i32⟩
  | 36 => ⟨S65536, .i1⟩
  | 37 => ⟨S_, .i32⟩
  | 38 => ⟨S65536, .i32⟩
  | 39 => ⟨S65536, .i32⟩
  | 40 => ⟨S65536, .i32⟩
  | 41 => ⟨S65536x1, .i32⟩
  | 42 => ⟨S131072x80, .f32⟩
  | 43 => ⟨S_, .i32⟩
  | 44 => ⟨S917504, .i32⟩
  | 45 => ⟨S917504, .i1⟩
  | 46 => ⟨S_, .i32⟩
  | 47 => ⟨S917504, .i32⟩
  | 48 => ⟨S917504, .i32⟩
  | 49 => ⟨S917504, .i32⟩
  | 50 => ⟨S917504x1, .i32⟩
  | 51 => ⟨S917504x80, .f32⟩
  | 52 => ⟨S_, .f32⟩
  | 53 => ⟨S131072x80, .f32⟩
  | 54 => ⟨S917504x1, .i32⟩
  | 55 => ⟨S131072x80, .f32⟩
  | 56 => ⟨S131072x64, .f32⟩
  | 57 => ⟨S1x64, .f32⟩
  | 58 => ⟨S131072x64, .f32⟩
  | 59 => ⟨S131072x64, .f32⟩
  | 60 => ⟨S_, .f32⟩
  | 61 => ⟨S131072x64, .f32⟩
  | 62 => ⟨S131072x64, .i1⟩
  | 63 => ⟨S_, .f32⟩
  | 64 => ⟨S131072x64, .f32⟩
  | 65 => ⟨S131072x64, .i1⟩
  | 66 => ⟨S_, .f32⟩
  | 67 => ⟨S_, .f32⟩
  | 68 => ⟨S131072x64, .f32⟩
  | 69 => ⟨S131072x64, .f32⟩
  | 70 => ⟨S131072x64, .f32⟩
  | 71 => ⟨S_, .f32⟩
  | 72 => ⟨S131072x64, .f32⟩
  | 73 => ⟨S131072x64, .f32⟩
  | 74 => ⟨S131072x64, .f32⟩
  | 75 => ⟨S131072x64, .f32⟩
  | 76 => ⟨S1x64, .f32⟩
  | 77 => ⟨S131072x64, .f32⟩
  | 78 => ⟨S131072x64, .f32⟩
  | 79 => ⟨S_, .f32⟩
  | 80 => ⟨S131072x64, .f32⟩
  | 81 => ⟨S131072x64, .i1⟩
  | 82 => ⟨S_, .f32⟩
  | 83 => ⟨S131072x64, .f32⟩
  | 84 => ⟨S131072x64, .i1⟩
  | 85 => ⟨S_, .f32⟩
  | 86 => ⟨S_, .f32⟩
  | 87 => ⟨S131072x64, .f32⟩
  | 88 => ⟨S131072x64, .f32⟩
  | 89 => ⟨S131072x64, .f32⟩
  | 90 => ⟨S_, .f32⟩
  | 91 => ⟨S131072x64, .f32⟩
  | 92 => ⟨S131072x64, .f32⟩
  | 93 => ⟨S131072x64, .f32⟩
  | 94 => ⟨S131072x64, .f32⟩
  | 95 => ⟨S1x64, .f32⟩
  | 96 => ⟨S131072x64, .f32⟩
  | 97 => ⟨S131072x64, .f32⟩
  | 98 => ⟨S_, .f32⟩
  | 99 => ⟨S131072x64, .f32⟩
  | 100 => ⟨S131072x64, .i1⟩
  | 101 => ⟨S_, .f32⟩
  | 102 => ⟨S131072x64, .f32⟩
  | 103 => ⟨S131072x64, .i1⟩
  | 104 => ⟨S_, .f32⟩
  | 105 => ⟨S_, .f32⟩
  | 106 => ⟨S131072x64, .f32⟩
  | 107 => ⟨S131072x64, .f32⟩
  | 108 => ⟨S131072x64, .f32⟩
  | 109 => ⟨S_, .f32⟩
  | 110 => ⟨S131072x64, .f32⟩
  | 111 => ⟨S131072x64, .f32⟩
  | 112 => ⟨S131072x64, .f32⟩
  | 113 => ⟨S_, .f32⟩
  | 114 => ⟨S64, .f32⟩
  | 115 => ⟨S_, .f32⟩
  | 116 => ⟨S64, .f32⟩
  | 117 => ⟨S64, .f32⟩
  | 118 => ⟨S1x64, .f32⟩
  | 119 => ⟨S131072x64, .f32⟩
  | 120 => ⟨S131072x64, .f32⟩
  | 121 => ⟨S131072x64, .f32⟩
  | 122 => ⟨S_, .f32⟩
  | 123 => ⟨S64, .f32⟩
  | 124 => ⟨S_, .f32⟩
  | 125 => ⟨S64, .f32⟩
  | 126 => ⟨S64, .f32⟩
  | 127 => ⟨S1x64, .f32⟩
  | _ => ⟨S131072x6, .f32⟩

abbrev hbmTy0_4 (i : Nat) : BufTy := match i % 128 with
  | 0 => ⟨S131072x64, .f32⟩
  | 1 => ⟨S131072x64, .f32⟩
  | 2 => ⟨S_, .f32⟩
  | 3 => ⟨S64, .f32⟩
  | 4 => ⟨S64, .f32⟩
  | 5 => ⟨S64, .f32⟩
  | 6 => ⟨S1x64, .f32⟩
  | 7 => ⟨S131072x64, .f32⟩
  | 8 => ⟨S131072x64, .f32⟩
  | 9 => ⟨S1x64, .f32⟩
  | 10 => ⟨S131072x64, .f32⟩
  | 11 => ⟨S131072x64, .f32⟩
  | 12 => ⟨S1x64, .f32⟩
  | 13 => ⟨S131072x64, .f32⟩
  | 14 => ⟨S131072x64, .f32⟩
  | 15 => ⟨S131072x13, .f32⟩
  | _ => ⟨S131072x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S131072x6, .f32⟩

abbrev bufTy : (tb : Table) → Fin (tcTables nBuf tb) → BufTy
  | .hbm, ⟨i, _⟩ => hbmTy i
  | _, _ => ⟨S131072x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_cst_0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_3 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_6 : Ref sig .tc := ⟨.hbm, 68, rfl⟩
abbrev main_v33 : Ref sig .tc := ⟨.hbm, 69, rfl⟩
abbrev main_cst_7 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_8 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_call0_cst : Ref sig .tc := ⟨.hbm, 89, rfl⟩
abbrev main_call0_v0 : Ref sig .tc := ⟨.hbm, 90, rfl⟩
abbrev main_v51 : Ref sig .tc := ⟨.hbm, 91, rfl⟩
abbrev main_c : Ref sig .tc := ⟨.hbm, 92, rfl⟩
abbrev main_v52 : Ref sig .tc := ⟨.hbm, 93, rfl⟩
abbrev main_v53 : Ref sig .tc := ⟨.hbm, 94, rfl⟩
abbrev main_c_9 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_10 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_cst_0 : Ref sig .tc := ⟨.hbm, 112, rfl⟩
abbrev main_call1_v2 : Ref sig .tc := ⟨.hbm, 113, rfl⟩
abbrev main_call1_v3 : Ref sig .tc := ⟨.hbm, 114, rfl⟩
abbrev main_call1_cst_1 : Ref sig .tc := ⟨.hbm, 115, rfl⟩
abbrev main_call1_call0_v0 : Ref sig .tc := ⟨.hbm, 116, rfl⟩
abbrev main_call1_call0_v1 : Ref sig .tc := ⟨.hbm, 117, rfl⟩
abbrev main_call1_v4 : Ref sig .tc := ⟨.hbm, 118, rfl⟩
abbrev main_call1_v5 : Ref sig .tc := ⟨.hbm, 119, rfl⟩
abbrev main_call1_cst_2 : Ref sig .tc := ⟨.hbm, 120, rfl⟩
abbrev main_call1_v6 : Ref sig .tc := ⟨.hbm, 121, rfl⟩
abbrev main_call1_v7 : Ref sig .tc := ⟨.hbm, 122, rfl⟩
abbrev main_v66 : Ref sig .tc := ⟨.hbm, 123, rfl⟩
abbrev main_c_11 : Ref sig .tc := ⟨.hbm, 124, rfl⟩
abbrev main_v67 : Ref sig .tc := ⟨.hbm, 125, rfl⟩
abbrev main_v68 : Ref sig .tc := ⟨.hbm, 126, rfl⟩
abbrev main_c_12 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_c_13 : Ref sig .tc := ⟨.hbm, 133, rfl⟩
abbrev main_v74 : Ref sig .tc := ⟨.hbm, 134, rfl⟩
abbrev main_v75 : Ref sig .tc := ⟨.hbm, 135, rfl⟩
abbrev main_c_14 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_cst_15 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_c_16 : Ref sig .tc := ⟨.hbm, 146, rfl⟩
abbrev main_v84 : Ref sig .tc := ⟨.hbm, 147, rfl⟩
abbrev main_v85 : Ref sig .tc := ⟨.hbm, 148, rfl⟩
abbrev main_c_17 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_cst_18 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_call2_cst : Ref sig .tc := ⟨.hbm, 163, rfl⟩
abbrev main_call2_v0 : Ref sig .tc := ⟨.hbm, 164, rfl⟩
abbrev main_call2_v1 : Ref sig .tc := ⟨.hbm, 165, rfl⟩
abbrev main_call2_cst_0 : Ref sig .tc := ⟨.hbm, 166, rfl⟩
abbrev main_call2_v2 : Ref sig .tc := ⟨.hbm, 167, rfl⟩
abbrev main_call2_v3 : Ref sig .tc := ⟨.hbm, 168, rfl⟩
abbrev main_call2_cst_1 : Ref sig .tc := ⟨.hbm, 169, rfl⟩
abbrev main_call2_call0_v0 : Ref sig .tc := ⟨.hbm, 170, rfl⟩
abbrev main_call2_call0_v1 : Ref sig .tc := ⟨.hbm, 171, rfl⟩
abbrev main_call2_v4 : Ref sig .tc := ⟨.hbm, 172, rfl⟩
abbrev main_call2_v5 : Ref sig .tc := ⟨.hbm, 173, rfl⟩
abbrev main_call2_cst_2 : Ref sig .tc := ⟨.hbm, 174, rfl⟩
abbrev main_call2_v6 : Ref sig .tc := ⟨.hbm, 175, rfl⟩
abbrev main_call2_v7 : Ref sig .tc := ⟨.hbm, 176, rfl⟩
abbrev main_v98 : Ref sig .tc := ⟨.hbm, 177, rfl⟩
abbrev main_c_19 : Ref sig .tc := ⟨.hbm, 178, rfl⟩
abbrev main_v99 : Ref sig .tc := ⟨.hbm, 179, rfl⟩
abbrev main_v100 : Ref sig .tc := ⟨.hbm, 180, rfl⟩
abbrev main_c_20 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_c_21 : Ref sig .tc := ⟨.hbm, 187, rfl⟩
abbrev main_v106 : Ref sig .tc := ⟨.hbm, 188, rfl⟩
abbrev main_v107 : Ref sig .tc := ⟨.hbm, 189, rfl⟩
abbrev main_c_22 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_cst_23 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_c_24 : Ref sig .tc := ⟨.hbm, 200, rfl⟩
abbrev main_v116 : Ref sig .tc := ⟨.hbm, 201, rfl⟩
abbrev main_v117 : Ref sig .tc := ⟨.hbm, 202, rfl⟩
abbrev main_c_25 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_c_26 : Ref sig .tc := ⟨.hbm, 209, rfl⟩
abbrev main_v123 : Ref sig .tc := ⟨.hbm, 210, rfl⟩
abbrev main_v124 : Ref sig .tc := ⟨.hbm, 211, rfl⟩
abbrev main_c_27 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_cst_28 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_c_29 : Ref sig .tc := ⟨.hbm, 222, rfl⟩
abbrev main_v133 : Ref sig .tc := ⟨.hbm, 223, rfl⟩
abbrev main_v134 : Ref sig .tc := ⟨.hbm, 224, rfl⟩
abbrev main_c_30 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_cst_31 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_call3_cst : Ref sig .tc := ⟨.hbm, 239, rfl⟩
abbrev main_call3_v0 : Ref sig .tc := ⟨.hbm, 240, rfl⟩
abbrev main_call3_v1 : Ref sig .tc := ⟨.hbm, 241, rfl⟩
abbrev main_call3_cst_0 : Ref sig .tc := ⟨.hbm, 242, rfl⟩
abbrev main_call3_v2 : Ref sig .tc := ⟨.hbm, 243, rfl⟩
abbrev main_call3_v3 : Ref sig .tc := ⟨.hbm, 244, rfl⟩
abbrev main_call3_cst_1 : Ref sig .tc := ⟨.hbm, 245, rfl⟩
abbrev main_call3_call0_v0 : Ref sig .tc := ⟨.hbm, 246, rfl⟩
abbrev main_call3_call0_v1 : Ref sig .tc := ⟨.hbm, 247, rfl⟩
abbrev main_call3_v4 : Ref sig .tc := ⟨.hbm, 248, rfl⟩
abbrev main_call3_v5 : Ref sig .tc := ⟨.hbm, 249, rfl⟩
abbrev main_call3_cst_2 : Ref sig .tc := ⟨.hbm, 250, rfl⟩
abbrev main_call3_v6 : Ref sig .tc := ⟨.hbm, 251, rfl⟩
abbrev main_call3_v7 : Ref sig .tc := ⟨.hbm, 252, rfl⟩
abbrev main_v147 : Ref sig .tc := ⟨.hbm, 253, rfl⟩
abbrev main_c_32 : Ref sig .tc := ⟨.hbm, 254, rfl⟩
abbrev main_v148 : Ref sig .tc := ⟨.hbm, 255, rfl⟩
abbrev main_v149 : Ref sig .tc := ⟨.hbm, 256, rfl⟩
abbrev main_c_33 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev main_v154 : Ref sig .tc := ⟨.hbm, 262, rfl⟩
abbrev main_c_34 : Ref sig .tc := ⟨.hbm, 263, rfl⟩
abbrev main_v155 : Ref sig .tc := ⟨.hbm, 264, rfl⟩
abbrev main_v156 : Ref sig .tc := ⟨.hbm, 265, rfl⟩
abbrev main_c_35 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_cst_36 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_c_37 : Ref sig .tc := ⟨.hbm, 276, rfl⟩
abbrev main_v165 : Ref sig .tc := ⟨.hbm, 277, rfl⟩
abbrev main_v166 : Ref sig .tc := ⟨.hbm, 278, rfl⟩
abbrev main_c_38 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_c_39 : Ref sig .tc := ⟨.hbm, 285, rfl⟩
abbrev main_v172 : Ref sig .tc := ⟨.hbm, 286, rfl⟩
abbrev main_v173 : Ref sig .tc := ⟨.hbm, 287, rfl⟩
abbrev main_c_40 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_41 : Ref sig .tc := ⟨.hbm, 294, rfl⟩
abbrev main_v179 : Ref sig .tc := ⟨.hbm, 295, rfl⟩
abbrev main_v180 : Ref sig .tc := ⟨.hbm, 296, rfl⟩
abbrev main_v181 : Ref sig .tc := ⟨.hbm, 297, rfl⟩
abbrev main_c_42 : Ref sig .tc := ⟨.hbm, 298, rfl⟩
abbrev main_v182 : Ref sig .tc := ⟨.hbm, 299, rfl⟩
abbrev main_v183 : Ref sig .tc := ⟨.hbm, 300, rfl⟩
abbrev main_c_43 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_v188 : Ref sig .tc := ⟨.hbm, 306, rfl⟩
abbrev main_c_44 : Ref sig .tc := ⟨.hbm, 307, rfl⟩
abbrev main_v189 : Ref sig .tc := ⟨.hbm, 308, rfl⟩
abbrev main_v190 : Ref sig .tc := ⟨.hbm, 309, rfl⟩
abbrev main_c_45 : Ref sig .tc := ⟨.hbm, 310, rfl⟩
abbrev main_v191 : Ref sig .tc := ⟨.hbm, 311, rfl⟩
abbrev main_v192 : Ref sig .tc := ⟨.hbm, 312, rfl⟩
abbrev main_v193 : Ref sig .tc := ⟨.hbm, 313, rfl⟩
abbrev main_v194 : Ref sig .tc := ⟨.hbm, 314, rfl⟩
abbrev main_v195 : Ref sig .tc := ⟨.hbm, 315, rfl⟩
abbrev main_cst_46 : Ref sig .tc := ⟨.hbm, 316, rfl⟩
abbrev main_v196 : Ref sig .tc := ⟨.hbm, 317, rfl⟩
abbrev main_v197 : Ref sig .tc := ⟨.hbm, 318, rfl⟩
abbrev main_v198 : Ref sig .tc := ⟨.hbm, 319, rfl⟩
abbrev main_c_47 : Ref sig .tc := ⟨.hbm, 320, rfl⟩
abbrev main_v199 : Ref sig .tc := ⟨.hbm, 321, rfl⟩
abbrev main_v200 : Ref sig .tc := ⟨.hbm, 322, rfl⟩
abbrev main_c_48 : Ref sig .tc := ⟨.hbm, 323, rfl⟩
abbrev main_v201 : Ref sig .tc := ⟨.hbm, 324, rfl⟩
abbrev main_v202 : Ref sig .tc := ⟨.hbm, 325, rfl⟩
abbrev main_v203 : Ref sig .tc := ⟨.hbm, 326, rfl⟩
abbrev main_v204 : Ref sig .tc := ⟨.hbm, 327, rfl⟩
abbrev main_v205 : Ref sig .tc := ⟨.hbm, 328, rfl⟩
abbrev main_v206 : Ref sig .tc := ⟨.hbm, 329, rfl⟩
abbrev main_v207 : Ref sig .tc := ⟨.hbm, 330, rfl⟩
abbrev main_v208 : Ref sig .tc := ⟨.hbm, 331, rfl⟩
abbrev main_cst_49 : Ref sig .tc := ⟨.hbm, 332, rfl⟩
abbrev main_v209 : Ref sig .tc := ⟨.hbm, 333, rfl⟩
abbrev main_v210 : Ref sig .tc := ⟨.hbm, 334, rfl⟩
abbrev main_v211 : Ref sig .tc := ⟨.hbm, 335, rfl⟩
abbrev main_v212 : Ref sig .tc := ⟨.hbm, 336, rfl⟩
abbrev main_call4_cst : Ref sig .tc := ⟨.hbm, 337, rfl⟩
abbrev main_call4_v0 : Ref sig .tc := ⟨.hbm, 338, rfl⟩
abbrev main_call4_v1 : Ref sig .tc := ⟨.hbm, 339, rfl⟩
abbrev main_call4_cst_0 : Ref sig .tc := ⟨.hbm, 340, rfl⟩
abbrev main_call4_v2 : Ref sig .tc := ⟨.hbm, 341, rfl⟩
abbrev main_call4_v3 : Ref sig .tc := ⟨.hbm, 342, rfl⟩
abbrev main_call4_cst_1 : Ref sig .tc := ⟨.hbm, 343, rfl⟩
abbrev main_call4_call0_v0 : Ref sig .tc := ⟨.hbm, 344, rfl⟩
abbrev main_call4_call0_v1 : Ref sig .tc := ⟨.hbm, 345, rfl⟩
abbrev main_call4_v4 : Ref sig .tc := ⟨.hbm, 346, rfl⟩
abbrev main_call4_v5 : Ref sig .tc := ⟨.hbm, 347, rfl⟩
abbrev main_call4_cst_2 : Ref sig .tc := ⟨.hbm, 348, rfl⟩
abbrev main_call4_v6 : Ref sig .tc := ⟨.hbm, 349, rfl⟩
abbrev main_call4_v7 : Ref sig .tc := ⟨.hbm, 350, rfl⟩
abbrev main_v213 : Ref sig .tc := ⟨.hbm, 351, rfl⟩
abbrev main_c_50 : Ref sig .tc := ⟨.hbm, 352, rfl⟩
abbrev main_v214 : Ref sig .tc := ⟨.hbm, 353, rfl⟩
abbrev main_v215 : Ref sig .tc := ⟨.hbm, 354, rfl⟩
abbrev main_c_51 : Ref sig .tc := ⟨.hbm, 355, rfl⟩
abbrev main_v216 : Ref sig .tc := ⟨.hbm, 356, rfl⟩
abbrev main_v217 : Ref sig .tc := ⟨.hbm, 357, rfl⟩
abbrev main_v218 : Ref sig .tc := ⟨.hbm, 358, rfl⟩
abbrev main_v219 : Ref sig .tc := ⟨.hbm, 359, rfl⟩
abbrev main_v220 : Ref sig .tc := ⟨.hbm, 360, rfl⟩
abbrev main_c_52 : Ref sig .tc := ⟨.hbm, 361, rfl⟩
abbrev main_v221 : Ref sig .tc := ⟨.hbm, 362, rfl⟩
abbrev main_v222 : Ref sig .tc := ⟨.hbm, 363, rfl⟩
abbrev main_c_53 : Ref sig .tc := ⟨.hbm, 364, rfl⟩
abbrev main_v223 : Ref sig .tc := ⟨.hbm, 365, rfl⟩
abbrev main_v224 : Ref sig .tc := ⟨.hbm, 366, rfl⟩
abbrev main_v225 : Ref sig .tc := ⟨.hbm, 367, rfl⟩
abbrev main_v226 : Ref sig .tc := ⟨.hbm, 368, rfl⟩
abbrev main_v227 : Ref sig .tc := ⟨.hbm, 369, rfl⟩
abbrev main_cst_54 : Ref sig .tc := ⟨.hbm, 370, rfl⟩
abbrev main_v228 : Ref sig .tc := ⟨.hbm, 371, rfl⟩
abbrev main_v229 : Ref sig .tc := ⟨.hbm, 372, rfl⟩
abbrev main_v230 : Ref sig .tc := ⟨.hbm, 373, rfl⟩
abbrev main_c_55 : Ref sig .tc := ⟨.hbm, 374, rfl⟩
abbrev main_v231 : Ref sig .tc := ⟨.hbm, 375, rfl⟩
abbrev main_v232 : Ref sig .tc := ⟨.hbm, 376, rfl⟩
abbrev main_c_56 : Ref sig .tc := ⟨.hbm, 377, rfl⟩
abbrev main_v233 : Ref sig .tc := ⟨.hbm, 378, rfl⟩
abbrev main_v234 : Ref sig .tc := ⟨.hbm, 379, rfl⟩
abbrev main_v235 : Ref sig .tc := ⟨.hbm, 380, rfl⟩
abbrev main_v236 : Ref sig .tc := ⟨.hbm, 381, rfl⟩
abbrev main_v237 : Ref sig .tc := ⟨.hbm, 382, rfl⟩
abbrev main_c_57 : Ref sig .tc := ⟨.hbm, 383, rfl⟩
abbrev main_v238 : Ref sig .tc := ⟨.hbm, 384, rfl⟩
abbrev main_v239 : Ref sig .tc := ⟨.hbm, 385, rfl⟩
abbrev main_c_58 : Ref sig .tc := ⟨.hbm, 386, rfl⟩
abbrev main_v240 : Ref sig .tc := ⟨.hbm, 387, rfl⟩
abbrev main_v241 : Ref sig .tc := ⟨.hbm, 388, rfl⟩
abbrev main_v242 : Ref sig .tc := ⟨.hbm, 389, rfl⟩
abbrev main_v243 : Ref sig .tc := ⟨.hbm, 390, rfl⟩
abbrev main_v244 : Ref sig .tc := ⟨.hbm, 391, rfl⟩
abbrev main_cst_59 : Ref sig .tc := ⟨.hbm, 392, rfl⟩
abbrev main_v245 : Ref sig .tc := ⟨.hbm, 393, rfl⟩
abbrev main_v246 : Ref sig .tc := ⟨.hbm, 394, rfl⟩
abbrev main_v247 : Ref sig .tc := ⟨.hbm, 395, rfl⟩
abbrev main_c_60 : Ref sig .tc := ⟨.hbm, 396, rfl⟩
abbrev main_v248 : Ref sig .tc := ⟨.hbm, 397, rfl⟩
abbrev main_v249 : Ref sig .tc := ⟨.hbm, 398, rfl⟩
abbrev main_c_61 : Ref sig .tc := ⟨.hbm, 399, rfl⟩
abbrev main_v250 : Ref sig .tc := ⟨.hbm, 400, rfl⟩
abbrev main_v251 : Ref sig .tc := ⟨.hbm, 401, rfl⟩
abbrev main_v252 : Ref sig .tc := ⟨.hbm, 402, rfl⟩
abbrev main_v253 : Ref sig .tc := ⟨.hbm, 403, rfl⟩
abbrev main_v254 : Ref sig .tc := ⟨.hbm, 404, rfl⟩
abbrev main_c_62 : Ref sig .tc := ⟨.hbm, 405, rfl⟩
abbrev main_v255 : Ref sig .tc := ⟨.hbm, 406, rfl⟩
abbrev main_v256 : Ref sig .tc := ⟨.hbm, 407, rfl⟩
abbrev main_c_63 : Ref sig .tc := ⟨.hbm, 408, rfl⟩
abbrev main_v257 : Ref sig .tc := ⟨.hbm, 409, rfl⟩
abbrev main_v258 : Ref sig .tc := ⟨.hbm, 410, rfl⟩
abbrev main_v259 : Ref sig .tc := ⟨.hbm, 411, rfl⟩
abbrev main_v260 : Ref sig .tc := ⟨.hbm, 412, rfl⟩
abbrev main_v261 : Ref sig .tc := ⟨.hbm, 413, rfl⟩
abbrev main_cst_64 : Ref sig .tc := ⟨.hbm, 414, rfl⟩
abbrev main_v262 : Ref sig .tc := ⟨.hbm, 415, rfl⟩
abbrev main_v263 : Ref sig .tc := ⟨.hbm, 416, rfl⟩
abbrev main_v264 : Ref sig .tc := ⟨.hbm, 417, rfl⟩
abbrev main_c_65 : Ref sig .tc := ⟨.hbm, 418, rfl⟩
abbrev main_v265 : Ref sig .tc := ⟨.hbm, 419, rfl⟩
abbrev main_v266 : Ref sig .tc := ⟨.hbm, 420, rfl⟩
abbrev main_c_66 : Ref sig .tc := ⟨.hbm, 421, rfl⟩
abbrev main_v267 : Ref sig .tc := ⟨.hbm, 422, rfl⟩
abbrev main_v268 : Ref sig .tc := ⟨.hbm, 423, rfl⟩
abbrev main_v269 : Ref sig .tc := ⟨.hbm, 424, rfl⟩
abbrev main_v270 : Ref sig .tc := ⟨.hbm, 425, rfl⟩
abbrev main_v271 : Ref sig .tc := ⟨.hbm, 426, rfl⟩
abbrev main_c_67 : Ref sig .tc := ⟨.hbm, 427, rfl⟩
abbrev main_v272 : Ref sig .tc := ⟨.hbm, 428, rfl⟩
abbrev main_v273 : Ref sig .tc := ⟨.hbm, 429, rfl⟩
abbrev main_c_68 : Ref sig .tc := ⟨.hbm, 430, rfl⟩
abbrev main_v274 : Ref sig .tc := ⟨.hbm, 431, rfl⟩
abbrev main_v275 : Ref sig .tc := ⟨.hbm, 432, rfl⟩
abbrev main_v276 : Ref sig .tc := ⟨.hbm, 433, rfl⟩
abbrev main_v277 : Ref sig .tc := ⟨.hbm, 434, rfl⟩
abbrev main_v278 : Ref sig .tc := ⟨.hbm, 435, rfl⟩
abbrev main_cst_69 : Ref sig .tc := ⟨.hbm, 436, rfl⟩
abbrev main_v279 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_v283 : Ref sig .tc := ⟨.hbm, 441, rfl⟩
abbrev main_v284 : Ref sig .tc := ⟨.hbm, 442, rfl⟩
abbrev main_v285 : Ref sig .tc := ⟨.hbm, 443, rfl⟩
abbrev main_call5_cst : Ref sig .tc := ⟨.hbm, 444, rfl⟩
abbrev main_call5_v0 : Ref sig .tc := ⟨.hbm, 445, rfl⟩
abbrev main_call5_v1 : Ref sig .tc := ⟨.hbm, 446, rfl⟩
abbrev main_call5_cst_0 : Ref sig .tc := ⟨.hbm, 447, rfl⟩
abbrev main_call5_v2 : Ref sig .tc := ⟨.hbm, 448, rfl⟩
abbrev main_call5_v3 : Ref sig .tc := ⟨.hbm, 449, rfl⟩
abbrev main_call5_cst_1 : Ref sig .tc := ⟨.hbm, 450, rfl⟩
abbrev main_call5_call0_v0 : Ref sig .tc := ⟨.hbm, 451, rfl⟩
abbrev main_call5_call0_v1 : Ref sig .tc := ⟨.hbm, 452, rfl⟩
abbrev main_call5_v4 : Ref sig .tc := ⟨.hbm, 453, rfl⟩
abbrev main_call5_v5 : Ref sig .tc := ⟨.hbm, 454, rfl⟩
abbrev main_call5_cst_2 : Ref sig .tc := ⟨.hbm, 455, rfl⟩
abbrev main_call5_v6 : Ref sig .tc := ⟨.hbm, 456, rfl⟩
abbrev main_call5_v7 : Ref sig .tc := ⟨.hbm, 457, rfl⟩
abbrev main_v286 : Ref sig .tc := ⟨.hbm, 458, rfl⟩
abbrev main_v287 : Ref sig .tc := ⟨.hbm, 459, rfl⟩
abbrev main_v288 : Ref sig .tc := ⟨.hbm, 460, rfl⟩
abbrev main_v289 : Ref sig .tc := ⟨.hbm, 461, rfl⟩
abbrev main_v290 : Ref sig .tc := ⟨.hbm, 462, rfl⟩
abbrev main_call6_cst : Ref sig .tc := ⟨.hbm, 463, rfl⟩
abbrev main_call6_v0 : Ref sig .tc := ⟨.hbm, 464, rfl⟩
abbrev main_call6_v1 : Ref sig .tc := ⟨.hbm, 465, rfl⟩
abbrev main_call6_cst_0 : Ref sig .tc := ⟨.hbm, 466, rfl⟩
abbrev main_call6_v2 : Ref sig .tc := ⟨.hbm, 467, rfl⟩
abbrev main_call6_v3 : Ref sig .tc := ⟨.hbm, 468, rfl⟩
abbrev main_call6_cst_1 : Ref sig .tc := ⟨.hbm, 469, rfl⟩
abbrev main_call6_call0_v0 : Ref sig .tc := ⟨.hbm, 470, rfl⟩
abbrev main_call6_call0_v1 : Ref sig .tc := ⟨.hbm, 471, rfl⟩
abbrev main_call6_v4 : Ref sig .tc := ⟨.hbm, 472, rfl⟩
abbrev main_call6_v5 : Ref sig .tc := ⟨.hbm, 473, rfl⟩
abbrev main_call6_cst_2 : Ref sig .tc := ⟨.hbm, 474, rfl⟩
abbrev main_call6_v6 : Ref sig .tc := ⟨.hbm, 475, rfl⟩
abbrev main_call6_v7 : Ref sig .tc := ⟨.hbm, 476, rfl⟩
abbrev main_v291 : Ref sig .tc := ⟨.hbm, 477, rfl⟩
abbrev main_v292 : Ref sig .tc := ⟨.hbm, 478, rfl⟩
abbrev main_v293 : Ref sig .tc := ⟨.hbm, 479, rfl⟩
abbrev main_v294 : Ref sig .tc := ⟨.hbm, 480, rfl⟩
abbrev main_v295 : Ref sig .tc := ⟨.hbm, 481, rfl⟩
abbrev main_call7_cst : Ref sig .tc := ⟨.hbm, 482, rfl⟩
abbrev main_call7_v0 : Ref sig .tc := ⟨.hbm, 483, rfl⟩
abbrev main_call7_v1 : Ref sig .tc := ⟨.hbm, 484, rfl⟩
abbrev main_call7_cst_0 : Ref sig .tc := ⟨.hbm, 485, rfl⟩
abbrev main_call7_v2 : Ref sig .tc := ⟨.hbm, 486, rfl⟩
abbrev main_call7_v3 : Ref sig .tc := ⟨.hbm, 487, rfl⟩
abbrev main_call7_cst_1 : Ref sig .tc := ⟨.hbm, 488, rfl⟩
abbrev main_call7_call0_v0 : Ref sig .tc := ⟨.hbm, 489, rfl⟩
abbrev main_call7_call0_v1 : Ref sig .tc := ⟨.hbm, 490, rfl⟩
abbrev main_call7_v4 : Ref sig .tc := ⟨.hbm, 491, rfl⟩
abbrev main_call7_v5 : Ref sig .tc := ⟨.hbm, 492, rfl⟩
abbrev main_call7_cst_2 : Ref sig .tc := ⟨.hbm, 493, rfl⟩
abbrev main_call7_v6 : Ref sig .tc := ⟨.hbm, 494, rfl⟩
abbrev main_call7_v7 : Ref sig .tc := ⟨.hbm, 495, rfl⟩
abbrev main_v296 : Ref sig .tc := ⟨.hbm, 496, rfl⟩
abbrev main_cst_70 : Ref sig .tc := ⟨.hbm, 497, rfl⟩
abbrev main_v297 : Ref sig .tc := ⟨.hbm, 498, rfl⟩
abbrev main_cst_71 : Ref sig .tc := ⟨.hbm, 499, rfl⟩
abbrev main_v298 : Ref sig .tc := ⟨.hbm, 500, rfl⟩
abbrev main_v299 : Ref sig .tc := ⟨.hbm, 501, rfl⟩
abbrev main_v300 : Ref sig .tc := ⟨.hbm, 502, rfl⟩
abbrev main_v301 : Ref sig .tc := ⟨.hbm, 503, rfl⟩
abbrev main_v302 : Ref sig .tc := ⟨.hbm, 504, rfl⟩
abbrev main_v303 : Ref sig .tc := ⟨.hbm, 505, rfl⟩
abbrev main_cst_72 : Ref sig .tc := ⟨.hbm, 506, rfl⟩
abbrev main_v304 : Ref sig .tc := ⟨.hbm, 507, rfl⟩
abbrev main_cst_73 : Ref sig .tc := ⟨.hbm, 508, rfl⟩
abbrev main_v305 : Ref sig .tc := ⟨.hbm, 509, rfl⟩
abbrev main_v306 : Ref sig .tc := ⟨.hbm, 510, rfl⟩
abbrev main_v307 : Ref sig .tc := ⟨.hbm, 511, rfl⟩
abbrev main_v308 : Ref sig .tc := ⟨.hbm, 512, rfl⟩
abbrev main_v309 : Ref sig .tc := ⟨.hbm, 513, rfl⟩
abbrev main_cst_74 : Ref sig .tc := ⟨.hbm, 514, rfl⟩
abbrev main_v310 : Ref sig .tc := ⟨.hbm, 515, rfl⟩
abbrev main_v311 : Ref sig .tc := ⟨.hbm, 516, rfl⟩
abbrev main_v312 : Ref sig .tc := ⟨.hbm, 517, rfl⟩
abbrev main_v313 : Ref sig .tc := ⟨.hbm, 518, rfl⟩
abbrev main_v314 : Ref sig .tc := ⟨.hbm, 519, rfl⟩
abbrev main_v315 : Ref sig .tc := ⟨.hbm, 520, rfl⟩
abbrev main_v316 : Ref sig .tc := ⟨.hbm, 521, rfl⟩
abbrev main_v317 : Ref sig .tc := ⟨.hbm, 522, rfl⟩
abbrev main_v318 : Ref sig .tc := ⟨.hbm, 523, rfl⟩
abbrev main_v319 : Ref sig .tc := ⟨.hbm, 524, rfl⟩
abbrev main_v320 : Ref sig .tc := ⟨.hbm, 525, rfl⟩
abbrev main_v321 : Ref sig .tc := ⟨.hbm, 526, rfl⟩
abbrev main_v322 : Ref sig .tc := ⟨.hbm, 527, rfl⟩

abbrev nD : Nat := 1
abbrev τ : Topo := Topo.v7x

variable {F : FTy → Type} [FloatOps F]

class Facts₀ : Prop where
  reducesTo_S131072x6_S6_d0 : S131072x6.ReducesTo [0] S6
  h_S_ : 0 < S_.numel
  bcast_S_S6 : S_.BroadcastsInDim S6 (![] : Fin 0 → Fin S6.rank)
  bcast_S6_S1x6_1 : S6.BroadcastsInDim S1x6 (![1] : Fin 1 → Fin S1x6.rank)
  bcast_S1x6_S131072x6_0_1 : S1x6.BroadcastsInDim S131072x6 (![0, 1] : Fin 2 → Fin S131072x6.rank)
  reducesTo_S131072x80_S80_d0 : S131072x80.ReducesTo [0] S80
  bcast_S_S80 : S_.BroadcastsInDim S80 (![] : Fin 0 → Fin S80.rank)
  bcast_S80_S1x80_1 : S80.BroadcastsInDim S1x80 (![1] : Fin 1 → Fin S1x80.rank)
  bcast_S1x80_S131072x80_0_1 : S1x80.BroadcastsInDim S131072x80 (![0, 1] : Fin 2 → Fin S131072x80.rank)
  bcast_S_S131072x80 : S_.BroadcastsInDim S131072x80 (![] : Fin 0 → Fin S131072x80.rank)
  bcast_S_S917504 : S_.BroadcastsInDim S917504 (![] : Fin 0 → Fin S917504.rank)
  bcast_S917504_S917504x1_0 : S917504.BroadcastsInDim S917504x1 (![0] : Fin 1 → Fin S917504x1.rank)
  slices_S4x80x80_S1x80x80_0_0_0 : S4x80x80.Slices ![0, 0, 0] S1x80x80
  shapeCasts_S1x80x80_S80x80 : S1x80x80.ShapeCasts S80x80
  bcast_S_S65536 : S_.BroadcastsInDim S65536 (![] : Fin 0 → Fin S65536.rank)
  bcast_S65536_S65536x1_0 : S65536.BroadcastsInDim S65536x1 (![0] : Fin 1 → Fin S65536x1.rank)
  bcast_S_S458752 : S_.BroadcastsInDim S458752 (![] : Fin 0 → Fin S458752.rank)
  bcast_S458752_S458752x1_0 : S458752.BroadcastsInDim S458752x1 (![0] : Fin 1 → Fin S458752x1.rank)
  slices_S4x80x80_S1x80x80_1_0_0 : S4x80x80.Slices ![1, 0, 0] S1x80x80
  bcast_S_S65536x80 : S_.BroadcastsInDim S65536x80 (![] : Fin 0 → Fin S65536x80.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S229376 : S_.BroadcastsInDim S229376 (![] : Fin 0 → Fin S229376.rank)
  bcast_S229376_S229376x1_0 : S229376.BroadcastsInDim S229376x1 (![0] : Fin 1 → Fin S229376x1.rank)
  slices_S4x80x80_S1x80x80_2_0_0 : S4x80x80.Slices ![2, 0, 0] S1x80x80
  bcast_S_S32768x80 : S_.BroadcastsInDim S32768x80 (![] : Fin 0 → Fin S32768x80.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S114688 : S_.BroadcastsInDim S114688 (![] : Fin 0 → Fin S114688.rank)
  bcast_S114688_S114688x1_0 : S114688.BroadcastsInDim S114688x1 (![0] : Fin 1 → Fin S114688x1.rank)
  slices_S4x80x80_S1x80x80_3_0_0 : S4x80x80.Slices ![3, 0, 0] S1x80x80
  bcast_S_S16384x80 : S_.BroadcastsInDim S16384x80 (![] : Fin 0 → Fin S16384x80.rank)
  bcast_S_S8192 : S_.BroadcastsInDim S8192 (![] : Fin 0 → Fin S8192.rank)
  bcast_S8192_S8192x1_0 : S8192.BroadcastsInDim S8192x1 (![0] : Fin 1 → Fin S8192x1.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  reducesTo_S131072x64_S64_d0 : S131072x64.ReducesTo [0] S64
  bcast_S_S64 : S_.BroadcastsInDim S64 (![] : Fin 0 → Fin S64.rank)
  dot_S131072x6_S6x80_S131072x80_1_0_0_1_n_n_wf : DotDims.WF S131072x6 S6x80 S131072x80 [1] [0] [0] [1] [] []
  gather_S131072x80_S917504x1_S917504x80_1_0_n_n_0_1_180_wf : GatherDims.WF S131072x80 S917504x1 S917504x80 [1] [0] [] [0] [] 1 ![1, 80]
  dot_S917504x80_S80x80_S917504x80_1_0_0_1_n_n_wf : DotDims.WF S917504x80 S80x80 S917504x80 [1] [0] [0] [1] [] []
  scatter_S131072x80_S917504x1_S917504x80_1_0_0_1_wf : ScatterDims.WF S131072x80 S917504x1 S917504x80 [1] [0] [0] 1
  gather_S131072x80_S65536x1_S65536x80_1_0_n_n_0_1_180_wf : GatherDims.WF S131072x80 S65536x1 S65536x80 [1] [0] [] [0] [] 1 ![1, 80]
  gather_S65536x80_S458752x1_S458752x80_1_0_n_n_0_1_180_wf : GatherDims.WF S65536x80 S458752x1 S458752x80 [1] [0] [] [0] [] 1 ![1, 80]
  dot_S458752x80_S80x80_S458752x80_1_0_0_1_n_n_wf : DotDims.WF S458752x80 S80x80 S458752x80 [1] [0] [0] [1] [] []
  scatter_S65536x80_S458752x1_S458752x80_1_0_0_1_wf : ScatterDims.WF S65536x80 S458752x1 S458752x80 [1] [0] [0] 1
  gather_S65536x80_S32768x1_S32768x80_1_0_n_n_0_1_180_wf : GatherDims.WF S65536x80 S32768x1 S32768x80 [1] [0] [] [0] [] 1 ![1, 80]
  scatter_S131072x80_S65536x1_S65536x80_1_0_0_1_wf : ScatterDims.WF S131072x80 S65536x1 S65536x80 [1] [0] [0] 1
  gather_S32768x80_S229376x1_S229376x80_1_0_n_n_0_1_180_wf : GatherDims.WF S32768x80 S229376x1 S229376x80 [1] [0] [] [0] [] 1 ![1, 80]
  dot_S229376x80_S80x80_S229376x80_1_0_0_1_n_n_wf : DotDims.WF S229376x80 S80x80 S229376x80 [1] [0] [0] [1] [] []
  scatter_S32768x80_S229376x1_S229376x80_1_0_0_1_wf : ScatterDims.WF S32768x80 S229376x1 S229376x80 [1] [0] [0] 1
  gather_S32768x80_S16384x1_S16384x80_1_0_n_n_0_1_180_wf : GatherDims.WF S32768x80 S16384x1 S16384x80 [1] [0] [] [0] [] 1 ![1, 80]
  scatter_S65536x80_S32768x1_S32768x80_1_0_0_1_wf : ScatterDims.WF S65536x80 S32768x1 S32768x80 [1] [0] [0] 1
  gather_S16384x80_S114688x1_S114688x80_1_0_n_n_0_1_180_wf : GatherDims.WF S16384x80 S114688x1 S114688x80 [1] [0] [] [0] [] 1 ![1, 80]
  dot_S114688x80_S80x80_S114688x80_1_0_0_1_n_n_wf : DotDims.WF S114688x80 S80x80 S114688x80 [1] [0] [0] [1] [] []
  scatter_S16384x80_S114688x1_S114688x80_1_0_0_1_wf : ScatterDims.WF S16384x80 S114688x1 S114688x80 [1] [0] [0] 1
  gather_S16384x80_S8192x1_S8192x80_1_0_n_n_0_1_180_wf : GatherDims.WF S16384x80 S8192x1 S8192x80 [1] [0] [] [0] [] 1 ![1, 80]
  scatter_S32768x80_S16384x1_S16384x80_1_0_0_1_wf : ScatterDims.WF S32768x80 S16384x1 S16384x80 [1] [0] [0] 1
  dot_S131072x80_S80x64_S131072x64_1_0_0_1_n_n_wf : DotDims.WF S131072x80 S80x64 S131072x64 [1] [0] [0] [1] [] []
  dot_S131072x64_S64x64_S131072x64_1_0_0_1_n_n_wf : DotDims.WF S131072x64 S64x64 S131072x64 [1] [0] [0] [1] [] []
  dot_S131072x64_S64x13_S131072x13_1_0_0_1_n_n_wf : DotDims.WF S131072x64 S64x13 S131072x13 [1] [0] [0] [1] [] []

variable [Facts₀]

def dot_S131072x6_S6x80_S131072x80_1_0_0_1_n_n : DotDims S131072x6 S6x80 S131072x80 where
  lhsContracting := [1]
  rhsContracting := [0]
  lhsNonContracting := [0]
  rhsNonContracting := [1]
  lhsBatch := []
  rhsBatch := []
  wf := dot_S131072x6_S6x80_S131072x80_1_0_0_1_n_n_wf
def gather_S131072x80_S917504x1_S917504x80_1_0_n_n_0_1_180 : GatherDims S131072x80 S917504x1 S917504x80 where
  offsetDims := [1]
  collapsedSliceDims := [0]
  operandBatchingDims := []
  startIndicesBatchingDims := []
  startIndexMap := [0]
  indexVectorDim := 1
  sliceSizes := ![1, 80]
  wf := gather_S131072x80_S917504x1_S917504x80_1_0_n_n_0_1_180_wf
def dot_S917504x80_S80x80_S917504x80_1_0_0_1_n_n : DotDims S917504x80 S80x80 S917504x80 where
  lhsContracting := [1]
  rhsContracting := [0]
  lhsNonContracting := [0]
  rhsNonContracting := [1]
  lhsBatch := []
  rhsBatch := []
  wf := dot_S917504x80_S80x80_S917504x80_1_0_0_1_n_n_wf
def scatter_S131072x80_S917504x1_S917504x80_1_0_0_1 : ScatterDims S131072x80 S917504x1 S917504x80 where
  updateWindowDims := [1]
  insertedWindowDims := [0]
  scatterDimsToOperandDims := [0]
  indexVectorDim := 1
  wf := scatter_S131072x80_S917504x1_S917504x80_1_0_0_1_wf
def gather_S131072x80_S65536x1_S65536x80_1_0_n_n_0_1_180 : GatherDims S131072x80 S65536x1 S65536x80 where
  offsetDims := [1]
  collapsedSliceDims := [0]
  operandBatchingDims := []
  startIndicesBatchingDims := []
  startIndexMap := [0]
  indexVectorDim := 1
  sliceSizes := ![1, 80]
  wf := gather_S131072x80_S65536x1_S65536x80_1_0_n_n_0_1_180_wf
def gather_S65536x80_S458752x1_S458752x80_1_0_n_n_0_1_180 : GatherDims S65536x80 S458752x1 S458752x80 where
  offsetDims := [1]
  collapsedSliceDims := [0]
  operandBatchingDims := []
  startIndicesBatchingDims := []
  startIndexMap := [0]
  indexVectorDim := 1
  sliceSizes := ![1, 80]
  wf := gather_S65536x80_S458752x1_S458752x80_1_0_n_n_0_1_180_wf
def dot_S458752x80_S80x80_S458752x80_1_0_0_1_n_n : DotDims S458752x80 S80x80 S458752x80 where
  lhsContracting := [1]
  rhsContracting := [0]
  lhsNonContracting := [0]
  rhsNonContracting := [1]
  lhsBatch := []
  rhsBatch := []
  wf := dot_S458752x80_S80x80_S458752x80_1_0_0_1_n_n_wf
def scatter_S65536x80_S458752x1_S458752x80_1_0_0_1 : ScatterDims S65536x80 S458752x1 S458752x80 where
  updateWindowDims := [1]
  insertedWindowDims := [0]
  scatterDimsToOperandDims := [0]
  indexVectorDim := 1
  wf := scatter_S65536x80_S458752x1_S458752x80_1_0_0_1_wf
def gather_S65536x80_S32768x1_S32768x80_1_0_n_n_0_1_180 : GatherDims S65536x80 S32768x1 S32768x80 where
  offsetDims := [1]
  collapsedSliceDims := [0]
  operandBatchingDims := []
  startIndicesBatchingDims := []
  startIndexMap := [0]
  indexVectorDim := 1
  sliceSizes := ![1, 80]
  wf := gather_S65536x80_S32768x1_S32768x80_1_0_n_n_0_1_180_wf
def scatter_S131072x80_S65536x1_S65536x80_1_0_0_1 : ScatterDims S131072x80 S65536x1 S65536x80 where
  updateWindowDims := [1]
  insertedWindowDims := [0]
  scatterDimsToOperandDims := [0]
  indexVectorDim := 1
  wf := scatter_S131072x80_S65536x1_S65536x80_1_0_0_1_wf
def gather_S32768x80_S229376x1_S229376x80_1_0_n_n_0_1_180 : GatherDims S32768x80 S229376x1 S229376x80 where
  offsetDims := [1]
  collapsedSliceDims := [0]
  operandBatchingDims := []
  startIndicesBatchingDims := []
  startIndexMap := [0]
  indexVectorDim := 1
  sliceSizes := ![1, 80]
  wf := gather_S32768x80_S229376x1_S229376x80_1_0_n_n_0_1_180_wf
def dot_S229376x80_S80x80_S229376x80_1_0_0_1_n_n : DotDims S229376x80 S80x80 S229376x80 where
  lhsContracting := [1]
  rhsContracting := [0]
  lhsNonContracting := [0]
  rhsNonContracting := [1]
  lhsBatch := []
  rhsBatch := []
  wf := dot_S229376x80_S80x80_S229376x80_1_0_0_1_n_n_wf
def scatter_S32768x80_S229376x1_S229376x80_1_0_0_1 : ScatterDims S32768x80 S229376x1 S229376x80 where
  updateWindowDims := [1]
  insertedWindowDims := [0]
  scatterDimsToOperandDims := [0]
  indexVectorDim := 1
  wf := scatter_S32768x80_S229376x1_S229376x80_1_0_0_1_wf
def gather_S32768x80_S16384x1_S16384x80_1_0_n_n_0_1_180 : GatherDims S32768x80 S16384x1 S16384x80 where
  offsetDims := [1]
  collapsedSliceDims := [0]
  operandBatchingDims := []
  startIndicesBatchingDims := []
  startIndexMap := [0]
  indexVectorDim := 1
  sliceSizes := ![1, 80]
  wf := gather_S32768x80_S16384x1_S16384x80_1_0_n_n_0_1_180_wf
def scatter_S65536x80_S32768x1_S32768x80_1_0_0_1 : ScatterDims S65536x80 S32768x1 S32768x80 where
  updateWindowDims := [1]
  insertedWindowDims := [0]
  scatterDimsToOperandDims := [0]
  indexVectorDim := 1
  wf := scatter_S65536x80_S32768x1_S32768x80_1_0_0_1_wf
def gather_S16384x80_S114688x1_S114688x80_1_0_n_n_0_1_180 : GatherDims S16384x80 S114688x1 S114688x80 where
  offsetDims := [1]
  collapsedSliceDims := [0]
  operandBatchingDims := []
  startIndicesBatchingDims := []
  startIndexMap := [0]
  indexVectorDim := 1
  sliceSizes := ![1, 80]
  wf := gather_S16384x80_S114688x1_S114688x80_1_0_n_n_0_1_180_wf
def dot_S114688x80_S80x80_S114688x80_1_0_0_1_n_n : DotDims S114688x80 S80x80 S114688x80 where
  lhsContracting := [1]
  rhsContracting := [0]
  lhsNonContracting := [0]
  rhsNonContracting := [1]
  lhsBatch := []
  rhsBatch := []
  wf := dot_S114688x80_S80x80_S114688x80_1_0_0_1_n_n_wf
def scatter_S16384x80_S114688x1_S114688x80_1_0_0_1 : ScatterDims S16384x80 S114688x1 S114688x80 where
  updateWindowDims := [1]
  insertedWindowDims := [0]
  scatterDimsToOperandDims := [0]
  indexVectorDim := 1
  wf := scatter_S16384x80_S114688x1_S114688x80_1_0_0_1_wf
def gather_S16384x80_S8192x1_S8192x80_1_0_n_n_0_1_180 : GatherDims S16384x80 S8192x1 S8192x80 where
  offsetDims := [1]
  collapsedSliceDims := [0]
  operandBatchingDims := []
  startIndicesBatchingDims := []
  startIndexMap := [0]
  indexVectorDim := 1
  sliceSizes := ![1, 80]
  wf := gather_S16384x80_S8192x1_S8192x80_1_0_n_n_0_1_180_wf
def scatter_S32768x80_S16384x1_S16384x80_1_0_0_1 : ScatterDims S32768x80 S16384x1 S16384x80 where
  updateWindowDims := [1]
  insertedWindowDims := [0]
  scatterDimsToOperandDims := [0]
  indexVectorDim := 1
  wf := scatter_S32768x80_S16384x1_S16384x80_1_0_0_1_wf
def dot_S131072x80_S80x64_S131072x64_1_0_0_1_n_n : DotDims S131072x80 S80x64 S131072x64 where
  lhsContracting := [1]
  rhsContracting := [0]
  lhsNonContracting := [0]
  rhsNonContracting := [1]
  lhsBatch := []
  rhsBatch := []
  wf := dot_S131072x80_S80x64_S131072x64_1_0_0_1_n_n_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf
def dot_S131072x64_S64x13_S131072x13_1_0_0_1_n_n : DotDims S131072x64 S64x13 S131072x13 where
  lhsContracting := [1]
  rhsContracting := [0]
  lhsNonContracting := [0]
  rhsNonContracting := [1]
  lhsBatch := []
  rhsBatch := []
  wf := dot_S131072x64_S64x13_S131072x13_1_0_0_1_n_n_wf

class Facts : Prop extends Facts₀ where

variable [Facts]
-- ==== Proof.RefOps0.lean ====
import proofs.«415935_j25786983645203_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev pc0 : List (HloOp τ sig (Elt F)) :=
  [ StableHlo.nullary main_cst (constant S_ .f32 0x00000000#32),
    StableHlo.binary main_arg0 main_cst main_v0 (fun x v => Host.reduceAdd x v reducesTo_S131072x6_S6_d0 h_S_),
    StableHlo.nullary main_cst_0 (constant S_ .f32 0x48000000#32),
    StableHlo.unary main_cst_0 main_v1 (broadcastInDim S6 ![] bcast_S_S6),
    StableHlo.binary main_v0 main_v1 main_v2 Host.divf,
    StableHlo.unary main_v2 main_v3 (broadcastInDim S1x6 ![1] bcast_S6_S1x6_1),
    StableHlo.unary main_v3 main_v4 (broadcastInDim S131072x6 ![0, 1] bcast_S1x6_S131072x6_0_1),
    StableHlo.binary main_arg0 main_v4 main_v5 subf,
    StableHlo.binary main_v5 main_v5 main_v6 mulf,
    StableHlo.nullary main_cst_1 (constant S_ .f32 0x00000000#32),
    StableHlo.binary main_v6 main_cst_1 main_v7 (fun x v => Host.reduceAdd x v reducesTo_S131072x6_S6_d0 h_S_),
    StableHlo.nullary main_cst_2 (constant S_ .f32 0x48000000#32),
    StableHlo.unary main_cst_2 main_v8 (broadcastInDim S6 ![] bcast_S_S6),
    StableHlo.binary main_v7 main_v8 main_v9 Host.divf,
    StableHlo.unary main_v2 main_v10 (broadcastInDim S1x6 ![1] bcast_S6_S1x6_1),
    StableHlo.unary main_v10 main_v11 (broadcastInDim S131072x6 ![0, 1] bcast_S1x6_S131072x6_0_1),
    StableHlo.binary main_arg0 main_v11 main_v12 subf ]

abbrev wr0 : List (Ref sig .tc) :=
  [main_cst, main_v0, main_cst_0, main_v1, main_v2, main_v3, main_v4, main_v5, main_v6, main_cst_1, main_v7, main_cst_2, main_v8, main_v9, main_v10, main_v11, main_v12]

set_option maxRecDepth 8192 in
theorem wr0_sub : (pc0 : List (HloOp τ sig (Elt F))).Forall fun op => op.writes ⊆ (wr0.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc0_sub : (pc0 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub ..⟩

set_option maxRecDepth 8192 in

theorem pc0_fresh : (pc0 : List (HloOp τ sig (Elt F))).Forall fun op => op.fresh = ∅ := by
  simp only [List.Forall]
  repeat' apply And.intro
  all_goals rfl

abbrev pc1 : List (HloOp τ sig (Elt F)) :=
  [ StableHlo.nullary main_cst_3 (constant S_ .f32 0x3727C5AC#32),
    StableHlo.unary main_cst_3 main_v13 (broadcastInDim S6 ![] bcast_S_S6),
    StableHlo.binary main_v9 main_v13 main_v14 addf,
    StableHlo.unary main_v14 main_v15 Host.rsqrt,
    StableHlo.unary main_v15 main_v16 (broadcastInDim S1x6 ![1] bcast_S6_S1x6_1),
    StableHlo.unary main_v16 main_v17 (broadcastInDim S131072x6 ![0, 1] bcast_S1x6_S131072x6_0_1),
    StableHlo.binary main_v12 main_v17 main_v18 mulf,
    StableHlo.unary main_arg1 main_v19 (broadcastInDim S1x6 ![1] bcast_S6_S1x6_1),
    StableHlo.unary main_v19 main_v20 (broadcastInDim S131072x6 ![0, 1] bcast_S1x6_S131072x6_0_1),
    StableHlo.binary main_v18 main_v20 main_v21 mulf,
    StableHlo.unary main_arg2 main_v22 (broadcastInDim S1x6 ![1] bcast_S6_S1x6_1),
    StableHlo.unary main_v22 main_v23 (broadcastInDim S131072x6 ![0, 1] bcast_S1x6_S131072x6_0_1),
    StableHlo.binary main_v21 main_v23 main_v24 addf,
    StableHlo.binary main_v24 main_arg3 main_v25 (fun l r => Host.dotGeneral dot_S131072x6_S6x80_S131072x80_1_0_0_1_n_n none l r) ]

abbrev wr1 : List (Ref sig .tc) :=
  [main_cst_3, main_v13, main_v14, main_v15, main_v16, main_v17, main_v18, main_v19, main_v20, main_v21, main_v22, main_v23, main_v24, main_v25]

set_option maxRecDepth 8192 in
theorem wr1_sub : (pc1 : List (HloOp τ sig (Elt F))).Forall fun op => op.writes ⊆ (wr1.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc1_sub : (pc1 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub ..⟩

set_option maxRecDepth 8192 in

theorem pc1_fresh : (pc1 : List (HloOp τ sig (Elt F))).Forall fun op => op.fresh = ∅ := by
  simp only [List.Forall]
  repeat' apply And.intro
  all_goals rfl

abbrev pc2 : List (HloOp τ sig (Elt F)) :=
  [ StableHlo.nullary main_cst_4 (constant S_ .f32 0x00000000#32),
    StableHlo.binary main_v25 main_cst_4 main_v26 (fun x v => Host.reduceAdd x v reducesTo_S131072x80_S80_d0 h_S_),
    StableHlo.nullary main_cst_5 (constant S_ .f32 0x48000000#32),
    StableHlo.unary main_cst_5 main_v27 (broadcastInDim S80 ![] bcast_S_S80),
    StableHlo.binary main_v26 main_v27 main_v28 Host.divf,
    StableHlo.unary main_v28 main_v29 (broadcastInDim S1x80 ![1] bcast_S80_S1x80_1),
    StableHlo.unary main_v29 main_v30 (broadcastInDim S131072x80 ![0, 1] bcast_S1x80_S131072x80_0_1),
    StableHlo.binary main_v25 main_v30 main_v31 subf,
    StableHlo.binary main_v31 main_v31 main_v32 mulf,
    StableHlo.nullary main_cst_6 (constant S_ .f32 0x00000000#32),
    StableHlo.binary main_v32 main_cst_6 main_v33 (fun x v => Host.reduceAdd x v reducesTo_S131072x80_S80_d0 h_S_),
    StableHlo.nullary main_cst_7 (constant S_ .f32 0x48000000#32),
    StableHlo.unary main_cst_7 main_v34 (broadcastInDim S80 ![] bcast_S_S80),
    StableHlo.binary main_v33 main_v34 main_v35 Host.divf,
    StableHlo.unary main_v28 main_v36 (broadcastInDim S1x80 ![1] bcast_S80_S1x80_1),
    StableHlo.unary main_v36 main_v37 (broadcastInDim S131072x80 ![0, 1] bcast_S1x80_S131072x80_0_1),
    StableHlo.binary main_v25 main_v37 main_v38 subf ]

abbrev wr2 : List (Ref sig .tc) :=
  [main_cst_4, main_v26, main_cst_5, main_v27, main_v28, main_v29, main_v30, main_v31, main_v32, main_cst_6, main_v33, main_cst_7, main_v34, main_v35, main_v36, main_v37, main_v38]

set_option maxRecDepth 8192 in
theorem wr2_sub : (pc2 : List (HloOp τ sig (Elt F))).Forall fun op => op.writes ⊆ (wr2.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc2_sub : (pc2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub ..⟩

set_option maxRecDepth 8192 in

theorem pc2_fresh : (pc2 : List (HloOp τ sig (Elt F))).Forall fun op => op.fresh = ∅ := by
  simp only [List.Forall]
  repeat' apply And.intro
  all_goals rfl

abbrev pc3 : List (HloOp τ sig (Elt F)) :=
  [ StableHlo.nullary main_cst_8 (constant S_ .f32 0x3727C5AC#32),
    StableHlo.unary main_cst_8 main_v39 (broadcastInDim S80 ![] bcast_S_S80),
    StableHlo.binary main_v35 main_v39 main_v40 addf,
    StableHlo.unary main_v40 main_v41 Host.rsqrt,
    StableHlo.unary main_v41 main_v42 (broadcastInDim S1x80 ![1] bcast_S80_S1x80_1),
    StableHlo.unary main_v42 main_v43 (broadcastInDim S131072x80 ![0, 1] bcast_S1x80_S131072x80_0_1),
    StableHlo.binary main_v38 main_v43 main_v44 mulf,
    StableHlo.unary main_arg4 main_v45 (broadcastInDim S1x80 ![1] bcast_S80_S1x80_1),
    StableHlo.unary main_v45 main_v46 (broadcastInDim S131072x80 ![0, 1] bcast_S1x80_S131072x80_0_1),
    StableHlo.binary main_v44 main_v46 main_v47 mulf,
    StableHlo.unary main_arg5 main_v48 (broadcastInDim S1x80 ![1] bcast_S80_S1x80_1),
    StableHlo.unary main_v48 main_v49 (broadcastInDim S131072x80 ![0, 1] bcast_S1x80_S131072x80_0_1) ]

abbrev wr3 : List (Ref sig .tc) :=
  [main_cst_8, main_v39, main_v40, main_v41, main_v42, main_v43, main_v44, main_v45, main_v46, main_v47, main_v48, main_v49]

set_option maxRecDepth 8192 in
theorem wr3_sub : (pc3 : List (HloOp τ sig (Elt F))).Forall fun op => op.writes ⊆ (wr3.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc3_sub : (pc3 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩

set_option maxRecDepth 8192 in

theorem pc3_fresh : (pc3 : List (HloOp τ sig (Elt F))).Forall fun op => op.fresh = ∅ := by
  simp only [List.Forall]
  repeat' apply And.intro
  all_goals rfl

abbrev ops0 : List (HloOp τ sig (Elt F)) := pc0 ++ (pc1 ++ (pc2 ++ (pc3)))

set_option maxRecDepth 8192 in
set_option maxHeartbeats 4000000 in

theorem part0_eq (c : Dev nD) : main_part0 (F := F) c = seq ops0 := rfl

theorem ops0_sub : (ops0 : List (HloOp τ sig (Elt F))).Forall fun op => op.bufs ⊆ tcRefs τ sig :=
  List.forall_iff_forall_mem.mpr fun op h => by
    simp only [ops0, List.mem_append] at h
    rcases h with h | h | h | h
    exacts [List.forall_iff_forall_mem.mp pc0_sub op h, List.forall_iff_forall_mem.mp pc1_sub op h, List.forall_iff_forall_mem.mp pc2_sub op h, List.forall_iff_forall_mem.mp pc3_sub op h]

theorem ops0_fresh : ∀ op ∈ (ops0 : List (HloOp τ sig (Elt F))), op.fresh = ∅ := fun op h => by
  simp only [ops0, List.mem_append] at h
  rcases h with h | h | h | h
  exacts [List.forall_iff_forall_mem.mp pc0_fresh op h, List.forall_iff_forall_mem.mp pc1_fresh op h, List.forall_iff_forall_mem.mp pc2_fresh op h, List.forall_iff_forall_mem.mp pc3_fresh op h]

end Cert.ReferenceIdeal.RefRun

end
-- ==== Proof.RefOps1.lean ====
import proofs.«415935_j25786983645203_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev pc4 : List (HloOp τ sig (Elt F)) :=
  [ StableHlo.binary main_v47 main_v49 main_v50 addf,
    StableHlo.TRef.nullary main_call0.cst (constant S_ .f32 0x00000000#32),
    StableHlo.TRef.unary main_call0.cst main_call0.v0 (broadcastInDim S131072x80 ![] bcast_S_S131072x80),
    StableHlo.TRef.binary (.of main_v50 : StableHlo.TRef sig ⟨S131072x80, .f32⟩) main_call0.v0 main_call0.v1 maximumf ]

abbrev wr4 : List (Ref sig .tc) :=
  [main_v50, main_call0_cst, main_call0_v0, main_v51]

set_option maxRecDepth 8192 in
theorem wr4_sub : (pc4 : List (HloOp τ sig (Elt F))).Forall fun op => op.writes ⊆ (wr4.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc4_sub : (pc4 : List (HloOp τ sig (Elt F))).Forall fun op => op.bufs ⊆ tcRefs τ sig :=
  ⟨binary_bufs_sub .., nullary_bufs_sub .., unary_bufs_sub .., binary_bufs_sub ..⟩

set_option maxRecDepth 8192 in

theorem pc4_fresh : (pc4 : List (HloOp τ sig (Elt F))).Forall fun op => op.fresh = ∅ := by
  simp only [List.Forall]
  repeat' apply And.intro
  all_goals rfl

abbrev pc5 : List (HloOp τ sig (Elt F)) :=
  [ StableHlo.nullary main_c (constantI S_ 32 0#32),
    StableHlo.unary main_c main_v52 (broadcastInDim S917504 ![] bcast_S_S917504),
    StableHlo.binary main_arg17 main_v52 main_v53 (cmpi .slt),
    StableHlo.nullary main_c_9 (constantI S_ 32 131072#32),
    StableHlo.unary main_c_9 main_v54 (broadcastInDim S917504 ![] bcast_S_S917504),
    StableHlo.binary main_arg17 main_v54 main_v55 addi,
    StableHlo.ternary main_v53 main_v55 main_arg17 main_v56 select,
    StableHlo.unary main_v56 main_v57 (broadcastInDim S917504x1 ![0] bcast_S917504_S917504x1_0),
    StableHlo.binary main_v51 main_v57 main_v58 (fun x i => Host.gather gather_S131072x80_S917504x1_S917504x80_1_0_n_n_0_1_180 x i),
    StableHlo.unary main_arg6 main_v59 (extractStridedSlice S1x80x80 ![0, 0, 0] · slices_S4x80x80_S1x80x80_0_0_0),
    StableHlo.reshape main_v59 main_v60 rfl shapeCasts_S1x80x80_S80x80,
    StableHlo.binary main_v58 main_v60 main_v61 (fun l r => Host.dotGeneral dot_S917504x80_S80x80_S917504x80_1_0_0_1_n_n none l r),
    StableHlo.nullary main_cst_10 (constant S_ .f32 0x00000000#32),
    StableHlo.unary main_cst_10 main_v62 (broadcastInDim S131072x80 ![] bcast_S_S131072x80),
    StableHlo.unary main_arg16 main_v63 (broadcastInDim S917504x1 ![0] bcast_S917504_S917504x1_0),
    StableHlo.ternary main_v62 main_v63 main_v61 main_v64 (fun x i u => Host.scatterAdd scatter_S131072x80_S917504x1_S917504x80_1_0_0_1 x i u) ]

abbrev wr5 : List (Ref sig .tc) :=
  [main_c, main_v52, main_v53, main_c_9, main_v54, main_v55, main_v56, main_v57, main_v58, main_v59, main_v60, main_v61, main_cst_10, main_v62, main_v63, main_v64]

set_option maxRecDepth 8192 in
theorem wr5_sub : (pc5 : List (HloOp τ sig (Elt F))).Forall fun op => op.writes ⊆ (wr5.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc5_sub : (pc5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., unary_bufs_sub .., ternary_bufs_sub ..⟩

set_option maxRecDepth 8192 in

theorem pc5_fresh : (pc5 : List (HloOp τ sig (Elt F))).Forall fun op => op.fresh = ∅ := by
  simp only [List.Forall]
  repeat' apply And.intro
  all_goals rfl

abbrev pc6 : List (HloOp τ sig (Elt F)) :=
  [ StableHlo.binary main_v51 main_v64 main_v65 addf,
    StableHlo.TRef.nullary main_call1.cst (constant S_ .f32 0x00000000#32),
    StableHlo.TRef.unary main_call1.cst main_call1.v0 (broadcastInDim S131072x80 ![] bcast_S_S131072x80),
    StableHlo.TRef.binary (.of main_v65 : StableHlo.TRef sig ⟨S131072x80, .f32⟩) main_call1.v0 main_call1.v1 (cmpf .ogt),
    StableHlo.TRef.nullary main_call1.cst_0 (constant S_ .f32 0x00000000#32),
    StableHlo.TRef.unary main_call1.cst_0 main_call1.v2 (broadcastInDim S131072x80 ![] bcast_S_S131072x80),
    StableHlo.TRef.binary (.of main_v65 : StableHlo.TRef sig ⟨S131072x80, .f32⟩) main_call1.v2 main_call1.v3 (cmpf .ogt),
    StableHlo.TRef.nullary main_call1.cst_1 (constant S_ .f32 0x00000000#32),
    StableHlo.TRef.unary main_call1.cst_1 main_call1_call0.v0 id,
    StableHlo.TRef.unary main_call1_call0.v0 main_call1_call0.v1 (broadcastInDim S131072x80 ![] bcast_S_S131072x80),
    StableHlo.TRef.ternary main_call1.v3 main_call1_call0.v1 (.of main_v65 : StableHlo.TRef sig ⟨S131072x80, .f32⟩) main_call1_call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S131072x80 ![] bcast_S_S131072x80),
    StableHlo.TRef.binary main_call1.v6 main_call1.v5 main_call1.v7 mulf,
    StableHlo.TRef.ternary main_call1.v1 (.of main_v65 : StableHlo.TRef sig ⟨S131072x80, .f32⟩) main_call1.v7 main_call1_call1.v0 select ]

abbrev wr6 : List (Ref sig .tc) :=
  [main_v65, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v66]

set_option maxRecDepth 8192 in
theorem wr6_sub : (pc6 : List (HloOp τ sig (Elt F))).Forall fun op => op.writes ⊆ (wr6.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc6_sub : (pc6 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in

theorem pc6_fresh : (pc6 : List (HloOp τ sig (Elt F))).Forall fun op => op.fresh = ∅ := by
  simp only [List.Forall]
  repeat' apply And.intro
  all_goals rfl

abbrev pc7 : List (HloOp τ sig (Elt F)) :=
  [ StableHlo.nullary main_c_11 (constantI S_ 32 0#32),
    StableHlo.unary main_c_11 main_v67 (broadcastInDim S65536 ![] bcast_S_S65536),
    StableHlo.binary main_arg24 main_v67 main_v68 (cmpi .slt),
    StableHlo.nullary main_c_12 (constantI S_ 32 131072#32),
    StableHlo.unary main_c_12 main_v69 (broadcastInDim S65536 ![] bcast_S_S65536),
    StableHlo.binary main_arg24 main_v69 main_v70 addi,
    StableHlo.ternary main_v68 main_v70 main_arg24 main_v71 select,
    StableHlo.unary main_v71 main_v72 (broadcastInDim S65536x1 ![0] bcast_S65536_S65536x1_0),
    StableHlo.binary main_v66 main_v72 main_v73 (fun x i => Host.gather gather_S131072x80_S65536x1_S65536x80_1_0_n_n_0_1_180 x i),
    StableHlo.nullary main_c_13 (constantI S_ 32 0#32),
    StableHlo.unary main_c_13 main_v74 (broadcastInDim S917504 ![] bcast_S_S917504),
    StableHlo.binary main_arg17 main_v74 main_v75 (cmpi .slt),
    StableHlo.nullary main_c_14 (constantI S_ 32 131072#32),
    StableHlo.unary main_c_14 main_v76 (broadcastInDim S917504 ![] bcast_S_S917504),
    StableHlo.binary main_arg17 main_v76 main_v77 addi,
    StableHlo.ternary main_v75 main_v77 main_arg17 main_v78 select,
    StableHlo.unary main_v78 main_v79 (broadcastInDim S917504x1 ![0] bcast_S917504_S917504x1_0),
    StableHlo.binary main_v66 main_v79 main_v80 (fun x i => Host.gather gather_S131072x80_S917504x1_S917504x80_1_0_n_n_0_1_180 x i),
    StableHlo.nullary main_cst_15 (constant S_ .f32 0x00000000#32),
    StableHlo.unary main_cst_15 main_v81 (broadcastInDim S131072x80 ![] bcast_S_S131072x80),
    StableHlo.unary main_arg16 main_v82 (broadcastInDim S917504x1 ![0] bcast_S917504_S917504x1_0),
    StableHlo.ternary main_v81 main_v82 main_v80 main_v83 (fun x i u => Host.scatterAdd scatter_S131072x80_S917504x1_S917504x80_1_0_0_1 x i u) ]

abbrev wr7 : List (Ref sig .tc) :=
  [main_c_11, main_v67, main_v68, main_c_12, main_v69, main_v70, main_v71, main_v72, main_v73, main_c_13, main_v74, main_v75, main_c_14, main_v76, main_v77, main_v78, main_v79, main_v80, main_cst_15, main_v81, main_v82, main_v83]

set_option maxRecDepth 8192 in
theorem wr7_sub : (pc7 : List (HloOp τ sig (Elt F))).Forall fun op => op.writes ⊆ (wr7.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc7_sub : (pc7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

set_option maxRecDepth 8192 in

theorem pc7_fresh : (pc7 : List (HloOp τ sig (Elt F))).Forall fun op => op.fresh = ∅ := by
  simp only [List.Forall]
  repeat' apply And.intro
  all_goals rfl

abbrev pc8 : List (HloOp τ sig (Elt F)) :=
  [ StableHlo.nullary main_c_16 (constantI S_ 32 0#32),
    StableHlo.unary main_c_16 main_v84 (broadcastInDim S458752 ![] bcast_S_S458752),
    StableHlo.binary main_arg19 main_v84 main_v85 (cmpi .slt),
    StableHlo.nullary main_c_17 (constantI S_ 32 65536#32),
    StableHlo.unary main_c_17 main_v86 (broadcastInDim S458752 ![] bcast_S_S458752),
    StableHlo.binary main_arg19 main_v86 main_v87 addi,
    StableHlo.ternary main_v85 main_v87 main_arg19 main_v88 select,
    StableHlo.unary main_v88 main_v89 (broadcastInDim S458752x1 ![0] bcast_S458752_S458752x1_0),
    StableHlo.binary main_v73 main_v89 main_v90 (fun x i => Host.gather gather_S65536x80_S458752x1_S458752x80_1_0_n_n_0_1_180 x i),
    StableHlo.unary main_arg6 main_v91 (extractStridedSlice S1x80x80 ![1, 0, 0] · slices_S4x80x80_S1x80x80_1_0_0),
    StableHlo.reshape main_v91 main_v92 rfl shapeCasts_S1x80x80_S80x80,
    StableHlo.binary main_v90 main_v92 main_v93 (fun l r => Host.dotGeneral dot_S458752x80_S80x80_S458752x80_1_0_0_1_n_n none l r),
    StableHlo.nullary main_cst_18 (constant S_ .f32 0x00000000#32),
    StableHlo.unary main_cst_18 main_v94 (broadcastInDim S65536x80 ![] bcast_S_S65536x80),
    StableHlo.unary main_arg18 main_v95 (broadcastInDim S458752x1 ![0] bcast_S458752_S458752x1_0),
    StableHlo.ternary main_v94 main_v95 main_v93 main_v96 (fun x i u => Host.scatterAdd scatter_S65536x80_S458752x1_S458752x80_1_0_0_1 x i u) ]

abbrev wr8 : List (Ref sig .tc) :=
  [main_c_16, main_v84, main_v85, main_c_17, main_v86, main_v87, main_v88, main_v89, main_v90, main_v91, main_v92, main_v93, main_cst_18, main_v94, main_v95, main_v96]

set_option maxRecDepth 8192 in
theorem wr8_sub : (pc8 : List (HloOp τ sig (Elt F))).Forall fun op => op.writes ⊆ (wr8.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc8_sub : (pc8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., unary_bufs_sub .., ternary_bufs_sub ..⟩

set_option maxRecDepth 8192 in

theorem pc8_fresh : (pc8 : List (HloOp τ sig (Elt F))).Forall fun op => op.fresh = ∅ := by
  simp only [List.Forall]
  repeat' apply And.intro
  all_goals rfl

abbrev pc9 : List (HloOp τ sig (Elt F)) :=
  [ StableHlo.binary main_v73 main_v96 main_v97 addf,
    StableHlo.TRef.nullary main_call2.cst (constant S_ .f32 0x00000000#32),
    StableHlo.TRef.unary main_call2.cst main_call2.v0 (broadcastInDim S65536x80 ![] bcast_S_S65536x80),
    StableHlo.TRef.binary (.of main_v97 : StableHlo.TRef sig ⟨S65536x80, .f32⟩) main_call2.v0 main_call2.v1 (cmpf .ogt),
    StableHlo.TRef.nullary main_call2.cst_0 (constant S_ .f32 0x00000000#32),
    StableHlo.TRef.unary main_call2.cst_0 main_call2.v2 (broadcastInDim S65536x80 ![] bcast_S_S65536x80),
    StableHlo.TRef.binary (.of main_v97 : StableHlo.TRef sig ⟨S65536x80, .f32⟩) main_call2.v2 main_call2.v3 (cmpf .ogt),
    StableHlo.TRef.nullary main_call2.cst_1 (constant S_ .f32 0x00000000#32),
    StableHlo.TRef.unary main_call2.cst_1 main_call2_call0.v0 id,
    StableHlo.TRef.unary main_call2_call0.v0 main_call2_call0.v1 (broadcastInDim S65536x80 ![] bcast_S_S65536x80),
    StableHlo.TRef.ternary main_call2.v3 main_call2_call0.v1 (.of main_v97 : StableHlo.TRef sig ⟨S65536x80, .f32⟩) main_call2_call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S65536x80 ![] bcast_S_S65536x80),
    StableHlo.TRef.binary main_call2.v6 main_call2.v5 main_call2.v7 mulf,
    StableHlo.TRef.ternary main_call2.v1 (.of main_v97 : StableHlo.TRef sig ⟨S65536x80, .f32⟩) main_call2.v7 main_call2_call1.v0 select ]

abbrev wr9 : List (Ref sig .tc) :=
  [main_v97, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v98]

set_option maxRecDepth 8192 in
theorem wr9_sub : (pc9 : List (HloOp τ sig (Elt F))).Forall fun op => op.writes ⊆ (wr9.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc9_sub : (pc9 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in

theorem pc9_fresh : (pc9 : List (HloOp τ sig (Elt F))).Forall fun op => op.fresh = ∅ := by
  simp only [List.Forall]
  repeat' apply And.intro
  all_goals rfl

abbrev ops1 : List (HloOp τ sig (Elt F)) := pc4 ++ (pc5 ++ (pc6 ++ (pc7 ++ (pc8 ++ (pc9)))))

set_option maxRecDepth 8192 in
set_option maxHeartbeats 4000000 in

theorem part1_eq (c : Dev nD) : main_part1 (F := F) c = seq ops1 := rfl

theorem ops1_sub : (ops1 : List (HloOp τ sig (Elt F))).Forall fun op => op.bufs ⊆ tcRefs τ sig :=
  List.forall_iff_forall_mem.mpr fun op h => by
    simp only [ops1, List.mem_append] at h
    rcases h with h | h | h | h | h | h
    exacts [List.forall_iff_forall_mem.mp pc4_sub op h, List.forall_iff_forall_mem.mp pc5_sub op h, List.forall_iff_forall_mem.mp pc6_sub op h, List.forall_iff_forall_mem.mp pc7_sub op h, List.forall_iff_forall_mem.mp pc8_sub op h, List.forall_iff_forall_mem.mp pc9_sub op h]

theorem ops1_fresh : ∀ op ∈ (ops1 : List (HloOp τ sig (Elt F))), op.fresh = ∅ := fun op h => by
  simp only [ops1, List.mem_append] at h
  rcases h with h | h | h | h | h | h
  exacts [List.forall_iff_forall_mem.mp pc4_fresh op h, List.forall_iff_forall_mem.mp pc5_fresh op h, List.forall_iff_forall_mem.mp pc6_fresh op h, List.forall_iff_forall_mem.mp pc7_fresh op h, List.forall_iff_forall_mem.mp pc8_fresh op h, List.forall_iff_forall_mem.mp pc9_fresh op h]

end Cert.ReferenceIdeal.RefRun

end
-- ==== Proof.RefOps2.lean ====
import proofs.«415935_j25786983645203_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev pc10 : List (HloOp τ sig (Elt F)) :=
  [ StableHlo.nullary main_c_19 (constantI S_ 32 0#32),
    StableHlo.unary main_c_19 main_v99 (broadcastInDim S32768 ![] bcast_S_S32768),
    StableHlo.binary main_arg25 main_v99 main_v100 (cmpi .slt),
    StableHlo.nullary main_c_20 (constantI S_ 32 65536#32),
    StableHlo.unary main_c_20 main_v101 (broadcastInDim S32768 ![] bcast_S_S32768),
    StableHlo.binary main_arg25 main_v101 main_v102 addi,
    StableHlo.ternary main_v100 main_v102 main_arg25 main_v103 select,
    StableHlo.unary main_v103 main_v104 (broadcastInDim S32768x1 ![0] bcast_S32768_S32768x1_0),
    StableHlo.binary main_v98 main_v104 main_v105 (fun x i => Host.gather gather_S65536x80_S32768x1_S32768x80_1_0_n_n_0_1_180 x i),
    StableHlo.nullary main_c_21 (constantI S_ 32 0#32),
    StableHlo.unary main_c_21 main_v106 (broadcastInDim S458752 ![] bcast_S_S458752),
    StableHlo.binary main_arg19 main_v106 main_v107 (cmpi .slt),
    StableHlo.nullary main_c_22 (constantI S_ 32 65536#32),
    StableHlo.unary main_c_22 main_v108 (broadcastInDim S458752 ![] bcast_S_S458752),
    StableHlo.binary main_arg19 main_v108 main_v109 addi,
    StableHlo.ternary main_v107 main_v109 main_arg19 main_v110 select,
    StableHlo.unary main_v110 main_v111 (broadcastInDim S458752x1 ![0] bcast_S458752_S458752x1_0),
    StableHlo.binary main_v98 main_v111 main_v112 (fun x i => Host.gather gather_S65536x80_S458752x1_S458752x80_1_0_n_n_0_1_180 x i),
    StableHlo.nullary main_cst_23 (constant S_ .f32 0x00000000#32),
    StableHlo.unary main_cst_23 main_v113 (broadcastInDim S65536x80 ![] bcast_S_S65536x80),
    StableHlo.unary main_arg18 main_v114 (broadcastInDim S458752x1 ![0] bcast_S458752_S458752x1_0),
    StableHlo.ternary main_v113 main_v114 main_v112 main_v115 (fun x i u => Host.scatterAdd scatter_S65536x80_S458752x1_S458752x80_1_0_0_1 x i u),
    StableHlo.nullary main_c_24 (constantI S_ 32 0#32),
    StableHlo.unary main_c_24 main_v116 (broadcastInDim S65536 ![] bcast_S_S65536),
    StableHlo.binary main_arg24 main_v116 main_v117 (cmpi .slt),
    StableHlo.nullary main_c_25 (constantI S_ 32 131072#32),
    StableHlo.unary main_c_25 main_v118 (broadcastInDim S65536 ![] bcast_S_S65536),
    StableHlo.binary main_arg24 main_v118 main_v119 addi,
    StableHlo.ternary main_v117 main_v119 main_arg24 main_v120 select,
    StableHlo.unary main_v120 main_v121 (broadcastInDim S65536x1 ![0] bcast_S65536_S65536x1_0),
    StableHlo.ternary main_v83 main_v121 main_v115 main_v122 (fun x i u => Host.scatter scatter_S131072x80_S65536x1_S65536x80_1_0_0_1 (fun _ b => b) x i u),
    StableHlo.nullary main_c_26 (constantI S_ 32 0#32),
    StableHlo.unary main_c_26 main_v123 (broadcastInDim S917504 ![] bcast_S_S917504),
    StableHlo.binary main_arg17 main_v123 main_v124 (cmpi .slt),
    StableHlo.nullary main_c_27 (constantI S_ 32 131072#32),
    StableHlo.unary main_c_27 main_v125 (broadcastInDim S917504 ![] bcast_S_S917504),
    StableHlo.binary main_arg17 main_v125 main_v126 addi,
    StableHlo.ternary main_v124 main_v126 main_arg17 main_v127 select,
    StableHlo.unary main_v127 main_v128 (broadcastInDim S917504x1 ![0] bcast_S917504_S917504x1_0),
    StableHlo.binary main_v122 main_v128 main_v129 (fun x i => Host.gather gather_S131072x80_S917504x1_S917504x80_1_0_n_n_0_1_180 x i),
    StableHlo.nullary main_cst_28 (constant S_ .f32 0x00000000#32),
    StableHlo.unary main_cst_28 main_v130 (broadcastInDim S131072x80 ![] bcast_S_S131072x80),
    StableHlo.unary main_arg16 main_v131 (broadcastInDim S917504x1 ![0] bcast_S917504_S917504x1_0),
    StableHlo.ternary main_v130 main_v131 main_v129 main_v132 (fun x i u => Host.scatterAdd scatter_S131072x80_S917504x1_S917504x80_1_0_0_1 x i u) ]

abbrev wr10 : List (Ref sig .tc) :=
  [main_c_19, main_v99, main_v100, main_c_20, main_v101, main_v102, main_v103, main_v104, main_v105, main_c_21, main_v106, main_v107, main_c_22, main_v108, main_v109, main_v110, main_v111, main_v112, main_cst_23, main_v113, main_v114, main_v115, main_c_24, main_v116, main_v117, main_c_25, main_v118, main_v119, main_v120, main_v121, main_v122, main_c_26, main_v123, main_v124, main_c_27, main_v125, main_v126, main_v127, main_v128, main_v129, main_cst_28, main_v130, main_v131, main_v132]

set_option maxRecDepth 8192 in
theorem wr10_sub : (pc10 : List (HloOp τ sig (Elt F))).Forall fun op => op.writes ⊆ (wr10.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc10_sub : (pc10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

set_option maxRecDepth 8192 in

theorem pc10_fresh : (pc10 : List (HloOp τ sig (Elt F))).Forall fun op => op.fresh = ∅ := by
  simp only [List.Forall]
  repeat' apply And.intro
  all_goals rfl

abbrev pc11 : List (HloOp τ sig (Elt F)) :=
  [ StableHlo.nullary main_c_29 (constantI S_ 32 0#32),
    StableHlo.unary main_c_29 main_v133 (broadcastInDim S229376 ![] bcast_S_S229376),
    StableHlo.binary main_arg21 main_v133 main_v134 (cmpi .slt),
    StableHlo.nullary main_c_30 (constantI S_ 32 32768#32),
    StableHlo.unary main_c_30 main_v135 (broadcastInDim S229376 ![] bcast_S_S229376),
    StableHlo.binary main_arg21 main_v135 main_v136 addi,
    StableHlo.ternary main_v134 main_v136 main_arg21 main_v137 select,
    StableHlo.unary main_v137 main_v138 (broadcastInDim S229376x1 ![0] bcast_S229376_S229376x1_0),
    StableHlo.binary main_v105 main_v138 main_v139 (fun x i => Host.gather gather_S32768x80_S229376x1_S229376x80_1_0_n_n_0_1_180 x i),
    StableHlo.unary main_arg6 main_v140 (extractStridedSlice S1x80x80 ![2, 0, 0] · slices_S4x80x80_S1x80x80_2_0_0),
    StableHlo.reshape main_v140 main_v141 rfl shapeCasts_S1x80x80_S80x80,
    StableHlo.binary main_v139 main_v141 main_v142 (fun l r => Host.dotGeneral dot_S229376x80_S80x80_S229376x80_1_0_0_1_n_n none l r),
    StableHlo.nullary main_cst_31 (constant S_ .f32 0x00000000#32),
    StableHlo.unary main_cst_31 main_v143 (broadcastInDim S32768x80 ![] bcast_S_S32768x80),
    StableHlo.unary main_arg20 main_v144 (broadcastInDim S229376x1 ![0] bcast_S229376_S229376x1_0),
    StableHlo.ternary main_v143 main_v144 main_v142 main_v145 (fun x i u => Host.scatterAdd scatter_S32768x80_S229376x1_S229376x80_1_0_0_1 x i u) ]

abbrev wr11 : List (Ref sig .tc) :=
  [main_c_29, main_v133, main_v134, main_c_30, main_v135, main_v136, main_v137, main_v138, main_v139, main_v140, main_v141, main_v142, main_cst_31, main_v143, main_v144, main_v145]

set_option maxRecDepth 8192 in
theorem wr11_sub : (pc11 : List (HloOp τ sig (Elt F))).Forall fun op => op.writes ⊆ (wr11.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc11_sub : (pc11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., unary_bufs_sub .., ternary_bufs_sub ..⟩

set_option maxRecDepth 8192 in

theorem pc11_fresh : (pc11 : List (HloOp τ sig (Elt F))).Forall fun op => op.fresh = ∅ := by
  simp only [List.Forall]
  repeat' apply And.intro
  all_goals rfl

abbrev ops2 : List (HloOp τ sig (Elt F)) := pc10 ++ (pc11)

set_option maxRecDepth 8192 in
set_option maxHeartbeats 4000000 in

theorem part2_eq (c : Dev nD) : main_part2 (F := F) c = seq ops2 := rfl

theorem ops2_sub : (ops2 : List (HloOp τ sig (Elt F))).Forall fun op => op.bufs ⊆ tcRefs τ sig :=
  List.forall_iff_forall_mem.mpr fun op h => by
    simp only [ops2, List.mem_append] at h
    rcases h with h | h
    exacts [List.forall_iff_forall_mem.mp pc10_sub op h, List.forall_iff_forall_mem.mp pc11_sub op h]

theorem ops2_fresh : ∀ op ∈ (ops2 : List (HloOp τ sig (Elt F))), op.fresh = ∅ := fun op h => by
  simp only [ops2, List.mem_append] at h
  rcases h with h | h
  exacts [List.forall_iff_forall_mem.mp pc10_fresh op h, List.forall_iff_forall_mem.mp pc11_fresh op h]

end Cert.ReferenceIdeal.RefRun

end
-- ==== Proof.RefOps3.lean ====
import proofs.«415935_j25786983645203_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev pc12 : List (HloOp τ sig (Elt F)) :=
  [ StableHlo.binary main_v105 main_v145 main_v146 addf,
    StableHlo.TRef.nullary main_call3.cst (constant S_ .f32 0x00000000#32),
    StableHlo.TRef.unary main_call3.cst main_call3.v0 (broadcastInDim S32768x80 ![] bcast_S_S32768x80),
    StableHlo.TRef.binary (.of main_v146 : StableHlo.TRef sig ⟨S32768x80, .f32⟩) main_call3.v0 main_call3.v1 (cmpf .ogt),
    StableHlo.TRef.nullary main_call3.cst_0 (constant S_ .f32 0x00000000#32),
    StableHlo.TRef.unary main_call3.cst_0 main_call3.v2 (broadcastInDim S32768x80 ![] bcast_S_S32768x80),
    StableHlo.TRef.binary (.of main_v146 : StableHlo.TRef sig ⟨S32768x80, .f32⟩) main_call3.v2 main_call3.v3 (cmpf .ogt),
    StableHlo.TRef.nullary main_call3.cst_1 (constant S_ .f32 0x00000000#32),
    StableHlo.TRef.unary main_call3.cst_1 main_call3_call0.v0 id,
    StableHlo.TRef.unary main_call3_call0.v0 main_call3_call0.v1 (broadcastInDim S32768x80 ![] bcast_S_S32768x80),
    StableHlo.TRef.ternary main_call3.v3 main_call3_call0.v1 (.of main_v146 : StableHlo.TRef sig ⟨S32768x80, .f32⟩) main_call3_call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S32768x80 ![] bcast_S_S32768x80),
    StableHlo.TRef.binary main_call3.v6 main_call3.v5 main_call3.v7 mulf,
    StableHlo.TRef.ternary main_call3.v1 (.of main_v146 : StableHlo.TRef sig ⟨S32768x80, .f32⟩) main_call3.v7 main_call3_call1.v0 select ]

abbrev wr12 : List (Ref sig .tc) :=
  [main_v146, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v147]

set_option maxRecDepth 8192 in
theorem wr12_sub : (pc12 : List (HloOp τ sig (Elt F))).Forall fun op => op.writes ⊆ (wr12.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc12_sub : (pc12 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in

theorem pc12_fresh : (pc12 : List (HloOp τ sig (Elt F))).Forall fun op => op.fresh = ∅ := by
  simp only [List.Forall]
  repeat' apply And.intro
  all_goals rfl

abbrev pc13 : List (HloOp τ sig (Elt F)) :=
  [ StableHlo.nullary main_c_32 (constantI S_ 32 0#32),
    StableHlo.unary main_c_32 main_v148 (broadcastInDim S16384 ![] bcast_S_S16384),
    StableHlo.binary main_arg26 main_v148 main_v149 (cmpi .slt),
    StableHlo.nullary main_c_33 (constantI S_ 32 32768#32),
    StableHlo.unary main_c_33 main_v150 (broadcastInDim S16384 ![] bcast_S_S16384),
    StableHlo.binary main_arg26 main_v150 main_v151 addi,
    StableHlo.ternary main_v149 main_v151 main_arg26 main_v152 select,
    StableHlo.unary main_v152 main_v153 (broadcastInDim S16384x1 ![0] bcast_S16384_S16384x1_0),
    StableHlo.binary main_v147 main_v153 main_v154 (fun x i => Host.gather gather_S32768x80_S16384x1_S16384x80_1_0_n_n_0_1_180 x i),
    StableHlo.nullary main_c_34 (constantI S_ 32 0#32),
    StableHlo.unary main_c_34 main_v155 (broadcastInDim S229376 ![] bcast_S_S229376),
    StableHlo.binary main_arg21 main_v155 main_v156 (cmpi .slt),
    StableHlo.nullary main_c_35 (constantI S_ 32 32768#32),
    StableHlo.unary main_c_35 main_v157 (broadcastInDim S229376 ![] bcast_S_S229376),
    StableHlo.binary main_arg21 main_v157 main_v158 addi,
    StableHlo.ternary main_v156 main_v158 main_arg21 main_v159 select,
    StableHlo.unary main_v159 main_v160 (broadcastInDim S229376x1 ![0] bcast_S229376_S229376x1_0),
    StableHlo.binary main_v147 main_v160 main_v161 (fun x i => Host.gather gather_S32768x80_S229376x1_S229376x80_1_0_n_n_0_1_180 x i),
    StableHlo.nullary main_cst_36 (constant S_ .f32 0x00000000#32),
    StableHlo.unary main_cst_36 main_v162 (broadcastInDim S32768x80 ![] bcast_S_S32768x80),
    StableHlo.unary main_arg20 main_v163 (broadcastInDim S229376x1 ![0] bcast_S229376_S229376x1_0),
    StableHlo.ternary main_v162 main_v163 main_v161 main_v164 (fun x i u => Host.scatterAdd scatter_S32768x80_S229376x1_S229376x80_1_0_0_1 x i u),
    StableHlo.nullary main_c_37 (constantI S_ 32 0#32),
    StableHlo.unary main_c_37 main_v165 (broadcastInDim S32768 ![] bcast_S_S32768),
    StableHlo.binary main_arg25 main_v165 main_v166 (cmpi .slt),
    StableHlo.nullary main_c_38 (constantI S_ 32 65536#32),
    StableHlo.unary main_c_38 main_v167 (broadcastInDim S32768 ![] bcast_S_S32768),
    StableHlo.binary main_arg25 main_v167 main_v168 addi,
    StableHlo.ternary main_v166 main_v168 main_arg25 main_v169 select,
    StableHlo.unary main_v169 main_v170 (broadcastInDim S32768x1 ![0] bcast_S32768_S32768x1_0),
    StableHlo.ternary main_v115 main_v170 main_v164 main_v171 (fun x i u => Host.scatter scatter_S65536x80_S32768x1_S32768x80_1_0_0_1 (fun _ b => b) x i u),
    StableHlo.nullary main_c_39 (constantI S_ 32 0#32),
    StableHlo.unary main_c_39 main_v172 (broadcastInDim S458752 ![] bcast_S_S458752),
    StableHlo.binary main_arg19 main_v172 main_v173 (cmpi .slt),
    StableHlo.nullary main_c_40 (constantI S_ 32 65536#32),
    StableHlo.unary main_c_40 main_v174 (broadcastInDim S458752 ![] bcast_S_S458752),
    StableHlo.binary main_arg19 main_v174 main_v175 addi,
    StableHlo.ternary main_v173 main_v175 main_arg19 main_v176 select,
    StableHlo.unary main_v176 main_v177 (broadcastInDim S458752x1 ![0] bcast_S458752_S458752x1_0),
    StableHlo.binary main_v171 main_v177 main_v178 (fun x i => Host.gather gather_S65536x80_S458752x1_S458752x80_1_0_n_n_0_1_180 x i),
    StableHlo.nullary main_cst_41 (constant S_ .f32 0x00000000#32),
    StableHlo.unary main_cst_41 main_v179 (broadcastInDim S65536x80 ![] bcast_S_S65536x80),
    StableHlo.unary main_arg18 main_v180 (broadcastInDim S458752x1 ![0] bcast_S458752_S458752x1_0),
    StableHlo.ternary main_v179 main_v180 main_v178 main_v181 (fun x i u => Host.scatterAdd scatter_S65536x80_S458752x1_S458752x80_1_0_0_1 x i u),
    StableHlo.nullary main_c_42 (constantI S_ 32 0#32),
    StableHlo.unary main_c_42 main_v182 (broadcastInDim S65536 ![] bcast_S_S65536),
    StableHlo.binary main_arg24 main_v182 main_v183 (cmpi .slt),
    StableHlo.nullary main_c_43 (constantI S_ 32 131072#32),
    StableHlo.unary main_c_43 main_v184 (broadcastInDim S65536 ![] bcast_S_S65536),
    StableHlo.binary main_arg24 main_v184 main_v185 addi,
    StableHlo.ternary main_v183 main_v185 main_arg24 main_v186 select,
    StableHlo.unary main_v186 main_v187 (broadcastInDim S65536x1 ![0] bcast_S65536_S65536x1_0),
    StableHlo.ternary main_v132 main_v187 main_v181 main_v188 (fun x i u => Host.scatter scatter_S131072x80_S65536x1_S65536x80_1_0_0_1 (fun _ b => b) x i u),
    StableHlo.nullary main_c_44 (constantI S_ 32 0#32),
    StableHlo.unary main_c_44 main_v189 (broadcastInDim S917504 ![] bcast_S_S917504),
    StableHlo.binary main_arg17 main_v189 main_v190 (cmpi .slt),
    StableHlo.nullary main_c_45 (constantI S_ 32 131072#32),
    StableHlo.unary main_c_45 main_v191 (broadcastInDim S917504 ![] bcast_S_S917504) ]

abbrev wr13 : List (Ref sig .tc) :=
  [main_c_32, main_v148, main_v149, main_c_33, main_v150, main_v151, main_v152, main_v153, main_v154, main_c_34, main_v155, main_v156, main_c_35, main_v157, main_v158, main_v159, main_v160, main_v161, main_cst_36, main_v162, main_v163, main_v164, main_c_37, main_v165, main_v166, main_c_38, main_v167, main_v168, main_v169, main_v170, main_v171, main_c_39, main_v172, main_v173, main_c_40, main_v174, main_v175, main_v176, main_v177, main_v178, main_cst_41, main_v179, main_v180, main_v181, main_c_42, main_v182, main_v183, main_c_43, main_v184, main_v185, main_v186, main_v187, main_v188, main_c_44, main_v189, main_v190, main_c_45, main_v191]

set_option maxRecDepth 8192 in
theorem wr13_sub : (pc13 : List (HloOp τ sig (Elt F))).Forall fun op => op.writes ⊆ (wr13.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc13_sub : (pc13 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub ..⟩

set_option maxRecDepth 8192 in

theorem pc13_fresh : (pc13 : List (HloOp τ sig (Elt F))).Forall fun op => op.fresh = ∅ := by
  simp only [List.Forall]
  repeat' apply And.intro
  all_goals rfl

abbrev ops3 : List (HloOp τ sig (Elt F)) := pc12 ++ (pc13)

set_option maxRecDepth 8192 in
set_option maxHeartbeats 4000000 in

theorem part3_eq (c : Dev nD) : main_part3 (F := F) c = seq ops3 := rfl

theorem ops3_sub : (ops3 : List (HloOp τ sig (Elt F))).Forall fun op => op.bufs ⊆ tcRefs τ sig :=
  List.forall_iff_forall_mem.mpr fun op h => by
    simp only [ops3, List.mem_append] at h
    rcases h with h | h
    exacts [List.forall_iff_forall_mem.mp pc12_sub op h, List.forall_iff_forall_mem.mp pc13_sub op h]

theorem ops3_fresh : ∀ op ∈ (ops3 : List (HloOp τ sig (Elt F))), op.fresh = ∅ := fun op h => by
  simp only [ops3, List.mem_append] at h
  rcases h with h | h
  exacts [List.forall_iff_forall_mem.mp pc12_fresh op h, List.forall_iff_forall_mem.mp pc13_fresh op h]

end Cert.ReferenceIdeal.RefRun

end
-- ==== Proof.RefOps4.lean ====
import proofs.«415935_j25786983645203_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev pc14 : List (HloOp τ sig (Elt F)) :=
  [ StableHlo.binary main_arg17 main_v191 main_v192 addi,
    StableHlo.ternary main_v190 main_v192 main_arg17 main_v193 select,
    StableHlo.unary main_v193 main_v194 (broadcastInDim S917504x1 ![0] bcast_S917504_S917504x1_0),
    StableHlo.binary main_v188 main_v194 main_v195 (fun x i => Host.gather gather_S131072x80_S917504x1_S917504x80_1_0_n_n_0_1_180 x i),
    StableHlo.nullary main_cst_46 (constant S_ .f32 0x00000000#32),
    StableHlo.unary main_cst_46 main_v196 (broadcastInDim S131072x80 ![] bcast_S_S131072x80),
    StableHlo.unary main_arg16 main_v197 (broadcastInDim S917504x1 ![0] bcast_S917504_S917504x1_0),
    StableHlo.ternary main_v196 main_v197 main_v195 main_v198 (fun x i u => Host.scatterAdd scatter_S131072x80_S917504x1_S917504x80_1_0_0_1 x i u) ]

abbrev wr14 : List (Ref sig .tc) :=
  [main_v192, main_v193, main_v194, main_v195, main_cst_46, main_v196, main_v197, main_v198]

set_option maxRecDepth 8192 in
theorem wr14_sub : (pc14 : List (HloOp τ sig (Elt F))).Forall fun op => op.writes ⊆ (wr14.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc14_sub : (pc14 : List (HloOp τ sig (Elt F))).Forall fun op => op.bufs ⊆ tcRefs τ sig :=
  ⟨binary_bufs_sub .., ternary_bufs_sub .., unary_bufs_sub .., binary_bufs_sub .., nullary_bufs_sub .., unary_bufs_sub .., unary_bufs_sub .., ternary_bufs_sub ..⟩

set_option maxRecDepth 8192 in

theorem pc14_fresh : (pc14 : List (HloOp τ sig (Elt F))).Forall fun op => op.fresh = ∅ := by
  simp only [List.Forall]
  repeat' apply And.intro
  all_goals rfl

abbrev pc15 : List (HloOp τ sig (Elt F)) :=
  [ StableHlo.nullary main_c_47 (constantI S_ 32 0#32),
    StableHlo.unary main_c_47 main_v199 (broadcastInDim S114688 ![] bcast_S_S114688),
    StableHlo.binary main_arg23 main_v199 main_v200 (cmpi .slt),
    StableHlo.nullary main_c_48 (constantI S_ 32 16384#32),
    StableHlo.unary main_c_48 main_v201 (broadcastInDim S114688 ![] bcast_S_S114688),
    StableHlo.binary main_arg23 main_v201 main_v202 addi,
    StableHlo.ternary main_v200 main_v202 main_arg23 main_v203 select,
    StableHlo.unary main_v203 main_v204 (broadcastInDim S114688x1 ![0] bcast_S114688_S114688x1_0),
    StableHlo.binary main_v154 main_v204 main_v205 (fun x i => Host.gather gather_S16384x80_S114688x1_S114688x80_1_0_n_n_0_1_180 x i),
    StableHlo.unary main_arg6 main_v206 (extractStridedSlice S1x80x80 ![3, 0, 0] · slices_S4x80x80_S1x80x80_3_0_0),
    StableHlo.reshape main_v206 main_v207 rfl shapeCasts_S1x80x80_S80x80,
    StableHlo.binary main_v205 main_v207 main_v208 (fun l r => Host.dotGeneral dot_S114688x80_S80x80_S114688x80_1_0_0_1_n_n none l r),
    StableHlo.nullary main_cst_49 (constant S_ .f32 0x00000000#32),
    StableHlo.unary main_cst_49 main_v209 (broadcastInDim S16384x80 ![] bcast_S_S16384x80),
    StableHlo.unary main_arg22 main_v210 (broadcastInDim S114688x1 ![0] bcast_S114688_S114688x1_0),
    StableHlo.ternary main_v209 main_v210 main_v208 main_v211 (fun x i u => Host.scatterAdd scatter_S16384x80_S114688x1_S114688x80_1_0_0_1 x i u) ]

abbrev wr15 : List (Ref sig .tc) :=
  [main_c_47, main_v199, main_v200, main_c_48, main_v201, main_v202, main_v203, main_v204, main_v205, main_v206, main_v207, main_v208, main_cst_49, main_v209, main_v210, main_v211]

set_option maxRecDepth 8192 in
theorem wr15_sub : (pc15 : List (HloOp τ sig (Elt F))).Forall fun op => op.writes ⊆ (wr15.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc15_sub : (pc15 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., unary_bufs_sub .., ternary_bufs_sub ..⟩

set_option maxRecDepth 8192 in

theorem pc15_fresh : (pc15 : List (HloOp τ sig (Elt F))).Forall fun op => op.fresh = ∅ := by
  simp only [List.Forall]
  repeat' apply And.intro
  all_goals rfl

abbrev pc16 : List (HloOp τ sig (Elt F)) :=
  [ StableHlo.binary main_v154 main_v211 main_v212 addf,
    StableHlo.TRef.nullary main_call4.cst (constant S_ .f32 0x00000000#32),
    StableHlo.TRef.unary main_call4.cst main_call4.v0 (broadcastInDim S16384x80 ![] bcast_S_S16384x80),
    StableHlo.TRef.binary (.of main_v212 : StableHlo.TRef sig ⟨S16384x80, .f32⟩) main_call4.v0 main_call4.v1 (cmpf .ogt),
    StableHlo.TRef.nullary main_call4.cst_0 (constant S_ .f32 0x00000000#32),
    StableHlo.TRef.unary main_call4.cst_0 main_call4.v2 (broadcastInDim S16384x80 ![] bcast_S_S16384x80),
    StableHlo.TRef.binary (.of main_v212 : StableHlo.TRef sig ⟨S16384x80, .f32⟩) main_call4.v2 main_call4.v3 (cmpf .ogt),
    StableHlo.TRef.nullary main_call4.cst_1 (constant S_ .f32 0x00000000#32),
    StableHlo.TRef.unary main_call4.cst_1 main_call4_call0.v0 id,
    StableHlo.TRef.unary main_call4_call0.v0 main_call4_call0.v1 (broadcastInDim S16384x80 ![] bcast_S_S16384x80),
    StableHlo.TRef.ternary main_call4.v3 main_call4_call0.v1 (.of main_v212 : StableHlo.TRef sig ⟨S16384x80, .f32⟩) main_call4_call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S16384x80 ![] bcast_S_S16384x80),
    StableHlo.TRef.binary main_call4.v6 main_call4.v5 main_call4.v7 mulf,
    StableHlo.TRef.ternary main_call4.v1 (.of main_v212 : StableHlo.TRef sig ⟨S16384x80, .f32⟩) main_call4.v7 main_call4_call1.v0 select ]

abbrev wr16 : List (Ref sig .tc) :=
  [main_v212, main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v213]

set_option maxRecDepth 8192 in
theorem wr16_sub : (pc16 : List (HloOp τ sig (Elt F))).Forall fun op => op.writes ⊆ (wr16.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc16_sub : (pc16 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in

theorem pc16_fresh : (pc16 : List (HloOp τ sig (Elt F))).Forall fun op => op.fresh = ∅ := by
  simp only [List.Forall]
  repeat' apply And.intro
  all_goals rfl

abbrev pc17 : List (HloOp τ sig (Elt F)) :=
  [ StableHlo.nullary main_c_50 (constantI S_ 32 0#32),
    StableHlo.unary main_c_50 main_v214 (broadcastInDim S8192 ![] bcast_S_S8192),
    StableHlo.binary main_arg27 main_v214 main_v215 (cmpi .slt),
    StableHlo.nullary main_c_51 (constantI S_ 32 16384#32),
    StableHlo.unary main_c_51 main_v216 (broadcastInDim S8192 ![] bcast_S_S8192),
    StableHlo.binary main_arg27 main_v216 main_v217 addi,
    StableHlo.ternary main_v215 main_v217 main_arg27 main_v218 select,
    StableHlo.unary main_v218 main_v219 (broadcastInDim S8192x1 ![0] bcast_S8192_S8192x1_0),
    StableHlo.binary main_v213 main_v219 main_v220 (fun x i => Host.gather gather_S16384x80_S8192x1_S8192x80_1_0_n_n_0_1_180 x i),
    StableHlo.nullary main_c_52 (constantI S_ 32 0#32),
    StableHlo.unary main_c_52 main_v221 (broadcastInDim S114688 ![] bcast_S_S114688),
    StableHlo.binary main_arg23 main_v221 main_v222 (cmpi .slt),
    StableHlo.nullary main_c_53 (constantI S_ 32 16384#32),
    StableHlo.unary main_c_53 main_v223 (broadcastInDim S114688 ![] bcast_S_S114688),
    StableHlo.binary main_arg23 main_v223 main_v224 addi,
    StableHlo.ternary main_v222 main_v224 main_arg23 main_v225 select,
    StableHlo.unary main_v225 main_v226 (broadcastInDim S114688x1 ![0] bcast_S114688_S114688x1_0),
    StableHlo.binary main_v213 main_v226 main_v227 (fun x i => Host.gather gather_S16384x80_S114688x1_S114688x80_1_0_n_n_0_1_180 x i),
    StableHlo.nullary main_cst_54 (constant S_ .f32 0x00000000#32),
    StableHlo.unary main_cst_54 main_v228 (broadcastInDim S16384x80 ![] bcast_S_S16384x80),
    StableHlo.unary main_arg22 main_v229 (broadcastInDim S114688x1 ![0] bcast_S114688_S114688x1_0),
    StableHlo.ternary main_v228 main_v229 main_v227 main_v230 (fun x i u => Host.scatterAdd scatter_S16384x80_S114688x1_S114688x80_1_0_0_1 x i u),
    StableHlo.nullary main_c_55 (constantI S_ 32 0#32),
    StableHlo.unary main_c_55 main_v231 (broadcastInDim S16384 ![] bcast_S_S16384),
    StableHlo.binary main_arg26 main_v231 main_v232 (cmpi .slt),
    StableHlo.nullary main_c_56 (constantI S_ 32 32768#32),
    StableHlo.unary main_c_56 main_v233 (broadcastInDim S16384 ![] bcast_S_S16384),
    StableHlo.binary main_arg26 main_v233 main_v234 addi,
    StableHlo.ternary main_v232 main_v234 main_arg26 main_v235 select,
    StableHlo.unary main_v235 main_v236 (broadcastInDim S16384x1 ![0] bcast_S16384_S16384x1_0),
    StableHlo.ternary main_v164 main_v236 main_v230 main_v237 (fun x i u => Host.scatter scatter_S32768x80_S16384x1_S16384x80_1_0_0_1 (fun _ b => b) x i u),
    StableHlo.nullary main_c_57 (constantI S_ 32 0#32),
    StableHlo.unary main_c_57 main_v238 (broadcastInDim S229376 ![] bcast_S_S229376),
    StableHlo.binary main_arg21 main_v238 main_v239 (cmpi .slt) ]

abbrev wr17 : List (Ref sig .tc) :=
  [main_c_50, main_v214, main_v215, main_c_51, main_v216, main_v217, main_v218, main_v219, main_v220, main_c_52, main_v221, main_v222, main_c_53, main_v223, main_v224, main_v225, main_v226, main_v227, main_cst_54, main_v228, main_v229, main_v230, main_c_55, main_v231, main_v232, main_c_56, main_v233, main_v234, main_v235, main_v236, main_v237, main_c_57, main_v238, main_v239]

set_option maxRecDepth 8192 in
theorem wr17_sub : (pc17 : List (HloOp τ sig (Elt F))).Forall fun op => op.writes ⊆ (wr17.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc17_sub : (pc17 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub ..⟩

set_option maxRecDepth 8192 in

theorem pc17_fresh : (pc17 : List (HloOp τ sig (Elt F))).Forall fun op => op.fresh = ∅ := by
  simp only [List.Forall]
  repeat' apply And.intro
  all_goals rfl

abbrev ops4 : List (HloOp τ sig (Elt F)) := pc14 ++ (pc15 ++ (pc16 ++ (pc17)))

set_option maxRecDepth 8192 in
set_option maxHeartbeats 4000000 in

theorem part4_eq (c : Dev nD) : main_part4 (F := F) c = seq ops4 := rfl

theorem ops4_sub : (ops4 : List (HloOp τ sig (Elt F))).Forall fun op => op.bufs ⊆ tcRefs τ sig :=
  List.forall_iff_forall_mem.mpr fun op h => by
    simp only [ops4, List.mem_append] at h
    rcases h with h | h | h | h
    exacts [List.forall_iff_forall_mem.mp pc14_sub op h, List.forall_iff_forall_mem.mp pc15_sub op h, List.forall_iff_forall_mem.mp pc16_sub op h, List.forall_iff_forall_mem.mp pc17_sub op h]

theorem ops4_fresh : ∀ op ∈ (ops4 : List (HloOp τ sig (Elt F))), op.fresh = ∅ := fun op h => by
  simp only [ops4, List.mem_append] at h
  rcases h with h | h | h | h
  exacts [List.forall_iff_forall_mem.mp pc14_fresh op h, List.forall_iff_forall_mem.mp pc15_fresh op h, List.forall_iff_forall_mem.mp pc16_fresh op h, List.forall_iff_forall_mem.mp pc17_fresh op h]

end Cert.ReferenceIdeal.RefRun

end
-- ==== Proof.RefOps5.lean ====
import proofs.«415935_j25786983645203_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev pc18 : List (HloOp τ sig (Elt F)) :=
  [ StableHlo.nullary main_c_58 (constantI S_ 32 32768#32),
    StableHlo.unary main_c_58 main_v240 (broadcastInDim S229376 ![] bcast_S_S229376),
    StableHlo.binary main_arg21 main_v240 main_v241 addi,
    StableHlo.ternary main_v239 main_v241 main_arg21 main_v242 select,
    StableHlo.unary main_v242 main_v243 (broadcastInDim S229376x1 ![0] bcast_S229376_S229376x1_0),
    StableHlo.binary main_v237 main_v243 main_v244 (fun x i => Host.gather gather_S32768x80_S229376x1_S229376x80_1_0_n_n_0_1_180 x i),
    StableHlo.nullary main_cst_59 (constant S_ .f32 0x00000000#32),
    StableHlo.unary main_cst_59 main_v245 (broadcastInDim S32768x80 ![] bcast_S_S32768x80),
    StableHlo.unary main_arg20 main_v246 (broadcastInDim S229376x1 ![0] bcast_S229376_S229376x1_0),
    StableHlo.ternary main_v245 main_v246 main_v244 main_v247 (fun x i u => Host.scatterAdd scatter_S32768x80_S229376x1_S229376x80_1_0_0_1 x i u),
    StableHlo.nullary main_c_60 (constantI S_ 32 0#32),
    StableHlo.unary main_c_60 main_v248 (broadcastInDim S32768 ![] bcast_S_S32768),
    StableHlo.binary main_arg25 main_v248 main_v249 (cmpi .slt),
    StableHlo.nullary main_c_61 (constantI S_ 32 65536#32),
    StableHlo.unary main_c_61 main_v250 (broadcastInDim S32768 ![] bcast_S_S32768),
    StableHlo.binary main_arg25 main_v250 main_v251 addi,
    StableHlo.ternary main_v249 main_v251 main_arg25 main_v252 select,
    StableHlo.unary main_v252 main_v253 (broadcastInDim S32768x1 ![0] bcast_S32768_S32768x1_0),
    StableHlo.ternary main_v181 main_v253 main_v247 main_v254 (fun x i u => Host.scatter scatter_S65536x80_S32768x1_S32768x80_1_0_0_1 (fun _ b => b) x i u),
    StableHlo.nullary main_c_62 (constantI S_ 32 0#32),
    StableHlo.unary main_c_62 main_v255 (broadcastInDim S458752 ![] bcast_S_S458752),
    StableHlo.binary main_arg19 main_v255 main_v256 (cmpi .slt),
    StableHlo.nullary main_c_63 (constantI S_ 32 65536#32),
    StableHlo.unary main_c_63 main_v257 (broadcastInDim S458752 ![] bcast_S_S458752),
    StableHlo.binary main_arg19 main_v257 main_v258 addi,
    StableHlo.ternary main_v256 main_v258 main_arg19 main_v259 select,
    StableHlo.unary main_v259 main_v260 (broadcastInDim S458752x1 ![0] bcast_S458752_S458752x1_0),
    StableHlo.binary main_v254 main_v260 main_v261 (fun x i => Host.gather gather_S65536x80_S458752x1_S458752x80_1_0_n_n_0_1_180 x i),
    StableHlo.nullary main_cst_64 (constant S_ .f32 0x00000000#32),
    StableHlo.unary main_cst_64 main_v262 (broadcastInDim S65536x80 ![] bcast_S_S65536x80),
    StableHlo.unary main_arg18 main_v263 (broadcastInDim S458752x1 ![0] bcast_S458752_S458752x1_0),
    StableHlo.ternary main_v262 main_v263 main_v261 main_v264 (fun x i u => Host.scatterAdd scatter_S65536x80_S458752x1_S458752x80_1_0_0_1 x i u),
    StableHlo.nullary main_c_65 (constantI S_ 32 0#32),
    StableHlo.unary main_c_65 main_v265 (broadcastInDim S65536 ![] bcast_S_S65536),
    StableHlo.binary main_arg24 main_v265 main_v266 (cmpi .slt),
    StableHlo.nullary main_c_66 (constantI S_ 32 131072#32),
    StableHlo.unary main_c_66 main_v267 (broadcastInDim S65536 ![] bcast_S_S65536),
    StableHlo.binary main_arg24 main_v267 main_v268 addi,
    StableHlo.ternary main_v266 main_v268 main_arg24 main_v269 select,
    StableHlo.unary main_v269 main_v270 (broadcastInDim S65536x1 ![0] bcast_S65536_S65536x1_0),
    StableHlo.ternary main_v198 main_v270 main_v264 main_v271 (fun x i u => Host.scatter scatter_S131072x80_S65536x1_S65536x80_1_0_0_1 (fun _ b => b) x i u),
    StableHlo.nullary main_c_67 (constantI S_ 32 0#32),
    StableHlo.unary main_c_67 main_v272 (broadcastInDim S917504 ![] bcast_S_S917504),
    StableHlo.binary main_arg17 main_v272 main_v273 (cmpi .slt),
    StableHlo.nullary main_c_68 (constantI S_ 32 131072#32),
    StableHlo.unary main_c_68 main_v274 (broadcastInDim S917504 ![] bcast_S_S917504),
    StableHlo.binary main_arg17 main_v274 main_v275 addi,
    StableHlo.ternary main_v273 main_v275 main_arg17 main_v276 select,
    StableHlo.unary main_v276 main_v277 (broadcastInDim S917504x1 ![0] bcast_S917504_S917504x1_0),
    StableHlo.binary main_v271 main_v277 main_v278 (fun x i => Host.gather gather_S131072x80_S917504x1_S917504x80_1_0_n_n_0_1_180 x i),
    StableHlo.nullary main_cst_69 (constant S_ .f32 0x00000000#32),
    StableHlo.unary main_cst_69 main_v279 (broadcastInDim S131072x80 ![] bcast_S_S131072x80),
    StableHlo.unary main_arg16 main_v280 (broadcastInDim S917504x1 ![0] bcast_S917504_S917504x1_0),
    StableHlo.ternary main_v279 main_v280 main_v278 main_v281 (fun x i u => Host.scatterAdd scatter_S131072x80_S917504x1_S917504x80_1_0_0_1 x i u) ]

abbrev wr18 : List (Ref sig .tc) :=
  [main_c_58, main_v240, main_v241, main_v242, main_v243, main_v244, main_cst_59, main_v245, main_v246, main_v247, main_c_60, main_v248, main_v249, main_c_61, main_v250, main_v251, main_v252, main_v253, main_v254, main_c_62, main_v255, main_v256, main_c_63, main_v257, main_v258, main_v259, main_v260, main_v261, main_cst_64, main_v262, main_v263, main_v264, main_c_65, main_v265, main_v266, main_c_66, main_v267, main_v268, main_v269, main_v270, main_v271, main_c_67, main_v272, main_v273, main_c_68, main_v274, main_v275, main_v276, main_v277, main_v278, main_cst_69, main_v279, main_v280, main_v281]

set_option maxRecDepth 8192 in
theorem wr18_sub : (pc18 : List (HloOp τ sig (Elt F))).Forall fun op => op.writes ⊆ (wr18.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc18_sub : (pc18 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

set_option maxRecDepth 8192 in

theorem pc18_fresh : (pc18 : List (HloOp τ sig (Elt F))).Forall fun op => op.fresh = ∅ := by
  simp only [List.Forall]
  repeat' apply And.intro
  all_goals rfl

abbrev pc19 : List (HloOp τ sig (Elt F)) :=
  [ StableHlo.binary main_v281 main_arg7 main_v282 (fun l r => Host.dotGeneral dot_S131072x80_S80x64_S131072x64_1_0_0_1_n_n none l r),
    StableHlo.unary main_arg8 main_v283 (broadcastInDim S1x64 ![1] bcast_S64_S1x64_1),
    StableHlo.unary main_v283 main_v284 (broadcastInDim S131072x64 ![0, 1] bcast_S1x64_S131072x64_0_1),
    StableHlo.binary main_v282 main_v284 main_v285 addf,
    StableHlo.TRef.nullary main_call5.cst (constant S_ .f32 0x00000000#32),
    StableHlo.TRef.unary main_call5.cst main_call5.v0 (broadcastInDim S131072x64 ![] bcast_S_S131072x64),
    StableHlo.TRef.binary (.of main_v285 : StableHlo.TRef sig ⟨S131072x64, .f32⟩) main_call5.v0 main_call5.v1 (cmpf .ogt),
    StableHlo.TRef.nullary main_call5.cst_0 (constant S_ .f32 0x00000000#32),
    StableHlo.TRef.unary main_call5.cst_0 main_call5.v2 (broadcastInDim S131072x64 ![] bcast_S_S131072x64),
    StableHlo.TRef.binary (.of main_v285 : StableHlo.TRef sig ⟨S131072x64, .f32⟩) main_call5.v2 main_call5.v3 (cmpf .ogt),
    StableHlo.TRef.nullary main_call5.cst_1 (constant S_ .f32 0x00000000#32),
    StableHlo.TRef.unary main_call5.cst_1 main_call5_call0.v0 id,
    StableHlo.TRef.unary main_call5_call0.v0 main_call5_call0.v1 (broadcastInDim S131072x64 ![] bcast_S_S131072x64),
    StableHlo.TRef.ternary main_call5.v3 main_call5_call0.v1 (.of main_v285 : StableHlo.TRef sig ⟨S131072x64, .f32⟩) main_call5_call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S131072x64 ![] bcast_S_S131072x64),
    StableHlo.TRef.binary main_call5.v6 main_call5.v5 main_call5.v7 mulf,
    StableHlo.TRef.ternary main_call5.v1 (.of main_v285 : StableHlo.TRef sig ⟨S131072x64, .f32⟩) main_call5.v7 main_call5_call1.v0 select,
    StableHlo.binary main_v286 main_arg9 main_v287 (fun l r => Host.dotGeneral dot_S131072x64_S64x64_S131072x64_1_0_0_1_n_n none l r) ]

abbrev wr19 : List (Ref sig .tc) :=
  [main_v282, main_v283, main_v284, main_v285, main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v286, main_v287]

set_option maxRecDepth 8192 in
theorem wr19_sub : (pc19 : List (HloOp τ sig (Elt F))).Forall fun op => op.writes ⊆ (wr19.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc19_sub : (pc19 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

set_option maxRecDepth 8192 in

theorem pc19_fresh : (pc19 : List (HloOp τ sig (Elt F))).Forall fun op => op.fresh = ∅ := by
  simp only [List.Forall]
  repeat' apply And.intro
  all_goals rfl

abbrev ops5 : List (HloOp τ sig (Elt F)) := pc18 ++ (pc19)

set_option maxRecDepth 8192 in
set_option maxHeartbeats 4000000 in

theorem part5_eq (c : Dev nD) : main_part5 (F := F) c = seq ops5 := rfl

theorem ops5_sub : (ops5 : List (HloOp τ sig (Elt F))).Forall fun op => op.bufs ⊆ tcRefs τ sig :=
  List.forall_iff_forall_mem.mpr fun op h => by
    simp only [ops5, List.mem_append] at h
    rcases h with h | h
    exacts [List.forall_iff_forall_mem.mp pc18_sub op h, List.forall_iff_forall_mem.mp pc19_sub op h]

theorem ops5_fresh : ∀ op ∈ (ops5 : List (HloOp τ sig (Elt F))), op.fresh = ∅ := fun op h => by
  simp only [ops5, List.mem_append] at h
  rcases h with h | h
  exacts [List.forall_iff_forall_mem.mp pc18_fresh op h, List.forall_iff_forall_mem.mp pc19_fresh op h]

end Cert.ReferenceIdeal.RefRun

end
-- ==== Proof.RefOps6.lean ====
import proofs.«415935_j25786983645203_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev pc20 : List (HloOp τ sig (Elt F)) :=
  [ StableHlo.unary main_arg10 main_v288 (broadcastInDim S1x64 ![1] bcast_S64_S1x64_1),
    StableHlo.unary main_v288 main_v289 (broadcastInDim S131072x64 ![0, 1] bcast_S1x64_S131072x64_0_1),
    StableHlo.binary main_v287 main_v289 main_v290 addf,
    StableHlo.TRef.nullary main_call6.cst (constant S_ .f32 0x00000000#32),
    StableHlo.TRef.unary main_call6.cst main_call6.v0 (broadcastInDim S131072x64 ![] bcast_S_S131072x64),
    StableHlo.TRef.binary (.of main_v290 : StableHlo.TRef sig ⟨S131072x64, .f32⟩) main_call6.v0 main_call6.v1 (cmpf .ogt),
    StableHlo.TRef.nullary main_call6.cst_0 (constant S_ .f32 0x00000000#32),
    StableHlo.TRef.unary main_call6.cst_0 main_call6.v2 (broadcastInDim S131072x64 ![] bcast_S_S131072x64),
    StableHlo.TRef.binary (.of main_v290 : StableHlo.TRef sig ⟨S131072x64, .f32⟩) main_call6.v2 main_call6.v3 (cmpf .ogt),
    StableHlo.TRef.nullary main_call6.cst_1 (constant S_ .f32 0x00000000#32),
    StableHlo.TRef.unary main_call6.cst_1 main_call6_call0.v0 id,
    StableHlo.TRef.unary main_call6_call0.v0 main_call6_call0.v1 (broadcastInDim S131072x64 ![] bcast_S_S131072x64),
    StableHlo.TRef.ternary main_call6.v3 main_call6_call0.v1 (.of main_v290 : StableHlo.TRef sig ⟨S131072x64, .f32⟩) main_call6_call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S131072x64 ![] bcast_S_S131072x64),
    StableHlo.TRef.binary main_call6.v6 main_call6.v5 main_call6.v7 mulf,
    StableHlo.TRef.ternary main_call6.v1 (.of main_v290 : StableHlo.TRef sig ⟨S131072x64, .f32⟩) main_call6.v7 main_call6_call1.v0 select,
    StableHlo.binary main_v291 main_arg11 main_v292 (fun l r => Host.dotGeneral dot_S131072x64_S64x64_S131072x64_1_0_0_1_n_n none l r),
    StableHlo.unary main_arg12 main_v293 (broadcastInDim S1x64 ![1] bcast_S64_S1x64_1),
    StableHlo.unary main_v293 main_v294 (broadcastInDim S131072x64 ![0, 1] bcast_S1x64_S131072x64_0_1),
    StableHlo.binary main_v292 main_v294 main_v295 addf,
    StableHlo.TRef.nullary main_call7.cst (constant S_ .f32 0x00000000#32),
    StableHlo.TRef.unary main_call7.cst main_call7.v0 (broadcastInDim S131072x64 ![] bcast_S_S131072x64),
    StableHlo.TRef.binary (.of main_v295 : StableHlo.TRef sig ⟨S131072x64, .f32⟩) main_call7.v0 main_call7.v1 (cmpf .ogt),
    StableHlo.TRef.nullary main_call7.cst_0 (constant S_ .f32 0x00000000#32),
    StableHlo.TRef.unary main_call7.cst_0 main_call7.v2 (broadcastInDim S131072x64 ![] bcast_S_S131072x64),
    StableHlo.TRef.binary (.of main_v295 : StableHlo.TRef sig ⟨S131072x64, .f32⟩) main_call7.v2 main_call7.v3 (cmpf .ogt),
    StableHlo.TRef.nullary main_call7.cst_1 (constant S_ .f32 0x00000000#32),
    StableHlo.TRef.unary main_call7.cst_1 main_call7_call0.v0 id,
    StableHlo.TRef.unary main_call7_call0.v0 main_call7_call0.v1 (broadcastInDim S131072x64 ![] bcast_S_S131072x64),
    StableHlo.TRef.ternary main_call7.v3 main_call7_call0.v1 (.of main_v295 : StableHlo.TRef sig ⟨S131072x64, .f32⟩) main_call7_call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S131072x64 ![] bcast_S_S131072x64),
    StableHlo.TRef.binary main_call7.v6 main_call7.v5 main_call7.v7 mulf,
    StableHlo.TRef.ternary main_call7.v1 (.of main_v295 : StableHlo.TRef sig ⟨S131072x64, .f32⟩) main_call7.v7 main_call7_call1.v0 select ]

abbrev wr20 : List (Ref sig .tc) :=
  [main_v288, main_v289, main_v290, main_call6_cst, main_call6_v0, main_call6_v1, main_call6_cst_0, main_call6_v2, main_call6_v3, main_call6_cst_1, main_call6_call0_v0, main_call6_call0_v1, main_call6_v4, main_call6_v5, main_call6_cst_2, main_call6_v6, main_call6_v7, main_v291, main_v292, main_v293, main_v294, main_v295, main_call7_cst, main_call7_v0, main_call7_v1, main_call7_cst_0, main_call7_v2, main_call7_v3, main_call7_cst_1, main_call7_call0_v0, main_call7_call0_v1, main_call7_v4, main_call7_v5, main_call7_cst_2, main_call7_v6, main_call7_v7, main_v296]

set_option maxRecDepth 8192 in
theorem wr20_sub : (pc20 : List (HloOp τ sig (Elt F))).Forall fun op => op.writes ⊆ (wr20.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc20_sub : (pc20 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in

theorem pc20_fresh : (pc20 : List (HloOp τ sig (Elt F))).Forall fun op => op.fresh = ∅ := by
  simp only [List.Forall]
  repeat' apply And.intro
  all_goals rfl

abbrev pc21 : List (HloOp τ sig (Elt F)) :=
  [ StableHlo.nullary main_cst_70 (constant S_ .f32 0x00000000#32),
    StableHlo.binary main_v296 main_cst_70 main_v297 (fun x v => Host.reduceAdd x v reducesTo_S131072x64_S64_d0 h_S_),
    StableHlo.nullary main_cst_71 (constant S_ .f32 0x48000000#32),
    StableHlo.unary main_cst_71 main_v298 (broadcastInDim S64 ![] bcast_S_S64),
    StableHlo.binary main_v297 main_v298 main_v299 Host.divf,
    StableHlo.unary main_v299 main_v300 (broadcastInDim S1x64 ![1] bcast_S64_S1x64_1),
    StableHlo.unary main_v300 main_v301 (broadcastInDim S131072x64 ![0, 1] bcast_S1x64_S131072x64_0_1),
    StableHlo.binary main_v296 main_v301 main_v302 subf,
    StableHlo.binary main_v302 main_v302 main_v303 mulf,
    StableHlo.nullary main_cst_72 (constant S_ .f32 0x00000000#32),
    StableHlo.binary main_v303 main_cst_72 main_v304 (fun x v => Host.reduceAdd x v reducesTo_S131072x64_S64_d0 h_S_),
    StableHlo.nullary main_cst_73 (constant S_ .f32 0x48000000#32),
    StableHlo.unary main_cst_73 main_v305 (broadcastInDim S64 ![] bcast_S_S64),
    StableHlo.binary main_v304 main_v305 main_v306 Host.divf,
    StableHlo.unary main_v299 main_v307 (broadcastInDim S1x64 ![1] bcast_S64_S1x64_1),
    StableHlo.unary main_v307 main_v308 (broadcastInDim S131072x64 ![0, 1] bcast_S1x64_S131072x64_0_1),
    StableHlo.binary main_v296 main_v308 main_v309 subf ]

abbrev wr21 : List (Ref sig .tc) :=
  [main_cst_70, main_v297, main_cst_71, main_v298, main_v299, main_v300, main_v301, main_v302, main_v303, main_cst_72, main_v304, main_cst_73, main_v305, main_v306, main_v307, main_v308, main_v309]

set_option maxRecDepth 8192 in
theorem wr21_sub : (pc21 : List (HloOp τ sig (Elt F))).Forall fun op => op.writes ⊆ (wr21.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc21_sub : (pc21 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub ..⟩

set_option maxRecDepth 8192 in

theorem pc21_fresh : (pc21 : List (HloOp τ sig (Elt F))).Forall fun op => op.fresh = ∅ := by
  simp only [List.Forall]
  repeat' apply And.intro
  all_goals rfl

abbrev pc22 : List (HloOp τ sig (Elt F)) :=
  [ StableHlo.nullary main_cst_74 (constant S_ .f32 0x3727C5AC#32),
    StableHlo.unary main_cst_74 main_v310 (broadcastInDim S64 ![] bcast_S_S64),
    StableHlo.binary main_v306 main_v310 main_v311 addf,
    StableHlo.unary main_v311 main_v312 Host.rsqrt,
    StableHlo.unary main_v312 main_v313 (broadcastInDim S1x64 ![1] bcast_S64_S1x64_1),
    StableHlo.unary main_v313 main_v314 (broadcastInDim S131072x64 ![0, 1] bcast_S1x64_S131072x64_0_1),
    StableHlo.binary main_v309 main_v314 main_v315 mulf,
    StableHlo.unary main_arg13 main_v316 (broadcastInDim S1x64 ![1] bcast_S64_S1x64_1),
    StableHlo.unary main_v316 main_v317 (broadcastInDim S131072x64 ![0, 1] bcast_S1x64_S131072x64_0_1),
    StableHlo.binary main_v315 main_v317 main_v318 mulf,
    StableHlo.unary main_arg14 main_v319 (broadcastInDim S1x64 ![1] bcast_S64_S1x64_1),
    StableHlo.unary main_v319 main_v320 (broadcastInDim S131072x64 ![0, 1] bcast_S1x64_S131072x64_0_1),
    StableHlo.binary main_v318 main_v320 main_v321 addf,
    StableHlo.binary main_v321 main_arg15 main_v322 (fun l r => Host.dotGeneral dot_S131072x64_S64x13_S131072x13_1_0_0_1_n_n none l r) ]

abbrev wr22 : List (Ref sig .tc) :=
  [main_cst_74, main_v310, main_v311, main_v312, main_v313, main_v314, main_v315, main_v316, main_v317, main_v318, main_v319, main_v320, main_v321, main_v322]

set_option maxRecDepth 8192 in
theorem wr22_sub : (pc22 : List (HloOp τ sig (Elt F))).Forall fun op => op.writes ⊆ (wr22.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
theorem pc22_sub : (pc22 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub ..⟩

set_option maxRecDepth 8192 in

theorem pc22_fresh : (pc22 : List (HloOp τ sig (Elt F))).Forall fun op => op.fresh = ∅ := by
  simp only [List.Forall]
  repeat' apply And.intro
  all_goals rfl

abbrev ops6 : List (HloOp τ sig (Elt F)) := pc20 ++ (pc21 ++ (pc22))

set_option maxRecDepth 8192 in
set_option maxHeartbeats 4000000 in

theorem part6_eq (c : Dev nD) : main_part6 (F := F) c = seq ops6 := rfl

theorem ops6_sub : (ops6 : List (HloOp τ sig (Elt F))).Forall fun op => op.bufs ⊆ tcRefs τ sig :=
  List.forall_iff_forall_mem.mpr fun op h => by
    simp only [ops6, List.mem_append] at h
    rcases h with h | h | h
    exacts [List.forall_iff_forall_mem.mp pc20_sub op h, List.forall_iff_forall_mem.mp pc21_sub op h, List.forall_iff_forall_mem.mp pc22_sub op h]

theorem ops6_fresh : ∀ op ∈ (ops6 : List (HloOp τ sig (Elt F))), op.fresh = ∅ := fun op h => by
  simp only [ops6, List.mem_append] at h
  rcases h with h | h | h
  exacts [List.forall_iff_forall_mem.mp pc20_fresh op h, List.forall_iff_forall_mem.mp pc21_fresh op h, List.forall_iff_forall_mem.mp pc22_fresh op h]

end Cert.ReferenceIdeal.RefRun

end
-- ==== Proof.LibAfterAppend.lean ====
import Idealize.ShloMosaic.Lib.StableHlo.Run

noncomputable section

namespace Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo

end
-- ==== Proof.RefRun.lean ====
import proofs.«415935_j25786983645203_2_alg».proof.Proof.RefOps0
import proofs.«415935_j25786983645203_2_alg».proof.Proof.RefOps1
import proofs.«415935_j25786983645203_2_alg».proof.Proof.RefOps2
import proofs.«415935_j25786983645203_2_alg».proof.Proof.RefOps3
import proofs.«415935_j25786983645203_2_alg».proof.Proof.RefOps4
import proofs.«415935_j25786983645203_2_alg».proof.Proof.RefOps5
import proofs.«415935_j25786983645203_2_alg».proof.Proof.RefOps6
import proofs.«415935_j25786983645203_2_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ (ops1 ++ (ops2 ++ (ops3 ++ (ops4 ++ (ops5 ++ ops6)))))

theorem seq_bind_eq {nD : Nat} {τ : Topo} {sig : RefSig} {Val : EltTy → Type} {Λ : Labels}
    {l₁ l₂ : List (HloOp τ sig Val)} {p q : Prog (TpuEff nD τ sig Val Λ .tc) PUnit}
    (h₁ : p = seq l₁) (h₂ : q = seq l₂) : (p >>= fun _ => q) = seq (l₁ ++ l₂) := by
  subst h₁; subst h₂; exact (seq_append _ _).symm

theorem main_eq (c : Dev nD) : main (F := F) c = seq ops :=
  show (main_part0 (F := F) c >>= fun _ => main_part1 (F := F) c >>= fun _ => main_part2 (F := F) c >>= fun _ =>
        main_part3 (F := F) c >>= fun _ => main_part4 (F := F) c >>= fun _ => main_part5 (F := F) c >>= fun _ => main_part6 (F := F) c)
      = seq (ops0 ++ (ops1 ++ (ops2 ++ (ops3 ++ (ops4 ++ (ops5 ++ ops6)))))) from
  seq_bind_eq (part0_eq c) (seq_bind_eq (part1_eq c) (seq_bind_eq (part2_eq c) (seq_bind_eq (part3_eq c)
    (seq_bind_eq (part4_eq c) (seq_bind_eq (part5_eq c) (part6_eq c))))))

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr
    (List.forall_mem_append.mpr ⟨List.forall_iff_forall_mem.mp ops0_sub,
    (List.forall_mem_append.mpr ⟨List.forall_iff_forall_mem.mp ops1_sub,
    (List.forall_mem_append.mpr ⟨List.forall_iff_forall_mem.mp ops2_sub,
    (List.forall_mem_append.mpr ⟨List.forall_iff_forall_mem.mp ops3_sub,
    (List.forall_mem_append.mpr ⟨List.forall_iff_forall_mem.mp ops4_sub,
    (List.forall_mem_append.mpr ⟨List.forall_iff_forall_mem.mp ops5_sub,
    List.forall_iff_forall_mem.mp ops6_sub⟩)⟩)⟩)⟩)⟩)⟩)

theorem ops_fresh : ∀ op ∈ (ops : List (HloOp τ sig (Elt F))), op.fresh = ∅ :=
  (List.forall_mem_append.mpr ⟨ops0_fresh,
    (List.forall_mem_append.mpr ⟨ops1_fresh,
    (List.forall_mem_append.mpr ⟨ops2_fresh,
    (List.forall_mem_append.mpr ⟨ops3_fresh,
    (List.forall_mem_append.mpr ⟨ops4_fresh,
    (List.forall_mem_append.mpr ⟨ops5_fresh,
    ops6_fresh⟩)⟩)⟩)⟩)⟩)⟩)

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RKeep.lean ====
import proofs.«415935_j25786983645203_2_alg».proof.Proof.RefRun
import proofs.«415935_j25786983645203_2_alg».proof.Proof.LibAfterAppend

set_option maxRecDepth 16384

noncomputable section

namespace Cert.ReferenceIdeal.RefRun

open Cert.ReferenceIdeal Idealize.ShloMosaic Idealize.ShloMosaic.TcCoe Idealize.ShloMosaic.StableHlo

variable {F : FTy → Type} [FloatOps F] (V : Valuation τ sig (Elt F))

def RV0 : Valuation τ sig (Elt F) := V
def RV1 : Valuation τ sig (Elt F) := after pc0 (RV0 V)
theorem RV1_eq : RV1 V = after pc0 (RV0 V) := rfl
def RV2 : Valuation τ sig (Elt F) := after pc1 (RV1 V)
theorem RV2_eq : RV2 V = after pc1 (RV1 V) := rfl
def RV3 : Valuation τ sig (Elt F) := after pc2 (RV2 V)
theorem RV3_eq : RV3 V = after pc2 (RV2 V) := rfl
def RV4 : Valuation τ sig (Elt F) := after pc3 (RV3 V)
theorem RV4_eq : RV4 V = after pc3 (RV3 V) := rfl
def RV5 : Valuation τ sig (Elt F) := after pc4 (RV4 V)
theorem RV5_eq : RV5 V = after pc4 (RV4 V) := rfl
def RV6 : Valuation τ sig (Elt F) := after pc5 (RV5 V)
theorem RV6_eq : RV6 V = after pc5 (RV5 V) := rfl
def RV7 : Valuation τ sig (Elt F) := after pc6 (RV6 V)
theorem RV7_eq : RV7 V = after pc6 (RV6 V) := rfl
def RV8 : Valuation τ sig (Elt F) := after pc7 (RV7 V)
theorem RV8_eq : RV8 V = after pc7 (RV7 V) := rfl
def RV9 : Valuation τ sig (Elt F) := after pc8 (RV8 V)
theorem RV9_eq : RV9 V = after pc8 (RV8 V) := rfl
def RV10 : Valuation τ sig (Elt F) := after pc9 (RV9 V)
theorem RV10_eq : RV10 V = after pc9 (RV9 V) := rfl
def RV11 : Valuation τ sig (Elt F) := after pc10 (RV10 V)
theorem RV11_eq : RV11 V = after pc10 (RV10 V) := rfl
def RV12 : Valuation τ sig (Elt F) := after pc11 (RV11 V)
theorem RV12_eq : RV12 V = after pc11 (RV11 V) := rfl
def RV13 : Valuation τ sig (Elt F) := after pc12 (RV12 V)
theorem RV13_eq : RV13 V = after pc12 (RV12 V) := rfl
def RV14 : Valuation τ sig (Elt F) := after pc13 (RV13 V)
theorem RV14_eq : RV14 V = after pc13 (RV13 V) := rfl
def RV15 : Valuation τ sig (Elt F) := after pc14 (RV14 V)
theorem RV15_eq : RV15 V = after pc14 (RV14 V) := rfl
def RV16 : Valuation τ sig (Elt F) := after pc15 (RV15 V)
theorem RV16_eq : RV16 V = after pc15 (RV15 V) := rfl
def RV17 : Valuation τ sig (Elt F) := after pc16 (RV16 V)
theorem RV17_eq : RV17 V = after pc16 (RV16 V) := rfl
def RV18 : Valuation τ sig (Elt F) := after pc17 (RV17 V)
theorem RV18_eq : RV18 V = after pc17 (RV17 V) := rfl
def RV19 : Valuation τ sig (Elt F) := after pc18 (RV18 V)
theorem RV19_eq : RV19 V = after pc18 (RV18 V) := rfl
def RV20 : Valuation τ sig (Elt F) := after pc19 (RV19 V)
theorem RV20_eq : RV20 V = after pc19 (RV19 V) := rfl
def RV21 : Valuation τ sig (Elt F) := after pc20 (RV20 V)
theorem RV21_eq : RV21 V = after pc20 (RV20 V) := rfl
def RV22 : Valuation τ sig (Elt F) := after pc21 (RV21 V)
theorem RV22_eq : RV22 V = after pc21 (RV21 V) := rfl
def RV23 : Valuation τ sig (Elt F) := after pc22 (RV22 V)
theorem RV23_eq : RV23 V = after pc22 (RV22 V) := rfl

theorem ops_fold : after (ops (F := F)) V = RV23 V := by
  simp only [ops, ops0, ops1, ops2, ops3, ops4, ops5, ops6, after_append]
  rfl

abbrev wrFrom22 : List (Ref sig .tc) := wr22
abbrev wrFrom21 : List (Ref sig .tc) := wr21 ++ wrFrom22
abbrev wrFrom20 : List (Ref sig .tc) := wr20 ++ wrFrom21
abbrev wrFrom19 : List (Ref sig .tc) := wr19 ++ wrFrom20
abbrev wrFrom18 : List (Ref sig .tc) := wr18 ++ wrFrom19
abbrev wrFrom17 : List (Ref sig .tc) := wr17 ++ wrFrom18
abbrev wrFrom16 : List (Ref sig .tc) := wr16 ++ wrFrom17
abbrev wrFrom15 : List (Ref sig .tc) := wr15 ++ wrFrom16
abbrev wrFrom14 : List (Ref sig .tc) := wr14 ++ wrFrom15
abbrev wrFrom13 : List (Ref sig .tc) := wr13 ++ wrFrom14
abbrev wrFrom12 : List (Ref sig .tc) := wr12 ++ wrFrom13
abbrev wrFrom11 : List (Ref sig .tc) := wr11 ++ wrFrom12
abbrev wrFrom10 : List (Ref sig .tc) := wr10 ++ wrFrom11
abbrev wrFrom9 : List (Ref sig .tc) := wr9 ++ wrFrom10
abbrev wrFrom8 : List (Ref sig .tc) := wr8 ++ wrFrom9
abbrev wrFrom7 : List (Ref sig .tc) := wr7 ++ wrFrom8
abbrev wrFrom6 : List (Ref sig .tc) := wr6 ++ wrFrom7
abbrev wrFrom5 : List (Ref sig .tc) := wr5 ++ wrFrom6
abbrev wrFrom4 : List (Ref sig .tc) := wr4 ++ wrFrom5
abbrev wrFrom3 : List (Ref sig .tc) := wr3 ++ wrFrom4
abbrev wrFrom2 : List (Ref sig .tc) := wr2 ++ wrFrom3
abbrev wrFrom1 : List (Ref sig .tc) := wr1 ++ wrFrom2
abbrev wrFrom0 : List (Ref sig .tc) := wr0 ++ wrFrom1

/-- Every buffer has one writer, so what no later piece writes is at the end of the run what it was at boundary k. -/
theorem rkeep22 (r : Ref sig .tc) (h : r ∉ (wrFrom22 : List (Ref sig .tc))) :
    RV23 V (Proc.devRef .tc r) = RV22 V (Proc.devRef .tc r) :=
  after_of_writes_sub pc22 (RV22 V) wr22_sub h
theorem rkeep21 (r : Ref sig .tc) (h : r ∉ (wrFrom21 : List (Ref sig .tc))) :
    RV23 V (Proc.devRef .tc r) = RV21 V (Proc.devRef .tc r) :=
  (rkeep22 V r (mt (List.mem_append_right _) h)).trans
    (after_of_writes_sub pc21 (RV21 V) wr21_sub (mt (List.mem_append_left _) h))
theorem rkeep20 (r : Ref sig .tc) (h : r ∉ (wrFrom20 : List (Ref sig .tc))) :
    RV23 V (Proc.devRef .tc r) = RV20 V (Proc.devRef .tc r) :=
  (rkeep21 V r (mt (List.mem_append_right _) h)).trans
    (after_of_writes_sub pc20 (RV20 V) wr20_sub (mt (List.mem_append_left _) h))
theorem rkeep19 (r : Ref sig .tc) (h : r ∉ (wrFrom19 : List (Ref sig .tc))) :
    RV23 V (Proc.devRef .tc r) = RV19 V (Proc.devRef .tc r) :=
  (rkeep20 V r (mt (List.mem_append_right _) h)).trans
    (after_of_writes_sub pc19 (RV19 V) wr19_sub (mt (List.mem_append_left _) h))
theorem rkeep18 (r : Ref sig .tc) (h : r ∉ (wrFrom18 : List (Ref sig .tc))) :
    RV23 V (Proc.devRef .tc r) = RV18 V (Proc.devRef .tc r) :=
  (rkeep19 V r (mt (List.mem_append_right _) h)).trans
    (after_of_writes_sub pc18 (RV18 V) wr18_sub (mt (List.mem_append_left _) h))
theorem rkeep17 (r : Ref sig .tc) (h : r ∉ (wrFrom17 : List (Ref sig .tc))) :
    RV23 V (Proc.devRef .tc r) = RV17 V (Proc.devRef .tc r) :=
  (rkeep18 V r (mt (List.mem_append_right _) h)).trans
    (after_of_writes_sub pc17 (RV17 V) wr17_sub (mt (List.mem_append_left _) h))
theorem rkeep16 (r : Ref sig .tc) (h : r ∉ (wrFrom16 : List (Ref sig .tc))) :
    RV23 V (Proc.devRef .tc r) = RV16 V (Proc.devRef .tc r) :=
  (rkeep17 V r (mt (List.mem_append_right _) h)).trans
    (after_of_writes_sub pc16 (RV16 V) wr16_sub (mt (List.mem_append_left _) h))
theorem rkeep15 (r : Ref sig .tc) (h : r ∉ (wrFrom15 : List (Ref sig .tc))) :
    RV23 V (Proc.devRef .tc r) = RV15 V (Proc.devRef .tc r) :=
  (rkeep16 V r (mt (List.mem_append_right _) h)).trans
    (after_of_writes_sub pc15 (RV15 V) wr15_sub (mt (List.mem_append_left _) h))
theorem rkeep14 (r : Ref sig .tc) (h : r ∉ (wrFrom14 : List (Ref sig .tc))) :
    RV23 V (Proc.devRef .tc r) = RV14 V (Proc.devRef .tc r) :=
  (rkeep15 V r (mt (List.mem_append_right _) h)).trans
    (after_of_writes_sub pc14 (RV14 V) wr14_sub (mt (List.mem_append_left _) h))
theorem rkeep13 (r : Ref sig .tc) (h : r ∉ (wrFrom13 : List (Ref sig .tc))) :
    RV23 V (Proc.devRef .tc r) = RV13 V (Proc.devRef .tc r) :=
  (rkeep14 V r (mt (List.mem_append_right _) h)).trans
    (after_of_writes_sub pc13 (RV13 V) wr13_sub (mt (List.mem_append_left _) h))
theorem rkeep12 (r : Ref sig .tc) (h : r ∉ (wrFrom12 : List (Ref sig .tc))) :
    RV23 V (Proc.devRef .tc r) = RV12 V (Proc.devRef .tc r) :=
  (rkeep13 V r (mt (List.mem_append_right _) h)).trans
    (after_of_writes_sub pc12 (RV12 V) wr12_sub (mt (List.mem_append_left _) h))
theorem rkeep11 (r : Ref sig .tc) (h : r ∉ (wrFrom11 : List (Ref sig .tc))) :
    RV23 V (Proc.devRef .tc r) = RV11 V (Proc.devRef .tc r) :=
  (rkeep12 V r (mt (List.mem_append_right _) h)).trans
    (after_of_writes_sub pc11 (RV11 V) wr11_sub (mt (List.mem_append_left _) h))
theorem rkeep10 (r : Ref sig .tc) (h : r ∉ (wrFrom10 : List (Ref sig .tc))) :
    RV23 V (Proc.devRef .tc r) = RV10 V (Proc.devRef .tc r) :=
  (rkeep11 V r (mt (List.mem_append_right _) h)).trans
    (after_of_writes_sub pc10 (RV10 V) wr10_sub (mt (List.mem_append_left _) h))
theorem rkeep9 (r : Ref sig .tc) (h : r ∉ (wrFrom9 : List (Ref sig .tc))) :
    RV23 V (Proc.devRef .tc r) = RV9 V (Proc.devRef .tc r) :=
  (rkeep10 V r (mt (List.mem_append_right _) h)).trans
    (after_of_writes_sub pc9 (RV9 V) wr9_sub (mt (List.mem_append_left _) h))
theorem rkeep8 (r : Ref sig .tc) (h : r ∉ (wrFrom8 : List (Ref sig .tc))) :
    RV23 V (Proc.devRef .tc r) = RV8 V (Proc.devRef .tc r) :=
  (rkeep9 V r (mt (List.mem_append_right _) h)).trans
    (after_of_writes_sub pc8 (RV8 V) wr8_sub (mt (List.mem_append_left _) h))
theorem rkeep7 (r : Ref sig .tc) (h : r ∉ (wrFrom7 : List (Ref sig .tc))) :
    RV23 V (Proc.devRef .tc r) = RV7 V (Proc.devRef .tc r) :=
  (rkeep8 V r (mt (List.mem_append_right _) h)).trans
    (after_of_writes_sub pc7 (RV7 V) wr7_sub (mt (List.mem_append_left _) h))
theorem rkeep6 (r : Ref sig .tc) (h : r ∉ (wrFrom6 : List (Ref sig .tc))) :
    RV23 V (Proc.devRef .tc r) = RV6 V (Proc.devRef .tc r) :=
  (rkeep7 V r (mt (List.mem_append_right _) h)).trans
    (after_of_writes_sub pc6 (RV6 V) wr6_sub (mt (List.mem_append_left _) h))
theorem rkeep5 (r : Ref sig .tc) (h : r ∉ (wrFrom5 : List (Ref sig .tc))) :
    RV23 V (Proc.devRef .tc r) = RV5 V (Proc.devRef .tc r) :=
  (rkeep6 V r (mt (List.mem_append_right _) h)).trans
    (after_of_writes_sub pc5 (RV5 V) wr5_sub (mt (List.mem_append_left _) h))
theorem rkeep4 (r : Ref sig .tc) (h : r ∉ (wrFrom4 : List (Ref sig .tc))) :
    RV23 V (Proc.devRef .tc r) = RV4 V (Proc.devRef .tc r) :=
  (rkeep5 V r (mt (List.mem_append_right _) h)).trans
    (after_of_writes_sub pc4 (RV4 V) wr4_sub (mt (List.mem_append_left _) h))
theorem rkeep3 (r : Ref sig .tc) (h : r ∉ (wrFrom3 : List (Ref sig .tc))) :
    RV23 V (Proc.devRef .tc r) = RV3 V (Proc.devRef .tc r) :=
  (rkeep4 V r (mt (List.mem_append_right _) h)).trans
    (after_of_writes_sub pc3 (RV3 V) wr3_sub (mt (List.mem_append_left _) h))
theorem rkeep2 (r : Ref sig .tc) (h : r ∉ (wrFrom2 : List (Ref sig .tc))) :
    RV23 V (Proc.devRef .tc r) = RV2 V (Proc.devRef .tc r) :=
  (rkeep3 V r (mt (List.mem_append_right _) h)).trans
    (after_of_writes_sub pc2 (RV2 V) wr2_sub (mt (List.mem_append_left _) h))
theorem rkeep1 (r : Ref sig .tc) (h : r ∉ (wrFrom1 : List (Ref sig .tc))) :
    RV23 V (Proc.devRef .tc r) = RV1 V (Proc.devRef .tc r) :=
  (rkeep2 V r (mt (List.mem_append_right _) h)).trans
    (after_of_writes_sub pc1 (RV1 V) wr1_sub (mt (List.mem_append_left _) h))
theorem rkeep0 (r : Ref sig .tc) (h : r ∉ (wrFrom0 : List (Ref sig .tc))) :
    RV23 V (Proc.devRef .tc r) = RV0 V (Proc.devRef .tc r) :=
  (rkeep1 V r (mt (List.mem_append_right _) h)).trans
    (after_of_writes_sub pc0 (RV0 V) wr0_sub (mt (List.mem_append_left _) h))

end Cert.ReferenceIdeal.RefRun

end
-- ==== Proof.KKeep.lean ====
import proofs.«415935_j25786983645203_2_alg».proof.Proof.Gen.KernelIdeal.Frame

set_option maxRecDepth 16384

noncomputable section

namespace Cert.KernelIdeal.Gen

open Idealize.ShloMosaic Idealize.ShloMosaic.TcCoe
open Idealize.ShloMosaic.Pipeline (Dat)

variable {F : FTy → Type} [FloatOps F]
variable (m : (ℓ : Loc nD τ sig) → Buf (Elt F) ℓ) (ρ : Dev nD → PrngReg)

abbrev hostOps0_writes : List (Ref sig .tc) := [main_cst, main_v0, main_cst_0, main_v1, main_v2, main_v3, main_v4, main_v5, main_v6, main_cst_1, main_v7, main_cst_2, main_v8, main_v9]
theorem hostOps0_writes_sub : (hostOps0 : List (HloOp τ sig (Elt F))).Forall fun op => op.writes ⊆ (hostOps0_writes.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map.mpr ⟨_, by decide, rfl⟩

abbrev hostOps1_writes : List (Ref sig .tc) := [main_cst_3, main_v11, main_cst_4, main_v12, main_v13, main_v14, main_v15, main_v16, main_v17, main_cst_5, main_v18, main_cst_6, main_v19, main_v20]
theorem hostOps1_writes_sub : (hostOps1 : List (HloOp τ sig (Elt F))).Forall fun op => op.writes ⊆ (hostOps1_writes.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map.mpr ⟨_, by decide, rfl⟩

abbrev hostOps2_writes : List (Ref sig .tc) := [main_v22, main_v23]
theorem hostOps2_writes_sub : (hostOps2 : List (HloOp τ sig (Elt F))).Forall fun op => op.writes ⊆ (hostOps2_writes.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map.mpr ⟨_, by decide, rfl⟩

abbrev hostOps3_writes : List (Ref sig .tc) := [main_c, main_v25, main_v26, main_c_7, main_v27, main_v28, main_v29, main_v30, main_v31, main_cst_8, main_v32, main_v33, main_v34]
theorem hostOps3_writes_sub : (hostOps3 : List (HloOp τ sig (Elt F))).Forall fun op => op.writes ⊆ (hostOps3_writes.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map.mpr ⟨_, by decide, rfl⟩

abbrev hostOps4_writes : List (Ref sig .tc) := [main_c_9, main_v36, main_v37, main_c_10, main_v38, main_v39, main_v40, main_v41, main_v42, main_c_11, main_v43, main_v44, main_c_12, main_v45, main_v46, main_v47, main_v48, main_v49, main_cst_13, main_v50, main_v51, main_v52, main_v53, main_v54]
theorem hostOps4_writes_sub : (hostOps4 : List (HloOp τ sig (Elt F))).Forall fun op => op.writes ⊆ (hostOps4_writes.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map.mpr ⟨_, by decide, rfl⟩

abbrev hostOps5_writes : List (Ref sig .tc) := [main_c_14, main_v56, main_v57, main_c_15, main_v58, main_v59, main_v60, main_v61, main_v62, main_cst_16, main_v63, main_v64, main_v65]
theorem hostOps5_writes_sub : (hostOps5 : List (HloOp τ sig (Elt F))).Forall fun op => op.writes ⊆ (hostOps5_writes.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map.mpr ⟨_, by decide, rfl⟩

abbrev hostOps6_writes : List (Ref sig .tc) := [main_c_17, main_v67, main_v68, main_c_18, main_v69, main_v70, main_v71, main_v72, main_v73, main_c_19, main_v74, main_v75, main_c_20, main_v76, main_v77, main_v78, main_v79, main_v80, main_cst_21, main_v81, main_v82, main_v83, main_c_22, main_v84, main_v85, main_c_23, main_v86, main_v87, main_v88, main_v89, main_v90, main_c_24, main_v91, main_v92, main_c_25, main_v93, main_v94, main_v95, main_v96, main_v97, main_cst_26, main_v98, main_v99, main_v100, main_v101, main_v102]
theorem hostOps6_writes_sub : (hostOps6 : List (HloOp τ sig (Elt F))).Forall fun op => op.writes ⊆ (hostOps6_writes.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map.mpr ⟨_, by decide, rfl⟩

abbrev hostOps7_writes : List (Ref sig .tc) := [main_c_27, main_v104, main_v105, main_c_28, main_v106, main_v107, main_v108, main_v109, main_v110, main_cst_29, main_v111, main_v112, main_v113]
theorem hostOps7_writes_sub : (hostOps7 : List (HloOp τ sig (Elt F))).Forall fun op => op.writes ⊆ (hostOps7_writes.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map.mpr ⟨_, by decide, rfl⟩

abbrev hostOps8_writes : List (Ref sig .tc) := [main_c_30, main_v115, main_v116, main_c_31, main_v117, main_v118, main_v119, main_v120, main_v121, main_c_32, main_v122, main_v123, main_c_33, main_v124, main_v125, main_v126, main_v127, main_v128, main_cst_34, main_v129, main_v130, main_v131, main_c_35, main_v132, main_v133, main_c_36, main_v134, main_v135, main_v136, main_v137, main_v138, main_c_37, main_v139, main_v140, main_c_38, main_v141, main_v142, main_v143, main_v144, main_v145, main_cst_39, main_v146, main_v147, main_v148, main_c_40, main_v149, main_v150, main_c_41, main_v151, main_v152, main_v153, main_v154, main_v155, main_c_42, main_v156, main_v157, main_c_43, main_v158, main_v159, main_v160, main_v161, main_v162, main_cst_44, main_v163, main_v164, main_v165, main_v166, main_v167]
theorem hostOps8_writes_sub : (hostOps8 : List (HloOp τ sig (Elt F))).Forall fun op => op.writes ⊆ (hostOps8_writes.map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map.mpr ⟨_, by decide, rfl⟩

abbrev hostOps9_writes : List (Ref sig .tc) := [main_c_45, main_v169, main_v170, main_c_46, main_v171, main_v172, main_v173, main_v174, main_v175, main_cst_47, main_v176, main_v177, main_v178]
theorem hostOps9_writes_sub : (hostOps9 : List (HloOp τ sig (Elt F))).Forall fun op => op.writes ⊆ (hostOps9_writes.map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map.mpr ⟨_, by decide, rfl⟩

abbrev hostOps10_writes : List (Ref sig .tc) := [main_c_48, main_v180, main_v181, main_c_49, main_v182, main_v183, main_v184, main_v185, main_v186, main_c_50, main_v187, main_v188, main_c_51, main_v189, main_v190, main_v191, main_v192, main_v193, main_cst_52, main_v194, main_v195, main_v196, main_c_53, main_v197, main_v198, main_c_54, main_v199, main_v200, main_v201, main_v202, main_v203, main_c_55, main_v204, main_v205, main_c_56, main_v206, main_v207, main_v208, main_v209, main_v210, main_cst_57, main_v211, main_v212, main_v213, main_c_58, main_v214, main_v215, main_c_59, main_v216, main_v217, main_v218, main_v219, main_v220, main_c_60, main_v221, main_v222, main_c_61, main_v223, main_v224, main_v225, main_v226, main_v227, main_cst_62, main_v228, main_v229, main_v230, main_c_63, main_v231, main_v232, main_c_64, main_v233, main_v234, main_v235, main_v236, main_v237, main_c_65, main_v238, main_v239, main_c_66, main_v240, main_v241, main_v242, main_v243, main_v244, main_cst_67, main_v245, main_v246, main_v247]
theorem hostOps10_writes_sub : (hostOps10 : List (HloOp τ sig (Elt F))).Forall fun op => op.writes ⊆ (hostOps10_writes.map (Proc.devRef (τ := τ) .tc)).toFinset := by
  simp only [hostOps10, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map.mpr ⟨_, by decide, rfl⟩

abbrev hostOps11_writes : List (Ref sig .tc) := [main_cst_68, main_v249, main_cst_69, main_v250, main_v251, main_v252, main_v253, main_v254, main_v255, main_cst_70, main_v256, main_cst_71, main_v257, main_v258]
theorem hostOps11_writes_sub : (hostOps11 : List (HloOp τ sig (Elt F))).Forall fun op => op.writes ⊆ (hostOps11_writes.map (Proc.devRef (τ := τ) .tc)).toFinset := by
  simp only [hostOps11, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map.mpr ⟨_, by decide, rfl⟩

theorem reg0_keep (c : Dev nD) (b : Ref sig .tc) (h : b ≠ main_v10) :
    W2 m ρ c (Proc.devRef .tc b) = W1 m ρ c (Proc.devRef .tc b) := by
  by_cases hb : ∃ w, Pipeline.arrRef spec0 w = b
  · obtain ⟨w, rfl⟩ := hb
    exact (W2_arr m ρ c w).trans (((dat0 (V1 m ρ) c).arrAt_in w
      ((by decide : ∀ w : Fin cfg0.W, Pipeline.arrRef spec0 w ≠ main_v10 → (cfg0.win w).isOut = false) w h) _).trans
      (A_eq0 (V1 m ρ) c w))
  · exact W2_of_ne m ρ c b fun w e => hb ⟨w, e⟩

theorem reg1_keep (c : Dev nD) (b : Ref sig .tc) (h : b ≠ main_v21) :
    W4 m ρ c (Proc.devRef .tc b) = W3 m ρ c (Proc.devRef .tc b) := by
  by_cases hb : ∃ w, Pipeline.arrRef spec1 w = b
  · obtain ⟨w, rfl⟩ := hb
    exact (W4_arr m ρ c w).trans (((dat1 (V3 m ρ) c).arrAt_in w
      ((by decide : ∀ w : Fin cfg1.W, Pipeline.arrRef spec1 w ≠ main_v21 → (cfg1.win w).isOut = false) w h) _).trans
      (A_eq1 (V3 m ρ) c w))
  · exact W4_of_ne m ρ c b fun w e => hb ⟨w, e⟩

theorem reg2_keep (c : Dev nD) (b : Ref sig .tc) (h : b ≠ main_v24) :
    W6 m ρ c (Proc.devRef .tc b) = W5 m ρ c (Proc.devRef .tc b) := by
  by_cases hb : ∃ w, Pipeline.arrRef spec2 w = b
  · obtain ⟨w, rfl⟩ := hb
    exact (W6_arr m ρ c w).trans (((dat2 (V5 m ρ) c).arrAt_in w
      ((by decide : ∀ w : Fin cfg2.W, Pipeline.arrRef spec2 w ≠ main_v24 → (cfg2.win w).isOut = false) w h) _).trans
      (A_eq2 (V5 m ρ) c w))
  · exact W6_of_ne m ρ c b fun w e => hb ⟨w, e⟩

theorem reg3_keep (c : Dev nD) (b : Ref sig .tc) (h : b ≠ main_v35) :
    W8 m ρ c (Proc.devRef .tc b) = W7 m ρ c (Proc.devRef .tc b) := by
  by_cases hb : ∃ w, Pipeline.arrRef spec3 w = b
  · obtain ⟨w, rfl⟩ := hb
    exact (W8_arr m ρ c w).trans (((dat3 (V7 m ρ) c).arrAt_in w
      ((by decide : ∀ w : Fin cfg3.W, Pipeline.arrRef spec3 w ≠ main_v35 → (cfg3.win w).isOut = false) w h) _).trans
      (A_eq3 (V7 m ρ) c w))
  · exact W8_of_ne m ρ c b fun w e => hb ⟨w, e⟩

theorem reg4_keep (c : Dev nD) (b : Ref sig .tc) (h : b ≠ main_v55) :
    W10 m ρ c (Proc.devRef .tc b) = W9 m ρ c (Proc.devRef .tc b) := by
  by_cases hb : ∃ w, Pipeline.arrRef spec4 w = b
  · obtain ⟨w, rfl⟩ := hb
    exact (W10_arr m ρ c w).trans (((dat4 (V9 m ρ) c).arrAt_in w
      ((by decide : ∀ w : Fin cfg4.W, Pipeline.arrRef spec4 w ≠ main_v55 → (cfg4.win w).isOut = false) w h) _).trans
      (A_eq4 (V9 m ρ) c w))
  · exact W10_of_ne m ρ c b fun w e => hb ⟨w, e⟩

theorem reg5_keep (c : Dev nD) (b : Ref sig .tc) (h : b ≠ main_v66) :
    W12 m ρ c (Proc.devRef .tc b) = W11 m ρ c (Proc.devRef .tc b) := by
  by_cases hb : ∃ w, Pipeline.arrRef spec5 w = b
  · obtain ⟨w, rfl⟩ := hb
    exact (W12_arr m ρ c w).trans (((dat5 (V11 m ρ) c).arrAt_in w
      ((by decide : ∀ w : Fin cfg5.W, Pipeline.arrRef spec5 w ≠ main_v66 → (cfg5.win w).isOut = false) w h) _).trans
      (A_eq5 (V11 m ρ) c w))
  · exact W12_of_ne m ρ c b fun w e => hb ⟨w, e⟩

theorem reg6_keep (c : Dev nD) (b : Ref sig .tc) (h : b ≠ main_v103) :
    W14 m ρ c (Proc.devRef .tc b) = W13 m ρ c (Proc.devRef .tc b) := by
  by_cases hb : ∃ w, Pipeline.arrRef spec6 w = b
  · obtain ⟨w, rfl⟩ := hb
    exact (W14_arr m ρ c w).trans (((dat6 (V13 m ρ) c).arrAt_in w
      ((by decide : ∀ w : Fin cfg6.W, Pipeline.arrRef spec6 w ≠ main_v103 → (cfg6.win w).isOut = false) w h) _).trans
      (A_eq6 (V13 m ρ) c w))
  · exact W14_of_ne m ρ c b fun w e => hb ⟨w, e⟩

theorem reg7_keep (c : Dev nD) (b : Ref sig .tc) (h : b ≠ main_v114) :
    W16 m ρ c (Proc.devRef .tc b) = W15 m ρ c (Proc.devRef .tc b) := by
  by_cases hb : ∃ w, Pipeline.arrRef spec7 w = b
  · obtain ⟨w, rfl⟩ := hb
    exact (W16_arr m ρ c w).trans (((dat7 (V15 m ρ) c).arrAt_in w
      ((by decide : ∀ w : Fin cfg7.W, Pipeline.arrRef spec7 w ≠ main_v114 → (cfg7.win w).isOut = false) w h) _).trans
      (A_eq7 (V15 m ρ) c w))
  · exact W16_of_ne m ρ c b fun w e => hb ⟨w, e⟩

theorem reg8_keep (c : Dev nD) (b : Ref sig .tc) (h : b ≠ main_v168) :
    W18 m ρ c (Proc.devRef .tc b) = W17 m ρ c (Proc.devRef .tc b) := by
  by_cases hb : ∃ w, Pipeline.arrRef spec8 w = b
  · obtain ⟨w, rfl⟩ := hb
    exact (W18_arr m ρ c w).trans (((dat8 (V17 m ρ) c).arrAt_in w
      ((by decide : ∀ w : Fin cfg8.W, Pipeline.arrRef spec8 w ≠ main_v168 → (cfg8.win w).isOut = false) w h) _).trans
      (A_eq8 (V17 m ρ) c w))
  · exact W18_of_ne m ρ c b fun w e => hb ⟨w, e⟩

theorem reg9_keep (c : Dev nD) (b : Ref sig .tc) (h : b ≠ main_v179) :
    W20 m ρ c (Proc.devRef .tc b) = W19 m ρ c (Proc.devRef .tc b) := by
  by_cases hb : ∃ w, Pipeline.arrRef spec9 w = b
  · obtain ⟨w, rfl⟩ := hb
    exact (W20_arr m ρ c w).trans (((dat9 (V19 m ρ) c).arrAt_in w
      ((by decide : ∀ w : Fin cfg9.W, Pipeline.arrRef spec9 w ≠ main_v179 → (cfg9.win w).isOut = false) w h) _).trans
      (A_eq9 (V19 m ρ) c w))
  · exact W20_of_ne m ρ c b fun w e => hb ⟨w, e⟩

theorem reg10_keep (c : Dev nD) (b : Ref sig .tc) (h : b ≠ main_v248) :
    W22 m ρ c (Proc.devRef .tc b) = W21 m ρ c (Proc.devRef .tc b) := by
  by_cases hb : ∃ w, Pipeline.arrRef spec10 w = b
  · obtain ⟨w, rfl⟩ := hb
    exact (W22_arr m ρ c w).trans (((dat10 (V21 m ρ) c).arrAt_in w
      ((by decide : ∀ w : Fin cfg10.W, Pipeline.arrRef spec10 w ≠ main_v248 → (cfg10.win w).isOut = false) w h) _).trans
      (A_eq10 (V21 m ρ) c w))
  · exact W22_of_ne m ρ c b fun w e => hb ⟨w, e⟩

theorem reg11_keep (c : Dev nD) (b : Ref sig .tc) (h : b ≠ main_v259) :
    W24 m ρ c (Proc.devRef .tc b) = W23 m ρ c (Proc.devRef .tc b) := by
  by_cases hb : ∃ w, Pipeline.arrRef spec11 w = b
  · obtain ⟨w, rfl⟩ := hb
    exact (W24_arr m ρ c w).trans (((dat11 (V23 m ρ) c).arrAt_in w
      ((by decide : ∀ w : Fin cfg11.W, Pipeline.arrRef spec11 w ≠ main_v259 → (cfg11.win w).isOut = false) w h) _).trans
      (A_eq11 (V23 m ρ) c w))
  · exact W24_of_ne m ρ c b fun w e => hb ⟨w, e⟩

abbrev wrFrom23 : List (Ref sig .tc) := [main_v259]
abbrev wrFrom22 : List (Ref sig .tc) := hostOps11_writes ++ wrFrom23
abbrev wrFrom21 : List (Ref sig .tc) := main_v248 :: wrFrom22
abbrev wrFrom20 : List (Ref sig .tc) := hostOps10_writes ++ wrFrom21
abbrev wrFrom19 : List (Ref sig .tc) := main_v179 :: wrFrom20
abbrev wrFrom18 : List (Ref sig .tc) := hostOps9_writes ++ wrFrom19
abbrev wrFrom17 : List (Ref sig .tc) := main_v168 :: wrFrom18
abbrev wrFrom16 : List (Ref sig .tc) := hostOps8_writes ++ wrFrom17
abbrev wrFrom15 : List (Ref sig .tc) := main_v114 :: wrFrom16
abbrev wrFrom14 : List (Ref sig .tc) := hostOps7_writes ++ wrFrom15
abbrev wrFrom13 : List (Ref sig .tc) := main_v103 :: wrFrom14
abbrev wrFrom12 : List (Ref sig .tc) := hostOps6_writes ++ wrFrom13
abbrev wrFrom11 : List (Ref sig .tc) := main_v66 :: wrFrom12
abbrev wrFrom10 : List (Ref sig .tc) := hostOps5_writes ++ wrFrom11
abbrev wrFrom9 : List (Ref sig .tc) := main_v55 :: wrFrom10
abbrev wrFrom8 : List (Ref sig .tc) := hostOps4_writes ++ wrFrom9
abbrev wrFrom7 : List (Ref sig .tc) := main_v35 :: wrFrom8
abbrev wrFrom6 : List (Ref sig .tc) := hostOps3_writes ++ wrFrom7
abbrev wrFrom5 : List (Ref sig .tc) := main_v24 :: wrFrom6
abbrev wrFrom4 : List (Ref sig .tc) := hostOps2_writes ++ wrFrom5
abbrev wrFrom3 : List (Ref sig .tc) := main_v21 :: wrFrom4
abbrev wrFrom2 : List (Ref sig .tc) := hostOps1_writes ++ wrFrom3
abbrev wrFrom1 : List (Ref sig .tc) := main_v10 :: wrFrom2
abbrev wrFrom0 : List (Ref sig .tc) := hostOps0_writes ++ wrFrom1

/-- Every buffer has one writer, so what no later step writes is at the last boundary what it was at boundary k. -/
theorem keep23 (c : Dev nD) (b : Ref sig .tc) (h : b ∉ (wrFrom23 : List (Ref sig .tc))) :
    W24 m ρ c (Proc.devRef .tc b) = W23 m ρ c (Proc.devRef .tc b) :=
  reg11_keep m ρ c b (List.ne_of_not_mem_cons h)
theorem keep22 (c : Dev nD) (b : Ref sig .tc) (h : b ∉ (wrFrom22 : List (Ref sig .tc))) :
    W24 m ρ c (Proc.devRef .tc b) = W22 m ρ c (Proc.devRef .tc b) :=
  (keep23 m ρ c b (mt (List.mem_append_right _) h)).trans
    (StableHlo.after_of_writes_sub hostOps11 (W22 m ρ c) hostOps11_writes_sub (mt (List.mem_append_left _) h))
theorem keep21 (c : Dev nD) (b : Ref sig .tc) (h : b ∉ (wrFrom21 : List (Ref sig .tc))) :
    W24 m ρ c (Proc.devRef .tc b) = W21 m ρ c (Proc.devRef .tc b) :=
  (keep22 m ρ c b (List.not_mem_of_not_mem_cons h)).trans (reg10_keep m ρ c b (List.ne_of_not_mem_cons h))
theorem keep20 (c : Dev nD) (b : Ref sig .tc) (h : b ∉ (wrFrom20 : List (Ref sig .tc))) :
    W24 m ρ c (Proc.devRef .tc b) = W20 m ρ c (Proc.devRef .tc b) :=
  (keep21 m ρ c b (mt (List.mem_append_right _) h)).trans
    (StableHlo.after_of_writes_sub hostOps10 (W20 m ρ c) hostOps10_writes_sub (mt (List.mem_append_left _) h))
theorem keep19 (c : Dev nD) (b : Ref sig .tc) (h : b ∉ (wrFrom19 : List (Ref sig .tc))) :
    W24 m ρ c (Proc.devRef .tc b) = W19 m ρ c (Proc.devRef .tc b) :=
  (keep20 m ρ c b (List.not_mem_of_not_mem_cons h)).trans (reg9_keep m ρ c b (List.ne_of_not_mem_cons h))
theorem keep18 (c : Dev nD) (b : Ref sig .tc) (h : b ∉ (wrFrom18 : List (Ref sig .tc))) :
    W24 m ρ c (Proc.devRef .tc b) = W18 m ρ c (Proc.devRef .tc b) :=
  (keep19 m ρ c b (mt (List.mem_append_right _) h)).trans
    (StableHlo.after_of_writes_sub hostOps9 (W18 m ρ c) hostOps9_writes_sub (mt (List.mem_append_left _) h))
theorem keep17 (c : Dev nD) (b : Ref sig .tc) (h : b ∉ (wrFrom17 : List (Ref sig .tc))) :
    W24 m ρ c (Proc.devRef .tc b) = W17 m ρ c (Proc.devRef .tc b) :=
  (keep18 m ρ c b (List.not_mem_of_not_mem_cons h)).trans (reg8_keep m ρ c b (List.ne_of_not_mem_cons h))
theorem keep16 (c : Dev nD) (b : Ref sig .tc) (h : b ∉ (wrFrom16 : List (Ref sig .tc))) :
    W24 m ρ c (Proc.devRef .tc b) = W16 m ρ c (Proc.devRef .tc b) :=
  (keep17 m ρ c b (mt (List.mem_append_right _) h)).trans
    (StableHlo.after_of_writes_sub hostOps8 (W16 m ρ c) hostOps8_writes_sub (mt (List.mem_append_left _) h))
theorem keep15 (c : Dev nD) (b : Ref sig .tc) (h : b ∉ (wrFrom15 : List (Ref sig .tc))) :
    W24 m ρ c (Proc.devRef .tc b) = W15 m ρ c (Proc.devRef .tc b) :=
  (keep16 m ρ c b (List.not_mem_of_not_mem_cons h)).trans (reg7_keep m ρ c b (List.ne_of_not_mem_cons h))
theorem keep14 (c : Dev nD) (b : Ref sig .tc) (h : b ∉ (wrFrom14 : List (Ref sig .tc))) :
    W24 m ρ c (Proc.devRef .tc b) = W14 m ρ c (Proc.devRef .tc b) :=
  (keep15 m ρ c b (mt (List.mem_append_right _) h)).trans
    (StableHlo.after_of_writes_sub hostOps7 (W14 m ρ c) hostOps7_writes_sub (mt (List.mem_append_left _) h))
theorem keep13 (c : Dev nD) (b : Ref sig .tc) (h : b ∉ (wrFrom13 : List (Ref sig .tc))) :
    W24 m ρ c (Proc.devRef .tc b) = W13 m ρ c (Proc.devRef .tc b) :=
  (keep14 m ρ c b (List.not_mem_of_not_mem_cons h)).trans (reg6_keep m ρ c b (List.ne_of_not_mem_cons h))
theorem keep12 (c : Dev nD) (b : Ref sig .tc) (h : b ∉ (wrFrom12 : List (Ref sig .tc))) :
    W24 m ρ c (Proc.devRef .tc b) = W12 m ρ c (Proc.devRef .tc b) :=
  (keep13 m ρ c b (mt (List.mem_append_right _) h)).trans
    (StableHlo.after_of_writes_sub hostOps6 (W12 m ρ c) hostOps6_writes_sub (mt (List.mem_append_left _) h))
theorem keep11 (c : Dev nD) (b : Ref sig .tc) (h : b ∉ (wrFrom11 : List (Ref sig .tc))) :
    W24 m ρ c (Proc.devRef .tc b) = W11 m ρ c (Proc.devRef .tc b) :=
  (keep12 m ρ c b (List.not_mem_of_not_mem_cons h)).trans (reg5_keep m ρ c b (List.ne_of_not_mem_cons h))
theorem keep10 (c : Dev nD) (b : Ref sig .tc) (h : b ∉ (wrFrom10 : List (Ref sig .tc))) :
    W24 m ρ c (Proc.devRef .tc b) = W10 m ρ c (Proc.devRef .tc b) :=
  (keep11 m ρ c b (mt (List.mem_append_right _) h)).trans
    (StableHlo.after_of_writes_sub hostOps5 (W10 m ρ c) hostOps5_writes_sub (mt (List.mem_append_left _) h))
theorem keep9 (c : Dev nD) (b : Ref sig .tc) (h : b ∉ (wrFrom9 : List (Ref sig .tc))) :
    W24 m ρ c (Proc.devRef .tc b) = W9 m ρ c (Proc.devRef .tc b) :=
  (keep10 m ρ c b (List.not_mem_of_not_mem_cons h)).trans (reg4_keep m ρ c b (List.ne_of_not_mem_cons h))
theorem keep8 (c : Dev nD) (b : Ref sig .tc) (h : b ∉ (wrFrom8 : List (Ref sig .tc))) :
    W24 m ρ c (Proc.devRef .tc b) = W8 m ρ c (Proc.devRef .tc b) :=
  (keep9 m ρ c b (mt (List.mem_append_right _) h)).trans
    (StableHlo.after_of_writes_sub hostOps4 (W8 m ρ c) hostOps4_writes_sub (mt (List.mem_append_left _) h))
theorem keep7 (c : Dev nD) (b : Ref sig .tc) (h : b ∉ (wrFrom7 : List (Ref sig .tc))) :
    W24 m ρ c (Proc.devRef .tc b) = W7 m ρ c (Proc.devRef .tc b) :=
  (keep8 m ρ c b (List.not_mem_of_not_mem_cons h)).trans (reg3_keep m ρ c b (List.ne_of_not_mem_cons h))
theorem keep6 (c : Dev nD) (b : Ref sig .tc) (h : b ∉ (wrFrom6 : List (Ref sig .tc))) :
    W24 m ρ c (Proc.devRef .tc b) = W6 m ρ c (Proc.devRef .tc b) :=
  (keep7 m ρ c b (mt (List.mem_append_right _) h)).trans
    (StableHlo.after_of_writes_sub hostOps3 (W6 m ρ c) hostOps3_writes_sub (mt (List.mem_append_left _) h))
theorem keep5 (c : Dev nD) (b : Ref sig .tc) (h : b ∉ (wrFrom5 : List (Ref sig .tc))) :
    W24 m ρ c (Proc.devRef .tc b) = W5 m ρ c (Proc.devRef .tc b) :=
  (keep6 m ρ c b (List.not_mem_of_not_mem_cons h)).trans (reg2_keep m ρ c b (List.ne_of_not_mem_cons h))
theorem keep4 (c : Dev nD) (b : Ref sig .tc) (h : b ∉ (wrFrom4 : List (Ref sig .tc))) :
    W24 m ρ c (Proc.devRef .tc b) = W4 m ρ c (Proc.devRef .tc b) :=
  (keep5 m ρ c b (mt (List.mem_append_right _) h)).trans
    (StableHlo.after_of_writes_sub hostOps2 (W4 m ρ c) hostOps2_writes_sub (mt (List.mem_append_left _) h))
theorem keep3 (c : Dev nD) (b : Ref sig .tc) (h : b ∉ (wrFrom3 : List (Ref sig .tc))) :
    W24 m ρ c (Proc.devRef .tc b) = W3 m ρ c (Proc.devRef .tc b) :=
  (keep4 m ρ c b (List.not_mem_of_not_mem_cons h)).trans (reg1_keep m ρ c b (List.ne_of_not_mem_cons h))
theorem keep2 (c : Dev nD) (b : Ref sig .tc) (h : b ∉ (wrFrom2 : List (Ref sig .tc))) :
    W24 m ρ c (Proc.devRef .tc b) = W2 m ρ c (Proc.devRef .tc b) :=
  (keep3 m ρ c b (mt (List.mem_append_right _) h)).trans
    (StableHlo.after_of_writes_sub hostOps1 (W2 m ρ c) hostOps1_writes_sub (mt (List.mem_append_left _) h))
theorem keep1 (c : Dev nD) (b : Ref sig .tc) (h : b ∉ (wrFrom1 : List (Ref sig .tc))) :
    W24 m ρ c (Proc.devRef .tc b) = W1 m ρ c (Proc.devRef .tc b) :=
  (keep2 m ρ c b (List.not_mem_of_not_mem_cons h)).trans (reg0_keep m ρ c b (List.ne_of_not_mem_cons h))
theorem keep0 (c : Dev nD) (b : Ref sig .tc) (h : b ∉ (wrFrom0 : List (Ref sig .tc))) :
    W24 m ρ c (Proc.devRef .tc b) = W0 m ρ c (Proc.devRef .tc b) :=
  (keep1 m ρ c b (mt (List.mem_append_right _) h)).trans
    (StableHlo.after_of_writes_sub hostOps0 (W0 m ρ c) hostOps0_writes_sub (mt (List.mem_append_left _) h))

end Cert.KernelIdeal.Gen

end
-- ==== Proof.BridgeS0.lean ====
import proofs.«415935_j25786983645203_2_alg».proof.Proof.KKeep
import proofs.«415935_j25786983645203_2_alg».proof.Proof.RKeep
import Idealize.ShloMosaic.PureOps.Ideal

set_option maxRecDepth 16384

noncomputable section

namespace Cert.Bridge

open Idealize.ShloMosaic Idealize.ShloMosaic.TcCoe Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (V' : Valuation Cert.ReferenceIdeal.τ Cert.ReferenceIdeal.sig (Elt Ideal)) (c : Dev Cert.KernelIdeal.nD)

set_option maxHeartbeats 8000000 in

theorem eq_s0 (h_main_arg0 : Cert.KernelIdeal.Gen.W24 m ρ c (Proc.devRef .tc Cert.KernelIdeal.main_arg0) = Cert.ReferenceIdeal.RefRun.RV23 V' (Proc.devRef .tc Cert.ReferenceIdeal.main_arg0)) :
    Cert.KernelIdeal.Gen.W24 m ρ c (Proc.devRef .tc Cert.KernelIdeal.main_v2) = Cert.ReferenceIdeal.RefRun.RV23 V' (Proc.devRef .tc Cert.ReferenceIdeal.main_v2)
    ∧ Cert.KernelIdeal.Gen.W24 m ρ c (Proc.devRef .tc Cert.KernelIdeal.main_v9) = Cert.ReferenceIdeal.RefRun.RV23 V' (Proc.devRef .tc Cert.ReferenceIdeal.main_v9) := by
  refine ⟨?_, ?_⟩
  on_goal 1 => rw [Cert.KernelIdeal.Gen.keep1 m ρ c Cert.KernelIdeal.main_v2 (by decide), Cert.ReferenceIdeal.RefRun.rkeep1 V' Cert.ReferenceIdeal.main_v2 (by decide)]
  on_goal 2 => rw [Cert.KernelIdeal.Gen.keep1 m ρ c Cert.KernelIdeal.main_v9 (by decide), Cert.ReferenceIdeal.RefRun.rkeep1 V' Cert.ReferenceIdeal.main_v9 (by decide)]
  all_goals
    simp only [Cert.ReferenceIdeal.RefRun.RV1_eq]
    show StableHlo.after Cert.KernelIdeal.Gen.hostOps0 (Cert.KernelIdeal.Gen.W0 m ρ c) _ = _
    simp only [Cert.KernelIdeal.Gen.hostOps0, Cert.ReferenceIdeal.RefRun.pc0]
    after_results_simp
    simp only [← Cert.KernelIdeal.Gen.keep0 m ρ c Cert.KernelIdeal.main_arg0 (by decide), ← Cert.ReferenceIdeal.RefRun.rkeep0 V' Cert.ReferenceIdeal.main_arg0 (by decide)]
    simp only [h_main_arg0]
    all_goals rfl

end Cert.Bridge

end
-- ==== Proof.BridgeS1.lean ====
import proofs.«415935_j25786983645203_2_alg».proof.Proof.KKeep
import proofs.«415935_j25786983645203_2_alg».proof.Proof.RKeep
import Idealize.ShloMosaic.PureOps.Ideal

set_option maxRecDepth 16384

noncomputable section

namespace Cert.Bridge

open Idealize.ShloMosaic Idealize.ShloMosaic.TcCoe Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (V' : Valuation Cert.ReferenceIdeal.τ Cert.ReferenceIdeal.sig (Elt Ideal)) (c : Dev Cert.KernelIdeal.nD)

set_option maxHeartbeats 8000000 in

theorem eq_s1 (h_main_v10 : Cert.KernelIdeal.Gen.W24 m ρ c (Proc.devRef .tc Cert.KernelIdeal.main_v10) = Cert.ReferenceIdeal.RefRun.RV23 V' (Proc.devRef .tc Cert.ReferenceIdeal.main_v25)) :
    Cert.KernelIdeal.Gen.W24 m ρ c (Proc.devRef .tc Cert.KernelIdeal.main_v13) = Cert.ReferenceIdeal.RefRun.RV23 V' (Proc.devRef .tc Cert.ReferenceIdeal.main_v28)
    ∧ Cert.KernelIdeal.Gen.W24 m ρ c (Proc.devRef .tc Cert.KernelIdeal.main_v20) = Cert.ReferenceIdeal.RefRun.RV23 V' (Proc.devRef .tc Cert.ReferenceIdeal.main_v35) := by
  refine ⟨?_, ?_⟩
  on_goal 1 => rw [Cert.KernelIdeal.Gen.keep3 m ρ c Cert.KernelIdeal.main_v13 (by decide), Cert.ReferenceIdeal.RefRun.rkeep3 V' Cert.ReferenceIdeal.main_v28 (by decide)]
  on_goal 2 => rw [Cert.KernelIdeal.Gen.keep3 m ρ c Cert.KernelIdeal.main_v20 (by decide), Cert.ReferenceIdeal.RefRun.rkeep3 V' Cert.ReferenceIdeal.main_v35 (by decide)]
  all_goals
    simp only [Cert.ReferenceIdeal.RefRun.RV3_eq]
    show StableHlo.after Cert.KernelIdeal.Gen.hostOps1 (Cert.KernelIdeal.Gen.W2 m ρ c) _ = _
    simp only [Cert.KernelIdeal.Gen.hostOps1, Cert.ReferenceIdeal.RefRun.pc2]
    after_results_simp
    simp only [← Cert.KernelIdeal.Gen.keep2 m ρ c Cert.KernelIdeal.main_v10 (by decide), ← Cert.ReferenceIdeal.RefRun.rkeep2 V' Cert.ReferenceIdeal.main_v25 (by decide)]
    simp only [h_main_v10]
    all_goals rfl

end Cert.Bridge

end
-- ==== Proof.BridgeS4.lean ====
import proofs.«415935_j25786983645203_2_alg».proof.Proof.KKeep
import proofs.«415935_j25786983645203_2_alg».proof.Proof.RKeep
import Idealize.ShloMosaic.PureOps.Ideal

set_option maxRecDepth 16384

noncomputable section

namespace Cert.Bridge

open Idealize.ShloMosaic Idealize.ShloMosaic.TcCoe Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (V' : Valuation Cert.ReferenceIdeal.τ Cert.ReferenceIdeal.sig (Elt Ideal)) (c : Dev Cert.KernelIdeal.nD)

set_option maxHeartbeats 8000000 in

theorem eq_s4 (h_main_v35 : Cert.KernelIdeal.Gen.W24 m ρ c (Proc.devRef .tc Cert.KernelIdeal.main_v35) = Cert.ReferenceIdeal.RefRun.RV23 V' (Proc.devRef .tc Cert.ReferenceIdeal.main_v66)) (h_main_arg6 : Cert.KernelIdeal.Gen.W24 m ρ c (Proc.devRef .tc Cert.KernelIdeal.main_arg6) = Cert.ReferenceIdeal.RefRun.RV23 V' (Proc.devRef .tc Cert.ReferenceIdeal.main_arg6)) (h_main_arg16 : Cert.KernelIdeal.Gen.W24 m ρ c (Proc.devRef .tc Cert.KernelIdeal.main_arg16) = Cert.ReferenceIdeal.RefRun.RV23 V' (Proc.devRef .tc Cert.ReferenceIdeal.main_arg16)) (h_main_arg17 : Cert.KernelIdeal.Gen.W24 m ρ c (Proc.devRef .tc Cert.KernelIdeal.main_arg17) = Cert.ReferenceIdeal.RefRun.RV23 V' (Proc.devRef .tc Cert.ReferenceIdeal.main_arg17)) (h_main_arg24 : Cert.KernelIdeal.Gen.W24 m ρ c (Proc.devRef .tc Cert.KernelIdeal.main_arg24) = Cert.ReferenceIdeal.RefRun.RV23 V' (Proc.devRef .tc Cert.ReferenceIdeal.main_arg24)) :
    Cert.KernelIdeal.Gen.W24 m ρ c (Proc.devRef .tc Cert.KernelIdeal.main_v42) = Cert.ReferenceIdeal.RefRun.RV23 V' (Proc.devRef .tc Cert.ReferenceIdeal.main_v73)
    ∧ Cert.KernelIdeal.Gen.W24 m ρ c (Proc.devRef .tc Cert.KernelIdeal.main_v52) = Cert.ReferenceIdeal.RefRun.RV23 V' (Proc.devRef .tc Cert.ReferenceIdeal.main_v83) := by
  refine ⟨?_, ?_⟩
  on_goal 1 => rw [Cert.KernelIdeal.Gen.keep9 m ρ c Cert.KernelIdeal.main_v42 (by decide), Cert.ReferenceIdeal.RefRun.rkeep8 V' Cert.ReferenceIdeal.main_v73 (by decide)]
  on_goal 2 => rw [Cert.KernelIdeal.Gen.keep9 m ρ c Cert.KernelIdeal.main_v52 (by decide), Cert.ReferenceIdeal.RefRun.rkeep8 V' Cert.ReferenceIdeal.main_v83 (by decide)]
  all_goals
    simp only [Cert.ReferenceIdeal.RefRun.RV8_eq]
    show StableHlo.after Cert.KernelIdeal.Gen.hostOps4 (Cert.KernelIdeal.Gen.W8 m ρ c) _ = _
    simp only [Cert.KernelIdeal.Gen.hostOps4, Cert.ReferenceIdeal.RefRun.pc7]
    after_results_simp
    simp only [← Cert.KernelIdeal.Gen.keep8 m ρ c Cert.KernelIdeal.main_v35 (by decide), ← Cert.KernelIdeal.Gen.keep8 m ρ c Cert.KernelIdeal.main_arg6 (by decide), ← Cert.KernelIdeal.Gen.keep8 m ρ c Cert.KernelIdeal.main_arg16 (by decide), ← Cert.KernelIdeal.Gen.keep8 m ρ c Cert.KernelIdeal.main_arg17 (by decide), ← Cert.KernelIdeal.Gen.keep8 m ρ c Cert.KernelIdeal.main_arg24 (by decide), ← Cert.ReferenceIdeal.RefRun.rkeep7 V' Cert.ReferenceIdeal.main_v66 (by decide), ← Cert.ReferenceIdeal.RefRun.rkeep7 V' Cert.ReferenceIdeal.main_arg6 (by decide), ← Cert.ReferenceIdeal.RefRun.rkeep7 V' Cert.ReferenceIdeal.main_arg16 (by decide), ← Cert.ReferenceIdeal.RefRun.rkeep7 V' Cert.ReferenceIdeal.main_arg17 (by decide), ← Cert.ReferenceIdeal.RefRun.rkeep7 V' Cert.ReferenceIdeal.main_arg24 (by decide)]
    simp only [h_main_v35, h_main_arg6, h_main_arg16, h_main_arg17, h_main_arg24]
    all_goals rfl

end Cert.Bridge

end
-- ==== Proof.BridgeS6.lean ====
import proofs.«415935_j25786983645203_2_alg».proof.Proof.KKeep
import proofs.«415935_j25786983645203_2_alg».proof.Proof.RKeep
import Idealize.ShloMosaic.PureOps.Ideal

set_option maxRecDepth 16384

noncomputable section

namespace Cert.Bridge

open Idealize.ShloMosaic Idealize.ShloMosaic.TcCoe Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (V' : Valuation Cert.ReferenceIdeal.τ Cert.ReferenceIdeal.sig (Elt Ideal)) (c : Dev Cert.KernelIdeal.nD)

set_option maxHeartbeats 8000000 in

theorem eq_s6 (h_main_v52 : Cert.KernelIdeal.Gen.W24 m ρ c (Proc.devRef .tc Cert.KernelIdeal.main_v52) = Cert.ReferenceIdeal.RefRun.RV23 V' (Proc.devRef .tc Cert.ReferenceIdeal.main_v83)) (h_main_v66 : Cert.KernelIdeal.Gen.W24 m ρ c (Proc.devRef .tc Cert.KernelIdeal.main_v66) = Cert.ReferenceIdeal.RefRun.RV23 V' (Proc.devRef .tc Cert.ReferenceIdeal.main_v98)) (h_main_arg6 : Cert.KernelIdeal.Gen.W24 m ρ c (Proc.devRef .tc Cert.KernelIdeal.main_arg6) = Cert.ReferenceIdeal.RefRun.RV23 V' (Proc.devRef .tc Cert.ReferenceIdeal.main_arg6)) (h_main_arg16 : Cert.KernelIdeal.Gen.W24 m ρ c (Proc.devRef .tc Cert.KernelIdeal.main_arg16) = Cert.ReferenceIdeal.RefRun.RV23 V' (Proc.devRef .tc Cert.ReferenceIdeal.main_arg16)) (h_main_arg17 : Cert.KernelIdeal.Gen.W24 m ρ c (Proc.devRef .tc Cert.KernelIdeal.main_arg17) = Cert.ReferenceIdeal.RefRun.RV23 V' (Proc.devRef .tc Cert.ReferenceIdeal.main_arg17)) (h_main_arg18 : Cert.KernelIdeal.Gen.W24 m ρ c (Proc.devRef .tc Cert.KernelIdeal.main_arg18) = Cert.ReferenceIdeal.RefRun.RV23 V' (Proc.devRef .tc Cert.ReferenceIdeal.main_arg18)) (h_main_arg19 : Cert.KernelIdeal.Gen.W24 m ρ c (Proc.devRef .tc Cert.KernelIdeal.main_arg19) = Cert.ReferenceIdeal.RefRun.RV23 V' (Proc.devRef .tc Cert.ReferenceIdeal.main_arg19)) (h_main_arg24 : Cert.KernelIdeal.Gen.W24 m ρ c (Proc.devRef .tc Cert.KernelIdeal.main_arg24) = Cert.ReferenceIdeal.RefRun.RV23 V' (Proc.devRef .tc Cert.ReferenceIdeal.main_arg24)) (h_main_arg25 : Cert.KernelIdeal.Gen.W24 m ρ c (Proc.devRef .tc Cert.KernelIdeal.main_arg25) = Cert.ReferenceIdeal.RefRun.RV23 V' (Proc.devRef .tc Cert.ReferenceIdeal.main_arg25)) :
    Cert.KernelIdeal.Gen.W24 m ρ c (Proc.devRef .tc Cert.KernelIdeal.main_v73) = Cert.ReferenceIdeal.RefRun.RV23 V' (Proc.devRef .tc Cert.ReferenceIdeal.main_v105)
    ∧ Cert.KernelIdeal.Gen.W24 m ρ c (Proc.devRef .tc Cert.KernelIdeal.main_v83) = Cert.ReferenceIdeal.RefRun.RV23 V' (Proc.devRef .tc Cert.ReferenceIdeal.main_v115)
    ∧ Cert.KernelIdeal.Gen.W24 m ρ c (Proc.devRef .tc Cert.KernelIdeal.main_v100) = Cert.ReferenceIdeal.RefRun.RV23 V' (Proc.devRef .tc Cert.ReferenceIdeal.main_v132) := by
  refine ⟨?_, ?_, ?_⟩
  on_goal 1 => rw [Cert.KernelIdeal.Gen.keep13 m ρ c Cert.KernelIdeal.main_v73 (by decide), Cert.ReferenceIdeal.RefRun.rkeep11 V' Cert.ReferenceIdeal.main_v105 (by decide)]
  on_goal 2 => rw [Cert.KernelIdeal.Gen.keep13 m ρ c Cert.KernelIdeal.main_v83 (by decide), Cert.ReferenceIdeal.RefRun.rkeep11 V' Cert.ReferenceIdeal.main_v115 (by decide)]
  on_goal 3 => rw [Cert.KernelIdeal.Gen.keep13 m ρ c Cert.KernelIdeal.main_v100 (by decide), Cert.ReferenceIdeal.RefRun.rkeep11 V' Cert.ReferenceIdeal.main_v132 (by decide)]
  all_goals
    simp only [Cert.ReferenceIdeal.RefRun.RV11_eq]
    show StableHlo.after Cert.KernelIdeal.Gen.hostOps6 (Cert.KernelIdeal.Gen.W12 m ρ c) _ = _
    simp only [Cert.KernelIdeal.Gen.hostOps6, Cert.ReferenceIdeal.RefRun.pc10]
    after_results_simp
    simp only [← Cert.KernelIdeal.Gen.keep12 m ρ c Cert.KernelIdeal.main_v52 (by decide), ← Cert.KernelIdeal.Gen.keep12 m ρ c Cert.KernelIdeal.main_v66 (by decide), ← Cert.KernelIdeal.Gen.keep12 m ρ c Cert.KernelIdeal.main_arg6 (by decide), ← Cert.KernelIdeal.Gen.keep12 m ρ c Cert.KernelIdeal.main_arg16 (by decide), ← Cert.KernelIdeal.Gen.keep12 m ρ c Cert.KernelIdeal.main_arg17 (by decide), ← Cert.KernelIdeal.Gen.keep12 m ρ c Cert.KernelIdeal.main_arg18 (by decide), ← Cert.KernelIdeal.Gen.keep12 m ρ c Cert.KernelIdeal.main_arg19 (by decide), ← Cert.KernelIdeal.Gen.keep12 m ρ c Cert.KernelIdeal.main_arg24 (by decide), ← Cert.KernelIdeal.Gen.keep12 m ρ c Cert.KernelIdeal.main_arg25 (by decide), ← Cert.ReferenceIdeal.RefRun.rkeep10 V' Cert.ReferenceIdeal.main_v83 (by decide), ← Cert.ReferenceIdeal.RefRun.rkeep10 V' Cert.ReferenceIdeal.main_v98 (by decide), ← Cert.ReferenceIdeal.RefRun.rkeep10 V' Cert.ReferenceIdeal.main_arg6 (by decide), ← Cert.ReferenceIdeal.RefRun.rkeep10 V' Cert.ReferenceIdeal.main_arg16 (by decide), ← Cert.ReferenceIdeal.RefRun.rkeep10 V' Cert.ReferenceIdeal.main_arg17 (by decide), ← Cert.ReferenceIdeal.RefRun.rkeep10 V' Cert.ReferenceIdeal.main_arg18 (by decide), ← Cert.ReferenceIdeal.RefRun.rkeep10 V' Cert.ReferenceIdeal.main_arg19 (by decide), ← Cert.ReferenceIdeal.RefRun.rkeep10 V' Cert.ReferenceIdeal.main_arg24 (by decide), ← Cert.ReferenceIdeal.RefRun.rkeep10 V' Cert.ReferenceIdeal.main_arg25 (by decide)]
    simp only [h_main_v52, h_main_v66, h_main_arg6, h_main_arg16, h_main_arg17, h_main_arg18, h_main_arg19, h_main_arg24, h_main_arg25]
    all_goals rfl

end Cert.Bridge

end
-- ==== Proof.BridgeS8.lean ====
import proofs.«415935_j25786983645203_2_alg».proof.Proof.KKeep
import proofs.«415935_j25786983645203_2_alg».proof.Proof.RKeep
import Idealize.ShloMosaic.PureOps.Ideal

set_option maxRecDepth 16384

noncomputable section

namespace Cert.Bridge

open Idealize.ShloMosaic Idealize.ShloMosaic.TcCoe Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (V' : Valuation Cert.ReferenceIdeal.τ Cert.ReferenceIdeal.sig (Elt Ideal)) (c : Dev Cert.KernelIdeal.nD)

set_option maxHeartbeats 8000000 in

theorem eq_s8 (h_main_v83 : Cert.KernelIdeal.Gen.W24 m ρ c (Proc.devRef .tc Cert.KernelIdeal.main_v83) = Cert.ReferenceIdeal.RefRun.RV23 V' (Proc.devRef .tc Cert.ReferenceIdeal.main_v115)) (h_main_v100 : Cert.KernelIdeal.Gen.W24 m ρ c (Proc.devRef .tc Cert.KernelIdeal.main_v100) = Cert.ReferenceIdeal.RefRun.RV23 V' (Proc.devRef .tc Cert.ReferenceIdeal.main_v132)) (h_main_v114 : Cert.KernelIdeal.Gen.W24 m ρ c (Proc.devRef .tc Cert.KernelIdeal.main_v114) = Cert.ReferenceIdeal.RefRun.RV23 V' (Proc.devRef .tc Cert.ReferenceIdeal.main_v147)) (h_main_arg6 : Cert.KernelIdeal.Gen.W24 m ρ c (Proc.devRef .tc Cert.KernelIdeal.main_arg6) = Cert.ReferenceIdeal.RefRun.RV23 V' (Proc.devRef .tc Cert.ReferenceIdeal.main_arg6)) (h_main_arg16 : Cert.KernelIdeal.Gen.W24 m ρ c (Proc.devRef .tc Cert.KernelIdeal.main_arg16) = Cert.ReferenceIdeal.RefRun.RV23 V' (Proc.devRef .tc Cert.ReferenceIdeal.main_arg16)) (h_main_arg17 : Cert.KernelIdeal.Gen.W24 m ρ c (Proc.devRef .tc Cert.KernelIdeal.main_arg17) = Cert.ReferenceIdeal.RefRun.RV23 V' (Proc.devRef .tc Cert.ReferenceIdeal.main_arg17)) (h_main_arg18 : Cert.KernelIdeal.Gen.W24 m ρ c (Proc.devRef .tc Cert.KernelIdeal.main_arg18) = Cert.ReferenceIdeal.RefRun.RV23 V' (Proc.devRef .tc Cert.ReferenceIdeal.main_arg18)) (h_main_arg19 : Cert.KernelIdeal.Gen.W24 m ρ c (Proc.devRef .tc Cert.KernelIdeal.main_arg19) = Cert.ReferenceIdeal.RefRun.RV23 V' (Proc.devRef .tc Cert.ReferenceIdeal.main_arg19)) (h_main_arg20 : Cert.KernelIdeal.Gen.W24 m ρ c (Proc.devRef .tc Cert.KernelIdeal.main_arg20) = Cert.ReferenceIdeal.RefRun.RV23 V' (Proc.devRef .tc Cert.ReferenceIdeal.main_arg20)) (h_main_arg21 : Cert.KernelIdeal.Gen.W24 m ρ c (Proc.devRef .tc Cert.KernelIdeal.main_arg21) = Cert.ReferenceIdeal.RefRun.RV23 V' (Proc.devRef .tc Cert.ReferenceIdeal.main_arg21)) (h_main_arg24 : Cert.KernelIdeal.Gen.W24 m ρ c (Proc.devRef .tc Cert.KernelIdeal.main_arg24) = Cert.ReferenceIdeal.RefRun.RV23 V' (Proc.devRef .tc Cert.ReferenceIdeal.main_arg24)) (h_main_arg25 : Cert.KernelIdeal.Gen.W24 m ρ c (Proc.devRef .tc Cert.KernelIdeal.main_arg25) = Cert.ReferenceIdeal.RefRun.RV23 V' (Proc.devRef .tc Cert.ReferenceIdeal.main_arg25)) (h_main_arg26 : Cert.KernelIdeal.Gen.W24 m ρ c (Proc.devRef .tc Cert.KernelIdeal.main_arg26) = Cert.ReferenceIdeal.RefRun.RV23 V' (Proc.devRef .tc Cert.ReferenceIdeal.main_arg26)) :
    Cert.KernelIdeal.Gen.W24 m ρ c (Proc.devRef .tc Cert.KernelIdeal.main_v121) = Cert.ReferenceIdeal.RefRun.RV23 V' (Proc.devRef .tc Cert.ReferenceIdeal.main_v154)
    ∧ Cert.KernelIdeal.Gen.W24 m ρ c (Proc.devRef .tc Cert.KernelIdeal.main_v131) = Cert.ReferenceIdeal.RefRun.RV23 V' (Proc.devRef .tc Cert.ReferenceIdeal.main_v164)
    ∧ Cert.KernelIdeal.Gen.W24 m ρ c (Proc.devRef .tc Cert.KernelIdeal.main_v148) = Cert.ReferenceIdeal.RefRun.RV23 V' (Proc.devRef .tc Cert.ReferenceIdeal.main_v181)
    ∧ Cert.KernelIdeal.Gen.W24 m ρ c (Proc.devRef .tc Cert.KernelIdeal.main_v165) = Cert.ReferenceIdeal.RefRun.RV23 V' (Proc.devRef .tc Cert.ReferenceIdeal.main_v198) := by
  refine ⟨?_, ?_, ?_, ?_⟩
  on_goal 1 => rw [Cert.KernelIdeal.Gen.keep17 m ρ c Cert.KernelIdeal.main_v121 (by decide), Cert.ReferenceIdeal.RefRun.rkeep15 V' Cert.ReferenceIdeal.main_v154 (by decide)]
  on_goal 2 => rw [Cert.KernelIdeal.Gen.keep17 m ρ c Cert.KernelIdeal.main_v131 (by decide), Cert.ReferenceIdeal.RefRun.rkeep15 V' Cert.ReferenceIdeal.main_v164 (by decide)]
  on_goal 3 => rw [Cert.KernelIdeal.Gen.keep17 m ρ c Cert.KernelIdeal.main_v148 (by decide), Cert.ReferenceIdeal.RefRun.rkeep15 V' Cert.ReferenceIdeal.main_v181 (by decide)]
  on_goal 4 => rw [Cert.KernelIdeal.Gen.keep17 m ρ c Cert.KernelIdeal.main_v165 (by decide), Cert.ReferenceIdeal.RefRun.rkeep15 V' Cert.ReferenceIdeal.main_v198 (by decide)]
  all_goals
    simp only [Cert.ReferenceIdeal.RefRun.RV15_eq, Cert.ReferenceIdeal.RefRun.RV14_eq]
    show StableHlo.after Cert.KernelIdeal.Gen.hostOps8 (Cert.KernelIdeal.Gen.W16 m ρ c) _ = _
    simp only [Cert.KernelIdeal.Gen.hostOps8, Cert.ReferenceIdeal.RefRun.pc13, Cert.ReferenceIdeal.RefRun.pc14]
    after_results_simp
    simp only [← Cert.KernelIdeal.Gen.keep16 m ρ c Cert.KernelIdeal.main_v83 (by decide), ← Cert.KernelIdeal.Gen.keep16 m ρ c Cert.KernelIdeal.main_v100 (by decide), ← Cert.KernelIdeal.Gen.keep16 m ρ c Cert.KernelIdeal.main_v114 (by decide), ← Cert.KernelIdeal.Gen.keep16 m ρ c Cert.KernelIdeal.main_arg6 (by decide), ← Cert.KernelIdeal.Gen.keep16 m ρ c Cert.KernelIdeal.main_arg16 (by decide), ← Cert.KernelIdeal.Gen.keep16 m ρ c Cert.KernelIdeal.main_arg17 (by decide), ← Cert.KernelIdeal.Gen.keep16 m ρ c Cert.KernelIdeal.main_arg18 (by decide), ← Cert.KernelIdeal.Gen.keep16 m ρ c Cert.KernelIdeal.main_arg19 (by decide), ← Cert.KernelIdeal.Gen.keep16 m ρ c Cert.KernelIdeal.main_arg20 (by decide), ← Cert.KernelIdeal.Gen.keep16 m ρ c Cert.KernelIdeal.main_arg21 (by decide), ← Cert.KernelIdeal.Gen.keep16 m ρ c Cert.KernelIdeal.main_arg24 (by decide), ← Cert.KernelIdeal.Gen.keep16 m ρ c Cert.KernelIdeal.main_arg25 (by decide), ← Cert.KernelIdeal.Gen.keep16 m ρ c Cert.KernelIdeal.main_arg26 (by decide), ← Cert.ReferenceIdeal.RefRun.rkeep13 V' Cert.ReferenceIdeal.main_v115 (by decide), ← Cert.ReferenceIdeal.RefRun.rkeep13 V' Cert.ReferenceIdeal.main_v132 (by decide), ← Cert.ReferenceIdeal.RefRun.rkeep13 V' Cert.ReferenceIdeal.main_v147 (by decide), ← Cert.ReferenceIdeal.RefRun.rkeep13 V' Cert.ReferenceIdeal.main_arg6 (by decide), ← Cert.ReferenceIdeal.RefRun.rkeep13 V' Cert.ReferenceIdeal.main_arg16 (by decide), ← Cert.ReferenceIdeal.RefRun.rkeep13 V' Cert.ReferenceIdeal.main_arg17 (by decide), ← Cert.ReferenceIdeal.RefRun.rkeep13 V' Cert.ReferenceIdeal.main_arg18 (by decide), ← Cert.ReferenceIdeal.RefRun.rkeep13 V' Cert.ReferenceIdeal.main_arg19 (by decide), ← Cert.ReferenceIdeal.RefRun.rkeep13 V' Cert.ReferenceIdeal.main_arg20 (by decide), ← Cert.ReferenceIdeal.RefRun.rkeep13 V' Cert.ReferenceIdeal.main_arg21 (by decide), ← Cert.ReferenceIdeal.RefRun.rkeep13 V' Cert.ReferenceIdeal.main_arg24 (by decide), ← Cert.ReferenceIdeal.RefRun.rkeep13 V' Cert.ReferenceIdeal.main_arg25 (by decide), ← Cert.ReferenceIdeal.RefRun.rkeep13 V' Cert.ReferenceIdeal.main_arg26 (by decide)]
    simp only [h_main_v83, h_main_v100, h_main_v114, h_main_arg6, h_main_arg16, h_main_arg17, h_main_arg18, h_main_arg19, h_main_arg20, h_main_arg21, h_main_arg24, h_main_arg25, h_main_arg26]
    all_goals rfl

end Cert.Bridge

end
-- ==== Proof.BridgeS10.lean ====
import proofs.«415935_j25786983645203_2_alg».proof.Proof.KKeep
import proofs.«415935_j25786983645203_2_alg».proof.Proof.RKeep
import Idealize.ShloMosaic.PureOps.Ideal

set_option maxRecDepth 16384

noncomputable section

namespace Cert.Bridge

open Idealize.ShloMosaic Idealize.ShloMosaic.TcCoe Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (V' : Valuation Cert.ReferenceIdeal.τ Cert.ReferenceIdeal.sig (Elt Ideal)) (c : Dev Cert.KernelIdeal.nD)

set_option maxHeartbeats 8000000 in

theorem eq_s10 (h_main_v131 : Cert.KernelIdeal.Gen.W24 m ρ c (Proc.devRef .tc Cert.KernelIdeal.main_v131) = Cert.ReferenceIdeal.RefRun.RV23 V' (Proc.devRef .tc Cert.ReferenceIdeal.main_v164)) (h_main_v148 : Cert.KernelIdeal.Gen.W24 m ρ c (Proc.devRef .tc Cert.KernelIdeal.main_v148) = Cert.ReferenceIdeal.RefRun.RV23 V' (Proc.devRef .tc Cert.ReferenceIdeal.main_v181)) (h_main_v165 : Cert.KernelIdeal.Gen.W24 m ρ c (Proc.devRef .tc Cert.KernelIdeal.main_v165) = Cert.ReferenceIdeal.RefRun.RV23 V' (Proc.devRef .tc Cert.ReferenceIdeal.main_v198)) (h_main_v179 : Cert.KernelIdeal.Gen.W24 m ρ c (Proc.devRef .tc Cert.KernelIdeal.main_v179) = Cert.ReferenceIdeal.RefRun.RV23 V' (Proc.devRef .tc Cert.ReferenceIdeal.main_v213)) (h_main_arg16 : Cert.KernelIdeal.Gen.W24 m ρ c (Proc.devRef .tc Cert.KernelIdeal.main_arg16) = Cert.ReferenceIdeal.RefRun.RV23 V' (Proc.devRef .tc Cert.ReferenceIdeal.main_arg16)) (h_main_arg17 : Cert.KernelIdeal.Gen.W24 m ρ c (Proc.devRef .tc Cert.KernelIdeal.main_arg17) = Cert.ReferenceIdeal.RefRun.RV23 V' (Proc.devRef .tc Cert.ReferenceIdeal.main_arg17)) (h_main_arg18 : Cert.KernelIdeal.Gen.W24 m ρ c (Proc.devRef .tc Cert.KernelIdeal.main_arg18) = Cert.ReferenceIdeal.RefRun.RV23 V' (Proc.devRef .tc Cert.ReferenceIdeal.main_arg18)) (h_main_arg19 : Cert.KernelIdeal.Gen.W24 m ρ c (Proc.devRef .tc Cert.KernelIdeal.main_arg19) = Cert.ReferenceIdeal.RefRun.RV23 V' (Proc.devRef .tc Cert.ReferenceIdeal.main_arg19)) (h_main_arg20 : Cert.KernelIdeal.Gen.W24 m ρ c (Proc.devRef .tc Cert.KernelIdeal.main_arg20) = Cert.ReferenceIdeal.RefRun.RV23 V' (Proc.devRef .tc Cert.ReferenceIdeal.main_arg20)) (h_main_arg21 : Cert.KernelIdeal.Gen.W24 m ρ c (Proc.devRef .tc Cert.KernelIdeal.main_arg21) = Cert.ReferenceIdeal.RefRun.RV23 V' (Proc.devRef .tc Cert.ReferenceIdeal.main_arg21)) (h_main_arg22 : Cert.KernelIdeal.Gen.W24 m ρ c (Proc.devRef .tc Cert.KernelIdeal.main_arg22) = Cert.ReferenceIdeal.RefRun.RV23 V' (Proc.devRef .tc Cert.ReferenceIdeal.main_arg22)) (h_main_arg23 : Cert.KernelIdeal.Gen.W24 m ρ c (Proc.devRef .tc Cert.KernelIdeal.main_arg23) = Cert.ReferenceIdeal.RefRun.RV23 V' (Proc.devRef .tc Cert.ReferenceIdeal.main_arg23)) (h_main_arg24 : Cert.KernelIdeal.Gen.W24 m ρ c (Proc.devRef .tc Cert.KernelIdeal.main_arg24) = Cert.ReferenceIdeal.RefRun.RV23 V' (Proc.devRef .tc Cert.ReferenceIdeal.main_arg24)) (h_main_arg25 : Cert.KernelIdeal.Gen.W24 m ρ c (Proc.devRef .tc Cert.KernelIdeal.main_arg25) = Cert.ReferenceIdeal.RefRun.RV23 V' (Proc.devRef .tc Cert.ReferenceIdeal.main_arg25)) (h_main_arg26 : Cert.KernelIdeal.Gen.W24 m ρ c (Proc.devRef .tc Cert.KernelIdeal.main_arg26) = Cert.ReferenceIdeal.RefRun.RV23 V' (Proc.devRef .tc Cert.ReferenceIdeal.main_arg26)) (h_main_arg27 : Cert.KernelIdeal.Gen.W24 m ρ c (Proc.devRef .tc Cert.KernelIdeal.main_arg27) = Cert.ReferenceIdeal.RefRun.RV23 V' (Proc.devRef .tc Cert.ReferenceIdeal.main_arg27)) :
    Cert.KernelIdeal.Gen.W24 m ρ c (Proc.devRef .tc Cert.KernelIdeal.main_v247) = Cert.ReferenceIdeal.RefRun.RV23 V' (Proc.devRef .tc Cert.ReferenceIdeal.main_v281) := by
  · rw [Cert.KernelIdeal.Gen.keep21 m ρ c Cert.KernelIdeal.main_v247 (by decide), Cert.ReferenceIdeal.RefRun.rkeep19 V' Cert.ReferenceIdeal.main_v281 (by decide)]
    simp only [Cert.ReferenceIdeal.RefRun.RV19_eq, Cert.ReferenceIdeal.RefRun.RV18_eq]
    show StableHlo.after Cert.KernelIdeal.Gen.hostOps10 (Cert.KernelIdeal.Gen.W20 m ρ c) _ = _
    simp only [Cert.KernelIdeal.Gen.hostOps10, Cert.ReferenceIdeal.RefRun.pc17, Cert.ReferenceIdeal.RefRun.pc18]
    after_results_simp
    simp only [← Cert.KernelIdeal.Gen.keep20 m ρ c Cert.KernelIdeal.main_v131 (by decide), ← Cert.KernelIdeal.Gen.keep20 m ρ c Cert.KernelIdeal.main_v148 (by decide), ← Cert.KernelIdeal.Gen.keep20 m ρ c Cert.KernelIdeal.main_v165 (by decide), ← Cert.KernelIdeal.Gen.keep20 m ρ c Cert.KernelIdeal.main_v179 (by decide), ← Cert.KernelIdeal.Gen.keep20 m ρ c Cert.KernelIdeal.main_arg16 (by decide), ← Cert.KernelIdeal.Gen.keep20 m ρ c Cert.KernelIdeal.main_arg17 (by decide), ← Cert.KernelIdeal.Gen.keep20 m ρ c Cert.KernelIdeal.main_arg18 (by decide), ← Cert.KernelIdeal.Gen.keep20 m ρ c Cert.KernelIdeal.main_arg19 (by decide), ← Cert.KernelIdeal.Gen.keep20 m ρ c Cert.KernelIdeal.main_arg20 (by decide), ← Cert.KernelIdeal.Gen.keep20 m ρ c Cert.KernelIdeal.main_arg21 (by decide), ← Cert.KernelIdeal.Gen.keep20 m ρ c Cert.KernelIdeal.main_arg22 (by decide), ← Cert.KernelIdeal.Gen.keep20 m ρ c Cert.KernelIdeal.main_arg23 (by decide), ← Cert.KernelIdeal.Gen.keep20 m ρ c Cert.KernelIdeal.main_arg24 (by decide), ← Cert.KernelIdeal.Gen.keep20 m ρ c Cert.KernelIdeal.main_arg25 (by decide), ← Cert.KernelIdeal.Gen.keep20 m ρ c Cert.KernelIdeal.main_arg26 (by decide), ← Cert.KernelIdeal.Gen.keep20 m ρ c Cert.KernelIdeal.main_arg27 (by decide), ← Cert.ReferenceIdeal.RefRun.rkeep17 V' Cert.ReferenceIdeal.main_v164 (by decide), ← Cert.ReferenceIdeal.RefRun.rkeep17 V' Cert.ReferenceIdeal.main_v181 (by decide), ← Cert.ReferenceIdeal.RefRun.rkeep17 V' Cert.ReferenceIdeal.main_v198 (by decide), ← Cert.ReferenceIdeal.RefRun.rkeep17 V' Cert.ReferenceIdeal.main_v213 (by decide), ← Cert.ReferenceIdeal.RefRun.rkeep17 V' Cert.ReferenceIdeal.main_arg16 (by decide), ← Cert.ReferenceIdeal.RefRun.rkeep17 V' Cert.ReferenceIdeal.main_arg17 (by decide), ← Cert.ReferenceIdeal.RefRun.rkeep17 V' Cert.ReferenceIdeal.main_arg18 (by decide), ← Cert.ReferenceIdeal.RefRun.rkeep17 V' Cert.ReferenceIdeal.main_arg19 (by decide), ← Cert.ReferenceIdeal.RefRun.rkeep17 V' Cert.ReferenceIdeal.main_arg20 (by decide), ← Cert.ReferenceIdeal.RefRun.rkeep17 V' Cert.ReferenceIdeal.main_arg21 (by decide), ← Cert.ReferenceIdeal.RefRun.rkeep17 V' Cert.ReferenceIdeal.main_arg22 (by decide), ← Cert.ReferenceIdeal.RefRun.rkeep17 V' Cert.ReferenceIdeal.main_arg23 (by decide), ← Cert.ReferenceIdeal.RefRun.rkeep17 V' Cert.ReferenceIdeal.main_arg24 (by decide), ← Cert.ReferenceIdeal.RefRun.rkeep17 V' Cert.ReferenceIdeal.main_arg25 (by decide), ← Cert.ReferenceIdeal.RefRun.rkeep17 V' Cert.ReferenceIdeal.main_arg26 (by decide), ← Cert.ReferenceIdeal.RefRun.rkeep17 V' Cert.ReferenceIdeal.main_arg27 (by decide)]
    simp only [h_main_v131, h_main_v148, h_main_v165, h_main_v179, h_main_arg16, h_main_arg17, h_main_arg18, h_main_arg19, h_main_arg20, h_main_arg21, h_main_arg22, h_main_arg23, h_main_arg24, h_main_arg25, h_main_arg26, h_main_arg27]
    all_goals rfl

end Cert.Bridge

end
-- ==== Proof.BridgeS11.lean ====
import proofs.«415935_j25786983645203_2_alg».proof.Proof.KKeep
import proofs.«415935_j25786983645203_2_alg».proof.Proof.RKeep
import Idealize.ShloMosaic.PureOps.Ideal

set_option maxRecDepth 16384

noncomputable section

namespace Cert.Bridge

open Idealize.ShloMosaic Idealize.ShloMosaic.TcCoe Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (V' : Valuation Cert.ReferenceIdeal.τ Cert.ReferenceIdeal.sig (Elt Ideal)) (c : Dev Cert.KernelIdeal.nD)

set_option maxHeartbeats 8000000 in

theorem eq_s11 (h_main_v248 : Cert.KernelIdeal.Gen.W24 m ρ c (Proc.devRef .tc Cert.KernelIdeal.main_v248) = Cert.ReferenceIdeal.RefRun.RV23 V' (Proc.devRef .tc Cert.ReferenceIdeal.main_v296)) :
    Cert.KernelIdeal.Gen.W24 m ρ c (Proc.devRef .tc Cert.KernelIdeal.main_v251) = Cert.ReferenceIdeal.RefRun.RV23 V' (Proc.devRef .tc Cert.ReferenceIdeal.main_v299)
    ∧ Cert.KernelIdeal.Gen.W24 m ρ c (Proc.devRef .tc Cert.KernelIdeal.main_v258) = Cert.ReferenceIdeal.RefRun.RV23 V' (Proc.devRef .tc Cert.ReferenceIdeal.main_v306) := by
  refine ⟨?_, ?_⟩
  on_goal 1 => rw [Cert.KernelIdeal.Gen.keep23 m ρ c Cert.KernelIdeal.main_v251 (by decide), Cert.ReferenceIdeal.RefRun.rkeep22 V' Cert.ReferenceIdeal.main_v299 (by decide)]
  on_goal 2 => rw [Cert.KernelIdeal.Gen.keep23 m ρ c Cert.KernelIdeal.main_v258 (by decide), Cert.ReferenceIdeal.RefRun.rkeep22 V' Cert.ReferenceIdeal.main_v306 (by decide)]
  all_goals
    simp only [Cert.ReferenceIdeal.RefRun.RV22_eq]
    show StableHlo.after Cert.KernelIdeal.Gen.hostOps11 (Cert.KernelIdeal.Gen.W22 m ρ c) _ = _
    simp only [Cert.KernelIdeal.Gen.hostOps11, Cert.ReferenceIdeal.RefRun.pc21]
    after_results_simp
    simp only [← Cert.KernelIdeal.Gen.keep22 m ρ c Cert.KernelIdeal.main_v248 (by decide), ← Cert.ReferenceIdeal.RefRun.rkeep21 V' Cert.ReferenceIdeal.main_v296 (by decide)]
    simp only [h_main_v248]
    all_goals rfl

end Cert.Bridge

end
-- ==== Proof.BridgeStretch.lean ====
import proofs.«415935_j25786983645203_2_alg».proof.Proof.BridgeS0
import proofs.«415935_j25786983645203_2_alg».proof.Proof.BridgeS1
import proofs.«415935_j25786983645203_2_alg».proof.Proof.BridgeS4
import proofs.«415935_j25786983645203_2_alg».proof.Proof.BridgeS6
import proofs.«415935_j25786983645203_2_alg».proof.Proof.BridgeS8
import proofs.«415935_j25786983645203_2_alg».proof.Proof.BridgeS10
import proofs.«415935_j25786983645203_2_alg».proof.Proof.BridgeS11
-- ==== Proof.SpecNormRelu.lean ====
import Idealize.ShloMosaic.Lib.IdealHost
import Idealize.ShloMosaic.Lib.Pipeline.Value

noncomputable section

namespace Cert.SpecNormRelu

open Idealize.ShloMosaic Idealize.ShloMosaic.ValueIdx

abbrev Rows (n : Nat) : Shape := ⟨2, ![n, 80]⟩

abbrev Cols : Shape := ⟨1, ![80]⟩

abbrev Row1 : Shape := ⟨2, ![1, 80]⟩

abbrev Sc : Shape := ⟨0, ![]⟩

def point (y m v g b : EReal) : EReal :=
  max ((y - m) * Ideal.rsqrt (v + Ideal.ofBits .f32 0x3727C5AC#32) * g + b) 0

def normRelu {n : Nat} (y : (Rows n).Idx → EReal) (m v g b : Cols.Idx → EReal) : (Rows n).Idx → EReal :=
  fun i => point (y i) (m (ix1 (n := 80) (i 1))) (v (ix1 (n := 80) (i 1))) (g (ix1 (n := 80) (i 1))) (b (ix1 (n := 80) (i 1)))

theorem normRelu_apply {n : Nat} (y : (Rows n).Idx → EReal) (m v g b : Cols.Idx → EReal) (p : Fin n) (q : Fin 80) :
    normRelu y m v g b (ix2 p q) = point (y (ix2 p q)) (m (ix1 q)) (v (ix1 q)) (g (ix1 q)) (b (ix1 q)) := rfl

theorem rowBroadcast_apply {α : Type} (w : Cols.Idx → α) (c : Cols.ShapeCasts Row1) (bc : Row1.Broadcasts (Rows 8192))
    (p : Fin 8192) (q : Fin 80) : broadcastTo (Rows 8192) (shapeCast Row1 w c) bc (ix2 p q) = w (ix1 q) := by
  refine (broadcastTo_apply _ bc (ix2 p q) (ix2 (0 : Fin 1) q) (fun a => ?_)).trans ?_
  · match a with
    | ⟨0, _⟩ => rfl
    | ⟨1, _⟩ => rfl
  · refine shapeCast_apply w c (ix2 (0 : Fin 1) q) (ix1 q) ?_
    rw [Shape.rowMajor_val_one, Shape.rowMajor_val_two]
    show q.val = 0 * 80 + q.val
    omega

theorem hostBroadcast_apply {α : Type} (w : Cols.Idx → α) (h1 : Cols.BroadcastsInDim Row1 ![1])
    (h2 : Row1.BroadcastsInDim (Rows 131072) ![0, 1]) (p : Fin 131072) (q : Fin 80) :
    broadcastInDim (Rows 131072) ![0, 1] h2 (broadcastInDim Row1 ![1] h1 w) (ix2 p q) = w (ix1 q) := by
  refine (broadcastInDim_apply ![0, 1] h2 _ (ix2 p q) (ix2 (0 : Fin 1) q) (fun a => ?_)).trans ?_
  · match a with
    | ⟨0, _⟩ => rfl
    | ⟨1, _⟩ => rfl
  · refine broadcastInDim_apply ![1] h1 w (ix2 (0 : Fin 1) q) (ix1 q) (fun a => ?_)
    match a with
    | ⟨0, _⟩ => rfl

theorem kernel_eq (c1 : Cols.ShapeCasts Cols) (c2 : Cols.ShapeCasts Row1) (c3 : (Rows 8192).ShapeCasts (Rows 8192))
    (bc : Row1.Broadcasts (Rows 8192)) (x : FVec Ideal (Rows 8192) .f32) (m v g b : FVec Ideal Cols .f32) :
    maximumf
        (addf
          (mulf
            (mulf (subf (shapeCast (Rows 8192) x c3) (broadcastTo (Rows 8192) (shapeCast Row1 (shapeCast Cols m c1) c2) bc))
              (broadcastTo (Rows 8192)
                (shapeCast Row1 (rsqrt (addf (shapeCast Cols v c1) (broadcast Cols (Scalar.ofBits (F := Ideal) .f32 0x3727C5AC#32)))) c2) bc))
            (broadcastTo (Rows 8192) (shapeCast Row1 g c2) bc))
          (broadcastTo (Rows 8192) (shapeCast Row1 b c2) bc))
        (broadcast (Rows 8192) (Scalar.ofBits (F := Ideal) .f32 0x00000000#32))
      = normRelu x m v g b := by
  funext j
  obtain ⟨p, q, rfl⟩ : ∃ (p : Fin 8192) (q : Fin 80), j = ix2 p q := ⟨j 0, j 1, eq_ix2 j⟩
  rw [normRelu_apply, maximumf_apply, addf_apply, mulf_apply, mulf_apply, subf_apply, shapeCast_self, shapeCast_self, shapeCast_self,
    rowBroadcast_apply, rowBroadcast_apply, rowBroadcast_apply, rowBroadcast_apply, broadcast_apply]
  show max (_ * Ideal.rsqrt (v (ix1 q) + Ideal.ofBits .f32 0x3727C5AC#32) * _ + _) (Ideal.ofBits .f32 0x00000000#32) = _
  rw [Ideal.ofBits_zero_f32]
  rfl

theorem host_eq (h0 : Sc.BroadcastsInDim Cols ![]) (h1 : Cols.BroadcastsInDim Row1 ![1])
    (h2 : Row1.BroadcastsInDim (Rows 131072) ![0, 1]) (h3 : Sc.BroadcastsInDim (Rows 131072) ![])
    (y : FVec Ideal (Rows 131072) .f32) (m v g b : FVec Ideal Cols .f32) :
    maximumf
        (addf
          (mulf
            (mulf (subf y (broadcastInDim (Rows 131072) ![0, 1] h2 (broadcastInDim Row1 ![1] h1 m)))
              (broadcastInDim (Rows 131072) ![0, 1] h2
                (broadcastInDim Row1 ![1] h1
                  (Host.rsqrt (addf v (broadcastInDim Cols ![] h0 (constant (F := Ideal) Sc .f32 0x3727C5AC#32)))))))
            (broadcastInDim (Rows 131072) ![0, 1] h2 (broadcastInDim Row1 ![1] h1 g)))
          (broadcastInDim (Rows 131072) ![0, 1] h2 (broadcastInDim Row1 ![1] h1 b)))
        (broadcastInDim (Rows 131072) ![] h3 (constant (F := Ideal) Sc .f32 0x00000000#32))
      = normRelu y m v g b := by
  funext j
  obtain ⟨p, q, rfl⟩ : ∃ (p : Fin 131072) (q : Fin 80), j = ix2 p q := ⟨j 0, j 1, eq_ix2 j⟩
  rw [normRelu_apply, maximumf_apply, addf_apply, mulf_apply, mulf_apply, subf_apply,
    hostBroadcast_apply, hostBroadcast_apply, hostBroadcast_apply, hostBroadcast_apply, broadcastInDim_scalar_apply]
  show max (_ * Ideal.rsqrt (v (ix1 q) + Ideal.ofBits .f32 0x3727C5AC#32) * _ + _) (Ideal.ofBits .f32 0x00000000#32) = _
  rw [Ideal.ofBits_zero_f32]
  rfl

end Cert.SpecNormRelu

end
-- ==== Proof.Reg1.lean ====
import proofs.«415935_j25786983645203_2_alg».proof.Proof.Gen.KernelIdeal.Frame
import proofs.«415935_j25786983645203_2_alg».proof.Proof.SpecNormRelu
import Idealize.ShloMosaic.Lib.Pipeline.Value
import Idealize.ShloMosaic.Lib.Tactic

set_option maxRecDepth 16384

noncomputable section

namespace Cert.KernelIdeal.RegVal

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.SpecNormRelu (normRelu point)

variable (V : (c : Dev nD) → (b : Ref sig .tc) → Buf (Elt Ideal) ((c : Thread nD τ).loc b))

abbrev yArr1 (c : Dev nD) : S131072x80.Idx → EReal := V c (Pipeline.arrRef spec1 0)

abbrev meanArr1 (c : Dev nD) : S80.Idx → EReal := V c (Pipeline.arrRef spec1 1)

abbrev varArr1 (c : Dev nD) : S80.Idx → EReal := V c (Pipeline.arrRef spec1 2)

abbrev scaleArr1 (c : Dev nD) : S80.Idx → EReal := V c (Pipeline.arrRef spec1 3)

abbrev shiftArr1 (c : Dev nD) : S80.Idx → EReal := V c (Pipeline.arrRef spec1 4)

theorem zeroOff1_2 : (![0, 0] : Fin 2 → Nat) = fun _ => 0 := funext fun a => by fin_cases a <;> rfl
theorem zeroOff1_1 : (![0] : Fin 1 → Nat) = fun _ => 0 := funext fun a => by fin_cases a; rfl

theorem pay1_eq (x : Vec Ideal S8192x80 .f32) (m v g b : Vec Ideal S80 .f32) :
    k1_pay1 (F := Ideal) x m v g b = normRelu (n := 8192) x m v g b := by
  unfold k1_pay1
  exact Cert.SpecNormRelu.kernel_eq _ _ _ _ x m v g b

theorem blockIdx1 : ∀ t : Fin cfg1.N, win1_0.index t (0 : Fin 2) = t.val ∧ win1_0.index t (1 : Fin 2) = 0
    ∧ win1_1.index t (0 : Fin 1) = 0 ∧ win1_2.index t (0 : Fin 1) = 0
    ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

theorem flushed1_eq (c : Dev nD) (t : Fin cfg1.N) :
    (dat1 (F := Ideal) V c).flushed 5 t
      = ((cfg1.win 5).blk t).view.read (Elt Ideal)
          (normRelu (n := 131072) (yArr1 V c) (meanArr1 V c) (varArr1 V c) (scaleArr1 V c) (shiftArr1 V c)) := by
  show (cfg1.win 5).cut (grid1.coords t) ((dat1 (F := Ideal) V c).after 5 t) = _
  rw [after1_5]
  unfold out1_5
  rw [View.canon_unit_zero zeroOff1_2]
  simp only [View.ld_unit_zero (S := S8192x80) zeroOff1_2, View.ld_unit_zero (S := S80) zeroOff1_1]
  rw [pay1_eq]
  obtain ⟨e0, e1, e2, e3, e4, e5, e6, e7⟩ := blockIdx1 t
  funext j
  obtain ⟨p, q, rfl⟩ : ∃ (p : Fin 8192) (q : Fin 80), j = ix2 p q := ⟨j 0, j 1, eq_ix2 j⟩
  show point (yArr1 V c (((cfg1.win 0).blk t).view.emb (ix2 p q))) (meanArr1 V c (((cfg1.win 1).blk t).view.emb (ix1 q)))
      (varArr1 V c (((cfg1.win 2).blk t).view.emb (ix1 q))) (scaleArr1 V c (((cfg1.win 3).blk t).view.emb (ix1 q)))
      (shiftArr1 V c (((cfg1.win 4).blk t).view.emb (ix1 q)))
    = point (yArr1 V c (((cfg1.win 5).blk t).view.emb (ix2 p q)))
        (meanArr1 V c (ix1 (n := 80) ((((cfg1.win 5).blk t).view.emb (ix2 p q)) 1)))
        (varArr1 V c (ix1 (n := 80) ((((cfg1.win 5).blk t).view.emb (ix2 p q)) 1)))
        (scaleArr1 V c (ix1 (n := 80) ((((cfg1.win 5).blk t).view.emb (ix2 p q)) 1)))
        (shiftArr1 V c (ix1 (n := 80) ((((cfg1.win 5).blk t).view.emb (ix2 p q)) 1)))
  have h0 : ((cfg1.win 0).blk t).view.emb (ix2 p q) = ((cfg1.win 5).blk t).view.emb (ix2 p q) := by
    funext a; apply Fin.ext
    match a with
    | ⟨0, _⟩ => show win1_0.index t (0 : Fin 2) * 8192 + 1 * p.val = win1_5.index t (0 : Fin 2) * 8192 + 1 * p.val; omega
    | ⟨1, _⟩ => show win1_0.index t (1 : Fin 2) * 80 + 1 * q.val = win1_5.index t (1 : Fin 2) * 80 + 1 * q.val; omega
  have h1 : ((cfg1.win 1).blk t).view.emb (ix1 q) = ix1 (n := 80) ((((cfg1.win 5).blk t).view.emb (ix2 p q)) 1) := by
    funext a; apply Fin.ext
    match a with
    | ⟨0, _⟩ => show win1_1.index t (0 : Fin 1) * 80 + 1 * q.val = win1_5.index t (1 : Fin 2) * 80 + 1 * q.val; omega
  have h2 : ((cfg1.win 2).blk t).view.emb (ix1 q) = ix1 (n := 80) ((((cfg1.win 5).blk t).view.emb (ix2 p q)) 1) := by
    funext a; apply Fin.ext
    match a with
    | ⟨0, _⟩ => show win1_2.index t (0 : Fin 1) * 80 + 1 * q.val = win1_5.index t (1 : Fin 2) * 80 + 1 * q.val; omega
  have h3 : ((cfg1.win 3).blk t).view.emb (ix1 q) = ix1 (n := 80) ((((cfg1.win 5).blk t).view.emb (ix2 p q)) 1) := by
    funext a; apply Fin.ext
    match a with
    | ⟨0, _⟩ => show win1_3.index t (0 : Fin 1) * 80 + 1 * q.val = win1_5.index t (1 : Fin 2) * 80 + 1 * q.val; omega
  have h4 : ((cfg1.win 4).blk t).view.emb (ix1 q) = ix1 (n := 80) ((((cfg1.win 5).blk t).view.emb (ix2 p q)) 1) := by
    funext a; apply Fin.ext
    match a with
    | ⟨0, _⟩ => show win1_4.index t (0 : Fin 1) * 80 + 1 * q.val = win1_5.index t (1 : Fin 2) * 80 + 1 * q.val; omega
  rw [h0, h1, h2, h3, h4]

theorem mem_blk1 (t : Fin cfg1.N) (i : S131072x80.Idx) :
    i ∈ ((cfg1.win 5).blk t).view.set ↔ ∀ a : Fin 2, win1_5.index t a * S8192x80.size a ≤ (i a).val ∧ (i a).val < win1_5.index t a * S8192x80.size a + S8192x80.size a := by
  show i ∈ ((View.whole main_v21).slice (win1_5.rect t)).set ↔ _
  rw [View.set_slice_whole, Rect.mem_set_unit]
  exact Iff.rfl

theorem cover1 (i : S131072x80.Idx) : ∃ t : Fin cfg1.N, (cfg1.win 5).flush t = true ∧ i ∈ ((cfg1.win 5).blk t).view.set := by
  have hi0 : (i 0).val < 131072 := (i 0).isLt
  have hi1 : (i 1).val < 80 := (i 1).isLt
  have hN : cfg1.N = 16 := N_1
  let t : Fin cfg1.N := ⟨(i 0).val / 8192, by rw [hN]; omega⟩
  have ht : t.val = (i 0).val / 8192 := rfl
  obtain ⟨e0, e1, e2, e3, e4, e5, e6, e7⟩ := blockIdx1 t
  refine ⟨t, flush1_5 t, ?_⟩
  rw [mem_blk1]
  intro a
  match a with
  | ⟨0, _⟩ => show win1_5.index t (0 : Fin 2) * 8192 ≤ (i 0).val ∧ (i 0).val < win1_5.index t (0 : Fin 2) * 8192 + 8192; omega
  | ⟨1, _⟩ => show win1_5.index t (1 : Fin 2) * 80 ≤ (i 1).val ∧ (i 1).val < win1_5.index t (1 : Fin 2) * 80 + 80; omega

theorem region1_val (c : Dev nD) :
    (dat1 (F := Ideal) V c).arrAt ⟨5, by decide⟩ cfg1.N
      = normRelu (n := 131072) (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5
    (normRelu (n := 131072) (yArr1 V c) (meanArr1 V c) (varArr1 V c) (scaleArr1 V c) (shiftArr1 V c))
    (fun t _ => flushed1_eq V c t) cover1

end Cert.KernelIdeal.RegVal

end
-- ==== Proof.BridgeNorm1.lean ====
import proofs.«415935_j25786983645203_2_alg».proof.Proof.KKeep
import proofs.«415935_j25786983645203_2_alg».proof.Proof.RKeep
import proofs.«415935_j25786983645203_2_alg».proof.Proof.Reg1

set_option maxRecDepth 16384

noncomputable section

namespace Cert.Bridge

open Idealize.ShloMosaic Idealize.ShloMosaic.TcCoe

theorem normRelu_congr {n : Nat} {y y' : (Cert.SpecNormRelu.Rows n).Idx → EReal} {m m' v v' g g' b b' : Cert.SpecNormRelu.Cols.Idx → EReal}
    (hy : y = y') (hm : m = m') (hv : v = v') (hg : g = g') (hb : b = b') :
    Cert.SpecNormRelu.normRelu y m v g b = Cert.SpecNormRelu.normRelu y' m' v' g' b' := by
  subst hy hm hv hg hb; rfl

section Kernel

open Cert.KernelIdeal Cert.KernelIdeal.Gen

variable (m : (ℓ : Loc nD τ sig) → Buf (Elt Ideal) ℓ) (ρ : Dev nD → PrngReg)

theorem kernel_v21 (c : Dev nD) :
    (W24 m ρ c (Proc.devRef .tc main_v21) : (⟨S131072x80, .f32⟩ : BufTy).Contents (Elt Ideal))
      = Cert.SpecNormRelu.normRelu (n := 131072) (W24 m ρ c (Proc.devRef .tc main_v10)) (W24 m ρ c (Proc.devRef .tc main_v13))
          (W24 m ρ c (Proc.devRef .tc main_v20)) (W24 m ρ c (Proc.devRef .tc main_arg4)) (W24 m ρ c (Proc.devRef .tc main_arg5)) :=
  (keep4 m ρ c Cert.KernelIdeal.main_v21 (by decide)).trans <|
    (W4_arr m ρ c 5).trans <|
      (Cert.KernelIdeal.RegVal.region1_val (V3 m ρ) c).trans <|
        normRelu_congr (n := 131072) (keep3 m ρ c Cert.KernelIdeal.main_v10 (by decide)).symm (keep3 m ρ c Cert.KernelIdeal.main_v13 (by decide)).symm (keep3 m ρ c Cert.KernelIdeal.main_v20 (by decide)).symm
          (keep3 m ρ c Cert.KernelIdeal.main_arg4 (by decide)).symm (keep3 m ρ c Cert.KernelIdeal.main_arg5 (by decide)).symm

end Kernel

section Reference

open Cert.ReferenceIdeal Cert.ReferenceIdeal.RefRun Idealize.ShloMosaic.StableHlo

variable (V' : Valuation τ sig (Elt Ideal))

theorem ref_v38 :
    (RV3 V' (Proc.devRef .tc main_v38) : (⟨S131072x80, .f32⟩ : BufTy).Contents (Elt Ideal))
      = subf (F := Ideal) (φ := .f32) (RV3 V' (Proc.devRef .tc main_v25) : (⟨S131072x80, .f32⟩ : BufTy).Contents (Elt Ideal))
          (broadcastInDim S131072x80 ![0, 1] Facts₀.bcast_S1x80_S131072x80_0_1
            (broadcastInDim S1x80 ![1] Facts₀.bcast_S80_S1x80_1
              (RV3 V' (Proc.devRef .tc main_v28) : (⟨S80, .f32⟩ : BufTy).Contents (Elt Ideal)))) := by
  rw [RV3_eq]
  after_results_simp

theorem ref_v51 :
    (RV23 V' (Proc.devRef .tc main_v51) : (⟨S131072x80, .f32⟩ : BufTy).Contents (Elt Ideal))
      = Cert.SpecNormRelu.normRelu (n := 131072) (RV23 V' (Proc.devRef .tc main_v25)) (RV23 V' (Proc.devRef .tc main_v28))
          (RV23 V' (Proc.devRef .tc main_v35)) (RV23 V' (Proc.devRef .tc main_arg4)) (RV23 V' (Proc.devRef .tc main_arg5)) := by
  rw [rkeep5 V' Cert.ReferenceIdeal.main_v51 (by decide), rkeep3 V' Cert.ReferenceIdeal.main_v25 (by decide), rkeep3 V' Cert.ReferenceIdeal.main_v28 (by decide), rkeep3 V' Cert.ReferenceIdeal.main_v35 (by decide), rkeep3 V' Cert.ReferenceIdeal.main_arg4 (by decide), rkeep3 V' Cert.ReferenceIdeal.main_arg5 (by decide),
    RV5_eq, RV4_eq]
  after_results_simp
  simp only [TRef.toBuf, TRef.ofBuf, cast_eq, id_eq]
  rw [ref_v38 V']
  exact Cert.SpecNormRelu.host_eq _ _ _ _ _ _ _ _ _

end Reference

theorem eq_v21 (m : (ℓ : Loc Cert.KernelIdeal.nD Cert.KernelIdeal.τ Cert.KernelIdeal.sig) → Buf (Elt Ideal) ℓ)
    (ρ : Dev Cert.KernelIdeal.nD → PrngReg) (V' : Valuation Cert.ReferenceIdeal.τ Cert.ReferenceIdeal.sig (Elt Ideal))
    (c : Dev Cert.KernelIdeal.nD)
    (h0 : (Cert.KernelIdeal.Gen.W24 m ρ c (Proc.devRef .tc Cert.KernelIdeal.main_v10) : (⟨Cert.KernelIdeal.S131072x80, .f32⟩ : BufTy).Contents (Elt Ideal))
      = Cert.ReferenceIdeal.RefRun.RV23 V' (Proc.devRef .tc Cert.ReferenceIdeal.main_v25))
    (h1 : (Cert.KernelIdeal.Gen.W24 m ρ c (Proc.devRef .tc Cert.KernelIdeal.main_v13) : (⟨Cert.KernelIdeal.S80, .f32⟩ : BufTy).Contents (Elt Ideal))
      = Cert.ReferenceIdeal.RefRun.RV23 V' (Proc.devRef .tc Cert.ReferenceIdeal.main_v28))
    (h2 : (Cert.KernelIdeal.Gen.W24 m ρ c (Proc.devRef .tc Cert.KernelIdeal.main_v20) : (⟨Cert.KernelIdeal.S80, .f32⟩ : BufTy).Contents (Elt Ideal))
      = Cert.ReferenceIdeal.RefRun.RV23 V' (Proc.devRef .tc Cert.ReferenceIdeal.main_v35))
    (h3 : (Cert.KernelIdeal.Gen.W24 m ρ c (Proc.devRef .tc Cert.KernelIdeal.main_arg4) : (⟨Cert.KernelIdeal.S80, .f32⟩ : BufTy).Contents (Elt Ideal))
      = Cert.ReferenceIdeal.RefRun.RV23 V' (Proc.devRef .tc Cert.ReferenceIdeal.main_arg4))
    (h4 : (Cert.KernelIdeal.Gen.W24 m ρ c (Proc.devRef .tc Cert.KernelIdeal.main_arg5) : (⟨Cert.KernelIdeal.S80, .f32⟩ : BufTy).Contents (Elt Ideal))
      = Cert.ReferenceIdeal.RefRun.RV23 V' (Proc.devRef .tc Cert.ReferenceIdeal.main_arg5)) :
    (Cert.KernelIdeal.Gen.W24 m ρ c (Proc.devRef .tc Cert.KernelIdeal.main_v21) : (⟨Cert.KernelIdeal.S131072x80, .f32⟩ : BufTy).Contents (Elt Ideal))
      = Cert.ReferenceIdeal.RefRun.RV23 V' (Proc.devRef .tc Cert.ReferenceIdeal.main_v51) :=
  (kernel_v21 m ρ c).trans <|
    (normRelu_congr (n := 131072) h0 h1 h2 h3 h4).trans (ref_v51 V').symm

end Cert.Bridge

end
-- ==== Proof.SpecElu.lean ====
import Idealize.ShloMosaic.Lib.IdealHost

noncomputable section

namespace Cert.SpecElu

open Idealize.ShloMosaic Idealize.ShloMosaic.ValueIdx

def elu (s : EReal) : EReal := if 0 < s then s else Ideal.exp s - 1

def eluRes (S : Shape) (h agg : S.Idx → EReal) : S.Idx → EReal := fun i => elu (h i + agg i)

theorem cmp_ogt_zero (s : EReal) : Ideal.cmp .ogt s 0 = (1 : BitVec 1) ↔ 0 < s := by
  unfold Ideal.cmp
  by_cases h : 0 < s
  · simp [h]
  · simp [h]

theorem elu_kernel_point (s : EReal) :
    Scalar.select (Ideal.cmp .ogt s (Ideal.ofBits .f32 0x00000000#32)) s (Ideal.exp s - Ideal.ofBits .f32 0x3F800000#32) = elu s := by
  rw [Ideal.ofBits_zero_f32, Ideal.ofBits_one_f32]
  unfold Scalar.select elu
  by_cases h : 0 < s
  · rw [if_pos ((cmp_ogt_zero s).mpr h), if_pos h]
  · rw [if_neg (fun e => h ((cmp_ogt_zero s).mp e)), if_neg h]

theorem elu_host_point (x : EReal) :
    Scalar.select (Ideal.cmp .ogt x (Ideal.ofBits .f32 0x00000000#32)) x
      (Ideal.ofBits .f32 0x3F800000#32 *
        (Ideal.exp (Scalar.select (Ideal.cmp .ogt x (Ideal.ofBits .f32 0x00000000#32)) (Ideal.ofBits .f32 0x00000000#32) x) - 1)) = elu x := by
  rw [Ideal.ofBits_zero_f32, Ideal.ofBits_one_f32]
  unfold Scalar.select elu
  by_cases h : 0 < x
  · rw [if_pos ((cmp_ogt_zero x).mpr h), if_pos h]
  · have hc : ¬Ideal.cmp .ogt x 0 = (1 : BitVec 1) := fun e => h ((cmp_ogt_zero x).mp e)
    rw [if_neg hc, if_neg hc, if_neg h, one_mul]

theorem kernel_eq (S : Shape) (h agg : FVec Ideal S .f32) :
    select (cmpf .ogt (addf h agg) (broadcast S (Scalar.ofBits (F := Ideal) .f32 0x00000000#32))) (addf h agg)
        (subf (exp (addf h agg)) (broadcast S (Scalar.ofBits (F := Ideal) .f32 0x3F800000#32)))
      = eluRes S h agg := by
  funext i
  exact elu_kernel_point (h i + agg i)

theorem host_elu_eq (S : Shape) (hb : (⟨0, ![]⟩ : Shape).BroadcastsInDim S ![]) (x : FVec Ideal S .f32) :
    select (cmpf .ogt x (broadcastInDim S ![] hb (constant (F := Ideal) ⟨0, ![]⟩ .f32 0x00000000#32))) x
        (mulf (broadcastInDim S ![] hb (constant (F := Ideal) ⟨0, ![]⟩ .f32 0x3F800000#32))
          (Host.expm1
            (select (cmpf .ogt x (broadcastInDim S ![] hb (constant (F := Ideal) ⟨0, ![]⟩ .f32 0x00000000#32)))
              (broadcastInDim S ![] hb (id (constant (F := Ideal) ⟨0, ![]⟩ .f32 0x00000000#32))) x)))
      = fun i => elu (x i) := by
  funext i
  exact elu_host_point (x i)

theorem host_eq (S : Shape) (hb : (⟨0, ![]⟩ : Shape).BroadcastsInDim S ![]) (h agg : FVec Ideal S .f32) :
    select (cmpf .ogt (addf h agg) (broadcastInDim S ![] hb (constant (F := Ideal) ⟨0, ![]⟩ .f32 0x00000000#32))) (addf h agg)
        (mulf (broadcastInDim S ![] hb (constant (F := Ideal) ⟨0, ![]⟩ .f32 0x3F800000#32))
          (Host.expm1
            (select (cmpf .ogt (addf h agg) (broadcastInDim S ![] hb (constant (F := Ideal) ⟨0, ![]⟩ .f32 0x00000000#32)))
              (broadcastInDim S ![] hb (id (constant (F := Ideal) ⟨0, ![]⟩ .f32 0x00000000#32))) (addf h agg))))
      = eluRes S h agg :=
  host_elu_eq S hb (addf h agg)

end Cert.SpecElu

end
-- ==== Proof.Reg3.lean ====
import proofs.«415935_j25786983645203_2_alg».proof.Proof.Gen.KernelIdeal.Frame
import proofs.«415935_j25786983645203_2_alg».proof.Proof.SpecElu
import Idealize.ShloMosaic.Lib.Pipeline.Value
import Idealize.ShloMosaic.Lib.Tactic

set_option maxRecDepth 16384

noncomputable section

namespace Cert.KernelIdeal.RegVal

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev hArr3 (c : Dev nD) : S131072x80.Idx → EReal := V c (Pipeline.arrRef spec3 0)

abbrev aggArr3 (c : Dev nD) : S131072x80.Idx → EReal := V c (Pipeline.arrRef spec3 1)

theorem zeroOff3 : (![0, 0] : Fin 2 → Nat) = fun _ => 0 := funext fun a => by fin_cases a <;> rfl

theorem pay3_eq (x0 x1 : Vec Ideal S8192x80 .f32) :
    k3_pay1 (F := Ideal) x0 x1 = Cert.SpecElu.eluRes S8192x80 x0 x1 := by
  unfold k3_pay1
  simp only [shapeCast_self]
  exact Cert.SpecElu.kernel_eq S8192x80 x0 x1

theorem blockIdx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

theorem flushed3_eq (c : Dev nD) (t : Fin cfg3.N) :
    (dat3 (F := Ideal) V c).flushed 2 t
      = ((cfg3.win 2).blk t).view.read (Elt Ideal) (Cert.SpecElu.eluRes S131072x80 (hArr3 V c) (aggArr3 V c)) := by
  show (cfg3.win 2).cut (grid3.coords t) ((dat3 (F := Ideal) V c).after 2 t) = _
  rw [after3_2]
  unfold out3_2
  rw [View.canon_unit_zero zeroOff3]
  simp only [View.ld_unit_zero (S := S8192x80) zeroOff3]
  rw [pay3_eq]
  obtain ⟨e0, e1, e2, e3, e4, e5⟩ := blockIdx3 t
  funext j
  show Cert.SpecElu.elu (hArr3 V c (((cfg3.win 0).blk t).view.emb j) + aggArr3 V c (((cfg3.win 1).blk t).view.emb j))
    = Cert.SpecElu.elu (hArr3 V c (((cfg3.win 2).blk t).view.emb j) + aggArr3 V c (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 8192 + 1 * (j 0).val = win3_2.index t (0 : Fin 2) * 8192 + 1 * (j 0).val; omega
    | ⟨1, _⟩ => show win3_0.index t (1 : Fin 2) * 80 + 1 * (j 1).val = win3_2.index t (1 : Fin 2) * 80 + 1 * (j 1).val; omega
  have h1 : ((cfg3.win 1).blk t).view.emb j = ((cfg3.win 2).blk t).view.emb j := by
    funext a; apply Fin.ext
    match a with
    | ⟨0, _⟩ => show win3_1.index t (0 : Fin 2) * 8192 + 1 * (j 0).val = win3_2.index t (0 : Fin 2) * 8192 + 1 * (j 0).val; omega
    | ⟨1, _⟩ => show win3_1.index t (1 : Fin 2) * 80 + 1 * (j 1).val = win3_2.index t (1 : Fin 2) * 80 + 1 * (j 1).val; omega
  rw [h0, h1]

theorem mem_blk3 (t : Fin cfg3.N) (i : S131072x80.Idx) :
    i ∈ ((cfg3.win 2).blk t).view.set ↔ ∀ a : Fin 2, win3_2.index t a * S8192x80.size a ≤ (i a).val ∧ (i a).val < win3_2.index t a * S8192x80.size a + S8192x80.size a := by
  show i ∈ ((View.whole main_v35).slice (win3_2.rect t)).set ↔ _
  rw [View.set_slice_whole, Rect.mem_set_unit]
  exact Iff.rfl

theorem cover3 (i : S131072x80.Idx) : ∃ t : Fin cfg3.N, (cfg3.win 2).flush t = true ∧ i ∈ ((cfg3.win 2).blk t).view.set := by
  have hi0 : (i 0).val < 131072 := (i 0).isLt
  have hi1 : (i 1).val < 80 := (i 1).isLt
  have hN : cfg3.N = 16 := N_3
  let t : Fin cfg3.N := ⟨(i 0).val / 8192, by rw [hN]; omega⟩
  have ht : t.val = (i 0).val / 8192 := rfl
  obtain ⟨e0, e1, e2, e3, e4, e5⟩ := blockIdx3 t
  refine ⟨t, flush3_2 t, ?_⟩
  rw [mem_blk3]
  intro a
  match a with
  | ⟨0, _⟩ => show win3_2.index t (0 : Fin 2) * 8192 ≤ (i 0).val ∧ (i 0).val < win3_2.index t (0 : Fin 2) * 8192 + 8192; omega
  | ⟨1, _⟩ => show win3_2.index t (1 : Fin 2) * 80 ≤ (i 1).val ∧ (i 1).val < win3_2.index t (1 : Fin 2) * 80 + 80; omega

theorem region3_val (c : Dev nD) :
    (dat3 (F := Ideal) V c).arrAt ⟨2, by decide⟩ cfg3.N
      = Cert.SpecElu.eluRes S131072x80 (V c (Pipeline.arrRef spec3 0)) (V c (Pipeline.arrRef spec3 1)) :=
  (dat3 (F := Ideal) V c).arrAt_eq_of_cover 2 (Cert.SpecElu.eluRes S131072x80 (hArr3 V c) (aggArr3 V c))
    (fun t _ => flushed3_eq V c t) cover3

end Cert.KernelIdeal.RegVal

end
-- ==== Proof.BridgeElu3.lean ====
import proofs.«415935_j25786983645203_2_alg».proof.Proof.KKeep
import proofs.«415935_j25786983645203_2_alg».proof.Proof.RKeep
import proofs.«415935_j25786983645203_2_alg».proof.Proof.Reg3

set_option maxRecDepth 16384

noncomputable section

namespace Cert.Bridge

open Idealize.ShloMosaic Idealize.ShloMosaic.TcCoe

section Kernel

open Cert.KernelIdeal Cert.KernelIdeal.Gen

variable (m : (ℓ : Loc nD τ sig) → Buf (Elt Ideal) ℓ) (ρ : Dev nD → PrngReg)

theorem kernel_v35 (c : Dev nD) :
    (W24 m ρ c (Proc.devRef .tc main_v35) : (⟨S131072x80, .f32⟩ : BufTy).Contents (Elt Ideal))
      = Cert.SpecElu.eluRes S131072x80 (W24 m ρ c (Proc.devRef .tc main_v21)) (W24 m ρ c (Proc.devRef .tc main_v34)) :=
  (keep8 m ρ c Cert.KernelIdeal.main_v35 (by decide)).trans <|
    (W8_arr m ρ c 2).trans <|
      (Cert.KernelIdeal.RegVal.region3_val (V7 m ρ) c).trans <|
        congrArg₂ (Cert.SpecElu.eluRes S131072x80) (keep7 m ρ c Cert.KernelIdeal.main_v21 (by decide)).symm (keep7 m ρ c Cert.KernelIdeal.main_v34 (by decide)).symm

end Kernel

section Reference

open Cert.ReferenceIdeal Cert.ReferenceIdeal.RefRun Idealize.ShloMosaic.StableHlo

variable (V' : Valuation τ sig (Elt Ideal))

theorem ref_v66 :
    (RV23 V' (Proc.devRef .tc main_v66) : (⟨S131072x80, .f32⟩ : BufTy).Contents (Elt Ideal))
      = Cert.SpecElu.eluRes S131072x80 (RV23 V' (Proc.devRef .tc main_v51)) (RV23 V' (Proc.devRef .tc main_v64)) := by
  rw [rkeep7 V' Cert.ReferenceIdeal.main_v66 (by decide), rkeep6 V' Cert.ReferenceIdeal.main_v51 (by decide), rkeep6 V' Cert.ReferenceIdeal.main_v64 (by decide), RV7_eq]
  after_results_simp
  simp only [TRef.toBuf, TRef.ofBuf, cast_eq, id_eq]
  exact Cert.SpecElu.host_eq S131072x80 _ _ _

end Reference

theorem eq_v35 (m : (ℓ : Loc Cert.KernelIdeal.nD Cert.KernelIdeal.τ Cert.KernelIdeal.sig) → Buf (Elt Ideal) ℓ)
    (ρ : Dev Cert.KernelIdeal.nD → PrngReg) (V' : Valuation Cert.ReferenceIdeal.τ Cert.ReferenceIdeal.sig (Elt Ideal))
    (c : Dev Cert.KernelIdeal.nD)
    (h0 : (Cert.KernelIdeal.Gen.W24 m ρ c (Proc.devRef .tc Cert.KernelIdeal.main_v21) : (⟨Cert.KernelIdeal.S131072x80, .f32⟩ : BufTy).Contents (Elt Ideal))
      = Cert.ReferenceIdeal.RefRun.RV23 V' (Proc.devRef .tc Cert.ReferenceIdeal.main_v51))
    (h1 : (Cert.KernelIdeal.Gen.W24 m ρ c (Proc.devRef .tc Cert.KernelIdeal.main_v34) : (⟨Cert.KernelIdeal.S131072x80, .f32⟩ : BufTy).Contents (Elt Ideal))
      = Cert.ReferenceIdeal.RefRun.RV23 V' (Proc.devRef .tc Cert.ReferenceIdeal.main_v64)) :
    (Cert.KernelIdeal.Gen.W24 m ρ c (Proc.devRef .tc Cert.KernelIdeal.main_v35) : (⟨Cert.KernelIdeal.S131072x80, .f32⟩ : BufTy).Contents (Elt Ideal))
      = Cert.ReferenceIdeal.RefRun.RV23 V' (Proc.devRef .tc Cert.ReferenceIdeal.main_v66) :=
  (kernel_v35 m ρ c).trans <|
    (congrArg₂ (Cert.SpecElu.eluRes Cert.KernelIdeal.S131072x80) h0 h1).trans (ref_v66 V').symm

end Cert.Bridge

end
-- ==== Proof.Reg5.lean ====
/-
  REGION 5 of the idealized kernel, read as a value: the residual-ELU call on the 65536 x 80 node array.
  Its grid has 8 points; at point `t` each of the three windows (the two operands and the result) holds rows
  `8192 t … 8192 t + 8191` of its array, all 80 columns. The body adds the two operand blocks and applies ELU, element
  by element, so what point `t` writes back is block `t` of ONE whole-array function of the two operand arrays,
  `Cert.SpecElu.eluRes`: an element of the result depends only on the same element of the operands. The eight blocks
  tile the rows (row `r` is in block `r / 8192`), so after the region the result array is that function of the operand
  arrays as the region found them.
-/
import proofs.«415935_j25786983645203_2_alg».proof.Proof.Gen.KernelIdeal.Frame
import proofs.«415935_j25786983645203_2_alg».proof.Proof.SpecElu
import Idealize.ShloMosaic.Lib.Pipeline.Value
import Idealize.ShloMosaic.Lib.Tactic

set_option maxRecDepth 16384

noncomputable section

namespace Cert.KernelIdeal.RegVal

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The first operand array (the node features) as the region finds it. -/
abbrev hArr5 (c : Dev nD) : S65536x80.Idx → EReal := V c (Pipeline.arrRef spec5 0)
/-- The second operand array (the aggregated messages) as the region finds it. -/
abbrev aggArr5 (c : Dev nD) : S65536x80.Idx → EReal := V c (Pipeline.arrRef spec5 1)

theorem zeroOff5 : (![0, 0] : Fin 2 → Nat) = fun _ => 0 := funext fun a => by fin_cases a <;> rfl

/-- The body's payload is the residual ELU of its two loaded blocks. -/
theorem pay5_eq (x0 x1 : Vec Ideal S8192x80 .f32) :
    k5_pay1 (F := Ideal) x0 x1 = Cert.SpecElu.eluRes S8192x80 x0 x1 := by
  unfold k5_pay1
  simp only [shapeCast_self]
  exact Cert.SpecElu.kernel_eq S8192x80 x0 x1

/-- The index maps, decided over the grid: each window takes row block `t` and column block 0. -/
theorem blockIdx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- WHAT POINT `t` WRITES BACK is block `t` of the residual ELU of the two operand arrays. -/
theorem flushed5_eq (c : Dev nD) (t : Fin cfg5.N) :
    (dat5 (F := Ideal) V c).flushed 2 t
      = ((cfg5.win 2).blk t).view.read (Elt Ideal) (Cert.SpecElu.eluRes S65536x80 (hArr5 V c) (aggArr5 V c)) := by
  show (cfg5.win 2).cut (grid5.coords t) ((dat5 (F := Ideal) V c).after 2 t) = _
  rw [after5_2]
  unfold out5_2
  rw [View.canon_unit_zero zeroOff5]
  simp only [View.ld_unit_zero (S := S8192x80) zeroOff5]
  rw [pay5_eq]
  obtain ⟨e0, e1, e2, e3, e4, e5⟩ := blockIdx5 t
  funext j
  show Cert.SpecElu.elu (hArr5 V c (((cfg5.win 0).blk t).view.emb j) + aggArr5 V c (((cfg5.win 1).blk t).view.emb j))
    = Cert.SpecElu.elu (hArr5 V c (((cfg5.win 2).blk t).view.emb j) + aggArr5 V c (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 8192 + 1 * (j 0).val = win5_2.index t (0 : Fin 2) * 8192 + 1 * (j 0).val; omega
    | ⟨1, _⟩ => show win5_0.index t (1 : Fin 2) * 80 + 1 * (j 1).val = win5_2.index t (1 : Fin 2) * 80 + 1 * (j 1).val; omega
  have h1 : ((cfg5.win 1).blk t).view.emb j = ((cfg5.win 2).blk t).view.emb j := by
    funext a; apply Fin.ext
    match a with
    | ⟨0, _⟩ => show win5_1.index t (0 : Fin 2) * 8192 + 1 * (j 0).val = win5_2.index t (0 : Fin 2) * 8192 + 1 * (j 0).val; omega
    | ⟨1, _⟩ => show win5_1.index t (1 : Fin 2) * 80 + 1 * (j 1).val = win5_2.index t (1 : Fin 2) * 80 + 1 * (j 1).val; omega
  rw [h0, h1]

/-- An index of the result array is in point `t`'s block iff each coordinate is in the block's range on its axis. -/
theorem mem_blk5 (t : Fin cfg5.N) (i : S65536x80.Idx) :
    i ∈ ((cfg5.win 2).blk t).view.set ↔ ∀ a : Fin 2, win5_2.index t a * S8192x80.size a ≤ (i a).val ∧ (i a).val < win5_2.index t a * S8192x80.size a + S8192x80.size a := by
  show i ∈ ((View.whole main_v66).slice (win5_2.rect t)).set ↔ _
  rw [View.set_slice_whole, Rect.mem_set_unit]
  exact Iff.rfl

/-- Every index of the result array is in some point's block: row `r` is in block `r / 8192`. -/
theorem cover5 (i : S65536x80.Idx) : ∃ t : Fin cfg5.N, (cfg5.win 2).flush t = true ∧ i ∈ ((cfg5.win 2).blk t).view.set := by
  have hi0 : (i 0).val < 65536 := (i 0).isLt
  have hi1 : (i 1).val < 80 := (i 1).isLt
  have hN : cfg5.N = 8 := N_5
  let t : Fin cfg5.N := ⟨(i 0).val / 8192, by rw [hN]; omega⟩
  have ht : t.val = (i 0).val / 8192 := rfl
  obtain ⟨e0, e1, e2, e3, e4, e5⟩ := blockIdx5 t
  refine ⟨t, flush5_2 t, ?_⟩
  rw [mem_blk5]
  intro a
  match a with
  | ⟨0, _⟩ => show win5_2.index t (0 : Fin 2) * 8192 ≤ (i 0).val ∧ (i 0).val < win5_2.index t (0 : Fin 2) * 8192 + 8192; omega
  | ⟨1, _⟩ => show win5_2.index t (1 : Fin 2) * 80 ≤ (i 1).val ∧ (i 1).val < win5_2.index t (1 : Fin 2) * 80 + 80; omega

/-- THE RESULT ARRAY after region 5 is the residual ELU of the two operand arrays as the region found them. -/
theorem region5_val (c : Dev nD) :
    (dat5 (F := Ideal) V c).arrAt ⟨2, by decide⟩ cfg5.N
      = Cert.SpecElu.eluRes S65536x80 (V c (Pipeline.arrRef spec5 0)) (V c (Pipeline.arrRef spec5 1)) :=
  (dat5 (F := Ideal) V c).arrAt_eq_of_cover 2 (Cert.SpecElu.eluRes S65536x80 (hArr5 V c) (aggArr5 V c))
    (fun t _ => flushed5_eq V c t) cover5

end Cert.KernelIdeal.RegVal

end
-- ==== Proof.BridgeElu5.lean ====
import proofs.«415935_j25786983645203_2_alg».proof.Proof.KKeep
import proofs.«415935_j25786983645203_2_alg».proof.Proof.RKeep
import proofs.«415935_j25786983645203_2_alg».proof.Proof.Reg5

set_option maxRecDepth 16384

noncomputable section

namespace Cert.Bridge

open Idealize.ShloMosaic Idealize.ShloMosaic.TcCoe

section Kernel

open Cert.KernelIdeal Cert.KernelIdeal.Gen

variable (m : (ℓ : Loc nD τ sig) → Buf (Elt Ideal) ℓ) (ρ : Dev nD → PrngReg)

theorem kernel_v66 (c : Dev nD) :
    (W24 m ρ c (Proc.devRef .tc main_v66) : (⟨S65536x80, .f32⟩ : BufTy).Contents (Elt Ideal))
      = Cert.SpecElu.eluRes S65536x80 (W24 m ρ c (Proc.devRef .tc main_v42)) (W24 m ρ c (Proc.devRef .tc main_v65)) :=
  (keep12 m ρ c Cert.KernelIdeal.main_v66 (by decide)).trans <|
    (W12_arr m ρ c 2).trans <|
      (Cert.KernelIdeal.RegVal.region5_val (V11 m ρ) c).trans <|
        congrArg₂ (Cert.SpecElu.eluRes S65536x80) (keep11 m ρ c Cert.KernelIdeal.main_v42 (by decide)).symm (keep11 m ρ c Cert.KernelIdeal.main_v65 (by decide)).symm

end Kernel

section Reference

open Cert.ReferenceIdeal Cert.ReferenceIdeal.RefRun Idealize.ShloMosaic.StableHlo

variable (V' : Valuation τ sig (Elt Ideal))

theorem ref_v98 :
    (RV23 V' (Proc.devRef .tc main_v98) : (⟨S65536x80, .f32⟩ : BufTy).Contents (Elt Ideal))
      = Cert.SpecElu.eluRes S65536x80 (RV23 V' (Proc.devRef .tc main_v73)) (RV23 V' (Proc.devRef .tc main_v96)) := by
  rw [rkeep10 V' Cert.ReferenceIdeal.main_v98 (by decide), rkeep9 V' Cert.ReferenceIdeal.main_v73 (by decide), rkeep9 V' Cert.ReferenceIdeal.main_v96 (by decide), RV10_eq]
  after_results_simp
  simp only [TRef.toBuf, TRef.ofBuf, cast_eq, id_eq]
  exact Cert.SpecElu.host_eq S65536x80 _ _ _

end Reference

theorem eq_v66 (m : (ℓ : Loc Cert.KernelIdeal.nD Cert.KernelIdeal.τ Cert.KernelIdeal.sig) → Buf (Elt Ideal) ℓ)
    (ρ : Dev Cert.KernelIdeal.nD → PrngReg) (V' : Valuation Cert.ReferenceIdeal.τ Cert.ReferenceIdeal.sig (Elt Ideal))
    (c : Dev Cert.KernelIdeal.nD)
    (h0 : (Cert.KernelIdeal.Gen.W24 m ρ c (Proc.devRef .tc Cert.KernelIdeal.main_v42) : (⟨Cert.KernelIdeal.S65536x80, .f32⟩ : BufTy).Contents (Elt Ideal))
      = Cert.ReferenceIdeal.RefRun.RV23 V' (Proc.devRef .tc Cert.ReferenceIdeal.main_v73))
    (h1 : (Cert.KernelIdeal.Gen.W24 m ρ c (Proc.devRef .tc Cert.KernelIdeal.main_v65) : (⟨Cert.KernelIdeal.S65536x80, .f32⟩ : BufTy).Contents (Elt Ideal))
      = Cert.ReferenceIdeal.RefRun.RV23 V' (Proc.devRef .tc Cert.ReferenceIdeal.main_v96)) :
    (Cert.KernelIdeal.Gen.W24 m ρ c (Proc.devRef .tc Cert.KernelIdeal.main_v66) : (⟨Cert.KernelIdeal.S65536x80, .f32⟩ : BufTy).Contents (Elt Ideal))
      = Cert.ReferenceIdeal.RefRun.RV23 V' (Proc.devRef .tc Cert.ReferenceIdeal.main_v98) :=
  (kernel_v66 m ρ c).trans <|
    (congrArg₂ (Cert.SpecElu.eluRes Cert.KernelIdeal.S65536x80) h0 h1).trans (ref_v98 V').symm

end Cert.Bridge

end
-- ==== Proof.Reg7.lean ====
/-
  REGION 7 of the idealized kernel, read as a value: the residual-ELU call on the 32768 x 80 node array.
  Its grid has 4 points; at point `t` each of the three windows (the two operands and the result) holds rows
  `8192 t … 8192 t + 8191` of its array, all 80 columns. The body adds the two operand blocks and applies ELU, element
  by element, so what point `t` writes back is block `t` of ONE whole-array function of the two operand arrays,
  `Cert.SpecElu.eluRes`: an element of the result depends only on the same element of the operands. The four blocks
  tile the rows (row `r` is in block `r / 8192`), so after the region the result array is that function of the operand
  arrays as the region found them.
-/
import proofs.«415935_j25786983645203_2_alg».proof.Proof.Gen.KernelIdeal.Frame
import proofs.«415935_j25786983645203_2_alg».proof.Proof.SpecElu
import Idealize.ShloMosaic.Lib.Pipeline.Value
import Idealize.ShloMosaic.Lib.Tactic

set_option maxRecDepth 16384

noncomputable section

namespace Cert.KernelIdeal.RegVal

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The first operand array (the node features) as the region finds it. -/
abbrev hArr7 (c : Dev nD) : S32768x80.Idx → EReal := V c (Pipeline.arrRef spec7 0)
/-- The second operand array (the aggregated messages) as the region finds it. -/
abbrev aggArr7 (c : Dev nD) : S32768x80.Idx → EReal := V c (Pipeline.arrRef spec7 1)

theorem zeroOff7 : (![0, 0] : Fin 2 → Nat) = fun _ => 0 := funext fun a => by fin_cases a <;> rfl

/-- The body's payload is the residual ELU of its two loaded blocks. -/
theorem pay7_eq (x0 x1 : Vec Ideal S8192x80 .f32) :
    k7_pay1 (F := Ideal) x0 x1 = Cert.SpecElu.eluRes S8192x80 x0 x1 := by
  unfold k7_pay1
  simp only [shapeCast_self]
  exact Cert.SpecElu.kernel_eq S8192x80 x0 x1

/-- The index maps, decided over the grid: each window takes row block `t` and column block 0. -/
theorem blockIdx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- WHAT POINT `t` WRITES BACK is block `t` of the residual ELU of the two operand arrays. -/
theorem flushed7_eq (c : Dev nD) (t : Fin cfg7.N) :
    (dat7 (F := Ideal) V c).flushed 2 t
      = ((cfg7.win 2).blk t).view.read (Elt Ideal) (Cert.SpecElu.eluRes S32768x80 (hArr7 V c) (aggArr7 V c)) := by
  show (cfg7.win 2).cut (grid7.coords t) ((dat7 (F := Ideal) V c).after 2 t) = _
  rw [after7_2]
  unfold out7_2
  rw [View.canon_unit_zero zeroOff7]
  simp only [View.ld_unit_zero (S := S8192x80) zeroOff7]
  rw [pay7_eq]
  obtain ⟨e0, e1, e2, e3, e4, e5⟩ := blockIdx7 t
  funext j
  show Cert.SpecElu.elu (hArr7 V c (((cfg7.win 0).blk t).view.emb j) + aggArr7 V c (((cfg7.win 1).blk t).view.emb j))
    = Cert.SpecElu.elu (hArr7 V c (((cfg7.win 2).blk t).view.emb j) + aggArr7 V c (((cfg7.win 2).blk t).view.emb j))
  have h0 : ((cfg7.win 0).blk t).view.emb j = ((cfg7.win 2).blk t).view.emb j := by
    funext a; apply Fin.ext
    match a with
    | ⟨0, _⟩ => show win7_0.index t (0 : Fin 2) * 8192 + 1 * (j 0).val = win7_2.index t (0 : Fin 2) * 8192 + 1 * (j 0).val; omega
    | ⟨1, _⟩ => show win7_0.index t (1 : Fin 2) * 80 + 1 * (j 1).val = win7_2.index t (1 : Fin 2) * 80 + 1 * (j 1).val; omega
  have h1 : ((cfg7.win 1).blk t).view.emb j = ((cfg7.win 2).blk t).view.emb j := by
    funext a; apply Fin.ext
    match a with
    | ⟨0, _⟩ => show win7_1.index t (0 : Fin 2) * 8192 + 1 * (j 0).val = win7_2.index t (0 : Fin 2) * 8192 + 1 * (j 0).val; omega
    | ⟨1, _⟩ => show win7_1.index t (1 : Fin 2) * 80 + 1 * (j 1).val = win7_2.index t (1 : Fin 2) * 80 + 1 * (j 1).val; omega
  rw [h0, h1]

/-- An index of the result array is in point `t`'s block iff each coordinate is in the block's range on its axis. -/
theorem mem_blk7 (t : Fin cfg7.N) (i : S32768x80.Idx) :
    i ∈ ((cfg7.win 2).blk t).view.set ↔ ∀ a : Fin 2, win7_2.index t a * S8192x80.size a ≤ (i a).val ∧ (i a).val < win7_2.index t a * S8192x80.size a + S8192x80.size a := by
  show i ∈ ((View.whole main_v114).slice (win7_2.rect t)).set ↔ _
  rw [View.set_slice_whole, Rect.mem_set_unit]
  exact Iff.rfl

/-- Every index of the result array is in some point's block: row `r` is in block `r / 8192`. -/
theorem cover7 (i : S32768x80.Idx) : ∃ t : Fin cfg7.N, (cfg7.win 2).flush t = true ∧ i ∈ ((cfg7.win 2).blk t).view.set := by
  have hi0 : (i 0).val < 32768 := (i 0).isLt
  have hi1 : (i 1).val < 80 := (i 1).isLt
  have hN : cfg7.N = 4 := N_7
  let t : Fin cfg7.N := ⟨(i 0).val / 8192, by rw [hN]; omega⟩
  have ht : t.val = (i 0).val / 8192 := rfl
  obtain ⟨e0, e1, e2, e3, e4, e5⟩ := blockIdx7 t
  refine ⟨t, flush7_2 t, ?_⟩
  rw [mem_blk7]
  intro a
  match a with
  | ⟨0, _⟩ => show win7_2.index t (0 : Fin 2) * 8192 ≤ (i 0).val ∧ (i 0).val < win7_2.index t (0 : Fin 2) * 8192 + 8192; omega
  | ⟨1, _⟩ => show win7_2.index t (1 : Fin 2) * 80 ≤ (i 1).val ∧ (i 1).val < win7_2.index t (1 : Fin 2) * 80 + 80; omega

/-- THE RESULT ARRAY after region 7 is the residual ELU of the two operand arrays as the region found them. -/
theorem region7_val (c : Dev nD) :
    (dat7 (F := Ideal) V c).arrAt ⟨2, by decide⟩ cfg7.N
      = Cert.SpecElu.eluRes S32768x80 (V c (Pipeline.arrRef spec7 0)) (V c (Pipeline.arrRef spec7 1)) :=
  (dat7 (F := Ideal) V c).arrAt_eq_of_cover 2 (Cert.SpecElu.eluRes S32768x80 (hArr7 V c) (aggArr7 V c))
    (fun t _ => flushed7_eq V c t) cover7

end Cert.KernelIdeal.RegVal

end
-- ==== Proof.BridgeElu7.lean ====
import proofs.«415935_j25786983645203_2_alg».proof.Proof.KKeep
import proofs.«415935_j25786983645203_2_alg».proof.Proof.RKeep
import proofs.«415935_j25786983645203_2_alg».proof.Proof.Reg7

set_option maxRecDepth 16384

noncomputable section

namespace Cert.Bridge

open Idealize.ShloMosaic Idealize.ShloMosaic.TcCoe

section Kernel

open Cert.KernelIdeal Cert.KernelIdeal.Gen

variable (m : (ℓ : Loc nD τ sig) → Buf (Elt Ideal) ℓ) (ρ : Dev nD → PrngReg)

theorem kernel_v114 (c : Dev nD) :
    (W24 m ρ c (Proc.devRef .tc main_v114) : (⟨S32768x80, .f32⟩ : BufTy).Contents (Elt Ideal))
      = Cert.SpecElu.eluRes S32768x80 (W24 m ρ c (Proc.devRef .tc main_v73)) (W24 m ρ c (Proc.devRef .tc main_v113)) :=
  (keep16 m ρ c Cert.KernelIdeal.main_v114 (by decide)).trans <|
    (W16_arr m ρ c 2).trans <|
      (Cert.KernelIdeal.RegVal.region7_val (V15 m ρ) c).trans <|
        congrArg₂ (Cert.SpecElu.eluRes S32768x80) (keep15 m ρ c Cert.KernelIdeal.main_v73 (by decide)).symm (keep15 m ρ c Cert.KernelIdeal.main_v113 (by decide)).symm

end Kernel

section Reference

open Cert.ReferenceIdeal Cert.ReferenceIdeal.RefRun Idealize.ShloMosaic.StableHlo

variable (V' : Valuation τ sig (Elt Ideal))

theorem ref_v147 :
    (RV23 V' (Proc.devRef .tc main_v147) : (⟨S32768x80, .f32⟩ : BufTy).Contents (Elt Ideal))
      = Cert.SpecElu.eluRes S32768x80 (RV23 V' (Proc.devRef .tc main_v105)) (RV23 V' (Proc.devRef .tc main_v145)) := by
  rw [rkeep13 V' Cert.ReferenceIdeal.main_v147 (by decide), rkeep12 V' Cert.ReferenceIdeal.main_v105 (by decide), rkeep12 V' Cert.ReferenceIdeal.main_v145 (by decide), RV13_eq]
  after_results_simp
  simp only [TRef.toBuf, TRef.ofBuf, cast_eq, id_eq]
  exact Cert.SpecElu.host_eq S32768x80 _ _ _

end Reference

theorem eq_v114 (m : (ℓ : Loc Cert.KernelIdeal.nD Cert.KernelIdeal.τ Cert.KernelIdeal.sig) → Buf (Elt Ideal) ℓ)
    (ρ : Dev Cert.KernelIdeal.nD → PrngReg) (V' : Valuation Cert.ReferenceIdeal.τ Cert.ReferenceIdeal.sig (Elt Ideal))
    (c : Dev Cert.KernelIdeal.nD)
    (h0 : (Cert.KernelIdeal.Gen.W24 m ρ c (Proc.devRef .tc Cert.KernelIdeal.main_v73) : (⟨Cert.KernelIdeal.S32768x80, .f32⟩ : BufTy).Contents (Elt Ideal))
      = Cert.ReferenceIdeal.RefRun.RV23 V' (Proc.devRef .tc Cert.ReferenceIdeal.main_v105))
    (h1 : (Cert.KernelIdeal.Gen.W24 m ρ c (Proc.devRef .tc Cert.KernelIdeal.main_v113) : (⟨Cert.KernelIdeal.S32768x80, .f32⟩ : BufTy).Contents (Elt Ideal))
      = Cert.ReferenceIdeal.RefRun.RV23 V' (Proc.devRef .tc Cert.ReferenceIdeal.main_v145)) :
    (Cert.KernelIdeal.Gen.W24 m ρ c (Proc.devRef .tc Cert.KernelIdeal.main_v114) : (⟨Cert.KernelIdeal.S32768x80, .f32⟩ : BufTy).Contents (Elt Ideal))
      = Cert.ReferenceIdeal.RefRun.RV23 V' (Proc.devRef .tc Cert.ReferenceIdeal.main_v147) :=
  (kernel_v114 m ρ c).trans <|
    (congrArg₂ (Cert.SpecElu.eluRes Cert.KernelIdeal.S32768x80) h0 h1).trans (ref_v147 V').symm

end Cert.Bridge

end
-- ==== Proof.Reg9.lean ====
/-
  REGION 9 of the idealized kernel, read as a value: the residual-ELU call on the 16384 x 80 node array.
  Its grid has 2 points; at point `t` each of the three windows (the two operands and the result) holds rows
  `8192 t … 8192 t + 8191` of its array, all 80 columns. The body adds the two operand blocks and applies ELU, element
  by element, so what point `t` writes back is block `t` of ONE whole-array function of the two operand arrays,
  `Cert.SpecElu.eluRes`: an element of the result depends only on the same element of the operands. The two blocks
  tile the rows (row `r` is in block `r / 8192`), so after the region the result array is that function of the operand
  arrays as the region found them.
-/
import proofs.«415935_j25786983645203_2_alg».proof.Proof.Gen.KernelIdeal.Frame
import proofs.«415935_j25786983645203_2_alg».proof.Proof.SpecElu
import Idealize.ShloMosaic.Lib.Pipeline.Value
import Idealize.ShloMosaic.Lib.Tactic

set_option maxRecDepth 16384

noncomputable section

namespace Cert.KernelIdeal.RegVal

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The first operand array (the node features) as the region finds it. -/
abbrev hArr9 (c : Dev nD) : S16384x80.Idx → EReal := V c (Pipeline.arrRef spec9 0)
/-- The second operand array (the aggregated messages) as the region finds it. -/
abbrev aggArr9 (c : Dev nD) : S16384x80.Idx → EReal := V c (Pipeline.arrRef spec9 1)

theorem zeroOff9 : (![0, 0] : Fin 2 → Nat) = fun _ => 0 := funext fun a => by fin_cases a <;> rfl

/-- The body's payload is the residual ELU of its two loaded blocks. -/
theorem pay9_eq (x0 x1 : Vec Ideal S8192x80 .f32) :
    k9_pay1 (F := Ideal) x0 x1 = Cert.SpecElu.eluRes S8192x80 x0 x1 := by
  unfold k9_pay1
  simp only [shapeCast_self]
  exact Cert.SpecElu.kernel_eq S8192x80 x0 x1

/-- The index maps, decided over the grid: each window takes row block `t` and column block 0. -/
theorem blockIdx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

/-- WHAT POINT `t` WRITES BACK is block `t` of the residual ELU of the two operand arrays. -/
theorem flushed9_eq (c : Dev nD) (t : Fin cfg9.N) :
    (dat9 (F := Ideal) V c).flushed 2 t
      = ((cfg9.win 2).blk t).view.read (Elt Ideal) (Cert.SpecElu.eluRes S16384x80 (hArr9 V c) (aggArr9 V c)) := by
  show (cfg9.win 2).cut (grid9.coords t) ((dat9 (F := Ideal) V c).after 2 t) = _
  rw [after9_2]
  unfold out9_2
  rw [View.canon_unit_zero zeroOff9]
  simp only [View.ld_unit_zero (S := S8192x80) zeroOff9]
  rw [pay9_eq]
  obtain ⟨e0, e1, e2, e3, e4, e5⟩ := blockIdx9 t
  funext j
  show Cert.SpecElu.elu (hArr9 V c (((cfg9.win 0).blk t).view.emb j) + aggArr9 V c (((cfg9.win 1).blk t).view.emb j))
    = Cert.SpecElu.elu (hArr9 V c (((cfg9.win 2).blk t).view.emb j) + aggArr9 V c (((cfg9.win 2).blk t).view.emb j))
  have h0 : ((cfg9.win 0).blk t).view.emb j = ((cfg9.win 2).blk t).view.emb j := by
    funext a; apply Fin.ext
    match a with
    | ⟨0, _⟩ => show win9_0.index t (0 : Fin 2) * 8192 + 1 * (j 0).val = win9_2.index t (0 : Fin 2) * 8192 + 1 * (j 0).val; omega
    | ⟨1, _⟩ => show win9_0.index t (1 : Fin 2) * 80 + 1 * (j 1).val = win9_2.index t (1 : Fin 2) * 80 + 1 * (j 1).val; omega
  have h1 : ((cfg9.win 1).blk t).view.emb j = ((cfg9.win 2).blk t).view.emb j := by
    funext a; apply Fin.ext
    match a with
    | ⟨0, _⟩ => show win9_1.index t (0 : Fin 2) * 8192 + 1 * (j 0).val = win9_2.index t (0 : Fin 2) * 8192 + 1 * (j 0).val; omega
    | ⟨1, _⟩ => show win9_1.index t (1 : Fin 2) * 80 + 1 * (j 1).val = win9_2.index t (1 : Fin 2) * 80 + 1 * (j 1).val; omega
  rw [h0, h1]

/-- An index of the result array is in point `t`'s block iff each coordinate is in the block's range on its axis. -/
theorem mem_blk9 (t : Fin cfg9.N) (i : S16384x80.Idx) :
    i ∈ ((cfg9.win 2).blk t).view.set ↔ ∀ a : Fin 2, win9_2.index t a * S8192x80.size a ≤ (i a).val ∧ (i a).val < win9_2.index t a * S8192x80.size a + S8192x80.size a := by
  show i ∈ ((View.whole main_v179).slice (win9_2.rect t)).set ↔ _
  rw [View.set_slice_whole, Rect.mem_set_unit]
  exact Iff.rfl

/-- Every index of the result array is in some point's block: row `r` is in block `r / 8192`. -/
theorem cover9 (i : S16384x80.Idx) : ∃ t : Fin cfg9.N, (cfg9.win 2).flush t = true ∧ i ∈ ((cfg9.win 2).blk t).view.set := by
  have hi0 : (i 0).val < 16384 := (i 0).isLt
  have hi1 : (i 1).val < 80 := (i 1).isLt
  have hN : cfg9.N = 2 := N_9
  let t : Fin cfg9.N := ⟨(i 0).val / 8192, by rw [hN]; omega⟩
  have ht : t.val = (i 0).val / 8192 := rfl
  obtain ⟨e0, e1, e2, e3, e4, e5⟩ := blockIdx9 t
  refine ⟨t, flush9_2 t, ?_⟩
  rw [mem_blk9]
  intro a
  match a with
  | ⟨0, _⟩ => show win9_2.index t (0 : Fin 2) * 8192 ≤ (i 0).val ∧ (i 0).val < win9_2.index t (0 : Fin 2) * 8192 + 8192; omega
  | ⟨1, _⟩ => show win9_2.index t (1 : Fin 2) * 80 ≤ (i 1).val ∧ (i 1).val < win9_2.index t (1 : Fin 2) * 80 + 80; omega

/-- THE RESULT ARRAY after region 9 is the residual ELU of the two operand arrays as the region found them. -/
theorem region9_val (c : Dev nD) :
    (dat9 (F := Ideal) V c).arrAt ⟨2, by decide⟩ cfg9.N
      = Cert.SpecElu.eluRes S16384x80 (V c (Pipeline.arrRef spec9 0)) (V c (Pipeline.arrRef spec9 1)) :=
  (dat9 (F := Ideal) V c).arrAt_eq_of_cover 2 (Cert.SpecElu.eluRes S16384x80 (hArr9 V c) (aggArr9 V c))
    (fun t _ => flushed9_eq V c t) cover9

end Cert.KernelIdeal.RegVal

end
-- ==== Proof.BridgeElu9.lean ====
import proofs.«415935_j25786983645203_2_alg».proof.Proof.KKeep
import proofs.«415935_j25786983645203_2_alg».proof.Proof.RKeep
import proofs.«415935_j25786983645203_2_alg».proof.Proof.Reg9

set_option maxRecDepth 16384

noncomputable section

namespace Cert.Bridge

open Idealize.ShloMosaic Idealize.ShloMosaic.TcCoe

section Kernel

open Cert.KernelIdeal Cert.KernelIdeal.Gen

variable (m : (ℓ : Loc nD τ sig) → Buf (Elt Ideal) ℓ) (ρ : Dev nD → PrngReg)

theorem kernel_v179 (c : Dev nD) :
    (W24 m ρ c (Proc.devRef .tc main_v179) : (⟨S16384x80, .f32⟩ : BufTy).Contents (Elt Ideal))
      = Cert.SpecElu.eluRes S16384x80 (W24 m ρ c (Proc.devRef .tc main_v121)) (W24 m ρ c (Proc.devRef .tc main_v178)) :=
  (keep20 m ρ c Cert.KernelIdeal.main_v179 (by decide)).trans <|
    (W20_arr m ρ c 2).trans <|
      (Cert.KernelIdeal.RegVal.region9_val (V19 m ρ) c).trans <|
        congrArg₂ (Cert.SpecElu.eluRes S16384x80) (keep19 m ρ c Cert.KernelIdeal.main_v121 (by decide)).symm (keep19 m ρ c Cert.KernelIdeal.main_v178 (by decide)).symm

end Kernel

section Reference

open Cert.ReferenceIdeal Cert.ReferenceIdeal.RefRun Idealize.ShloMosaic.StableHlo

variable (V' : Valuation τ sig (Elt Ideal))

theorem ref_v213 :
    (RV23 V' (Proc.devRef .tc main_v213) : (⟨S16384x80, .f32⟩ : BufTy).Contents (Elt Ideal))
      = Cert.SpecElu.eluRes S16384x80 (RV23 V' (Proc.devRef .tc main_v154)) (RV23 V' (Proc.devRef .tc main_v211)) := by
  rw [rkeep17 V' Cert.ReferenceIdeal.main_v213 (by decide), rkeep16 V' Cert.ReferenceIdeal.main_v154 (by decide), rkeep16 V' Cert.ReferenceIdeal.main_v211 (by decide), RV17_eq]
  after_results_simp
  simp only [TRef.toBuf, TRef.ofBuf, cast_eq, id_eq]
  exact Cert.SpecElu.host_eq S16384x80 _ _ _

end Reference

theorem eq_v179 (m : (ℓ : Loc Cert.KernelIdeal.nD Cert.KernelIdeal.τ Cert.KernelIdeal.sig) → Buf (Elt Ideal) ℓ)
    (ρ : Dev Cert.KernelIdeal.nD → PrngReg) (V' : Valuation Cert.ReferenceIdeal.τ Cert.ReferenceIdeal.sig (Elt Ideal))
    (c : Dev Cert.KernelIdeal.nD)
    (h0 : (Cert.KernelIdeal.Gen.W24 m ρ c (Proc.devRef .tc Cert.KernelIdeal.main_v121) : (⟨Cert.KernelIdeal.S16384x80, .f32⟩ : BufTy).Contents (Elt Ideal))
      = Cert.ReferenceIdeal.RefRun.RV23 V' (Proc.devRef .tc Cert.ReferenceIdeal.main_v154))
    (h1 : (Cert.KernelIdeal.Gen.W24 m ρ c (Proc.devRef .tc Cert.KernelIdeal.main_v178) : (⟨Cert.KernelIdeal.S16384x80, .f32⟩ : BufTy).Contents (Elt Ideal))
      = Cert.ReferenceIdeal.RefRun.RV23 V' (Proc.devRef .tc Cert.ReferenceIdeal.main_v211)) :
    (Cert.KernelIdeal.Gen.W24 m ρ c (Proc.devRef .tc Cert.KernelIdeal.main_v179) : (⟨Cert.KernelIdeal.S16384x80, .f32⟩ : BufTy).Contents (Elt Ideal))
      = Cert.ReferenceIdeal.RefRun.RV23 V' (Proc.devRef .tc Cert.ReferenceIdeal.main_v213) :=
  (kernel_v179 m ρ c).trans <|
    (congrArg₂ (Cert.SpecElu.eluRes Cert.KernelIdeal.S16384x80) h0 h1).trans (ref_v213 V').symm

end Cert.Bridge

end
-- ==== Proof.BridgeElu.lean ====
import proofs.«415935_j25786983645203_2_alg».proof.Proof.BridgeNorm1
import proofs.«415935_j25786983645203_2_alg».proof.Proof.BridgeElu3
import proofs.«415935_j25786983645203_2_alg».proof.Proof.BridgeElu5
import proofs.«415935_j25786983645203_2_alg».proof.Proof.BridgeElu7
import proofs.«415935_j25786983645203_2_alg».proof.Proof.BridgeElu9
-- ==== Proof.LibDotPlain.lean ====
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

theorem getElem_zero_of_eq_singleton {α : Type} {l : List α} {c : α} (h : l = [c]) (hp : 0 < l.length) : l[0] = c := by
  subst h; rfl

theorem contr_rank_one {sl sr so : Shape} (d : DotDims sl sr so) {c : Fin sl.rank} (hlc : d.lhsContracting = [c]) :
    d.contr.rank = 1 := by
  rw [d.rank_contr, hlc]; rfl

theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

private theorem val_congr {s : Shape} (j : s.Idx) (p q : Nat) (hp : p < s.rank) (hq : q < s.rank) (h : p = q) :
    (j ⟨p, hp⟩).val = (j ⟨q, hq⟩).val := by
  subst h; rfl

theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc

  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

end Cert.DotPlain

end
-- ==== Proof.LibScatterGather.lean ====
import Idealize.ShloMosaic.PureOps.Ideal
import Idealize.ShloMosaic.Lib.ValueIdx
import Idealize.ShloMosaic.Lib.StableHlo.Predicate

noncomputable section

namespace Cert.ScatterGather

open Idealize.ShloMosaic Idealize.ShloMosaic.ValueIdx
open scoped BigOperators

def rowW (N : Nat) (hN : 0 < N) {w : Nat} (x : BitVec w) : Fin N := ⟨min x.toInt.toNat (N - 1), by omega⟩

section Vec

variable {N E w : Nat} (d : ScatterDims ⟨1, ![N]⟩ ⟨2, ![E, 1]⟩ ⟨1, ![E]⟩)

end Vec

theorem ix2_val_axis0 {n0 n1 : Nat} (a : Fin n0) (b : Fin n1) (X : Fin 2) (hX : X = 0) :
    ((ix2 a b : (⟨2, ![n0, n1]⟩ : Shape).Idx) X).val = a.val := by
  subst hX; rfl

theorem ix2_val_axis1 {n0 n1 : Nat} (a : Fin n0) (b : Fin n1) (X : Fin 2) (hX : X = 1) :
    ((ix2 a b : (⟨2, ![n0, n1]⟩ : Shape).Idx) X).val = b.val := by
  subst hX; rfl

section Rows

variable {N H E w : Nat} (d : ScatterDims ⟨2, ![N, H]⟩ ⟨2, ![E, 1]⟩ ⟨2, ![E, H]⟩)

end Rows

section GatherRows

variable {N H E w : Nat} (d : GatherDims ⟨2, ![N, H]⟩ ⟨2, ![E, 1]⟩ ⟨2, ![E, H]⟩)

theorem gather_sKept_rows (hcoll : d.collapsedSliceDims = [0]) (hob : d.operandBatchingDims = []) : d.sKept = [1] := by
  show (List.finRange 2).filter (fun a => a ∉ d.collapsedSliceDims ++ d.operandBatchingDims) = [1]
  rw [hcoll, hob]
  exact (by decide : (List.finRange 2).filter (fun a : Fin 2 => a ∉ [(0 : Fin 2)] ++ []) = [(1 : Fin 2)])

theorem gather_batchDims_rows (hoff : d.offsetDims = [1]) : d.batchDims = [0] := by
  show (List.finRange 2).filter (fun a => a ∉ d.offsetDims) = [0]
  rw [hoff]
  exact (by decide : (List.finRange 2).filter (fun a : Fin 2 => a ∉ [(1 : Fin 2)]) = [(0 : Fin 2)])

theorem gather_siIdx_rows (hoff : d.offsetDims = [1]) (hsim : d.startIndexMap = [0]) (hivd : d.indexVectorDim = 1)
    (e : Fin E) (j : Fin H) (c : Fin d.startIndexMap.length) :
    d.siIdx (ix2 e j) c = ix2 e 0 := by
  funext b
  match b with
  | ⟨0, _⟩ =>
    unfold GatherDims.siIdx
    rw [dif_neg (by rw [hivd]; simp)]
    unfold GatherDims.siCoord
    apply Fin.ext
    simp only [Fin.val_cast]
    refine ix2_val_axis0 e j _ ?_
    have hall : ∀ X ∈ d.batchDims, X = 0 := by
      rw [gather_batchDims_rows d hoff]; intro X hX; exact List.mem_singleton.mp hX
    exact hall _ (List.getElem_mem _)
  | ⟨1, _⟩ =>
    unfold GatherDims.siIdx
    rw [dif_pos (by rw [hivd])]
    apply Fin.ext
    show c.val = 0
    have hlen : d.startIndexMap.length = 1 := by rw [hsim]; rfl
    have hc := c.isLt
    omega

theorem gather_start_rows0 (hoff : d.offsetDims = [1]) (hcoll : d.collapsedSliceDims = [0])
    (hsim : d.startIndexMap = [0]) (hivd : d.indexVectorDim = 1)
    (idx : IVec ⟨2, ![E, 1]⟩ w) (e : Fin E) (j : Fin H) :
    d.start (ix2 e j) idx 0 = min (idx (ix2 e 0)).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, gather_siIdx_rows d hoff hsim hivd e j]
  show min (idx (ix2 e 0)).toInt.toNat (N - d.sliceSizes 0) = _
  rw [hsl]

theorem gather_start_rows1 (hsim : d.startIndexMap = [0])
    (idx : IVec ⟨2, ![E, 1]⟩ w) (y : (⟨2, ![E, H]⟩ : Shape).Idx) : d.start y idx 1 = 0 := by
  have hm : (1 : Fin 2) ∉ d.startIndexMap := by
    rw [hsim]; exact (by decide : (1 : Fin 2) ∉ [(0 : Fin 2)])
  unfold GatherDims.start
  rw [dif_neg hm]

theorem gather_offCoord_rows1 (hoff : d.offsetDims = [1]) (hcoll : d.collapsedSliceDims = [0])
    (hob : d.operandBatchingDims = []) (e : Fin E) (j : Fin H) :
    d.offCoord (ix2 e j) 1 = j.val := by
  have hk : (1 : Fin 2) ∈ d.sKept := by rw [gather_sKept_rows d hcoll hob]; exact List.mem_singleton.mpr rfl
  unfold GatherDims.offCoord
  rw [dif_pos hk]
  refine ix2_val_axis1 e j _ ?_
  have hall : ∀ X ∈ d.offsetDims, X = 1 := by
    rw [hoff]; intro X hX; exact List.mem_singleton.mp hX
  exact hall _ (List.getElem_mem _)

end GatherRows

theorem gather_rows_apply {α : Type} {N H E w : Nat} (hN : 0 < N)
    (d : GatherDims ⟨2, ![N, H]⟩ ⟨2, ![E, 1]⟩ ⟨2, ![E, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![N, H]⟩ : Shape).Idx → α) (idx : IVec ⟨2, ![E, 1]⟩ w) (e : Fin E) (j : Fin H) :
    Host.gather d x idx (ix2 e j) = x (ix2 (rowW N hN (idx (ix2 e 0))) j) := by
  unfold Host.gather
  congr 1
  have hb : ∀ a : Fin 2, a ∉ d.operandBatchingDims := fun a => by rw [hob]; exact List.not_mem_nil
  have hk0 : (0 : Fin 2) ∉ d.sKept := by
    rw [gather_sKept_rows d hcoll hob]; exact (by decide : (0 : Fin 2) ∉ [(1 : Fin 2)])
  have hpt : ∀ a : Fin 2, d.operandIdx (ix2 e j) idx a
      = (ix2 (rowW N hN (idx (ix2 e 0))) j : (⟨2, ![N, H]⟩ : Shape).Idx) a := by
    refine Fin.forall_fin_two.2 ⟨?_, ?_⟩
    · apply Fin.ext
      show d.start (ix2 e j) idx 0 + d.batchCoord (ix2 e j) 0 + d.offCoord (ix2 e j) 0
        = min (idx (ix2 e 0)).toInt.toNat (N - 1)
      rw [GatherDims.batchCoord_eq_zero _ _ _ (hb 0), GatherDims.offCoord_eq_zero _ _ _ hk0,
        gather_start_rows0 d hoff hcoll hsim hivd idx e j]
      simp only [Nat.add_zero]
    · apply Fin.ext
      show d.start (ix2 e j) idx 1 + d.batchCoord (ix2 e j) 1 + d.offCoord (ix2 e j) 1 = j.val
      rw [GatherDims.batchCoord_eq_zero _ _ _ (hb 1), gather_offCoord_rows1 d hoff hcoll hob e j,
        gather_start_rows1 d hsim idx (ix2 e j)]
      omega
  funext a
  exact hpt a

end Cert.ScatterGather

end
-- ==== Proof.SpecMsg.lean ====
import Idealize.ShloMosaic.PureOps.Ideal
import Idealize.ShloMosaic.PureOps.Ideal.Laws
import Idealize.ShloMosaic.Lib.ValueIdx
import proofs.«415935_j25786983645203_2_alg».proof.Proof.LibDotPlain
import proofs.«415935_j25786983645203_2_alg».proof.Proof.LibScatterGather

noncomputable section

namespace Cert.SpecMsg

open Idealize.ShloMosaic Idealize.ShloMosaic.ValueIdx
open scoped BigOperators

def matProd {N K H : Nat} (h : (⟨2, ![N, K]⟩ : Shape).Idx → EReal) (W : (⟨2, ![K, H]⟩ : Shape).Idx → EReal) :
    (⟨2, ![N, H]⟩ : Shape).Idx → EReal :=
  fun i => ∑ k : Fin K, h (ix2 (i 0) k) * W (ix2 k (i 1))

theorem matProd_apply {N K H : Nat} (h : (⟨2, ![N, K]⟩ : Shape).Idx → EReal) (W : (⟨2, ![K, H]⟩ : Shape).Idx → EReal)
    (a : Fin N) (b : Fin H) : matProd h W (ix2 a b) = ∑ k : Fin K, h (ix2 a k) * W (ix2 k b) := rfl

theorem matProd_eq_at {N N' K H H' : Nat}
    (x0 : (⟨2, ![N', K]⟩ : Shape).Idx → EReal) (x1 : (⟨2, ![K, H']⟩ : Shape).Idx → EReal)
    (A : (⟨2, ![N, K]⟩ : Shape).Idx → EReal) (W : (⟨2, ![K, H]⟩ : Shape).Idx → EReal)
    (j : (⟨2, ![N', H']⟩ : Shape).Idx) (i : (⟨2, ![N, H]⟩ : Shape).Idx)
    (h0 : ∀ k : Fin K, x0 (ix2 (j 0) k) = A (ix2 (i 0) k))
    (h1 : ∀ k : Fin K, x1 (ix2 k (j 1)) = W (ix2 k (i 1))) :
    matProd x0 x1 j = matProd A W i :=
  Finset.sum_congr rfl fun k _ => by rw [h0 k, h1 k]

theorem gather_matProd {N K H E w : Nat} {φ₁ φ₂ : FTy} (hN : 0 < N)
    (dg : GatherDims ⟨2, ![N, H]⟩ ⟨2, ![E, 1]⟩ ⟨2, ![E, H]⟩)
    (goff : dg.offsetDims = [1]) (gcoll : dg.collapsedSliceDims = [0]) (gob : dg.operandBatchingDims = [])
    (gsb : dg.startIndicesBatchingDims = []) (gsim : dg.startIndexMap = [0]) (givd : dg.indexVectorDim = 1)
    (gss : dg.sliceSizes = ![1, H])
    (dh : GatherDims ⟨2, ![N, K]⟩ ⟨2, ![E, 1]⟩ ⟨2, ![E, K]⟩)
    (hoff : dh.offsetDims = [1]) (hcoll : dh.collapsedSliceDims = [0]) (hob : dh.operandBatchingDims = [])
    (hsb : dh.startIndicesBatchingDims = []) (hsim : dh.startIndexMap = [0]) (hivd : dh.indexVectorDim = 1)
    (hss : dh.sliceSizes = ![1, K])
    (dd : DotDims ⟨2, ![E, K]⟩ ⟨2, ![K, H]⟩ ⟨2, ![E, H]⟩)
    (hlb : dd.lhsBatch = []) (hrb : dd.rhsBatch = []) (hlc : dd.lhsContracting = [1]) (hrc : dd.rhsContracting = [0])
    (hln : dd.lhsNonContracting = [0]) (hrn : dd.rhsNonContracting = [1])
    (prec : Option ContractPrecision)
    (h : FVec Ideal ⟨2, ![N, K]⟩ φ₁) (W : FVec Ideal ⟨2, ![K, H]⟩ φ₂) (idx : IVec ⟨2, ![E, 1]⟩ w) :
    Host.gather dg (matProd h W) idx
      = Host.dotGeneral (F := Ideal) dd prec (Host.gather dh h idx : FVec Ideal ⟨2, ![E, K]⟩ φ₁) W := by
  funext i
  obtain ⟨e, j, rfl⟩ : ∃ (e : Fin E) (j : Fin H), i = ix2 e j := ⟨i 0, i 1, eq_ix2 i⟩

  rw [Cert.ScatterGather.gather_rows_apply hN dg goff gcoll gob gsb gsim givd gss (matProd h W) idx e j, matProd_apply]

  refine Eq.symm ((Cert.DotPlain.dotGeneral_rows_cols dd hlb hrb hlc hrc hln hrn prec .single
    (Host.gather dh h idx : FVec Ideal ⟨2, ![E, K]⟩ φ₁) W e j).trans ?_)
  refine Finset.sum_congr rfl fun k _ => ?_
  rw [Cert.ScatterGather.gather_rows_apply hN dh hoff hcoll hob hsb hsim hivd hss h idx e k]

end Cert.SpecMsg

end
-- ==== Proof.Reg2.lean ====
import proofs.«415935_j25786983645203_2_alg».proof.Proof.Gen.KernelIdeal.Frame
import proofs.«415935_j25786983645203_2_alg».proof.Proof.SpecMsg
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

abbrev harr2 (c : Dev nD) : Vec Ideal S131072x80 .f32 := V c (Pipeline.arrRef spec2 0)

abbrev warr2 (c : Dev nD) : Vec Ideal S80x80 .f32 := V c (Pipeline.arrRef spec2 1)

abbrev hblk2 (c : Dev nD) (t : Fin cfg2.N) : Vec Ideal S8192x80 .f32 := iblk2 V c 0 t

abbrev wblk2 (c : Dev nD) (t : Fin cfg2.N) : Vec Ideal S80x80 .f32 := iblk2 V c 1 t

theorem hz2 : (![0, 0] : Fin 2 → Nat) = fun _ => 0 := funext fun a => by fin_cases a <;> rfl

theorem pay2_eq (x0 : Vec Ideal S8192x80 .f32) (x1 : Vec Ideal S80x80 .f32) :
    k2_pay1 (F := Ideal) x0 x1 = Cert.SpecMsg.matProd (N := 8192) (K := 80) (H := 80) x0 x1 := by
  funext i
  obtain ⟨a, b, rfl⟩ : ∃ (a : Fin 8192) (b : Fin 80), i = ix2 a b := ⟨i 0, i 1, eq_ix2 i⟩
  refine (Cert.DotPlain.matmul_zero_rows_cols dot_S8192x80_S80x80_S8192x80_1_0_0_1_n_n rfl rfl rfl rfl rfl rfl none
    (truncf .bf16 (shapeCast S8192x80 x0 shapeCasts_S8192x80_S8192x80) bitsLt_bf16_f32 : FVec Ideal S8192x80 .bf16)
    (truncf .bf16 (shapeCast S80x80 x1 shapeCasts_S80x80_S80x80) bitsLt_bf16_f32 : FVec Ideal S80x80 .bf16) a b).trans ?_
  refine Finset.sum_congr rfl fun k _ => ?_
  rw [truncf_apply, truncf_apply, shapeCast_self, shapeCast_self]

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem flushed2_eq (c : Dev nD) (t : Fin cfg2.N) :
    (dat2 V c).flushed 2 t = ((cfg2.win 2).blk t).view.read (Elt Ideal)
      (Cert.SpecMsg.matProd (N := 131072) (K := 80) (H := 80) (harr2 V c) (warr2 V c)) := by
  show (cfg2.win 2).cut (grid2.coords t) ((dat2 V c).after 2 t) = _
  rw [after2_2]
  unfold out2_2
  rw [View.canon_unit_zero hz2]
  simp only [View.ld_unit_zero (S := S8192x80) hz2, View.ld_unit_zero (S := S80x80) hz2]
  obtain ⟨e00, e01, e10, e11, e20, e21⟩ := idx_facts2 t
  funext j
  show k2_pay1 (F := Ideal) (hblk2 V c t) (wblk2 V c t) j
    = Cert.SpecMsg.matProd (N := 131072) (K := 80) (H := 80) (harr2 V c) (warr2 V c) (((cfg2.win 2).blk t).view.emb j)
  rw [pay2_eq]
  refine Cert.SpecMsg.matProd_eq_at (hblk2 V c t) (wblk2 V c t) (harr2 V c) (warr2 V c) j
    (((cfg2.win 2).blk t).view.emb j) (fun k => ?_) (fun k => ?_)
  ·
    show harr2 V c (((cfg2.win 0).blk t).view.emb (ix2 (j 0) k))
      = harr2 V c (ix2 ((((cfg2.win 2).blk t).view.emb j) 0) k)
    refine congrArg (harr2 V c) (funext fun a => Fin.ext ?_)
    match a with
    | ⟨0, _⟩ =>
      show win2_0.index t (0 : Fin 2) * 8192 + 1 * (j 0).val = win2_2.index t (0 : Fin 2) * 8192 + 1 * (j 0).val
      omega
    | ⟨1, _⟩ =>
      show win2_0.index t (1 : Fin 2) * 80 + 1 * k.val = k.val
      omega
  ·
    show warr2 V c (((cfg2.win 1).blk t).view.emb (ix2 k (j 1)))
      = warr2 V c (ix2 k ((((cfg2.win 2).blk t).view.emb j) 1))
    refine congrArg (warr2 V c) (funext fun a => Fin.ext ?_)
    match a with
    | ⟨0, _⟩ =>
      show win2_1.index t (0 : Fin 2) * 80 + 1 * k.val = k.val
      omega
    | ⟨1, _⟩ =>
      show win2_1.index t (1 : Fin 2) * 80 + 1 * (j 1).val = win2_2.index t (1 : Fin 2) * 80 + 1 * (j 1).val
      omega

theorem mem_blk2 (t : Fin cfg2.N) (i : S131072x80.Idx) :
    i ∈ ((cfg2.win 2).blk t).view.set ↔ ∀ a : Fin 2, win2_2.index t a * S8192x80.size a ≤ (i a).val
      ∧ (i a).val < win2_2.index t a * S8192x80.size a + S8192x80.size a := by
  show i ∈ ((View.whole main_v24).slice (win2_2.rect t)).set ↔ _
  rw [View.set_slice_whole, Rect.mem_set_unit]
  exact Iff.rfl

theorem cover2 (i : S131072x80.Idx) :
    ∃ t : Fin cfg2.N, (cfg2.win 2).flush t = true ∧ i ∈ ((cfg2.win 2).blk t).view.set := by
  have hi0 : (i 0).val < 131072 := (i 0).isLt
  have hi1 : (i 1).val < 80 := (i 1).isLt
  have hN : cfg2.N = 16 := N_2
  let t : Fin cfg2.N := ⟨(i 0).val / 8192, by rw [hN]; omega⟩
  have ht : t.val = (i 0).val / 8192 := rfl
  obtain ⟨e00, e01, e10, e11, e20, e21⟩ := idx_facts2 t
  refine ⟨t, flush2_2 t, ?_⟩
  rw [mem_blk2]
  intro a
  match a with
  | ⟨0, _⟩ =>
    show win2_2.index t (0 : Fin 2) * 8192 ≤ (i 0).val ∧ (i 0).val < win2_2.index t (0 : Fin 2) * 8192 + 8192
    omega
  | ⟨1, _⟩ =>
    show win2_2.index t (1 : Fin 2) * 80 ≤ (i 1).val ∧ (i 1).val < win2_2.index t (1 : Fin 2) * 80 + 80
    omega

theorem region2_val (c : Dev nD) :
    (dat2 (F := Ideal) V c).arrAt 2 cfg2.N
      = Cert.SpecMsg.matProd (N := 131072) (K := 80) (H := 80) (V c (Pipeline.arrRef spec2 0)) (V c (Pipeline.arrRef spec2 1)) :=
  (dat2 V c).arrAt_eq_of_cover 2 (Cert.SpecMsg.matProd (N := 131072) (K := 80) (H := 80) (harr2 V c) (warr2 V c))
    (fun t _ => flushed2_eq V c t) (cover2)

end Cert.KernelIdeal.RegVal

end
-- ==== Proof.MsgLaw.lean ====
import proofs.«415935_j25786983645203_2_alg».proof.KernelIdeal
import proofs.«415935_j25786983645203_2_alg».proof.ReferenceIdeal
import proofs.«415935_j25786983645203_2_alg».proof.Proof.SpecMsg

noncomputable section

namespace Cert.MsgLaw

open Idealize.ShloMosaic

variable [Cert.KernelIdeal.Facts₀] [Cert.ReferenceIdeal.Facts₀]

theorem gather_msg_131072 (h : FVec Ideal ⟨2, ![131072, 80]⟩ .f32) (W : FVec Ideal ⟨2, ![80, 80]⟩ .f32)
    (idx : IVec ⟨2, ![917504, 1]⟩ 32) :
    Host.gather Cert.KernelIdeal.gather_S131072x80_S917504x1_S917504x80_1_0_n_n_0_1_180
        (Cert.SpecMsg.matProd (N := 131072) (K := 80) (H := 80) h W) idx
      = Host.dotGeneral (F := Ideal) Cert.ReferenceIdeal.dot_S917504x80_S80x80_S917504x80_1_0_0_1_n_n none
          (Host.gather Cert.ReferenceIdeal.gather_S131072x80_S917504x1_S917504x80_1_0_n_n_0_1_180 h idx : FVec Ideal ⟨2, ![917504, 80]⟩ .f32) W :=
  Cert.SpecMsg.gather_matProd (N := 131072) (K := 80) (H := 80) (E := 917504) (by decide)
    Cert.KernelIdeal.gather_S131072x80_S917504x1_S917504x80_1_0_n_n_0_1_180 rfl rfl rfl rfl rfl rfl rfl
    Cert.ReferenceIdeal.gather_S131072x80_S917504x1_S917504x80_1_0_n_n_0_1_180 rfl rfl rfl rfl rfl rfl rfl
    Cert.ReferenceIdeal.dot_S917504x80_S80x80_S917504x80_1_0_0_1_n_n rfl rfl rfl rfl rfl rfl none h W idx

theorem gather_msg_65536 (h : FVec Ideal ⟨2, ![65536, 80]⟩ .f32) (W : FVec Ideal ⟨2, ![80, 80]⟩ .f32)
    (idx : IVec ⟨2, ![458752, 1]⟩ 32) :
    Host.gather Cert.KernelIdeal.gather_S65536x80_S458752x1_S458752x80_1_0_n_n_0_1_180
        (Cert.SpecMsg.matProd (N := 65536) (K := 80) (H := 80) h W) idx
      = Host.dotGeneral (F := Ideal) Cert.ReferenceIdeal.dot_S458752x80_S80x80_S458752x80_1_0_0_1_n_n none
          (Host.gather Cert.ReferenceIdeal.gather_S65536x80_S458752x1_S458752x80_1_0_n_n_0_1_180 h idx : FVec Ideal ⟨2, ![458752, 80]⟩ .f32) W :=
  Cert.SpecMsg.gather_matProd (N := 65536) (K := 80) (H := 80) (E := 458752) (by decide)
    Cert.KernelIdeal.gather_S65536x80_S458752x1_S458752x80_1_0_n_n_0_1_180 rfl rfl rfl rfl rfl rfl rfl
    Cert.ReferenceIdeal.gather_S65536x80_S458752x1_S458752x80_1_0_n_n_0_1_180 rfl rfl rfl rfl rfl rfl rfl
    Cert.ReferenceIdeal.dot_S458752x80_S80x80_S458752x80_1_0_0_1_n_n rfl rfl rfl rfl rfl rfl none h W idx

theorem gather_msg_32768 (h : FVec Ideal ⟨2, ![32768, 80]⟩ .f32) (W : FVec Ideal ⟨2, ![80, 80]⟩ .f32)
    (idx : IVec ⟨2, ![229376, 1]⟩ 32) :
    Host.gather Cert.KernelIdeal.gather_S32768x80_S229376x1_S229376x80_1_0_n_n_0_1_180
        (Cert.SpecMsg.matProd (N := 32768) (K := 80) (H := 80) h W) idx
      = Host.dotGeneral (F := Ideal) Cert.ReferenceIdeal.dot_S229376x80_S80x80_S229376x80_1_0_0_1_n_n none
          (Host.gather Cert.ReferenceIdeal.gather_S32768x80_S229376x1_S229376x80_1_0_n_n_0_1_180 h idx : FVec Ideal ⟨2, ![229376, 80]⟩ .f32) W :=
  Cert.SpecMsg.gather_matProd (N := 32768) (K := 80) (H := 80) (E := 229376) (by decide)
    Cert.KernelIdeal.gather_S32768x80_S229376x1_S229376x80_1_0_n_n_0_1_180 rfl rfl rfl rfl rfl rfl rfl
    Cert.ReferenceIdeal.gather_S32768x80_S229376x1_S229376x80_1_0_n_n_0_1_180 rfl rfl rfl rfl rfl rfl rfl
    Cert.ReferenceIdeal.dot_S229376x80_S80x80_S229376x80_1_0_0_1_n_n rfl rfl rfl rfl rfl rfl none h W idx

theorem gather_msg_16384 (h : FVec Ideal ⟨2, ![16384, 80]⟩ .f32) (W : FVec Ideal ⟨2, ![80, 80]⟩ .f32)
    (idx : IVec ⟨2, ![114688, 1]⟩ 32) :
    Host.gather Cert.KernelIdeal.gather_S16384x80_S114688x1_S114688x80_1_0_n_n_0_1_180
        (Cert.SpecMsg.matProd (N := 16384) (K := 80) (H := 80) h W) idx
      = Host.dotGeneral (F := Ideal) Cert.ReferenceIdeal.dot_S114688x80_S80x80_S114688x80_1_0_0_1_n_n none
          (Host.gather Cert.ReferenceIdeal.gather_S16384x80_S114688x1_S114688x80_1_0_n_n_0_1_180 h idx : FVec Ideal ⟨2, ![114688, 80]⟩ .f32) W :=
  Cert.SpecMsg.gather_matProd (N := 16384) (K := 80) (H := 80) (E := 114688) (by decide)
    Cert.KernelIdeal.gather_S16384x80_S114688x1_S114688x80_1_0_n_n_0_1_180 rfl rfl rfl rfl rfl rfl rfl
    Cert.ReferenceIdeal.gather_S16384x80_S114688x1_S114688x80_1_0_n_n_0_1_180 rfl rfl rfl rfl rfl rfl rfl
    Cert.ReferenceIdeal.dot_S114688x80_S80x80_S114688x80_1_0_0_1_n_n rfl rfl rfl rfl rfl rfl none h W idx

end Cert.MsgLaw

end
-- ==== Proof.BridgeMsg0.lean ====
import proofs.«415935_j25786983645203_2_alg».proof.Proof.KKeep
import proofs.«415935_j25786983645203_2_alg».proof.Proof.RKeep
import proofs.«415935_j25786983645203_2_alg».proof.Proof.Reg2
import proofs.«415935_j25786983645203_2_alg».proof.Proof.MsgLaw

set_option maxRecDepth 16384

noncomputable section

namespace Cert.Bridge

open Idealize.ShloMosaic Idealize.ShloMosaic.TcCoe Idealize.ShloMosaic.StableHlo

set_option maxHeartbeats 4000000 in

theorem level0_core (U0 U : Valuation Cert.KernelIdeal.τ Cert.KernelIdeal.sig (Elt Ideal))
    (U' : Valuation Cert.ReferenceIdeal.τ Cert.ReferenceIdeal.sig (Elt Ideal))
    (x : (⟨Cert.KernelIdeal.S131072x80, .f32⟩ : BufTy).Contents (Elt Ideal))
    (hv24 : U (Proc.devRef .tc Cert.KernelIdeal.main_v24)
      = Cert.SpecMsg.matProd (N := 131072) (K := 80) (H := 80) x
          (StableHlo.after Cert.KernelIdeal.Gen.hostOps2 U0 (Proc.devRef .tc Cert.KernelIdeal.main_v23)))
    (hx : x = U' (Proc.devRef .tc Cert.ReferenceIdeal.main_v51))
    (h6 : U0 (Proc.devRef .tc Cert.KernelIdeal.main_arg6) = U' (Proc.devRef .tc Cert.ReferenceIdeal.main_arg6))
    (h16 : U (Proc.devRef .tc Cert.KernelIdeal.main_arg16) = U' (Proc.devRef .tc Cert.ReferenceIdeal.main_arg16))
    (h17 : U (Proc.devRef .tc Cert.KernelIdeal.main_arg17) = U' (Proc.devRef .tc Cert.ReferenceIdeal.main_arg17)) :
    StableHlo.after Cert.KernelIdeal.Gen.hostOps3 U (Proc.devRef .tc Cert.KernelIdeal.main_v34)
      = StableHlo.after Cert.ReferenceIdeal.RefRun.pc5 U' (Proc.devRef .tc Cert.ReferenceIdeal.main_v64) := by
  subst hx

  simp only [Cert.KernelIdeal.Gen.hostOps3, Cert.ReferenceIdeal.RefRun.pc5]
  after_results_simp
  simp only [hv24, h16, h17]

  simp only [Cert.KernelIdeal.Gen.hostOps2]
  after_results_simp
  simp only [h6]

  rw [Cert.MsgLaw.gather_msg_131072]
  rfl

variable (m : (ℓ : Loc Cert.KernelIdeal.nD Cert.KernelIdeal.τ Cert.KernelIdeal.sig) → Buf (Elt Ideal) ℓ) (ρ : Dev Cert.KernelIdeal.nD → PrngReg)
variable (V' : Valuation Cert.ReferenceIdeal.τ Cert.ReferenceIdeal.sig (Elt Ideal)) (c : Dev Cert.KernelIdeal.nD)

theorem eq_v34
    (h_main_v21 : Cert.KernelIdeal.Gen.W24 m ρ c (Proc.devRef .tc Cert.KernelIdeal.main_v21) = Cert.ReferenceIdeal.RefRun.RV23 V' (Proc.devRef .tc Cert.ReferenceIdeal.main_v51))
    (h_main_arg6 : Cert.KernelIdeal.Gen.W24 m ρ c (Proc.devRef .tc Cert.KernelIdeal.main_arg6) = Cert.ReferenceIdeal.RefRun.RV23 V' (Proc.devRef .tc Cert.ReferenceIdeal.main_arg6))
    (h_main_arg16 : Cert.KernelIdeal.Gen.W24 m ρ c (Proc.devRef .tc Cert.KernelIdeal.main_arg16) = Cert.ReferenceIdeal.RefRun.RV23 V' (Proc.devRef .tc Cert.ReferenceIdeal.main_arg16))
    (h_main_arg17 : Cert.KernelIdeal.Gen.W24 m ρ c (Proc.devRef .tc Cert.KernelIdeal.main_arg17) = Cert.ReferenceIdeal.RefRun.RV23 V' (Proc.devRef .tc Cert.ReferenceIdeal.main_arg17)) :
    Cert.KernelIdeal.Gen.W24 m ρ c (Proc.devRef .tc Cert.KernelIdeal.main_v34) = Cert.ReferenceIdeal.RefRun.RV23 V' (Proc.devRef .tc Cert.ReferenceIdeal.main_v64) := by

  have h6 : Cert.KernelIdeal.Gen.W4 m ρ c (Proc.devRef .tc Cert.KernelIdeal.main_arg6) = Cert.ReferenceIdeal.RefRun.RV5 V' (Proc.devRef .tc Cert.ReferenceIdeal.main_arg6) :=
    ((Cert.KernelIdeal.Gen.keep4 m ρ c Cert.KernelIdeal.main_arg6 (by decide)).symm.trans h_main_arg6).trans (Cert.ReferenceIdeal.RefRun.rkeep5 V' Cert.ReferenceIdeal.main_arg6 (by decide))
  have h16 : Cert.KernelIdeal.Gen.W6 m ρ c (Proc.devRef .tc Cert.KernelIdeal.main_arg16) = Cert.ReferenceIdeal.RefRun.RV5 V' (Proc.devRef .tc Cert.ReferenceIdeal.main_arg16) :=
    ((Cert.KernelIdeal.Gen.keep6 m ρ c Cert.KernelIdeal.main_arg16 (by decide)).symm.trans h_main_arg16).trans (Cert.ReferenceIdeal.RefRun.rkeep5 V' Cert.ReferenceIdeal.main_arg16 (by decide))
  have h17 : Cert.KernelIdeal.Gen.W6 m ρ c (Proc.devRef .tc Cert.KernelIdeal.main_arg17) = Cert.ReferenceIdeal.RefRun.RV5 V' (Proc.devRef .tc Cert.ReferenceIdeal.main_arg17) :=
    ((Cert.KernelIdeal.Gen.keep6 m ρ c Cert.KernelIdeal.main_arg17 (by decide)).symm.trans h_main_arg17).trans (Cert.ReferenceIdeal.RefRun.rkeep5 V' Cert.ReferenceIdeal.main_arg17 (by decide))
  have hx : (Cert.KernelIdeal.Gen.V5 m ρ c (Pipeline.arrRef Cert.KernelIdeal.spec2 0) : (⟨Cert.KernelIdeal.S131072x80, .f32⟩ : BufTy).Contents (Elt Ideal))
      = Cert.ReferenceIdeal.RefRun.RV5 V' (Proc.devRef .tc Cert.ReferenceIdeal.main_v51) :=
    ((Cert.KernelIdeal.Gen.keep5 m ρ c Cert.KernelIdeal.main_v21 (by decide)).symm.trans h_main_v21).trans (Cert.ReferenceIdeal.RefRun.rkeep5 V' Cert.ReferenceIdeal.main_v51 (by decide))

  have hv24 : Cert.KernelIdeal.Gen.W6 m ρ c (Proc.devRef .tc Cert.KernelIdeal.main_v24)
      = Cert.SpecMsg.matProd (N := 131072) (K := 80) (H := 80) (Cert.KernelIdeal.Gen.V5 m ρ c (Pipeline.arrRef Cert.KernelIdeal.spec2 0))
          (StableHlo.after Cert.KernelIdeal.Gen.hostOps2 (Cert.KernelIdeal.Gen.W4 m ρ c) (Proc.devRef .tc Cert.KernelIdeal.main_v23)) :=
    (Cert.KernelIdeal.Gen.W6_arr m ρ c 2).trans (Cert.KernelIdeal.RegVal.region2_val (Cert.KernelIdeal.Gen.V5 m ρ) c)
  have core := level0_core (Cert.KernelIdeal.Gen.W4 m ρ c) (Cert.KernelIdeal.Gen.W6 m ρ c) (Cert.ReferenceIdeal.RefRun.RV5 V')
    (Cert.KernelIdeal.Gen.V5 m ρ c (Pipeline.arrRef Cert.KernelIdeal.spec2 0)) hv24 hx h6 h16 h17

  exact (Cert.KernelIdeal.Gen.keep7 m ρ c Cert.KernelIdeal.main_v34 (by decide)).trans
    (core.trans ((congrFun (Cert.ReferenceIdeal.RefRun.RV6_eq V') _).symm.trans (Cert.ReferenceIdeal.RefRun.rkeep6 V' Cert.ReferenceIdeal.main_v64 (by decide)).symm))

end Cert.Bridge

end
-- ==== Proof.Reg4.lean ====
/- The value of the message-product region on 65536 rows.

   The region's grid has 8 points; point t stages rows 8192·t … 8192·t + 8191 of the node features h (a block of
   8192 rows, all 80 columns), the whole 80 × 80 weight matrix W at every point, and writes back the same rows of the
   output. Its body multiplies the block of rows by W into a zero accumulator (the two narrowings before the product
   are the identity on the extended reals), so what point t writes back is rows 8192·t … of the product h · W: a block
   of rows of a product is the product of the block of rows. The 8 blocks tile the 65536 rows (row r lies in the
   block of point r / 8192), so the output array ends holding h · W. -/
import proofs.«415935_j25786983645203_2_alg».proof.Proof.Gen.KernelIdeal.Frame
import proofs.«415935_j25786983645203_2_alg».proof.Proof.SpecMsg
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The arrays and the blocks, at their literal types -/

/-- The node features as the region finds them. -/
abbrev harr4 (c : Dev nD) : Vec Ideal S65536x80 .f32 := V c (Pipeline.arrRef spec4 0)
/-- The weight matrix as the region finds it. -/
abbrev warr4 (c : Dev nD) : Vec Ideal S80x80 .f32 := V c (Pipeline.arrRef spec4 1)
/-- The block of 8192 rows of the node features staged at point `t`. -/
abbrev hblk4 (c : Dev nD) (t : Fin cfg4.N) : Vec Ideal S8192x80 .f32 := iblk4 V c 0 t
/-- The weight matrix staged at point `t`. -/
abbrev wblk4 (c : Dev nD) (t : Fin cfg4.N) : Vec Ideal S80x80 .f32 := iblk4 V c 1 t

theorem hz4 : (![0, 0] : Fin 2 → Nat) = fun _ => 0 := funext fun a => by fin_cases a <;> rfl

/-! ## The body's payload: the product of its two loaded blocks -/

/-- Both narrowings are the identity on the extended reals and the accumulator is zero: the payload is the product. -/
theorem pay4_eq (x0 : Vec Ideal S8192x80 .f32) (x1 : Vec Ideal S80x80 .f32) :
    k4_pay1 (F := Ideal) x0 x1 = Cert.SpecMsg.matProd (N := 8192) (K := 80) (H := 80) x0 x1 := by
  funext i
  obtain ⟨a, b, rfl⟩ : ∃ (a : Fin 8192) (b : Fin 80), i = ix2 a b := ⟨i 0, i 1, eq_ix2 i⟩
  refine (Cert.DotPlain.matmul_zero_rows_cols dot_S8192x80_S80x80_S8192x80_1_0_0_1_n_n rfl rfl rfl rfl rfl rfl none
    (truncf .bf16 (shapeCast S8192x80 x0 shapeCasts_S8192x80_S8192x80) bitsLt_bf16_f32 : FVec Ideal S8192x80 .bf16)
    (truncf .bf16 (shapeCast S80x80 x1 shapeCasts_S80x80_S80x80) bitsLt_bf16_f32 : FVec Ideal S80x80 .bf16) a b).trans ?_
  refine Finset.sum_congr rfl fun k _ => ?_
  rw [truncf_apply, truncf_apply, shapeCast_self, shapeCast_self]

/-! ## The printed index maps over the grid -/

/-- Point `t` stages and writes back row block `t`, every column; the weight matrix is its one block at every point. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-! ## What a point writes back -/

/-- Point `t` writes back block `t` of the product of the two arrays. -/
theorem flushed4_eq (c : Dev nD) (t : Fin cfg4.N) :
    (dat4 V c).flushed 2 t = ((cfg4.win 2).blk t).view.read (Elt Ideal)
      (Cert.SpecMsg.matProd (N := 65536) (K := 80) (H := 80) (harr4 V c) (warr4 V c)) := by
  show (cfg4.win 2).cut (grid4.coords t) ((dat4 V c).after 2 t) = _
  rw [after4_2]
  unfold out4_2
  rw [View.canon_unit_zero hz4]
  simp only [View.ld_unit_zero (S := S8192x80) hz4, View.ld_unit_zero (S := S80x80) hz4]
  obtain ⟨e00, e01, e10, e11, e20, e21⟩ := idx_facts4 t
  funext j
  show k4_pay1 (F := Ideal) (hblk4 V c t) (wblk4 V c t) j
    = Cert.SpecMsg.matProd (N := 65536) (K := 80) (H := 80) (harr4 V c) (warr4 V c) (((cfg4.win 2).blk t).view.emb j)
  rw [pay4_eq]
  refine Cert.SpecMsg.matProd_eq_at (hblk4 V c t) (wblk4 V c t) (harr4 V c) (warr4 V c) j
    (((cfg4.win 2).blk t).view.emb j) (fun k => ?_) (fun k => ?_)
  · -- row (j 0) of the staged block is row 8192·t + (j 0) of the node features
    show harr4 V c (((cfg4.win 0).blk t).view.emb (ix2 (j 0) k))
      = harr4 V c (ix2 ((((cfg4.win 2).blk t).view.emb j) 0) k)
    refine congrArg (harr4 V c) (funext fun a => Fin.ext ?_)
    match a with
    | ⟨0, _⟩ =>
      show win4_0.index t (0 : Fin 2) * 8192 + 1 * (j 0).val = win4_2.index t (0 : Fin 2) * 8192 + 1 * (j 0).val
      omega
    | ⟨1, _⟩ =>
      show win4_0.index t (1 : Fin 2) * 80 + 1 * k.val = k.val
      omega
  · -- the staged weight matrix is the weight matrix
    show warr4 V c (((cfg4.win 1).blk t).view.emb (ix2 k (j 1)))
      = warr4 V c (ix2 k ((((cfg4.win 2).blk t).view.emb j) 1))
    refine congrArg (warr4 V c) (funext fun a => Fin.ext ?_)
    match a with
    | ⟨0, _⟩ =>
      show win4_1.index t (0 : Fin 2) * 80 + 1 * k.val = k.val
      omega
    | ⟨1, _⟩ =>
      show win4_1.index t (1 : Fin 2) * 80 + 1 * (j 1).val = win4_2.index t (1 : Fin 2) * 80 + 1 * (j 1).val
      omega

/-! ## The blocks tile the array -/

/-- An index of the output array is in point `t`'s block iff each coordinate is in the block's range on its axis. -/
theorem mem_blk4 (t : Fin cfg4.N) (i : S65536x80.Idx) :
    i ∈ ((cfg4.win 2).blk t).view.set ↔ ∀ a : Fin 2, win4_2.index t a * S8192x80.size a ≤ (i a).val
      ∧ (i a).val < win4_2.index t a * S8192x80.size a + S8192x80.size a := by
  show i ∈ ((View.whole main_v55).slice (win4_2.rect t)).set ↔ _
  rw [View.set_slice_whole, Rect.mem_set_unit]
  exact Iff.rfl

/-- Row `r` lies in the block of point `r / 8192`. -/
theorem cover4 (i : S65536x80.Idx) :
    ∃ t : Fin cfg4.N, (cfg4.win 2).flush t = true ∧ i ∈ ((cfg4.win 2).blk t).view.set := by
  have hi0 : (i 0).val < 65536 := (i 0).isLt
  have hi1 : (i 1).val < 80 := (i 1).isLt
  have hN : cfg4.N = 8 := N_4
  let t : Fin cfg4.N := ⟨(i 0).val / 8192, by rw [hN]; omega⟩
  have ht : t.val = (i 0).val / 8192 := rfl
  obtain ⟨e00, e01, e10, e11, e20, e21⟩ := idx_facts4 t
  refine ⟨t, flush4_2 t, ?_⟩
  rw [mem_blk4]
  intro a
  match a with
  | ⟨0, _⟩ =>
    show win4_2.index t (0 : Fin 2) * 8192 ≤ (i 0).val ∧ (i 0).val < win4_2.index t (0 : Fin 2) * 8192 + 8192
    omega
  | ⟨1, _⟩ =>
    show win4_2.index t (1 : Fin 2) * 80 ≤ (i 1).val ∧ (i 1).val < win4_2.index t (1 : Fin 2) * 80 + 80
    omega

/-! ## The output array after the region -/

/-- After the region the output array holds the product of the node features and the weight matrix as the region
    found them. -/
theorem region4_val (c : Dev nD) :
    (dat4 (F := Ideal) V c).arrAt 2 cfg4.N
      = Cert.SpecMsg.matProd (N := 65536) (K := 80) (H := 80) (V c (Pipeline.arrRef spec4 0)) (V c (Pipeline.arrRef spec4 1)) :=
  (dat4 V c).arrAt_eq_of_cover 2 (Cert.SpecMsg.matProd (N := 65536) (K := 80) (H := 80) (harr4 V c) (warr4 V c))
    (fun t _ => flushed4_eq V c t) (cover4)

end Cert.KernelIdeal.RegVal

end
-- ==== Proof.BridgeMsg1.lean ====
import proofs.«415935_j25786983645203_2_alg».proof.Proof.KKeep
import proofs.«415935_j25786983645203_2_alg».proof.Proof.RKeep
import proofs.«415935_j25786983645203_2_alg».proof.Proof.Reg4
import proofs.«415935_j25786983645203_2_alg».proof.Proof.MsgLaw

set_option maxRecDepth 16384

noncomputable section

namespace Cert.Bridge

open Idealize.ShloMosaic Idealize.ShloMosaic.TcCoe Idealize.ShloMosaic.StableHlo

set_option maxHeartbeats 4000000 in

theorem level1_core (U0 U : Valuation Cert.KernelIdeal.τ Cert.KernelIdeal.sig (Elt Ideal))
    (U' : Valuation Cert.ReferenceIdeal.τ Cert.ReferenceIdeal.sig (Elt Ideal))
    (x : (⟨Cert.KernelIdeal.S65536x80, .f32⟩ : BufTy).Contents (Elt Ideal))
    (hv55 : U (Proc.devRef .tc Cert.KernelIdeal.main_v55)
      = Cert.SpecMsg.matProd (N := 65536) (K := 80) (H := 80) x
          (StableHlo.after Cert.KernelIdeal.Gen.hostOps4 U0 (Proc.devRef .tc Cert.KernelIdeal.main_v54)))
    (hx : x = U' (Proc.devRef .tc Cert.ReferenceIdeal.main_v73))
    (h6 : U0 (Proc.devRef .tc Cert.KernelIdeal.main_arg6) = U' (Proc.devRef .tc Cert.ReferenceIdeal.main_arg6))
    (h18 : U (Proc.devRef .tc Cert.KernelIdeal.main_arg18) = U' (Proc.devRef .tc Cert.ReferenceIdeal.main_arg18))
    (h19 : U (Proc.devRef .tc Cert.KernelIdeal.main_arg19) = U' (Proc.devRef .tc Cert.ReferenceIdeal.main_arg19)) :
    StableHlo.after Cert.KernelIdeal.Gen.hostOps5 U (Proc.devRef .tc Cert.KernelIdeal.main_v65)
      = StableHlo.after Cert.ReferenceIdeal.RefRun.pc8 U' (Proc.devRef .tc Cert.ReferenceIdeal.main_v96) := by
  subst hx

  simp only [Cert.KernelIdeal.Gen.hostOps5, Cert.ReferenceIdeal.RefRun.pc8]
  after_results_simp
  simp only [hv55, h18, h19]

  simp only [Cert.KernelIdeal.Gen.hostOps4]
  after_results_simp
  simp only [h6]

  rw [Cert.MsgLaw.gather_msg_65536]
  rfl

variable (m : (ℓ : Loc Cert.KernelIdeal.nD Cert.KernelIdeal.τ Cert.KernelIdeal.sig) → Buf (Elt Ideal) ℓ) (ρ : Dev Cert.KernelIdeal.nD → PrngReg)
variable (V' : Valuation Cert.ReferenceIdeal.τ Cert.ReferenceIdeal.sig (Elt Ideal)) (c : Dev Cert.KernelIdeal.nD)

theorem eq_v65
    (h_main_v42 : Cert.KernelIdeal.Gen.W24 m ρ c (Proc.devRef .tc Cert.KernelIdeal.main_v42) = Cert.ReferenceIdeal.RefRun.RV23 V' (Proc.devRef .tc Cert.ReferenceIdeal.main_v73))
    (h_main_arg6 : Cert.KernelIdeal.Gen.W24 m ρ c (Proc.devRef .tc Cert.KernelIdeal.main_arg6) = Cert.ReferenceIdeal.RefRun.RV23 V' (Proc.devRef .tc Cert.ReferenceIdeal.main_arg6))
    (h_main_arg18 : Cert.KernelIdeal.Gen.W24 m ρ c (Proc.devRef .tc Cert.KernelIdeal.main_arg18) = Cert.ReferenceIdeal.RefRun.RV23 V' (Proc.devRef .tc Cert.ReferenceIdeal.main_arg18))
    (h_main_arg19 : Cert.KernelIdeal.Gen.W24 m ρ c (Proc.devRef .tc Cert.KernelIdeal.main_arg19) = Cert.ReferenceIdeal.RefRun.RV23 V' (Proc.devRef .tc Cert.ReferenceIdeal.main_arg19)) :
    Cert.KernelIdeal.Gen.W24 m ρ c (Proc.devRef .tc Cert.KernelIdeal.main_v65) = Cert.ReferenceIdeal.RefRun.RV23 V' (Proc.devRef .tc Cert.ReferenceIdeal.main_v96) := by

  have h6 : Cert.KernelIdeal.Gen.W8 m ρ c (Proc.devRef .tc Cert.KernelIdeal.main_arg6) = Cert.ReferenceIdeal.RefRun.RV8 V' (Proc.devRef .tc Cert.ReferenceIdeal.main_arg6) :=
    ((Cert.KernelIdeal.Gen.keep8 m ρ c Cert.KernelIdeal.main_arg6 (by decide)).symm.trans h_main_arg6).trans (Cert.ReferenceIdeal.RefRun.rkeep8 V' Cert.ReferenceIdeal.main_arg6 (by decide))
  have h18 : Cert.KernelIdeal.Gen.W10 m ρ c (Proc.devRef .tc Cert.KernelIdeal.main_arg18) = Cert.ReferenceIdeal.RefRun.RV8 V' (Proc.devRef .tc Cert.ReferenceIdeal.main_arg18) :=
    ((Cert.KernelIdeal.Gen.keep10 m ρ c Cert.KernelIdeal.main_arg18 (by decide)).symm.trans h_main_arg18).trans (Cert.ReferenceIdeal.RefRun.rkeep8 V' Cert.ReferenceIdeal.main_arg18 (by decide))
  have h19 : Cert.KernelIdeal.Gen.W10 m ρ c (Proc.devRef .tc Cert.KernelIdeal.main_arg19) = Cert.ReferenceIdeal.RefRun.RV8 V' (Proc.devRef .tc Cert.ReferenceIdeal.main_arg19) :=
    ((Cert.KernelIdeal.Gen.keep10 m ρ c Cert.KernelIdeal.main_arg19 (by decide)).symm.trans h_main_arg19).trans (Cert.ReferenceIdeal.RefRun.rkeep8 V' Cert.ReferenceIdeal.main_arg19 (by decide))
  have hx : (Cert.KernelIdeal.Gen.V9 m ρ c (Pipeline.arrRef Cert.KernelIdeal.spec4 0) : (⟨Cert.KernelIdeal.S65536x80, .f32⟩ : BufTy).Contents (Elt Ideal))
      = Cert.ReferenceIdeal.RefRun.RV8 V' (Proc.devRef .tc Cert.ReferenceIdeal.main_v73) :=
    ((Cert.KernelIdeal.Gen.keep9 m ρ c Cert.KernelIdeal.main_v42 (by decide)).symm.trans h_main_v42).trans (Cert.ReferenceIdeal.RefRun.rkeep8 V' Cert.ReferenceIdeal.main_v73 (by decide))

  have hv55 : Cert.KernelIdeal.Gen.W10 m ρ c (Proc.devRef .tc Cert.KernelIdeal.main_v55)
      = Cert.SpecMsg.matProd (N := 65536) (K := 80) (H := 80) (Cert.KernelIdeal.Gen.V9 m ρ c (Pipeline.arrRef Cert.KernelIdeal.spec4 0))
          (StableHlo.after Cert.KernelIdeal.Gen.hostOps4 (Cert.KernelIdeal.Gen.W8 m ρ c) (Proc.devRef .tc Cert.KernelIdeal.main_v54)) :=
    (Cert.KernelIdeal.Gen.W10_arr m ρ c 2).trans (Cert.KernelIdeal.RegVal.region4_val (Cert.KernelIdeal.Gen.V9 m ρ) c)
  have core := level1_core (Cert.KernelIdeal.Gen.W8 m ρ c) (Cert.KernelIdeal.Gen.W10 m ρ c) (Cert.ReferenceIdeal.RefRun.RV8 V')
    (Cert.KernelIdeal.Gen.V9 m ρ c (Pipeline.arrRef Cert.KernelIdeal.spec4 0)) hv55 hx h6 h18 h19

  exact (Cert.KernelIdeal.Gen.keep11 m ρ c Cert.KernelIdeal.main_v65 (by decide)).trans
    (core.trans ((congrFun (Cert.ReferenceIdeal.RefRun.RV9_eq V') _).symm.trans (Cert.ReferenceIdeal.RefRun.rkeep9 V' Cert.ReferenceIdeal.main_v96 (by decide)).symm))

end Cert.Bridge

end
-- ==== Proof.Reg6.lean ====
/- The value of the message-product region on 32768 rows.

   The region's grid has 4 points; point t stages rows 8192·t … 8192·t + 8191 of the node features h (a block of
   8192 rows, all 80 columns), the whole 80 × 80 weight matrix W at every point, and writes back the same rows of the
   output. Its body multiplies the block of rows by W into a zero accumulator (the two narrowings before the product
   are the identity on the extended reals), so what point t writes back is rows 8192·t … of the product h · W: a block
   of rows of a product is the product of the block of rows. The 4 blocks tile the 32768 rows (row r lies in the
   block of point r / 8192), so the output array ends holding h · W. -/
import proofs.«415935_j25786983645203_2_alg».proof.Proof.Gen.KernelIdeal.Frame
import proofs.«415935_j25786983645203_2_alg».proof.Proof.SpecMsg
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The arrays and the blocks, at their literal types -/

/-- The node features as the region finds them. -/
abbrev harr6 (c : Dev nD) : Vec Ideal S32768x80 .f32 := V c (Pipeline.arrRef spec6 0)
/-- The weight matrix as the region finds it. -/
abbrev warr6 (c : Dev nD) : Vec Ideal S80x80 .f32 := V c (Pipeline.arrRef spec6 1)
/-- The block of 8192 rows of the node features staged at point `t`. -/
abbrev hblk6 (c : Dev nD) (t : Fin cfg6.N) : Vec Ideal S8192x80 .f32 := iblk6 V c 0 t
/-- The weight matrix staged at point `t`. -/
abbrev wblk6 (c : Dev nD) (t : Fin cfg6.N) : Vec Ideal S80x80 .f32 := iblk6 V c 1 t

theorem hz6 : (![0, 0] : Fin 2 → Nat) = fun _ => 0 := funext fun a => by fin_cases a <;> rfl

/-! ## The body's payload: the product of its two loaded blocks -/

/-- Both narrowings are the identity on the extended reals and the accumulator is zero: the payload is the product. -/
theorem pay6_eq (x0 : Vec Ideal S8192x80 .f32) (x1 : Vec Ideal S80x80 .f32) :
    k6_pay1 (F := Ideal) x0 x1 = Cert.SpecMsg.matProd (N := 8192) (K := 80) (H := 80) x0 x1 := by
  funext i
  obtain ⟨a, b, rfl⟩ : ∃ (a : Fin 8192) (b : Fin 80), i = ix2 a b := ⟨i 0, i 1, eq_ix2 i⟩
  refine (Cert.DotPlain.matmul_zero_rows_cols dot_S8192x80_S80x80_S8192x80_1_0_0_1_n_n rfl rfl rfl rfl rfl rfl none
    (truncf .bf16 (shapeCast S8192x80 x0 shapeCasts_S8192x80_S8192x80) bitsLt_bf16_f32 : FVec Ideal S8192x80 .bf16)
    (truncf .bf16 (shapeCast S80x80 x1 shapeCasts_S80x80_S80x80) bitsLt_bf16_f32 : FVec Ideal S80x80 .bf16) a b).trans ?_
  refine Finset.sum_congr rfl fun k _ => ?_
  rw [truncf_apply, truncf_apply, shapeCast_self, shapeCast_self]

/-! ## The printed index maps over the grid -/

/-- Point `t` stages and writes back row block `t`, every column; the weight matrix is its one block at every point. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-! ## What a point writes back -/

/-- Point `t` writes back block `t` of the product of the two arrays. -/
theorem flushed6_eq (c : Dev nD) (t : Fin cfg6.N) :
    (dat6 V c).flushed 2 t = ((cfg6.win 2).blk t).view.read (Elt Ideal)
      (Cert.SpecMsg.matProd (N := 32768) (K := 80) (H := 80) (harr6 V c) (warr6 V c)) := by
  show (cfg6.win 2).cut (grid6.coords t) ((dat6 V c).after 2 t) = _
  rw [after6_2]
  unfold out6_2
  rw [View.canon_unit_zero hz6]
  simp only [View.ld_unit_zero (S := S8192x80) hz6, View.ld_unit_zero (S := S80x80) hz6]
  obtain ⟨e00, e01, e10, e11, e20, e21⟩ := idx_facts6 t
  funext j
  show k6_pay1 (F := Ideal) (hblk6 V c t) (wblk6 V c t) j
    = Cert.SpecMsg.matProd (N := 32768) (K := 80) (H := 80) (harr6 V c) (warr6 V c) (((cfg6.win 2).blk t).view.emb j)
  rw [pay6_eq]
  refine Cert.SpecMsg.matProd_eq_at (hblk6 V c t) (wblk6 V c t) (harr6 V c) (warr6 V c) j
    (((cfg6.win 2).blk t).view.emb j) (fun k => ?_) (fun k => ?_)
  · -- row (j 0) of the staged block is row 8192·t + (j 0) of the node features
    show harr6 V c (((cfg6.win 0).blk t).view.emb (ix2 (j 0) k))
      = harr6 V c (ix2 ((((cfg6.win 2).blk t).view.emb j) 0) k)
    refine congrArg (harr6 V c) (funext fun a => Fin.ext ?_)
    match a with
    | ⟨0, _⟩ =>
      show win6_0.index t (0 : Fin 2) * 8192 + 1 * (j 0).val = win6_2.index t (0 : Fin 2) * 8192 + 1 * (j 0).val
      omega
    | ⟨1, _⟩ =>
      show win6_0.index t (1 : Fin 2) * 80 + 1 * k.val = k.val
      omega
  · -- the staged weight matrix is the weight matrix
    show warr6 V c (((cfg6.win 1).blk t).view.emb (ix2 k (j 1)))
      = warr6 V c (ix2 k ((((cfg6.win 2).blk t).view.emb j) 1))
    refine congrArg (warr6 V c) (funext fun a => Fin.ext ?_)
    match a with
    | ⟨0, _⟩ =>
      show win6_1.index t (0 : Fin 2) * 80 + 1 * k.val = k.val
      omega
    | ⟨1, _⟩ =>
      show win6_1.index t (1 : Fin 2) * 80 + 1 * (j 1).val = win6_2.index t (1 : Fin 2) * 80 + 1 * (j 1).val
      omega

/-! ## The blocks tile the array -/

/-- An index of the output array is in point `t`'s block iff each coordinate is in the block's range on its axis. -/
theorem mem_blk6 (t : Fin cfg6.N) (i : S32768x80.Idx) :
    i ∈ ((cfg6.win 2).blk t).view.set ↔ ∀ a : Fin 2, win6_2.index t a * S8192x80.size a ≤ (i a).val
      ∧ (i a).val < win6_2.index t a * S8192x80.size a + S8192x80.size a := by
  show i ∈ ((View.whole main_v103).slice (win6_2.rect t)).set ↔ _
  rw [View.set_slice_whole, Rect.mem_set_unit]
  exact Iff.rfl

/-- Row `r` lies in the block of point `r / 8192`. -/
theorem cover6 (i : S32768x80.Idx) :
    ∃ t : Fin cfg6.N, (cfg6.win 2).flush t = true ∧ i ∈ ((cfg6.win 2).blk t).view.set := by
  have hi0 : (i 0).val < 32768 := (i 0).isLt
  have hi1 : (i 1).val < 80 := (i 1).isLt
  have hN : cfg6.N = 4 := N_6
  let t : Fin cfg6.N := ⟨(i 0).val / 8192, by rw [hN]; omega⟩
  have ht : t.val = (i 0).val / 8192 := rfl
  obtain ⟨e00, e01, e10, e11, e20, e21⟩ := idx_facts6 t
  refine ⟨t, flush6_2 t, ?_⟩
  rw [mem_blk6]
  intro a
  match a with
  | ⟨0, _⟩ =>
    show win6_2.index t (0 : Fin 2) * 8192 ≤ (i 0).val ∧ (i 0).val < win6_2.index t (0 : Fin 2) * 8192 + 8192
    omega
  | ⟨1, _⟩ =>
    show win6_2.index t (1 : Fin 2) * 80 ≤ (i 1).val ∧ (i 1).val < win6_2.index t (1 : Fin 2) * 80 + 80
    omega

/-! ## The output array after the region -/

/-- After the region the output array holds the product of the node features and the weight matrix as the region
    found them. -/
theorem region6_val (c : Dev nD) :
    (dat6 (F := Ideal) V c).arrAt 2 cfg6.N
      = Cert.SpecMsg.matProd (N := 32768) (K := 80) (H := 80) (V c (Pipeline.arrRef spec6 0)) (V c (Pipeline.arrRef spec6 1)) :=
  (dat6 V c).arrAt_eq_of_cover 2 (Cert.SpecMsg.matProd (N := 32768) (K := 80) (H := 80) (harr6 V c) (warr6 V c))
    (fun t _ => flushed6_eq V c t) (cover6)

end Cert.KernelIdeal.RegVal

end
-- ==== Proof.BridgeMsg2.lean ====
import proofs.«415935_j25786983645203_2_alg».proof.Proof.KKeep
import proofs.«415935_j25786983645203_2_alg».proof.Proof.RKeep
import proofs.«415935_j25786983645203_2_alg».proof.Proof.Reg6
import proofs.«415935_j25786983645203_2_alg».proof.Proof.MsgLaw

set_option maxRecDepth 16384

noncomputable section

namespace Cert.Bridge

open Idealize.ShloMosaic Idealize.ShloMosaic.TcCoe Idealize.ShloMosaic.StableHlo

set_option maxHeartbeats 4000000 in

theorem level2_core (U0 U : Valuation Cert.KernelIdeal.τ Cert.KernelIdeal.sig (Elt Ideal))
    (U' : Valuation Cert.ReferenceIdeal.τ Cert.ReferenceIdeal.sig (Elt Ideal))
    (x : (⟨Cert.KernelIdeal.S32768x80, .f32⟩ : BufTy).Contents (Elt Ideal))
    (hv103 : U (Proc.devRef .tc Cert.KernelIdeal.main_v103)
      = Cert.SpecMsg.matProd (N := 32768) (K := 80) (H := 80) x
          (StableHlo.after Cert.KernelIdeal.Gen.hostOps6 U0 (Proc.devRef .tc Cert.KernelIdeal.main_v102)))
    (hx : x = U' (Proc.devRef .tc Cert.ReferenceIdeal.main_v105))
    (h6 : U0 (Proc.devRef .tc Cert.KernelIdeal.main_arg6) = U' (Proc.devRef .tc Cert.ReferenceIdeal.main_arg6))
    (h20 : U (Proc.devRef .tc Cert.KernelIdeal.main_arg20) = U' (Proc.devRef .tc Cert.ReferenceIdeal.main_arg20))
    (h21 : U (Proc.devRef .tc Cert.KernelIdeal.main_arg21) = U' (Proc.devRef .tc Cert.ReferenceIdeal.main_arg21)) :
    StableHlo.after Cert.KernelIdeal.Gen.hostOps7 U (Proc.devRef .tc Cert.KernelIdeal.main_v113)
      = StableHlo.after Cert.ReferenceIdeal.RefRun.pc11 U' (Proc.devRef .tc Cert.ReferenceIdeal.main_v145) := by
  subst hx

  simp only [Cert.KernelIdeal.Gen.hostOps7, Cert.ReferenceIdeal.RefRun.pc11]
  after_results_simp
  simp only [hv103, h20, h21]

  simp only [Cert.KernelIdeal.Gen.hostOps6]
  after_results_simp
  simp only [h6]

  rw [Cert.MsgLaw.gather_msg_32768]
  rfl

variable (m : (ℓ : Loc Cert.KernelIdeal.nD Cert.KernelIdeal.τ Cert.KernelIdeal.sig) → Buf (Elt Ideal) ℓ) (ρ : Dev Cert.KernelIdeal.nD → PrngReg)
variable (V' : Valuation Cert.ReferenceIdeal.τ Cert.ReferenceIdeal.sig (Elt Ideal)) (c : Dev Cert.KernelIdeal.nD)

theorem eq_v113
    (h_main_v73 : Cert.KernelIdeal.Gen.W24 m ρ c (Proc.devRef .tc Cert.KernelIdeal.main_v73) = Cert.ReferenceIdeal.RefRun.RV23 V' (Proc.devRef .tc Cert.ReferenceIdeal.main_v105))
    (h_main_arg6 : Cert.KernelIdeal.Gen.W24 m ρ c (Proc.devRef .tc Cert.KernelIdeal.main_arg6) = Cert.ReferenceIdeal.RefRun.RV23 V' (Proc.devRef .tc Cert.ReferenceIdeal.main_arg6))
    (h_main_arg20 : Cert.KernelIdeal.Gen.W24 m ρ c (Proc.devRef .tc Cert.KernelIdeal.main_arg20) = Cert.ReferenceIdeal.RefRun.RV23 V' (Proc.devRef .tc Cert.ReferenceIdeal.main_arg20))
    (h_main_arg21 : Cert.KernelIdeal.Gen.W24 m ρ c (Proc.devRef .tc Cert.KernelIdeal.main_arg21) = Cert.ReferenceIdeal.RefRun.RV23 V' (Proc.devRef .tc Cert.ReferenceIdeal.main_arg21)) :
    Cert.KernelIdeal.Gen.W24 m ρ c (Proc.devRef .tc Cert.KernelIdeal.main_v113) = Cert.ReferenceIdeal.RefRun.RV23 V' (Proc.devRef .tc Cert.ReferenceIdeal.main_v145) := by

  have h6 : Cert.KernelIdeal.Gen.W12 m ρ c (Proc.devRef .tc Cert.KernelIdeal.main_arg6) = Cert.ReferenceIdeal.RefRun.RV11 V' (Proc.devRef .tc Cert.ReferenceIdeal.main_arg6) :=
    ((Cert.KernelIdeal.Gen.keep12 m ρ c Cert.KernelIdeal.main_arg6 (by decide)).symm.trans h_main_arg6).trans (Cert.ReferenceIdeal.RefRun.rkeep11 V' Cert.ReferenceIdeal.main_arg6 (by decide))
  have h20 : Cert.KernelIdeal.Gen.W14 m ρ c (Proc.devRef .tc Cert.KernelIdeal.main_arg20) = Cert.ReferenceIdeal.RefRun.RV11 V' (Proc.devRef .tc Cert.ReferenceIdeal.main_arg20) :=
    ((Cert.KernelIdeal.Gen.keep14 m ρ c Cert.KernelIdeal.main_arg20 (by decide)).symm.trans h_main_arg20).trans (Cert.ReferenceIdeal.RefRun.rkeep11 V' Cert.ReferenceIdeal.main_arg20 (by decide))
  have h21 : Cert.KernelIdeal.Gen.W14 m ρ c (Proc.devRef .tc Cert.KernelIdeal.main_arg21) = Cert.ReferenceIdeal.RefRun.RV11 V' (Proc.devRef .tc Cert.ReferenceIdeal.main_arg21) :=
    ((Cert.KernelIdeal.Gen.keep14 m ρ c Cert.KernelIdeal.main_arg21 (by decide)).symm.trans h_main_arg21).trans (Cert.ReferenceIdeal.RefRun.rkeep11 V' Cert.ReferenceIdeal.main_arg21 (by decide))
  have hx : (Cert.KernelIdeal.Gen.V13 m ρ c (Pipeline.arrRef Cert.KernelIdeal.spec6 0) : (⟨Cert.KernelIdeal.S32768x80, .f32⟩ : BufTy).Contents (Elt Ideal))
      = Cert.ReferenceIdeal.RefRun.RV11 V' (Proc.devRef .tc Cert.ReferenceIdeal.main_v105) :=
    ((Cert.KernelIdeal.Gen.keep13 m ρ c Cert.KernelIdeal.main_v73 (by decide)).symm.trans h_main_v73).trans (Cert.ReferenceIdeal.RefRun.rkeep11 V' Cert.ReferenceIdeal.main_v105 (by decide))

  have hv103 : Cert.KernelIdeal.Gen.W14 m ρ c (Proc.devRef .tc Cert.KernelIdeal.main_v103)
      = Cert.SpecMsg.matProd (N := 32768) (K := 80) (H := 80) (Cert.KernelIdeal.Gen.V13 m ρ c (Pipeline.arrRef Cert.KernelIdeal.spec6 0))
          (StableHlo.after Cert.KernelIdeal.Gen.hostOps6 (Cert.KernelIdeal.Gen.W12 m ρ c) (Proc.devRef .tc Cert.KernelIdeal.main_v102)) :=
    (Cert.KernelIdeal.Gen.W14_arr m ρ c 2).trans (Cert.KernelIdeal.RegVal.region6_val (Cert.KernelIdeal.Gen.V13 m ρ) c)
  have core := level2_core (Cert.KernelIdeal.Gen.W12 m ρ c) (Cert.KernelIdeal.Gen.W14 m ρ c) (Cert.ReferenceIdeal.RefRun.RV11 V')
    (Cert.KernelIdeal.Gen.V13 m ρ c (Pipeline.arrRef Cert.KernelIdeal.spec6 0)) hv103 hx h6 h20 h21

  exact (Cert.KernelIdeal.Gen.keep15 m ρ c Cert.KernelIdeal.main_v113 (by decide)).trans
    (core.trans ((congrFun (Cert.ReferenceIdeal.RefRun.RV12_eq V') _).symm.trans (Cert.ReferenceIdeal.RefRun.rkeep12 V' Cert.ReferenceIdeal.main_v145 (by decide)).symm))

end Cert.Bridge

end
-- ==== Proof.Reg8.lean ====
/- The value of the message-product region on 16384 rows.

   The region's grid has 2 points; point t stages rows 8192·t … 8192·t + 8191 of the node features h (a block of
   8192 rows, all 80 columns), the whole 80 × 80 weight matrix W at every point, and writes back the same rows of the
   output. Its body multiplies the block of rows by W into a zero accumulator (the two narrowings before the product
   are the identity on the extended reals), so what point t writes back is rows 8192·t … of the product h · W: a block
   of rows of a product is the product of the block of rows. The 2 blocks tile the 16384 rows (row r lies in the
   block of point r / 8192), so the output array ends holding h · W. -/
import proofs.«415935_j25786983645203_2_alg».proof.Proof.Gen.KernelIdeal.Frame
import proofs.«415935_j25786983645203_2_alg».proof.Proof.SpecMsg
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The arrays and the blocks, at their literal types -/

/-- The node features as the region finds them. -/
abbrev harr8 (c : Dev nD) : Vec Ideal S16384x80 .f32 := V c (Pipeline.arrRef spec8 0)
/-- The weight matrix as the region finds it. -/
abbrev warr8 (c : Dev nD) : Vec Ideal S80x80 .f32 := V c (Pipeline.arrRef spec8 1)
/-- The block of 8192 rows of the node features staged at point `t`. -/
abbrev hblk8 (c : Dev nD) (t : Fin cfg8.N) : Vec Ideal S8192x80 .f32 := iblk8 V c 0 t
/-- The weight matrix staged at point `t`. -/
abbrev wblk8 (c : Dev nD) (t : Fin cfg8.N) : Vec Ideal S80x80 .f32 := iblk8 V c 1 t

theorem hz8 : (![0, 0] : Fin 2 → Nat) = fun _ => 0 := funext fun a => by fin_cases a <;> rfl

/-! ## The body's payload: the product of its two loaded blocks -/

/-- Both narrowings are the identity on the extended reals and the accumulator is zero: the payload is the product. -/
theorem pay8_eq (x0 : Vec Ideal S8192x80 .f32) (x1 : Vec Ideal S80x80 .f32) :
    k8_pay1 (F := Ideal) x0 x1 = Cert.SpecMsg.matProd (N := 8192) (K := 80) (H := 80) x0 x1 := by
  funext i
  obtain ⟨a, b, rfl⟩ : ∃ (a : Fin 8192) (b : Fin 80), i = ix2 a b := ⟨i 0, i 1, eq_ix2 i⟩
  refine (Cert.DotPlain.matmul_zero_rows_cols dot_S8192x80_S80x80_S8192x80_1_0_0_1_n_n rfl rfl rfl rfl rfl rfl none
    (truncf .bf16 (shapeCast S8192x80 x0 shapeCasts_S8192x80_S8192x80) bitsLt_bf16_f32 : FVec Ideal S8192x80 .bf16)
    (truncf .bf16 (shapeCast S80x80 x1 shapeCasts_S80x80_S80x80) bitsLt_bf16_f32 : FVec Ideal S80x80 .bf16) a b).trans ?_
  refine Finset.sum_congr rfl fun k _ => ?_
  rw [truncf_apply, truncf_apply, shapeCast_self, shapeCast_self]

/-! ## The printed index maps over the grid -/

/-- Point `t` stages and writes back row block `t`, every column; the weight matrix is its one block at every point. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-! ## What a point writes back -/

/-- Point `t` writes back block `t` of the product of the two arrays. -/
theorem flushed8_eq (c : Dev nD) (t : Fin cfg8.N) :
    (dat8 V c).flushed 2 t = ((cfg8.win 2).blk t).view.read (Elt Ideal)
      (Cert.SpecMsg.matProd (N := 16384) (K := 80) (H := 80) (harr8 V c) (warr8 V c)) := by
  show (cfg8.win 2).cut (grid8.coords t) ((dat8 V c).after 2 t) = _
  rw [after8_2]
  unfold out8_2
  rw [View.canon_unit_zero hz8]
  simp only [View.ld_unit_zero (S := S8192x80) hz8, View.ld_unit_zero (S := S80x80) hz8]
  obtain ⟨e00, e01, e10, e11, e20, e21⟩ := idx_facts8 t
  funext j
  show k8_pay1 (F := Ideal) (hblk8 V c t) (wblk8 V c t) j
    = Cert.SpecMsg.matProd (N := 16384) (K := 80) (H := 80) (harr8 V c) (warr8 V c) (((cfg8.win 2).blk t).view.emb j)
  rw [pay8_eq]
  refine Cert.SpecMsg.matProd_eq_at (hblk8 V c t) (wblk8 V c t) (harr8 V c) (warr8 V c) j
    (((cfg8.win 2).blk t).view.emb j) (fun k => ?_) (fun k => ?_)
  · -- row (j 0) of the staged block is row 8192·t + (j 0) of the node features
    show harr8 V c (((cfg8.win 0).blk t).view.emb (ix2 (j 0) k))
      = harr8 V c (ix2 ((((cfg8.win 2).blk t).view.emb j) 0) k)
    refine congrArg (harr8 V c) (funext fun a => Fin.ext ?_)
    match a with
    | ⟨0, _⟩ =>
      show win8_0.index t (0 : Fin 2) * 8192 + 1 * (j 0).val = win8_2.index t (0 : Fin 2) * 8192 + 1 * (j 0).val
      omega
    | ⟨1, _⟩ =>
      show win8_0.index t (1 : Fin 2) * 80 + 1 * k.val = k.val
      omega
  · -- the staged weight matrix is the weight matrix
    show warr8 V c (((cfg8.win 1).blk t).view.emb (ix2 k (j 1)))
      = warr8 V c (ix2 k ((((cfg8.win 2).blk t).view.emb j) 1))
    refine congrArg (warr8 V c) (funext fun a => Fin.ext ?_)
    match a with
    | ⟨0, _⟩ =>
      show win8_1.index t (0 : Fin 2) * 80 + 1 * k.val = k.val
      omega
    | ⟨1, _⟩ =>
      show win8_1.index t (1 : Fin 2) * 80 + 1 * (j 1).val = win8_2.index t (1 : Fin 2) * 80 + 1 * (j 1).val
      omega

/-! ## The blocks tile the array -/

/-- An index of the output array is in point `t`'s block iff each coordinate is in the block's range on its axis. -/
theorem mem_blk8 (t : Fin cfg8.N) (i : S16384x80.Idx) :
    i ∈ ((cfg8.win 2).blk t).view.set ↔ ∀ a : Fin 2, win8_2.index t a * S8192x80.size a ≤ (i a).val
      ∧ (i a).val < win8_2.index t a * S8192x80.size a + S8192x80.size a := by
  show i ∈ ((View.whole main_v168).slice (win8_2.rect t)).set ↔ _
  rw [View.set_slice_whole, Rect.mem_set_unit]
  exact Iff.rfl

/-- Row `r` lies in the block of point `r / 8192`. -/
theorem cover8 (i : S16384x80.Idx) :
    ∃ t : Fin cfg8.N, (cfg8.win 2).flush t = true ∧ i ∈ ((cfg8.win 2).blk t).view.set := by
  have hi0 : (i 0).val < 16384 := (i 0).isLt
  have hi1 : (i 1).val < 80 := (i 1).isLt
  have hN : cfg8.N = 2 := N_8
  let t : Fin cfg8.N := ⟨(i 0).val / 8192, by rw [hN]; omega⟩
  have ht : t.val = (i 0).val / 8192 := rfl
  obtain ⟨e00, e01, e10, e11, e20, e21⟩ := idx_facts8 t
  refine ⟨t, flush8_2 t, ?_⟩
  rw [mem_blk8]
  intro a
  match a with
  | ⟨0, _⟩ =>
    show win8_2.index t (0 : Fin 2) * 8192 ≤ (i 0).val ∧ (i 0).val < win8_2.index t (0 : Fin 2) * 8192 + 8192
    omega
  | ⟨1, _⟩ =>
    show win8_2.index t (1 : Fin 2) * 80 ≤ (i 1).val ∧ (i 1).val < win8_2.index t (1 : Fin 2) * 80 + 80
    omega

/-! ## The output array after the region -/

/-- After the region the output array holds the product of the node features and the weight matrix as the region
    found them. -/
theorem region8_val (c : Dev nD) :
    (dat8 (F := Ideal) V c).arrAt 2 cfg8.N
      = Cert.SpecMsg.matProd (N := 16384) (K := 80) (H := 80) (V c (Pipeline.arrRef spec8 0)) (V c (Pipeline.arrRef spec8 1)) :=
  (dat8 V c).arrAt_eq_of_cover 2 (Cert.SpecMsg.matProd (N := 16384) (K := 80) (H := 80) (harr8 V c) (warr8 V c))
    (fun t _ => flushed8_eq V c t) (cover8)

end Cert.KernelIdeal.RegVal

end
-- ==== Proof.BridgeMsg3.lean ====
import proofs.«415935_j25786983645203_2_alg».proof.Proof.KKeep
import proofs.«415935_j25786983645203_2_alg».proof.Proof.RKeep
import proofs.«415935_j25786983645203_2_alg».proof.Proof.Reg8
import proofs.«415935_j25786983645203_2_alg».proof.Proof.MsgLaw

set_option maxRecDepth 16384

noncomputable section

namespace Cert.Bridge

open Idealize.ShloMosaic Idealize.ShloMosaic.TcCoe Idealize.ShloMosaic.StableHlo

set_option maxHeartbeats 4000000 in

theorem level3_core (U0 U : Valuation Cert.KernelIdeal.τ Cert.KernelIdeal.sig (Elt Ideal))
    (U' : Valuation Cert.ReferenceIdeal.τ Cert.ReferenceIdeal.sig (Elt Ideal))
    (x : (⟨Cert.KernelIdeal.S16384x80, .f32⟩ : BufTy).Contents (Elt Ideal))
    (hv168 : U (Proc.devRef .tc Cert.KernelIdeal.main_v168)
      = Cert.SpecMsg.matProd (N := 16384) (K := 80) (H := 80) x
          (StableHlo.after Cert.KernelIdeal.Gen.hostOps8 U0 (Proc.devRef .tc Cert.KernelIdeal.main_v167)))
    (hx : x = U' (Proc.devRef .tc Cert.ReferenceIdeal.main_v154))
    (h6 : U0 (Proc.devRef .tc Cert.KernelIdeal.main_arg6) = U' (Proc.devRef .tc Cert.ReferenceIdeal.main_arg6))
    (h22 : U (Proc.devRef .tc Cert.KernelIdeal.main_arg22) = U' (Proc.devRef .tc Cert.ReferenceIdeal.main_arg22))
    (h23 : U (Proc.devRef .tc Cert.KernelIdeal.main_arg23) = U' (Proc.devRef .tc Cert.ReferenceIdeal.main_arg23)) :
    StableHlo.after Cert.KernelIdeal.Gen.hostOps9 U (Proc.devRef .tc Cert.KernelIdeal.main_v178)
      = StableHlo.after Cert.ReferenceIdeal.RefRun.pc15 U' (Proc.devRef .tc Cert.ReferenceIdeal.main_v211) := by
  subst hx

  simp only [Cert.KernelIdeal.Gen.hostOps9, Cert.ReferenceIdeal.RefRun.pc15]
  after_results_simp
  simp only [hv168, h22, h23]

  simp only [Cert.KernelIdeal.Gen.hostOps8]
  after_results_simp
  simp only [h6]

  rw [Cert.MsgLaw.gather_msg_16384]
  rfl

variable (m : (ℓ : Loc Cert.KernelIdeal.nD Cert.KernelIdeal.τ Cert.KernelIdeal.sig) → Buf (Elt Ideal) ℓ) (ρ : Dev Cert.KernelIdeal.nD → PrngReg)
variable (V' : Valuation Cert.ReferenceIdeal.τ Cert.ReferenceIdeal.sig (Elt Ideal)) (c : Dev Cert.KernelIdeal.nD)

theorem eq_v178
    (h_main_v121 : Cert.KernelIdeal.Gen.W24 m ρ c (Proc.devRef .tc Cert.KernelIdeal.main_v121) = Cert.ReferenceIdeal.RefRun.RV23 V' (Proc.devRef .tc Cert.ReferenceIdeal.main_v154))
    (h_main_arg6 : Cert.KernelIdeal.Gen.W24 m ρ c (Proc.devRef .tc Cert.KernelIdeal.main_arg6) = Cert.ReferenceIdeal.RefRun.RV23 V' (Proc.devRef .tc Cert.ReferenceIdeal.main_arg6))
    (h_main_arg22 : Cert.KernelIdeal.Gen.W24 m ρ c (Proc.devRef .tc Cert.KernelIdeal.main_arg22) = Cert.ReferenceIdeal.RefRun.RV23 V' (Proc.devRef .tc Cert.ReferenceIdeal.main_arg22))
    (h_main_arg23 : Cert.KernelIdeal.Gen.W24 m ρ c (Proc.devRef .tc Cert.KernelIdeal.main_arg23) = Cert.ReferenceIdeal.RefRun.RV23 V' (Proc.devRef .tc Cert.ReferenceIdeal.main_arg23)) :
    Cert.KernelIdeal.Gen.W24 m ρ c (Proc.devRef .tc Cert.KernelIdeal.main_v178) = Cert.ReferenceIdeal.RefRun.RV23 V' (Proc.devRef .tc Cert.ReferenceIdeal.main_v211) := by

  have h6 : Cert.KernelIdeal.Gen.W16 m ρ c (Proc.devRef .tc Cert.KernelIdeal.main_arg6) = Cert.ReferenceIdeal.RefRun.RV15 V' (Proc.devRef .tc Cert.ReferenceIdeal.main_arg6) :=
    ((Cert.KernelIdeal.Gen.keep16 m ρ c Cert.KernelIdeal.main_arg6 (by decide)).symm.trans h_main_arg6).trans (Cert.ReferenceIdeal.RefRun.rkeep15 V' Cert.ReferenceIdeal.main_arg6 (by decide))
  have h22 : Cert.KernelIdeal.Gen.W18 m ρ c (Proc.devRef .tc Cert.KernelIdeal.main_arg22) = Cert.ReferenceIdeal.RefRun.RV15 V' (Proc.devRef .tc Cert.ReferenceIdeal.main_arg22) :=
    ((Cert.KernelIdeal.Gen.keep18 m ρ c Cert.KernelIdeal.main_arg22 (by decide)).symm.trans h_main_arg22).trans (Cert.ReferenceIdeal.RefRun.rkeep15 V' Cert.ReferenceIdeal.main_arg22 (by decide))
  have h23 : Cert.KernelIdeal.Gen.W18 m ρ c (Proc.devRef .tc Cert.KernelIdeal.main_arg23) = Cert.ReferenceIdeal.RefRun.RV15 V' (Proc.devRef .tc Cert.ReferenceIdeal.main_arg23) :=
    ((Cert.KernelIdeal.Gen.keep18 m ρ c Cert.KernelIdeal.main_arg23 (by decide)).symm.trans h_main_arg23).trans (Cert.ReferenceIdeal.RefRun.rkeep15 V' Cert.ReferenceIdeal.main_arg23 (by decide))
  have hx : (Cert.KernelIdeal.Gen.V17 m ρ c (Pipeline.arrRef Cert.KernelIdeal.spec8 0) : (⟨Cert.KernelIdeal.S16384x80, .f32⟩ : BufTy).Contents (Elt Ideal))
      = Cert.ReferenceIdeal.RefRun.RV15 V' (Proc.devRef .tc Cert.ReferenceIdeal.main_v154) :=
    ((Cert.KernelIdeal.Gen.keep17 m ρ c Cert.KernelIdeal.main_v121 (by decide)).symm.trans h_main_v121).trans (Cert.ReferenceIdeal.RefRun.rkeep15 V' Cert.ReferenceIdeal.main_v154 (by decide))

  have hv168 : Cert.KernelIdeal.Gen.W18 m ρ c (Proc.devRef .tc Cert.KernelIdeal.main_v168)
      = Cert.SpecMsg.matProd (N := 16384) (K := 80) (H := 80) (Cert.KernelIdeal.Gen.V17 m ρ c (Pipeline.arrRef Cert.KernelIdeal.spec8 0))
          (StableHlo.after Cert.KernelIdeal.Gen.hostOps8 (Cert.KernelIdeal.Gen.W16 m ρ c) (Proc.devRef .tc Cert.KernelIdeal.main_v167)) :=
    (Cert.KernelIdeal.Gen.W18_arr m ρ c 2).trans (Cert.KernelIdeal.RegVal.region8_val (Cert.KernelIdeal.Gen.V17 m ρ) c)
  have core := level3_core (Cert.KernelIdeal.Gen.W16 m ρ c) (Cert.KernelIdeal.Gen.W18 m ρ c) (Cert.ReferenceIdeal.RefRun.RV15 V')
    (Cert.KernelIdeal.Gen.V17 m ρ c (Pipeline.arrRef Cert.KernelIdeal.spec8 0)) hv168 hx h6 h22 h23

  exact (Cert.KernelIdeal.Gen.keep19 m ρ c Cert.KernelIdeal.main_v178 (by decide)).trans
    (core.trans ((congrFun (Cert.ReferenceIdeal.RefRun.RV16_eq V') _).symm.trans (Cert.ReferenceIdeal.RefRun.rkeep16 V' Cert.ReferenceIdeal.main_v211 (by decide)).symm))

end Cert.Bridge

end
-- ==== Proof.SpecBnDot.lean ====
import Idealize.ShloMosaic.PureOps.Ideal
import Idealize.ShloMosaic.PureOps.Ideal.Laws
import Idealize.ShloMosaic.Lib.ValueIdx
import Idealize.ShloMosaic.Lib.IdealHost
import Idealize.ShloMosaic.Lib.KernelVsHost
import Idealize.ShloMosaic.Lib.ValueLayout
import proofs.«415935_j25786983645203_2_alg».proof.Proof.LibDotPlain

noncomputable section

namespace Cert.SpecBnDot

open Idealize.ShloMosaic Idealize.ShloMosaic.ValueIdx
open scoped BigOperators

def eps : EReal := Ideal.ofBits .f32 0x3727C5AC#32

def bnAt (x mu var g b : EReal) : EReal := (x - mu) * Ideal.rsqrt (var + eps) * g + b

def bn {N K : Nat} (x : (⟨2, ![N, K]⟩ : Shape).Idx → EReal) (g b mu var : (⟨1, ![K]⟩ : Shape).Idx → EReal) :
    (⟨2, ![N, K]⟩ : Shape).Idx → EReal :=
  fun i => bnAt (x i) (mu (ix1 (i 1 : Fin K))) (var (ix1 (i 1 : Fin K))) (g (ix1 (i 1 : Fin K))) (b (ix1 (i 1 : Fin K)))

def bnDot {N K M : Nat} (x : (⟨2, ![N, K]⟩ : Shape).Idx → EReal) (g b mu var : (⟨1, ![K]⟩ : Shape).Idx → EReal)
    (W : (⟨2, ![K, M]⟩ : Shape).Idx → EReal) : (⟨2, ![N, M]⟩ : Shape).Idx → EReal :=
  fun i => ∑ k : Fin K, bn x g b mu var (ix2 (i 0 : Fin N) k) * W (ix2 k (i 1 : Fin M))

theorem bn_ix2 {N K : Nat} (x : (⟨2, ![N, K]⟩ : Shape).Idx → EReal) (g b mu var : (⟨1, ![K]⟩ : Shape).Idx → EReal)
    (r : Fin N) (k : Fin K) :
    bn x g b mu var (ix2 r k) = bnAt (x (ix2 r k)) (mu (ix1 k)) (var (ix1 k)) (g (ix1 k)) (b (ix1 k)) := rfl

theorem bnDot_ix2 {N K M : Nat} (x : (⟨2, ![N, K]⟩ : Shape).Idx → EReal) (g b mu var : (⟨1, ![K]⟩ : Shape).Idx → EReal)
    (W : (⟨2, ![K, M]⟩ : Shape).Idx → EReal) (r : Fin N) (c : Fin M) :
    bnDot x g b mu var W (ix2 r c) = ∑ k : Fin K, bn x g b mu var (ix2 r k) * W (ix2 k c) := rfl

theorem bnDot_row_congr {N N' K M : Nat} (x : (⟨2, ![N, K]⟩ : Shape).Idx → EReal) (x' : (⟨2, ![N', K]⟩ : Shape).Idx → EReal)
    (g b mu var : (⟨1, ![K]⟩ : Shape).Idx → EReal) (W : (⟨2, ![K, M]⟩ : Shape).Idx → EReal)
    (r : Fin N) (r' : Fin N') (c : Fin M) (h : ∀ k : Fin K, x (ix2 r k) = x' (ix2 r' k)) :
    bnDot x g b mu var W (ix2 r c) = bnDot x' g b mu var W (ix2 r' c) := by
  rw [bnDot_ix2, bnDot_ix2]
  refine Finset.sum_congr rfl fun k _ => ?_
  rw [bn_ix2, bn_ix2, h k]

theorem hostRow_apply {N K : Nat} {α : Type}
    (h1 : (⟨1, ![K]⟩ : Shape).BroadcastsInDim ⟨2, ![1, K]⟩ ![1])
    (h2 : (⟨2, ![1, K]⟩ : Shape).BroadcastsInDim ⟨2, ![N, K]⟩ ![0, 1])
    (v : (⟨1, ![K]⟩ : Shape).Idx → α) (r : Fin N) (k : Fin K) :
    broadcastInDim ⟨2, ![N, K]⟩ ![0, 1] h2 (broadcastInDim ⟨2, ![1, K]⟩ ![1] h1 v) (ix2 r k) = v (ix1 k) := by
  rw [broadcastInDim_oneRow_apply h2 _ r k]
  refine broadcastInDim_apply ![1] h1 v (ix2 (0 : Fin 1) k) (ix1 k) fun a => ?_
  match a with
  | ⟨0, _⟩ =>
    show k.val = if K = 1 then 0 else k.val
    split
    · have := k.isLt; omega
    · rfl

theorem hostBn_apply {N K : Nat}
    (h0 : (⟨0, ![]⟩ : Shape).BroadcastsInDim ⟨1, ![K]⟩ ![])
    (h1 : (⟨1, ![K]⟩ : Shape).BroadcastsInDim ⟨2, ![1, K]⟩ ![1])
    (h2 : (⟨2, ![1, K]⟩ : Shape).BroadcastsInDim ⟨2, ![N, K]⟩ ![0, 1])
    (x : FVec Ideal ⟨2, ![N, K]⟩ .f32) (g b mu var : FVec Ideal ⟨1, ![K]⟩ .f32) (r : Fin N) (k : Fin K) :
    addf (mulf (mulf (subf x (broadcastInDim ⟨2, ![N, K]⟩ ![0, 1] h2 (broadcastInDim ⟨2, ![1, K]⟩ ![1] h1 mu)))
          (broadcastInDim ⟨2, ![N, K]⟩ ![0, 1] h2 (broadcastInDim ⟨2, ![1, K]⟩ ![1] h1
            (Host.rsqrt (F := Ideal) (addf var (broadcastInDim ⟨1, ![K]⟩ ![] h0 (constant (F := Ideal) ⟨0, ![]⟩ .f32 0x3727C5AC#32)))))))
          (broadcastInDim ⟨2, ![N, K]⟩ ![0, 1] h2 (broadcastInDim ⟨2, ![1, K]⟩ ![1] h1 g)))
        (broadcastInDim ⟨2, ![N, K]⟩ ![0, 1] h2 (broadcastInDim ⟨2, ![1, K]⟩ ![1] h1 b)) (ix2 r k)
      = bn x g b mu var (ix2 r k) := by
  rw [addf_apply, mulf_apply, mulf_apply, subf_apply, hostRow_apply, hostRow_apply, hostRow_apply, hostRow_apply, bn_ix2]
  show (x (ix2 r k) - mu (ix1 k)) * FloatOps.hostUnary .rsqrt (var (ix1 k) + broadcastInDim ⟨1, ![K]⟩ ![] h0 (constant (F := Ideal) ⟨0, ![]⟩ .f32 0x3727C5AC#32) (ix1 k)) * g (ix1 k) + b (ix1 k) = _
  rw [broadcastInDim_scalar_apply, constant_apply, Ideal.hostUnary_rsqrt_def]
  rfl

theorem host_eq {N K M : Nat}
    (h0 : (⟨0, ![]⟩ : Shape).BroadcastsInDim ⟨1, ![K]⟩ ![])
    (h1 : (⟨1, ![K]⟩ : Shape).BroadcastsInDim ⟨2, ![1, K]⟩ ![1])
    (h2 : (⟨2, ![1, K]⟩ : Shape).BroadcastsInDim ⟨2, ![N, K]⟩ ![0, 1])
    (d : DotDims ⟨2, ![N, K]⟩ ⟨2, ![K, M]⟩ ⟨2, ![N, M]⟩)
    (hlb : d.lhsBatch = []) (hrb : d.rhsBatch = []) (hlc : d.lhsContracting = [1]) (hrc : d.rhsContracting = [0])
    (hln : d.lhsNonContracting = [0]) (hrn : d.rhsNonContracting = [1])
    (x : FVec Ideal ⟨2, ![N, K]⟩ .f32) (g b mu var : FVec Ideal ⟨1, ![K]⟩ .f32) (W : FVec Ideal ⟨2, ![K, M]⟩ .f32) :
    Host.dotGeneral (F := Ideal) d none
        (addf (mulf (mulf (subf x (broadcastInDim ⟨2, ![N, K]⟩ ![0, 1] h2 (broadcastInDim ⟨2, ![1, K]⟩ ![1] h1 mu)))
          (broadcastInDim ⟨2, ![N, K]⟩ ![0, 1] h2 (broadcastInDim ⟨2, ![1, K]⟩ ![1] h1
            (Host.rsqrt (F := Ideal) (addf var (broadcastInDim ⟨1, ![K]⟩ ![] h0 (constant (F := Ideal) ⟨0, ![]⟩ .f32 0x3727C5AC#32)))))))
          (broadcastInDim ⟨2, ![N, K]⟩ ![0, 1] h2 (broadcastInDim ⟨2, ![1, K]⟩ ![1] h1 g)))
        (broadcastInDim ⟨2, ![N, K]⟩ ![0, 1] h2 (broadcastInDim ⟨2, ![1, K]⟩ ![1] h1 b))) W
      = bnDot x g b mu var W := by
  funext i
  obtain ⟨r, c, rfl⟩ : ∃ (r : Fin N) (c : Fin M), i = ix2 r c := ⟨i 0, i 1, eq_ix2 i⟩
  rw [bnDot_ix2]
  refine (Cert.DotPlain.dotGeneral_rows_cols d hlb hrb hlc hrc hln hrn none .single _ W r c).trans ?_
  refine Finset.sum_congr rfl fun k _ => ?_
  rw [hostBn_apply]

theorem unitRow_apply {R K : Nat} {α : Type}
    (hc : (⟨1, ![K]⟩ : Shape).ShapeCasts ⟨2, ![1, K]⟩) (hb : (⟨2, ![1, K]⟩ : Shape).Broadcasts ⟨2, ![R, K]⟩)
    (v : (⟨1, ![K]⟩ : Shape).Idx → α) (r : Fin R) (k : Fin K) :
    broadcastTo ⟨2, ![R, K]⟩ (shapeCast ⟨2, ![1, K]⟩ v hc) hb (ix2 r k) = v (ix1 k) := by
  rw [broadcastTo_1b_ab_apply, shapeCast_a_1a_apply]

theorem unitBn_apply {R K : Nat}
    (hc : (⟨1, ![K]⟩ : Shape).ShapeCasts ⟨2, ![1, K]⟩) (hb : (⟨2, ![1, K]⟩ : Shape).Broadcasts ⟨2, ![R, K]⟩)
    (x : FVec Ideal ⟨2, ![R, K]⟩ .f32) (g b mu var : FVec Ideal ⟨1, ![K]⟩ .f32) (r : Fin R) (k : Fin K) :
    addf (mulf (mulf (subf x (broadcastTo ⟨2, ![R, K]⟩ (shapeCast ⟨2, ![1, K]⟩ mu hc) hb))
          (broadcastTo ⟨2, ![R, K]⟩ (shapeCast ⟨2, ![1, K]⟩
            (rsqrt (F := Ideal) (addf var (broadcast ⟨1, ![K]⟩ (Scalar.ofBits (F := Ideal) .f32 0x3727C5AC#32)))) hc) hb))
          (broadcastTo ⟨2, ![R, K]⟩ (shapeCast ⟨2, ![1, K]⟩ g hc) hb))
        (broadcastTo ⟨2, ![R, K]⟩ (shapeCast ⟨2, ![1, K]⟩ b hc) hb) (ix2 r k)
      = bn x g b mu var (ix2 r k) := by
  rw [addf_apply, mulf_apply, mulf_apply, subf_apply, unitRow_apply, unitRow_apply, unitRow_apply, unitRow_apply, bn_ix2]
  rfl

theorem unit_apply {R K M : Nat}
    (hc : (⟨1, ![K]⟩ : Shape).ShapeCasts ⟨2, ![1, K]⟩) (hb : (⟨2, ![1, K]⟩ : Shape).Broadcasts ⟨2, ![R, K]⟩)
    (d : DotDims ⟨2, ![R, K]⟩ ⟨2, ![K, M]⟩ ⟨2, ![R, M]⟩)
    (hlb : d.lhsBatch = []) (hrb : d.rhsBatch = []) (hlc : d.lhsContracting = [1]) (hrc : d.rhsContracting = [0])
    (hln : d.lhsNonContracting = [0]) (hrn : d.rhsNonContracting = [1])
    (ht : FTy.bits .bf16 < FTy.bits .f32)
    (x : FVec Ideal ⟨2, ![R, K]⟩ .f32) (g b mu var : FVec Ideal ⟨1, ![K]⟩ .f32) (W : FVec Ideal ⟨2, ![K, M]⟩ .f32)
    (r : Fin R) (c : Fin M) :
    matmul (F := Ideal) d none
        (truncf .bf16 (addf (mulf (mulf (subf x (broadcastTo ⟨2, ![R, K]⟩ (shapeCast ⟨2, ![1, K]⟩ mu hc) hb))
          (broadcastTo ⟨2, ![R, K]⟩ (shapeCast ⟨2, ![1, K]⟩
            (rsqrt (F := Ideal) (addf var (broadcast ⟨1, ![K]⟩ (Scalar.ofBits (F := Ideal) .f32 0x3727C5AC#32)))) hc) hb))
          (broadcastTo ⟨2, ![R, K]⟩ (shapeCast ⟨2, ![1, K]⟩ g hc) hb))
        (broadcastTo ⟨2, ![R, K]⟩ (shapeCast ⟨2, ![1, K]⟩ b hc) hb)) ht)
        (truncf .bf16 W ht) (constant ⟨2, ![R, M]⟩ .f32 0x00000000#32) (ix2 r c)
      = bnDot x g b mu var W (ix2 r c) := by
  rw [bnDot_ix2]
  refine (Cert.DotPlain.matmul_zero_rows_cols d hlb hrb hlc hrc hln hrn none _ _ r c).trans ?_
  refine Finset.sum_congr rfl fun k _ => ?_
  rw [truncf_apply, truncf_apply, unitBn_apply]

end Cert.SpecBnDot

end
-- ==== Proof.Reg0.lean ====
import proofs.«415935_j25786983645203_2_alg».proof.Proof.Gen.KernelIdeal.Frame
import proofs.«415935_j25786983645203_2_alg».proof.Proof.SpecBnDot
import Idealize.ShloMosaic.Lib.Pipeline.Value
import Idealize.ShloMosaic.Lib.ValueIdx

set_option maxRecDepth 16384

noncomputable section

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat)

theorem pay0_apply (x : FVec Ideal S8192x6 .f32) (mu var g b : FVec Ideal S6 .f32) (W : FVec Ideal S6x80 .f32)
    (r : Fin 8192) (c : Fin 80) :
    k0_pay1 (F := Ideal) x mu var g b W (ix2 r c) = Cert.SpecBnDot.bnDot x g b mu var W (ix2 r c) := by
  have hmu : shapeCast S6 mu shapeCasts_S6_S6 = mu := shapeCast_self _ _
  have hvar : shapeCast S6 var shapeCasts_S6_S6 = var := shapeCast_self _ _
  refine (Cert.SpecBnDot.unit_apply shapeCasts_S6_S1x6 broadcasts_S1x6_S8192x6 dot_S8192x6_S6x80_S8192x80_1_0_0_1_n_n
    rfl rfl rfl rfl rfl rfl bitsLt_bf16_f32 x g b (shapeCast S6 mu shapeCasts_S6_S6) (shapeCast S6 var shapeCasts_S6_S6) W r c).trans ?_
  rw [hmu, hvar]

theorem point0 (xb : FVec Ideal S8192x6 .f32) (gb bb mb vb : FVec Ideal S6 .f32) (Wb : FVec Ideal S6x80 .f32)
    (X : FVec Ideal S131072x6 .f32) (g b mu var : FVec Ideal S6 .f32) (W : FVec Ideal S6x80 .f32)
    (j : S8192x80.Idx) (i : S131072x80.Idx)
    (hx : ∀ k : Fin 6, xb (ix2 (j 0 : Fin 8192) k) = X (ix2 (i 0 : Fin 131072) k))
    (hg : gb = g) (hb : bb = b) (hm : mb = mu) (hv : vb = var) (hW : Wb = W)
    (hc : (i 1).val = (j 1).val) :
    k0_pay1 (F := Ideal) xb mb vb gb bb Wb j = Cert.SpecBnDot.bnDot X g b mu var W i := by
  subst hg hb hm hv hW
  obtain ⟨r, c, rfl⟩ : ∃ (r : Fin 8192) (c : Fin 80), j = ix2 r c := ⟨j 0, j 1, eq_ix2 j⟩
  obtain ⟨r', c', rfl⟩ : ∃ (r' : Fin 131072) (c' : Fin 80), i = ix2 r' c' := ⟨i 0, i 1, eq_ix2 i⟩
  obtain rfl : c' = c := Fin.ext hc
  rw [pay0_apply]
  exact Cert.SpecBnDot.bnDot_row_congr xb X _ _ _ _ _ r r' c' hx

variable (V : (c : Dev nD) → (b : Ref sig .tc) → Buf (Elt Ideal) ((c : Thread nD τ).loc b))

theorem offs2_r0 : (![0, 0] : Fin 2 → Nat) = fun _ => 0 := funext fun a => by fin_cases a <;> rfl
theorem offs1_r0 : (![0] : Fin 1 → Nat) = fun _ => 0 := funext fun a => by fin_cases a <;> rfl

abbrev arrX0 (c : Dev nD) : FVec Ideal S131072x6 .f32 := V c (Pipeline.arrRef spec0 0)
abbrev arrG0 (c : Dev nD) : FVec Ideal S6 .f32 := V c (Pipeline.arrRef spec0 1)
abbrev arrB0 (c : Dev nD) : FVec Ideal S6 .f32 := V c (Pipeline.arrRef spec0 2)
abbrev arrMu0 (c : Dev nD) : FVec Ideal S6 .f32 := V c (Pipeline.arrRef spec0 3)
abbrev arrVar0 (c : Dev nD) : FVec Ideal S6 .f32 := V c (Pipeline.arrRef spec0 4)
abbrev arrW0 (c : Dev nD) : FVec Ideal S6x80 .f32 := V c (Pipeline.arrRef spec0 5)

abbrev val0 (c : Dev nD) : FVec Ideal S131072x80 .f32 :=
  Cert.SpecBnDot.bnDot (arrX0 V c) (arrG0 V c) (arrB0 V c) (arrMu0 V c) (arrVar0 V c) (arrW0 V c)

theorem idx_facts0 : ∀ t : Fin cfg0.N, win0_0.index t (0 : Fin 2) = t.val ∧ win0_0.index t (1 : Fin 2) = 0
    ∧ win0_1.index t (0 : Fin 1) = 0 ∧ win0_2.index t (0 : Fin 1) = 0 ∧ win0_3.index t (0 : Fin 1) = 0
    ∧ win0_4.index t (0 : Fin 1) = 0 ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem vec_blk0_eq (c : Dev nD) (t : Fin cfg0.N) :
    iblk0 V c 1 t = arrG0 V c ∧ iblk0 V c 2 t = arrB0 V c ∧ iblk0 V c 3 t = arrMu0 V c ∧ iblk0 V c 4 t = arrVar0 V c := by
  obtain ⟨e0, e1, e2, e3, e4, e5, e6, e7, e8, e9⟩ := idx_facts0 t
  refine ⟨funext fun y => ?_, funext fun y => ?_, funext fun y => ?_, funext fun y => ?_⟩
  · show V c (Pipeline.arrRef spec0 1) (((cfg0.win 1).blk t).view.emb y) = V c (Pipeline.arrRef spec0 1) y
    refine congrArg _ (funext fun a => Fin.ext ?_)
    match a with
    | ⟨0, _⟩ => show win0_1.index t (0 : Fin 1) * 6 + 1 * (y 0).val = (y 0).val; omega
  · show V c (Pipeline.arrRef spec0 2) (((cfg0.win 2).blk t).view.emb y) = V c (Pipeline.arrRef spec0 2) y
    refine congrArg _ (funext fun a => Fin.ext ?_)
    match a with
    | ⟨0, _⟩ => show win0_2.index t (0 : Fin 1) * 6 + 1 * (y 0).val = (y 0).val; omega
  · show V c (Pipeline.arrRef spec0 3) (((cfg0.win 3).blk t).view.emb y) = V c (Pipeline.arrRef spec0 3) y
    refine congrArg _ (funext fun a => Fin.ext ?_)
    match a with
    | ⟨0, _⟩ => show win0_3.index t (0 : Fin 1) * 6 + 1 * (y 0).val = (y 0).val; omega
  · show V c (Pipeline.arrRef spec0 4) (((cfg0.win 4).blk t).view.emb y) = V c (Pipeline.arrRef spec0 4) y
    refine congrArg _ (funext fun a => Fin.ext ?_)
    match a with
    | ⟨0, _⟩ => show win0_4.index t (0 : Fin 1) * 6 + 1 * (y 0).val = (y 0).val; omega

theorem mat_blk0_eq (c : Dev nD) (t : Fin cfg0.N) : iblk0 V c 5 t = arrW0 V c := by
  obtain ⟨e0, e1, e2, e3, e4, e5, e6, e7, e8, e9⟩ := idx_facts0 t
  funext y
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 6 + 1 * (y 0).val = (y 0).val; omega
  | ⟨1, _⟩ => show win0_5.index t (1 : Fin 2) * 80 + 1 * (y 1).val = (y 1).val; omega

theorem row_blk0_eq (c : Dev nD) (t : Fin cfg0.N) (r : Fin 8192) (k : Fin 6) (r' : Fin 131072)
    (hr : r'.val = win0_6.index t (0 : Fin 2) * 8192 + 1 * r.val) :
    (iblk0 V c 0 t : FVec Ideal S8192x6 .f32) (ix2 r k) = arrX0 V c (ix2 r' k) := by
  obtain ⟨e0, e1, e2, e3, e4, e5, e6, e7, e8, e9⟩ := idx_facts0 t
  show V c (Pipeline.arrRef spec0 0) (((cfg0.win 0).blk t).view.emb (ix2 r k)) = V c (Pipeline.arrRef spec0 0) (ix2 r' k)
  refine congrArg _ (funext fun a => Fin.ext ?_)
  match a with
  | ⟨0, _⟩ => show win0_0.index t (0 : Fin 2) * 8192 + 1 * r.val = r'.val; rw [hr]; omega
  | ⟨1, _⟩ => show win0_0.index t (1 : Fin 2) * 6 + 1 * k.val = k.val; omega

theorem flushed0_eq (c : Dev nD) (t : Fin cfg0.N) :
    (dat0 (F := Ideal) V c).flushed 6 t = ((cfg0.win 6).blk t).view.read (Elt Ideal) (val0 V c) := by
  show (cfg0.win 6).cut (grid0.coords t) ((dat0 V c).after 6 t) = _
  rw [after0_6]
  unfold out0_6
  rw [View.canon_unit_zero offs2_r0]
  simp only [View.ld_unit_zero (S := S8192x6) offs2_r0, View.ld_unit_zero (S := S6) offs1_r0, View.ld_unit_zero (S := S6x80) offs2_r0]
  obtain ⟨h1, h2, h3, h4⟩ := vec_blk0_eq V c t
  obtain ⟨e0, e1, e2, e3, e4, e5, e6, e7, e8, e9⟩ := idx_facts0 t
  funext j
  refine point0 (iblk0 V c 0 t) (iblk0 V c 1 t) (iblk0 V c 2 t) (iblk0 V c 3 t) (iblk0 V c 4 t) (iblk0 V c 5 t)
    (arrX0 V c) (arrG0 V c) (arrB0 V c) (arrMu0 V c) (arrVar0 V c) (arrW0 V c) j (((cfg0.win 6).blk t).view.emb j)
    (fun k => row_blk0_eq V c t (j 0) k _ rfl) h1 h2 h3 h4 (mat_blk0_eq V c t) ?_
  show win0_6.index t (1 : Fin 2) * 80 + 1 * (j 1).val = (j 1).val
  omega

theorem mem_blk0 (t : Fin cfg0.N) (i : S131072x80.Idx) :
    i ∈ ((cfg0.win 6).blk t).view.set ↔ ∀ a : Fin 2, win0_6.index t a * S8192x80.size a ≤ (i a).val ∧ (i a).val < win0_6.index t a * S8192x80.size a + S8192x80.size a := by
  show i ∈ ((View.whole main_v10).slice (win0_6.rect t)).set ↔ _
  rw [View.set_slice_whole, Rect.mem_set_unit]
  exact Iff.rfl

theorem cover0 (i : S131072x80.Idx) :
    ∃ t : Fin cfg0.N, (cfg0.win 6).flush t = true ∧ i ∈ ((cfg0.win 6).blk t).view.set := by
  have hN : cfg0.N = 16 := N_0
  have hi0 : (i 0).val < 131072 := (i 0).isLt
  have hi1 : (i 1).val < 80 := (i 1).isLt
  obtain ⟨t, ht⟩ : ∃ t : Fin cfg0.N, t.val = (i 0).val / 8192 := ⟨⟨(i 0).val / 8192, by rw [hN]; omega⟩, rfl⟩
  refine ⟨t, flush0_6 t, ?_⟩
  rw [mem_blk0]
  obtain ⟨e0, e1, e2, e3, e4, e5, e6, e7, e8, e9⟩ := idx_facts0 t
  intro a
  match a with
  | ⟨0, _⟩ =>
    show win0_6.index t (0 : Fin 2) * 8192 ≤ (i 0).val ∧ (i 0).val < win0_6.index t (0 : Fin 2) * 8192 + 8192
    omega
  | ⟨1, _⟩ =>
    show win0_6.index t (1 : Fin 2) * 80 ≤ (i 1).val ∧ (i 1).val < win0_6.index t (1 : Fin 2) * 80 + 80
    omega

theorem region0_val (c : Dev nD) :
    (dat0 (F := Ideal) V c).arrAt 6 cfg0.N
      = Cert.SpecBnDot.bnDot (N := 131072) (K := 6) (M := 80) (V c (Pipeline.arrRef spec0 0)) (V c (Pipeline.arrRef spec0 1))
          (V c (Pipeline.arrRef spec0 2)) (V c (Pipeline.arrRef spec0 3)) (V c (Pipeline.arrRef spec0 4)) (V c (Pipeline.arrRef spec0 5)) :=
  (dat0 (F := Ideal) V c).arrAt_eq_of_cover 6 (val0 V c) (fun t _ => flushed0_eq V c t) cover0

end Cert.KernelIdeal.RegVal

end
-- ==== Proof.Reg11.lean ====
import proofs.«415935_j25786983645203_2_alg».proof.Proof.Gen.KernelIdeal.Frame
import proofs.«415935_j25786983645203_2_alg».proof.Proof.SpecBnDot
import Idealize.ShloMosaic.Lib.Pipeline.Value
import Idealize.ShloMosaic.Lib.ValueIdx

set_option maxRecDepth 16384

noncomputable section

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat)

theorem pay11_apply (x : FVec Ideal S8192x64 .f32) (mu var g b : FVec Ideal S64 .f32) (W : FVec Ideal S64x13 .f32)
    (r : Fin 8192) (c : Fin 13) :
    k11_pay1 (F := Ideal) x mu var g b W (ix2 r c) = Cert.SpecBnDot.bnDot x g b mu var W (ix2 r c) := by
  have hx : shapeCast S8192x64 x shapeCasts_S8192x64_S8192x64 = x := shapeCast_self _ _
  have hmu : shapeCast S64 mu shapeCasts_S64_S64 = mu := shapeCast_self _ _
  have hvar : shapeCast S64 var shapeCasts_S64_S64 = var := shapeCast_self _ _
  refine (Cert.SpecBnDot.unit_apply shapeCasts_S64_S1x64 broadcasts_S1x64_S8192x64 dot_S8192x64_S64x13_S8192x13_1_0_0_1_n_n
    rfl rfl rfl rfl rfl rfl bitsLt_bf16_f32 (shapeCast S8192x64 x shapeCasts_S8192x64_S8192x64) g b (shapeCast S64 mu shapeCasts_S64_S64) (shapeCast S64 var shapeCasts_S64_S64) W r c).trans ?_
  rw [hx, hmu, hvar]

theorem point11 (xb : FVec Ideal S8192x64 .f32) (gb bb mb vb : FVec Ideal S64 .f32) (Wb : FVec Ideal S64x13 .f32)
    (X : FVec Ideal S131072x64 .f32) (g b mu var : FVec Ideal S64 .f32) (W : FVec Ideal S64x13 .f32)
    (j : S8192x13.Idx) (i : S131072x13.Idx)
    (hx : ∀ k : Fin 64, xb (ix2 (j 0 : Fin 8192) k) = X (ix2 (i 0 : Fin 131072) k))
    (hg : gb = g) (hb : bb = b) (hm : mb = mu) (hv : vb = var) (hW : Wb = W)
    (hc : (i 1).val = (j 1).val) :
    k11_pay1 (F := Ideal) xb mb vb gb bb Wb j = Cert.SpecBnDot.bnDot X g b mu var W i := by
  subst hg hb hm hv hW
  obtain ⟨r, c, rfl⟩ : ∃ (r : Fin 8192) (c : Fin 13), j = ix2 r c := ⟨j 0, j 1, eq_ix2 j⟩
  obtain ⟨r', c', rfl⟩ : ∃ (r' : Fin 131072) (c' : Fin 13), i = ix2 r' c' := ⟨i 0, i 1, eq_ix2 i⟩
  obtain rfl : c' = c := Fin.ext hc
  rw [pay11_apply]
  exact Cert.SpecBnDot.bnDot_row_congr xb X _ _ _ _ _ r r' c' hx

variable (V : (c : Dev nD) → (b : Ref sig .tc) → Buf (Elt Ideal) ((c : Thread nD τ).loc b))

theorem offs2_r11 : (![0, 0] : Fin 2 → Nat) = fun _ => 0 := funext fun a => by fin_cases a <;> rfl
theorem offs1_r11 : (![0] : Fin 1 → Nat) = fun _ => 0 := funext fun a => by fin_cases a <;> rfl

abbrev arrX11 (c : Dev nD) : FVec Ideal S131072x64 .f32 := V c (Pipeline.arrRef spec11 0)
abbrev arrMu11 (c : Dev nD) : FVec Ideal S64 .f32 := V c (Pipeline.arrRef spec11 1)
abbrev arrVar11 (c : Dev nD) : FVec Ideal S64 .f32 := V c (Pipeline.arrRef spec11 2)
abbrev arrG11 (c : Dev nD) : FVec Ideal S64 .f32 := V c (Pipeline.arrRef spec11 3)
abbrev arrB11 (c : Dev nD) : FVec Ideal S64 .f32 := V c (Pipeline.arrRef spec11 4)
abbrev arrW11 (c : Dev nD) : FVec Ideal S64x13 .f32 := V c (Pipeline.arrRef spec11 5)

abbrev val11 (c : Dev nD) : FVec Ideal S131072x13 .f32 :=
  Cert.SpecBnDot.bnDot (arrX11 V c) (arrG11 V c) (arrB11 V c) (arrMu11 V c) (arrVar11 V c) (arrW11 V c)

theorem idx_facts11 : ∀ t : Fin cfg11.N, win11_0.index t (0 : Fin 2) = t.val ∧ win11_0.index t (1 : Fin 2) = 0
    ∧ win11_1.index t (0 : Fin 1) = 0 ∧ win11_2.index t (0 : Fin 1) = 0 ∧ win11_3.index t (0 : Fin 1) = 0
    ∧ win11_4.index t (0 : Fin 1) = 0 ∧ win11_5.index t (0 : Fin 2) = 0 ∧ win11_5.index t (1 : Fin 2) = 0
    ∧ win11_6.index t (0 : Fin 2) = t.val ∧ win11_6.index t (1 : Fin 2) = 0 :=
  (by decide +kernel : ∀ t : Fin grid11.N, _)

theorem vec_blk11_eq (c : Dev nD) (t : Fin cfg11.N) :
    iblk11 V c 1 t = arrMu11 V c ∧ iblk11 V c 2 t = arrVar11 V c ∧ iblk11 V c 3 t = arrG11 V c ∧ iblk11 V c 4 t = arrB11 V c := by
  obtain ⟨e0, e1, e2, e3, e4, e5, e6, e7, e8, e9⟩ := idx_facts11 t
  refine ⟨funext fun y => ?_, funext fun y => ?_, funext fun y => ?_, funext fun y => ?_⟩
  · show V c (Pipeline.arrRef spec11 1) (((cfg11.win 1).blk t).view.emb y) = V c (Pipeline.arrRef spec11 1) y
    refine congrArg _ (funext fun a => Fin.ext ?_)
    match a with
    | ⟨0, _⟩ => show win11_1.index t (0 : Fin 1) * 64 + 1 * (y 0).val = (y 0).val; omega
  · show V c (Pipeline.arrRef spec11 2) (((cfg11.win 2).blk t).view.emb y) = V c (Pipeline.arrRef spec11 2) y
    refine congrArg _ (funext fun a => Fin.ext ?_)
    match a with
    | ⟨0, _⟩ => show win11_2.index t (0 : Fin 1) * 64 + 1 * (y 0).val = (y 0).val; omega
  · show V c (Pipeline.arrRef spec11 3) (((cfg11.win 3).blk t).view.emb y) = V c (Pipeline.arrRef spec11 3) y
    refine congrArg _ (funext fun a => Fin.ext ?_)
    match a with
    | ⟨0, _⟩ => show win11_3.index t (0 : Fin 1) * 64 + 1 * (y 0).val = (y 0).val; omega
  · show V c (Pipeline.arrRef spec11 4) (((cfg11.win 4).blk t).view.emb y) = V c (Pipeline.arrRef spec11 4) y
    refine congrArg _ (funext fun a => Fin.ext ?_)
    match a with
    | ⟨0, _⟩ => show win11_4.index t (0 : Fin 1) * 64 + 1 * (y 0).val = (y 0).val; omega

theorem mat_blk11_eq (c : Dev nD) (t : Fin cfg11.N) : iblk11 V c 5 t = arrW11 V c := by
  obtain ⟨e0, e1, e2, e3, e4, e5, e6, e7, e8, e9⟩ := idx_facts11 t
  funext y
  show V c (Pipeline.arrRef spec11 5) (((cfg11.win 5).blk t).view.emb y) = V c (Pipeline.arrRef spec11 5) y
  refine congrArg _ (funext fun a => Fin.ext ?_)
  match a with
  | ⟨0, _⟩ => show win11_5.index t (0 : Fin 2) * 64 + 1 * (y 0).val = (y 0).val; omega
  | ⟨1, _⟩ => show win11_5.index t (1 : Fin 2) * 13 + 1 * (y 1).val = (y 1).val; omega

theorem row_blk11_eq (c : Dev nD) (t : Fin cfg11.N) (r : Fin 8192) (k : Fin 64) (r' : Fin 131072)
    (hr : r'.val = win11_6.index t (0 : Fin 2) * 8192 + 1 * r.val) :
    (iblk11 V c 0 t : FVec Ideal S8192x64 .f32) (ix2 r k) = arrX11 V c (ix2 r' k) := by
  obtain ⟨e0, e1, e2, e3, e4, e5, e6, e7, e8, e9⟩ := idx_facts11 t
  show V c (Pipeline.arrRef spec11 0) (((cfg11.win 0).blk t).view.emb (ix2 r k)) = V c (Pipeline.arrRef spec11 0) (ix2 r' k)
  refine congrArg _ (funext fun a => Fin.ext ?_)
  match a with
  | ⟨0, _⟩ => show win11_0.index t (0 : Fin 2) * 8192 + 1 * r.val = r'.val; rw [hr]; omega
  | ⟨1, _⟩ => show win11_0.index t (1 : Fin 2) * 64 + 1 * k.val = k.val; omega

theorem flushed11_eq (c : Dev nD) (t : Fin cfg11.N) :
    (dat11 (F := Ideal) V c).flushed 6 t = ((cfg11.win 6).blk t).view.read (Elt Ideal) (val11 V c) := by
  show (cfg11.win 6).cut (grid11.coords t) ((dat11 V c).after 6 t) = _
  rw [after11_6]
  unfold out11_6
  rw [View.canon_unit_zero offs2_r11]
  simp only [View.ld_unit_zero (S := S8192x64) offs2_r11, View.ld_unit_zero (S := S64) offs1_r11, View.ld_unit_zero (S := S64x13) offs2_r11]
  obtain ⟨h1, h2, h3, h4⟩ := vec_blk11_eq V c t
  obtain ⟨e0, e1, e2, e3, e4, e5, e6, e7, e8, e9⟩ := idx_facts11 t
  funext j
  refine point11 (iblk11 V c 0 t) (iblk11 V c 3 t) (iblk11 V c 4 t) (iblk11 V c 1 t) (iblk11 V c 2 t) (iblk11 V c 5 t)
    (arrX11 V c) (arrG11 V c) (arrB11 V c) (arrMu11 V c) (arrVar11 V c) (arrW11 V c) j (((cfg11.win 6).blk t).view.emb j)
    (fun k => row_blk11_eq V c t (j 0) k _ rfl) h3 h4 h1 h2 (mat_blk11_eq V c t) ?_
  show win11_6.index t (1 : Fin 2) * 13 + 1 * (j 1).val = (j 1).val
  omega

theorem mem_blk11 (t : Fin cfg11.N) (i : S131072x13.Idx) :
    i ∈ ((cfg11.win 6).blk t).view.set ↔ ∀ a : Fin 2, win11_6.index t a * S8192x13.size a ≤ (i a).val ∧ (i a).val < win11_6.index t a * S8192x13.size a + S8192x13.size a := by
  show i ∈ ((View.whole main_v259).slice (win11_6.rect t)).set ↔ _
  rw [View.set_slice_whole, Rect.mem_set_unit]
  exact Iff.rfl

theorem cover11 (i : S131072x13.Idx) :
    ∃ t : Fin cfg11.N, (cfg11.win 6).flush t = true ∧ i ∈ ((cfg11.win 6).blk t).view.set := by
  have hN : cfg11.N = 16 := N_11
  have hi0 : (i 0).val < 131072 := (i 0).isLt
  have hi1 : (i 1).val < 13 := (i 1).isLt
  obtain ⟨t, ht⟩ : ∃ t : Fin cfg11.N, t.val = (i 0).val / 8192 := ⟨⟨(i 0).val / 8192, by rw [hN]; omega⟩, rfl⟩
  refine ⟨t, flush11_6 t, ?_⟩
  rw [mem_blk11]
  obtain ⟨e0, e1, e2, e3, e4, e5, e6, e7, e8, e9⟩ := idx_facts11 t
  intro a
  match a with
  | ⟨0, _⟩ =>
    show win11_6.index t (0 : Fin 2) * 8192 ≤ (i 0).val ∧ (i 0).val < win11_6.index t (0 : Fin 2) * 8192 + 8192
    omega
  | ⟨1, _⟩ =>
    show win11_6.index t (1 : Fin 2) * 13 ≤ (i 1).val ∧ (i 1).val < win11_6.index t (1 : Fin 2) * 13 + 13
    omega

theorem region11_val (c : Dev nD) :
    (dat11 (F := Ideal) V c).arrAt 6 cfg11.N
      = Cert.SpecBnDot.bnDot (N := 131072) (K := 64) (M := 13) (V c (Pipeline.arrRef spec11 0)) (V c (Pipeline.arrRef spec11 3))
          (V c (Pipeline.arrRef spec11 4)) (V c (Pipeline.arrRef spec11 1)) (V c (Pipeline.arrRef spec11 2)) (V c (Pipeline.arrRef spec11 5)) :=
  (dat11 (F := Ideal) V c).arrAt_eq_of_cover 6 (val11 V c) (fun t _ => flushed11_eq V c t) cover11

end Cert.KernelIdeal.RegVal

end
-- ==== Proof.BridgeBnDot.lean ====
import proofs.«415935_j25786983645203_2_alg».proof.Proof.KKeep
import proofs.«415935_j25786983645203_2_alg».proof.Proof.RKeep
import proofs.«415935_j25786983645203_2_alg».proof.Proof.Reg0
import proofs.«415935_j25786983645203_2_alg».proof.Proof.Reg11

set_option maxRecDepth 16384

noncomputable section

namespace Cert.Bridge

open Idealize.ShloMosaic Idealize.ShloMosaic.TcCoe

theorem bnDot_congr {N K M : Nat} {x x' : (⟨2, ![N, K]⟩ : Shape).Idx → EReal} {g g' b b' mu mu' var var' : (⟨1, ![K]⟩ : Shape).Idx → EReal}
    {W W' : (⟨2, ![K, M]⟩ : Shape).Idx → EReal}
    (hx : x = x') (hg : g = g') (hb : b = b') (hm : mu = mu') (hv : var = var') (hW : W = W') :
    Cert.SpecBnDot.bnDot x g b mu var W = Cert.SpecBnDot.bnDot x' g' b' mu' var' W' := by
  subst hx hg hb hm hv hW
  rfl

section Kernel

open Cert.KernelIdeal Cert.KernelIdeal.Gen

variable (m : (ℓ : Loc nD τ sig) → Buf (Elt Ideal) ℓ) (ρ : Dev nD → PrngReg)

theorem kernel_v10 (c : Dev nD) :
    (W24 m ρ c (Proc.devRef .tc main_v10) : (⟨S131072x80, .f32⟩ : BufTy).Contents (Elt Ideal))
      = Cert.SpecBnDot.bnDot (N := 131072) (K := 6) (M := 80) (W24 m ρ c (Proc.devRef .tc main_arg0))
          (W24 m ρ c (Proc.devRef .tc main_arg1)) (W24 m ρ c (Proc.devRef .tc main_arg2))
          (W24 m ρ c (Proc.devRef .tc main_v2)) (W24 m ρ c (Proc.devRef .tc main_v9))
          (W24 m ρ c (Proc.devRef .tc main_arg3)) := by
  refine (keep2 m ρ c Cert.KernelIdeal.main_v10 (by decide)).trans ?_
  refine (W2_arr m ρ c 6).trans ?_
  refine (Cert.KernelIdeal.RegVal.region0_val (V1 m ρ) c).trans ?_
  exact bnDot_congr (keep1 m ρ c Cert.KernelIdeal.main_arg0 (by decide)).symm (keep1 m ρ c Cert.KernelIdeal.main_arg1 (by decide)).symm (keep1 m ρ c Cert.KernelIdeal.main_arg2 (by decide)).symm
    (keep1 m ρ c Cert.KernelIdeal.main_v2 (by decide)).symm (keep1 m ρ c Cert.KernelIdeal.main_v9 (by decide)).symm (keep1 m ρ c Cert.KernelIdeal.main_arg3 (by decide)).symm

theorem kernel_v259 (c : Dev nD) :
    (W24 m ρ c (Proc.devRef .tc main_v259) : (⟨S131072x13, .f32⟩ : BufTy).Contents (Elt Ideal))
      = Cert.SpecBnDot.bnDot (N := 131072) (K := 64) (M := 13) (W24 m ρ c (Proc.devRef .tc main_v248))
          (W24 m ρ c (Proc.devRef .tc main_arg13)) (W24 m ρ c (Proc.devRef .tc main_arg14))
          (W24 m ρ c (Proc.devRef .tc main_v251)) (W24 m ρ c (Proc.devRef .tc main_v258))
          (W24 m ρ c (Proc.devRef .tc main_arg15)) := by
  refine (W24_arr m ρ c 6).trans ?_
  refine (Cert.KernelIdeal.RegVal.region11_val (V23 m ρ) c).trans ?_
  exact bnDot_congr (keep23 m ρ c Cert.KernelIdeal.main_v248 (by decide)).symm (keep23 m ρ c Cert.KernelIdeal.main_arg13 (by decide)).symm (keep23 m ρ c Cert.KernelIdeal.main_arg14 (by decide)).symm
    (keep23 m ρ c Cert.KernelIdeal.main_v251 (by decide)).symm (keep23 m ρ c Cert.KernelIdeal.main_v258 (by decide)).symm (keep23 m ρ c Cert.KernelIdeal.main_arg15 (by decide)).symm

end Kernel

section Reference

open Cert.ReferenceIdeal Cert.ReferenceIdeal.RefRun Idealize.ShloMosaic.StableHlo

variable (V' : Valuation τ sig (Elt Ideal))

theorem ref_v12 :
    (RV1 V' (Proc.devRef .tc main_v12) : (⟨S131072x6, .f32⟩ : BufTy).Contents (Elt Ideal))
      = subf (F := Ideal) (φ := .f32) (RV1 V' (Proc.devRef .tc main_arg0) : (⟨S131072x6, .f32⟩ : BufTy).Contents (Elt Ideal))
          (broadcastInDim S131072x6 ![0, 1] Facts₀.bcast_S1x6_S131072x6_0_1
            (broadcastInDim S1x6 ![1] Facts₀.bcast_S6_S1x6_1
              (RV1 V' (Proc.devRef .tc main_v2) : (⟨S6, .f32⟩ : BufTy).Contents (Elt Ideal)))) := by
  rw [RV1_eq]
  after_results_simp

theorem ref_v25 :
    (RV23 V' (Proc.devRef .tc main_v25) : (⟨S131072x80, .f32⟩ : BufTy).Contents (Elt Ideal))
      = Cert.SpecBnDot.bnDot (N := 131072) (K := 6) (M := 80) (RV23 V' (Proc.devRef .tc main_arg0))
          (RV23 V' (Proc.devRef .tc main_arg1)) (RV23 V' (Proc.devRef .tc main_arg2))
          (RV23 V' (Proc.devRef .tc main_v2)) (RV23 V' (Proc.devRef .tc main_v9))
          (RV23 V' (Proc.devRef .tc main_arg3)) := by
  rw [rkeep2 V' Cert.ReferenceIdeal.main_v25 (by decide), rkeep1 V' Cert.ReferenceIdeal.main_arg0 (by decide), rkeep1 V' Cert.ReferenceIdeal.main_arg1 (by decide), rkeep1 V' Cert.ReferenceIdeal.main_arg2 (by decide), rkeep1 V' Cert.ReferenceIdeal.main_v2 (by decide), rkeep1 V' Cert.ReferenceIdeal.main_v9 (by decide),
    rkeep1 V' Cert.ReferenceIdeal.main_arg3 (by decide), RV2_eq]
  after_results_simp
  rw [ref_v12 V']
  exact Cert.SpecBnDot.host_eq Facts₀.bcast_S_S6 Facts₀.bcast_S6_S1x6_1 Facts₀.bcast_S1x6_S131072x6_0_1
    dot_S131072x6_S6x80_S131072x80_1_0_0_1_n_n rfl rfl rfl rfl rfl rfl _ _ _ _ _ _

theorem ref_v309 :
    (RV22 V' (Proc.devRef .tc main_v309) : (⟨S131072x64, .f32⟩ : BufTy).Contents (Elt Ideal))
      = subf (F := Ideal) (φ := .f32) (RV22 V' (Proc.devRef .tc main_v296) : (⟨S131072x64, .f32⟩ : BufTy).Contents (Elt Ideal))
          (broadcastInDim S131072x64 ![0, 1] Facts₀.bcast_S1x64_S131072x64_0_1
            (broadcastInDim S1x64 ![1] Facts₀.bcast_S64_S1x64_1
              (RV22 V' (Proc.devRef .tc main_v299) : (⟨S64, .f32⟩ : BufTy).Contents (Elt Ideal)))) := by
  rw [RV22_eq]
  after_results_simp

theorem ref_v322 :
    (RV23 V' (Proc.devRef .tc main_v322) : (⟨S131072x13, .f32⟩ : BufTy).Contents (Elt Ideal))
      = Cert.SpecBnDot.bnDot (N := 131072) (K := 64) (M := 13) (RV23 V' (Proc.devRef .tc main_v296))
          (RV23 V' (Proc.devRef .tc main_arg13)) (RV23 V' (Proc.devRef .tc main_arg14))
          (RV23 V' (Proc.devRef .tc main_v299)) (RV23 V' (Proc.devRef .tc main_v306))
          (RV23 V' (Proc.devRef .tc main_arg15)) := by
  rw [rkeep22 V' Cert.ReferenceIdeal.main_v296 (by decide), rkeep22 V' Cert.ReferenceIdeal.main_arg13 (by decide), rkeep22 V' Cert.ReferenceIdeal.main_arg14 (by decide), rkeep22 V' Cert.ReferenceIdeal.main_v299 (by decide), rkeep22 V' Cert.ReferenceIdeal.main_v306 (by decide),
    rkeep22 V' Cert.ReferenceIdeal.main_arg15 (by decide), RV23_eq]
  after_results_simp
  rw [ref_v309 V']
  exact Cert.SpecBnDot.host_eq Facts₀.bcast_S_S64 Facts₀.bcast_S64_S1x64_1 Facts₀.bcast_S1x64_S131072x64_0_1
    dot_S131072x64_S64x13_S131072x13_1_0_0_1_n_n rfl rfl rfl rfl rfl rfl _ _ _ _ _ _

end Reference

theorem eq_v10 (m : (ℓ : Loc Cert.KernelIdeal.nD Cert.KernelIdeal.τ Cert.KernelIdeal.sig) → Buf (Elt Ideal) ℓ)
    (ρ : Dev Cert.KernelIdeal.nD → PrngReg) (V' : Valuation Cert.ReferenceIdeal.τ Cert.ReferenceIdeal.sig (Elt Ideal))
    (c : Dev Cert.KernelIdeal.nD)
    (h0 : (Cert.KernelIdeal.Gen.W24 m ρ c (Proc.devRef .tc Cert.KernelIdeal.main_arg0) : (⟨Cert.KernelIdeal.S131072x6, .f32⟩ : BufTy).Contents (Elt Ideal))
      = Cert.ReferenceIdeal.RefRun.RV23 V' (Proc.devRef .tc Cert.ReferenceIdeal.main_arg0))
    (h1 : (Cert.KernelIdeal.Gen.W24 m ρ c (Proc.devRef .tc Cert.KernelIdeal.main_arg1) : (⟨Cert.KernelIdeal.S6, .f32⟩ : BufTy).Contents (Elt Ideal))
      = Cert.ReferenceIdeal.RefRun.RV23 V' (Proc.devRef .tc Cert.ReferenceIdeal.main_arg1))
    (h2 : (Cert.KernelIdeal.Gen.W24 m ρ c (Proc.devRef .tc Cert.KernelIdeal.main_arg2) : (⟨Cert.KernelIdeal.S6, .f32⟩ : BufTy).Contents (Elt Ideal))
      = Cert.ReferenceIdeal.RefRun.RV23 V' (Proc.devRef .tc Cert.ReferenceIdeal.main_arg2))
    (h3 : (Cert.KernelIdeal.Gen.W24 m ρ c (Proc.devRef .tc Cert.KernelIdeal.main_v2) : (⟨Cert.KernelIdeal.S6, .f32⟩ : BufTy).Contents (Elt Ideal))
      = Cert.ReferenceIdeal.RefRun.RV23 V' (Proc.devRef .tc Cert.ReferenceIdeal.main_v2))
    (h4 : (Cert.KernelIdeal.Gen.W24 m ρ c (Proc.devRef .tc Cert.KernelIdeal.main_v9) : (⟨Cert.KernelIdeal.S6, .f32⟩ : BufTy).Contents (Elt Ideal))
      = Cert.ReferenceIdeal.RefRun.RV23 V' (Proc.devRef .tc Cert.ReferenceIdeal.main_v9))
    (h5 : (Cert.KernelIdeal.Gen.W24 m ρ c (Proc.devRef .tc Cert.KernelIdeal.main_arg3) : (⟨Cert.KernelIdeal.S6x80, .f32⟩ : BufTy).Contents (Elt Ideal))
      = Cert.ReferenceIdeal.RefRun.RV23 V' (Proc.devRef .tc Cert.ReferenceIdeal.main_arg3)) :
    (Cert.KernelIdeal.Gen.W24 m ρ c (Proc.devRef .tc Cert.KernelIdeal.main_v10) : (⟨Cert.KernelIdeal.S131072x80, .f32⟩ : BufTy).Contents (Elt Ideal))
      = Cert.ReferenceIdeal.RefRun.RV23 V' (Proc.devRef .tc Cert.ReferenceIdeal.main_v25) := by
  exact (kernel_v10 m ρ c).trans ((bnDot_congr h0 h1 h2 h3 h4 h5).trans (ref_v25 V').symm)

theorem eq_v259 (m : (ℓ : Loc Cert.KernelIdeal.nD Cert.KernelIdeal.τ Cert.KernelIdeal.sig) → Buf (Elt Ideal) ℓ)
    (ρ : Dev Cert.KernelIdeal.nD → PrngReg) (V' : Valuation Cert.ReferenceIdeal.τ Cert.ReferenceIdeal.sig (Elt Ideal))
    (c : Dev Cert.KernelIdeal.nD)
    (h0 : (Cert.KernelIdeal.Gen.W24 m ρ c (Proc.devRef .tc Cert.KernelIdeal.main_v248) : (⟨Cert.KernelIdeal.S131072x64, .f32⟩ : BufTy).Contents (Elt Ideal))
      = Cert.ReferenceIdeal.RefRun.RV23 V' (Proc.devRef .tc Cert.ReferenceIdeal.main_v296))
    (h1 : (Cert.KernelIdeal.Gen.W24 m ρ c (Proc.devRef .tc Cert.KernelIdeal.main_v251) : (⟨Cert.KernelIdeal.S64, .f32⟩ : BufTy).Contents (Elt Ideal))
      = Cert.ReferenceIdeal.RefRun.RV23 V' (Proc.devRef .tc Cert.ReferenceIdeal.main_v299))
    (h2 : (Cert.KernelIdeal.Gen.W24 m ρ c (Proc.devRef .tc Cert.KernelIdeal.main_v258) : (⟨Cert.KernelIdeal.S64, .f32⟩ : BufTy).Contents (Elt Ideal))
      = Cert.ReferenceIdeal.RefRun.RV23 V' (Proc.devRef .tc Cert.ReferenceIdeal.main_v306))
    (h3 : (Cert.KernelIdeal.Gen.W24 m ρ c (Proc.devRef .tc Cert.KernelIdeal.main_arg13) : (⟨Cert.KernelIdeal.S64, .f32⟩ : BufTy).Contents (Elt Ideal))
      = Cert.ReferenceIdeal.RefRun.RV23 V' (Proc.devRef .tc Cert.ReferenceIdeal.main_arg13))
    (h4 : (Cert.KernelIdeal.Gen.W24 m ρ c (Proc.devRef .tc Cert.KernelIdeal.main_arg14) : (⟨Cert.KernelIdeal.S64, .f32⟩ : BufTy).Contents (Elt Ideal))
      = Cert.ReferenceIdeal.RefRun.RV23 V' (Proc.devRef .tc Cert.ReferenceIdeal.main_arg14))
    (h5 : (Cert.KernelIdeal.Gen.W24 m ρ c (Proc.devRef .tc Cert.KernelIdeal.main_arg15) : (⟨Cert.KernelIdeal.S64x13, .f32⟩ : BufTy).Contents (Elt Ideal))
      = Cert.ReferenceIdeal.RefRun.RV23 V' (Proc.devRef .tc Cert.ReferenceIdeal.main_arg15)) :
    (Cert.KernelIdeal.Gen.W24 m ρ c (Proc.devRef .tc Cert.KernelIdeal.main_v259) : (⟨Cert.KernelIdeal.S131072x13, .f32⟩ : BufTy).Contents (Elt Ideal))
      = Cert.ReferenceIdeal.RefRun.RV23 V' (Proc.devRef .tc Cert.ReferenceIdeal.main_v322) := by
  exact (kernel_v259 m ρ c).trans ((bnDot_congr h0 h3 h4 h1 h2 h5).trans (ref_v322 V').symm)

end Cert.Bridge

end
-- ==== Proof.SpecMlp.lean ====
import Idealize.ShloMosaic.PureOps.Ideal
import Idealize.ShloMosaic.PureOps.Ideal.Laws
import Idealize.ShloMosaic.Lib.ValueIdx
import Idealize.ShloMosaic.Lib.Pipeline.Value
import proofs.«415935_j25786983645203_2_alg».proof.Proof.LibDotPlain

noncomputable section

namespace Cert.SpecMlp

open Idealize.ShloMosaic Idealize.ShloMosaic.ValueIdx
open scoped BigOperators

def elu (s : EReal) : EReal := if 0 < s then s else Ideal.exp s - 1

def layerAt {M K N : Nat} (x : (⟨2, ![M, K]⟩ : Shape).Idx → EReal) (w : (⟨2, ![K, N]⟩ : Shape).Idx → EReal)
    (b : (⟨1, ![N]⟩ : Shape).Idx → EReal) (r : Fin M) (c : Fin N) : EReal :=
  elu ((∑ k : Fin K, x (ix2 r k) * w (ix2 k c)) + b (ix1 c))

def layer {M K N : Nat} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun j => layerAt x w b (j 0) (j 1)

theorem layer_ix2 {M K N : Nat} (x : (⟨2, ![M, K]⟩ : Shape).Idx → EReal) (w : (⟨2, ![K, N]⟩ : Shape).Idx → EReal)
    (b : (⟨1, ![N]⟩ : Shape).Idx → EReal) (r : Fin M) (c : Fin N) :
    layer x w b (ix2 r c) = elu ((∑ k : Fin K, x (ix2 r k) * w (ix2 k c)) + b (ix1 c)) := rfl

def mlp {M : Nat} (x : (⟨2, ![M, 80]⟩ : Shape).Idx → EReal)
    (w1 : (⟨2, ![80, 64]⟩ : Shape).Idx → EReal) (b1 : (⟨1, ![64]⟩ : Shape).Idx → EReal)
    (w2 : (⟨2, ![64, 64]⟩ : Shape).Idx → EReal) (b2 : (⟨1, ![64]⟩ : Shape).Idx → EReal)
    (w3 : (⟨2, ![64, 64]⟩ : Shape).Idx → EReal) (b3 : (⟨1, ![64]⟩ : Shape).Idx → EReal) :
    (⟨2, ![M, 64]⟩ : Shape).Idx → EReal :=
  layer (layer (layer x w1 b1) w2 b2) w3 b3

theorem layer_row {M M' K N : Nat} (x : (⟨2, ![M, K]⟩ : Shape).Idx → EReal) (x' : (⟨2, ![M', K]⟩ : Shape).Idx → EReal)
    (w : (⟨2, ![K, N]⟩ : Shape).Idx → EReal) (b : (⟨1, ![N]⟩ : Shape).Idx → EReal) (r : Fin M) (r' : Fin M')
    (h : ∀ k : Fin K, x (ix2 r k) = x' (ix2 r' k)) (c : Fin N) :
    layer x w b (ix2 r c) = layer x' w b (ix2 r' c) := by
  rw [layer_ix2, layer_ix2]
  exact congrArg (fun s => elu (s + b (ix1 c))) (Finset.sum_congr rfl fun k _ => by rw [h k])

theorem mlp_row {M M' : Nat} (x : (⟨2, ![M, 80]⟩ : Shape).Idx → EReal) (x' : (⟨2, ![M', 80]⟩ : Shape).Idx → EReal)
    (w1 : (⟨2, ![80, 64]⟩ : Shape).Idx → EReal) (b1 : (⟨1, ![64]⟩ : Shape).Idx → EReal)
    (w2 : (⟨2, ![64, 64]⟩ : Shape).Idx → EReal) (b2 : (⟨1, ![64]⟩ : Shape).Idx → EReal)
    (w3 : (⟨2, ![64, 64]⟩ : Shape).Idx → EReal) (b3 : (⟨1, ![64]⟩ : Shape).Idx → EReal)
    (r : Fin M) (r' : Fin M') (h : ∀ k : Fin 80, x (ix2 r k) = x' (ix2 r' k)) (c : Fin 64) :
    mlp x w1 b1 w2 b2 w3 b3 (ix2 r c) = mlp x' w1 b1 w2 b2 w3 b3 (ix2 r' c) := by
  unfold mlp
  exact layer_row _ _ w3 b3 r r' (fun k2 => layer_row _ _ w2 b2 r r' (fun k1 => layer_row x x' w1 b1 r r' h k1) k2) c

theorem ofBits_one_f32 : Ideal.ofBits .f32 0x3F800000#32 = 1 := by
  simp [Ideal.ofBits, Ideal.ieee, -EReal.coe_mul] <;> norm_num

theorem elu_vector (s : EReal) :
    Scalar.select (Ideal.cmp .ogt s (Ideal.ofBits .f32 0x00000000#32)) s (Ideal.exp s - Ideal.ofBits .f32 0x3F800000#32)
      = elu s := by
  rw [Ideal.ofBits_zero_f32, ofBits_one_f32]
  unfold elu Scalar.select Ideal.cmp
  by_cases h : (0 : EReal) < s <;> simp [h]

theorem elu_host (s : EReal) :
    Scalar.select (Ideal.cmp .ogt s (Ideal.ofBits .f32 0x00000000#32)) s
        (Ideal.ofBits .f32 0x3F800000#32
          * (Ideal.exp (Scalar.select (Ideal.cmp .ogt s (Ideal.ofBits .f32 0x00000000#32)) (Ideal.ofBits .f32 0x00000000#32) s) - 1))
      = elu s := by
  rw [Ideal.ofBits_zero_f32, ofBits_one_f32]
  unfold elu Scalar.select Ideal.cmp
  by_cases h : (0 : EReal) < s <;> simp [h]

theorem bias_vector {α : Type} {M N : Nat} (b : (⟨1, ![N]⟩ : Shape).Idx → α)
    (hsc : (⟨1, ![N]⟩ : Shape).ShapeCasts ⟨2, ![1, N]⟩) (hbt : (⟨2, ![1, N]⟩ : Shape).Broadcasts ⟨2, ![M, N]⟩)
    (r : Fin M) (c : Fin N) :
    broadcastTo (⟨2, ![M, N]⟩ : Shape) (shapeCast (⟨2, ![1, N]⟩ : Shape) b hsc) hbt (ix2 r c) = b (ix1 c) := by
  refine (broadcastTo_apply _ hbt (ix2 r c) (ix2 (0 : Fin 1) c) ?_).trans ?_
  · intro a
    match a with
    | ⟨0, _⟩ => exact (if_pos rfl).symm
    | ⟨1, _⟩ =>
      show c.val = if N = 1 then 0 else c.val
      split_ifs with h
      · have := c.isLt; omega
      · rfl
  · refine shapeCast_apply b hsc (ix2 (0 : Fin 1) c) (ix1 c) ?_
    rw [Shape.rowMajor_val_one, Shape.rowMajor_val_two]
    show c.val = (0 : Fin 1).val * N + c.val
    simp

theorem bias_host {α : Type} {M N : Nat} (b : (⟨1, ![N]⟩ : Shape).Idx → α)
    (dims1 : Fin 1 → Fin 2) (h1 : ∀ a, (dims1 a).val = 1)
    (hb1 : (⟨1, ![N]⟩ : Shape).BroadcastsInDim ⟨2, ![1, N]⟩ dims1)
    (dims2 : Fin 2 → Fin 2) (h2 : ∀ a, (dims2 a).val = a.val)
    (hb2 : (⟨2, ![1, N]⟩ : Shape).BroadcastsInDim ⟨2, ![M, N]⟩ dims2)
    (r : Fin M) (c : Fin N) :
    broadcastInDim (⟨2, ![M, N]⟩ : Shape) dims2 hb2 (broadcastInDim (⟨2, ![1, N]⟩ : Shape) dims1 hb1 b) (ix2 r c) = b (ix1 c) := by
  refine (broadcastInDim_apply dims2 hb2 _ (ix2 r c) (ix2 (0 : Fin 1) c) ?_).trans ?_
  · intro a
    match a with
    | ⟨0, _⟩ => exact (if_pos rfl).symm
    | ⟨1, h⟩ =>
      have e : dims2 ⟨1, h⟩ = ⟨1, h⟩ := Fin.ext (h2 _)
      show c.val = if N = 1 then 0 else (ix2 r c (dims2 ⟨1, h⟩)).val
      rw [e]
      split_ifs with hN
      · have := c.isLt; omega
      · rfl
  · refine broadcastInDim_apply dims1 hb1 b (ix2 (0 : Fin 1) c) (ix1 c) ?_
    intro a
    match a with
    | ⟨0, h⟩ =>
      have e : dims1 ⟨0, h⟩ = ⟨1, by decide⟩ := Fin.ext (h1 _)
      show c.val = if N = 1 then 0 else (ix2 (0 : Fin 1) c (dims1 ⟨0, h⟩)).val
      rw [e]
      split_ifs with hN
      · have := c.isLt; omega
      · rfl

theorem scalar_host {α : Type} {S : Shape} (dims0 : Fin 0 → Fin S.rank) (hb0 : (⟨0, ![]⟩ : Shape).BroadcastsInDim S dims0)
    (v : (⟨0, ![]⟩ : Shape).Idx → α) (j : S.Idx) : broadcastInDim S dims0 hb0 v j = v ix0 :=
  broadcastInDim_apply dims0 hb0 v j ix0 (fun a => a.elim0)

def preVector {M K N : Nat} (d : DotDims ⟨2, ![M, K]⟩ ⟨2, ![K, N]⟩ ⟨2, ![M, N]⟩)
    (hsc : (⟨1, ![N]⟩ : Shape).ShapeCasts ⟨2, ![1, N]⟩) (hbt : (⟨2, ![1, N]⟩ : Shape).Broadcasts ⟨2, ![M, N]⟩)
    (x : FVec Ideal ⟨2, ![M, K]⟩ .f32) (w : FVec Ideal ⟨2, ![K, N]⟩ .f32) (b : FVec Ideal ⟨1, ![N]⟩ .f32) :
    FVec Ideal ⟨2, ![M, N]⟩ .f32 :=
  addf (matmul d none (truncf .bf16 x (by decide)) (truncf .bf16 w (by decide)) (constant (⟨2, ![M, N]⟩ : Shape) .f32 0x00000000#32))
    (broadcastTo (⟨2, ![M, N]⟩ : Shape) (shapeCast (⟨2, ![1, N]⟩ : Shape) b hsc) hbt)

def eluVector {S : Shape} (s : FVec Ideal S .f32) : FVec Ideal S .f32 :=
  select (cmpf .ogt s (broadcast S (Scalar.ofBits (F := Ideal) .f32 0x00000000#32))) s
    (subf (exp s) (broadcast S (Scalar.ofBits (F := Ideal) .f32 0x3F800000#32)))

theorem eluVector_apply {S : Shape} (s : FVec Ideal S .f32) (j : S.Idx) : eluVector s j = elu (s j) := elu_vector (s j)

theorem layer_vector {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (hsc : (⟨1, ![N]⟩ : Shape).ShapeCasts ⟨2, ![1, N]⟩) (hbt : (⟨2, ![1, N]⟩ : Shape).Broadcasts ⟨2, ![M, N]⟩)
    (x : FVec Ideal ⟨2, ![M, K]⟩ .f32) (w : FVec Ideal ⟨2, ![K, N]⟩ .f32) (b : FVec Ideal ⟨1, ![N]⟩ .f32) :
    eluVector (preVector d hsc hbt x w b) = layer x w b := by
  funext j
  obtain ⟨r, c, rfl⟩ : ∃ (r : Fin M) (c : Fin N), j = ix2 r c := ⟨j 0, j 1, eq_ix2 j⟩
  rw [eluVector_apply, layer_ix2]
  refine congrArg elu ?_
  show FloatOps.matmul d none (truncf .bf16 x (by decide)) (truncf .bf16 w (by decide)) (constant (⟨2, ![M, N]⟩ : Shape) .f32 0x00000000#32) (ix2 r c)
      + broadcastTo (⟨2, ![M, N]⟩ : Shape) (shapeCast (⟨2, ![1, N]⟩ : Shape) b hsc) hbt (ix2 r c) = _
  rw [Cert.DotPlain.matmul_zero_rows_cols d hlb hrb hlc hrc hln hrn none _ _ r c, bias_vector b hsc hbt r c]
  rfl

def preHost {M K N : Nat} (d : DotDims ⟨2, ![M, K]⟩ ⟨2, ![K, N]⟩ ⟨2, ![M, N]⟩)
    (dims1 : Fin 1 → Fin 2) (hb1 : (⟨1, ![N]⟩ : Shape).BroadcastsInDim ⟨2, ![1, N]⟩ dims1)
    (dims2 : Fin 2 → Fin 2) (hb2 : (⟨2, ![1, N]⟩ : Shape).BroadcastsInDim ⟨2, ![M, N]⟩ dims2)
    (x : FVec Ideal ⟨2, ![M, K]⟩ .f32) (w : FVec Ideal ⟨2, ![K, N]⟩ .f32) (b : FVec Ideal ⟨1, ![N]⟩ .f32) :
    FVec Ideal ⟨2, ![M, N]⟩ .f32 :=
  addf (Host.dotGeneral d none x w)
    (broadcastInDim (⟨2, ![M, N]⟩ : Shape) dims2 hb2 (broadcastInDim (⟨2, ![1, N]⟩ : Shape) dims1 hb1 b))

def eluHost {S : Shape} (dims0 : Fin 0 → Fin S.rank) (hb0 : (⟨0, ![]⟩ : Shape).BroadcastsInDim S dims0)
    (s : FVec Ideal S .f32) : FVec Ideal S .f32 :=
  select (cmpf .ogt s (broadcastInDim S dims0 hb0 (constant (F := Ideal) (⟨0, ![]⟩ : Shape) .f32 0x00000000#32))) s
    (mulf (broadcastInDim S dims0 hb0 (constant (F := Ideal) (⟨0, ![]⟩ : Shape) .f32 0x3F800000#32))
      (Host.expm1 (select (cmpf .ogt s (broadcastInDim S dims0 hb0 (constant (F := Ideal) (⟨0, ![]⟩ : Shape) .f32 0x00000000#32)))
        (broadcastInDim S dims0 hb0 (id (constant (F := Ideal) (⟨0, ![]⟩ : Shape) .f32 0x00000000#32))) s)))

theorem eluHost_apply {S : Shape} (dims0 : Fin 0 → Fin S.rank) (hb0 : (⟨0, ![]⟩ : Shape).BroadcastsInDim S dims0)
    (s : FVec Ideal S .f32) (j : S.Idx) : eluHost dims0 hb0 s j = elu (s j) := by
  refine Eq.trans ?_ (elu_host (s j))
  unfold eluHost
  simp only [select_apply, cmpf_apply, mulf_apply, scalar_host, id, constant_apply]
  rfl

theorem layer_host {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (dims1 : Fin 1 → Fin 2) (h1 : ∀ a, (dims1 a).val = 1) (hb1 : (⟨1, ![N]⟩ : Shape).BroadcastsInDim ⟨2, ![1, N]⟩ dims1)
    (dims2 : Fin 2 → Fin 2) (h2 : ∀ a, (dims2 a).val = a.val) (hb2 : (⟨2, ![1, N]⟩ : Shape).BroadcastsInDim ⟨2, ![M, N]⟩ dims2)
    (dims0 : Fin 0 → Fin 2) (hb0 : (⟨0, ![]⟩ : Shape).BroadcastsInDim ⟨2, ![M, N]⟩ dims0)
    (x : FVec Ideal ⟨2, ![M, K]⟩ .f32) (w : FVec Ideal ⟨2, ![K, N]⟩ .f32) (b : FVec Ideal ⟨1, ![N]⟩ .f32) :
    eluHost dims0 hb0 (preHost d dims1 hb1 dims2 hb2 x w b) = layer x w b := by
  funext j
  obtain ⟨r, c, rfl⟩ : ∃ (r : Fin M) (c : Fin N), j = ix2 r c := ⟨j 0, j 1, eq_ix2 j⟩
  rw [eluHost_apply, layer_ix2]
  refine congrArg elu ?_
  show FloatOps.dotGeneral d none .single x w (ix2 r c)
      + broadcastInDim (⟨2, ![M, N]⟩ : Shape) dims2 hb2 (broadcastInDim (⟨2, ![1, N]⟩ : Shape) dims1 hb1 b) (ix2 r c) = _
  rw [Cert.DotPlain.dotGeneral_rows_cols d hlb hrb hlc hrc hln hrn none .single x w r c, bias_host b dims1 h1 hb1 dims2 h2 hb2 r c]

end Cert.SpecMlp

end
-- ==== Proof.Reg10.lean ====
import proofs.«415935_j25786983645203_2_alg».proof.Proof.Gen.KernelIdeal.Frame
import proofs.«415935_j25786983645203_2_alg».proof.Proof.SpecMlp
import Idealize.ShloMosaic.Lib.Pipeline.Value

set_option maxRecDepth 16384

noncomputable section

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

theorem body10_eq (x0 : Vec Ideal S8192x80 .f32) (x1 : Vec Ideal S80x64 .f32) (x2 : Vec Ideal S64 .f32)
    (x3 : Vec Ideal S64x64 .f32) (x4 : Vec Ideal S64 .f32) (x5 : Vec Ideal S64x64 .f32) (x6 : Vec Ideal S64 .f32) :
    k10_pay1 (k10_pay2 x0 x1 x2 x3 x4 x5 x6) (k10_pay3 x0 x1 x2 x3 x4 x5 x6)
      = Cert.SpecMlp.mlp (M := 8192) x0 x1 x2 x3 x4 x5 x6 := by
  have e : k10_pay1 (k10_pay2 x0 x1 x2 x3 x4 x5 x6) (k10_pay3 x0 x1 x2 x3 x4 x5 x6)
      = Cert.SpecMlp.eluVector (Cert.SpecMlp.preVector dot_S8192x64_S64x64_S8192x64_1_0_0_1_n_n shapeCasts_S64_S1x64 broadcasts_S1x64_S8192x64
          (Cert.SpecMlp.eluVector (Cert.SpecMlp.preVector dot_S8192x64_S64x64_S8192x64_1_0_0_1_n_n shapeCasts_S64_S1x64 broadcasts_S1x64_S8192x64
            (Cert.SpecMlp.eluVector (Cert.SpecMlp.preVector dot_S8192x80_S80x64_S8192x64_1_0_0_1_n_n shapeCasts_S64_S1x64 broadcasts_S1x64_S8192x64
              (shapeCast S8192x80 x0 shapeCasts_S8192x80_S8192x80) x1 x2)) x3 x4)) x5 x6) := rfl
  rw [e, shapeCast_self,
    Cert.SpecMlp.layer_vector dot_S8192x80_S80x64_S8192x64_1_0_0_1_n_n rfl rfl rfl rfl rfl rfl,
    Cert.SpecMlp.layer_vector dot_S8192x64_S64x64_S8192x64_1_0_0_1_n_n rfl rfl rfl rfl rfl rfl,
    Cert.SpecMlp.layer_vector dot_S8192x64_S64x64_S8192x64_1_0_0_1_n_n rfl rfl rfl rfl rfl rfl]
  rfl

theorem out10_7_eq (x0 : Vec Ideal S8192x80 .f32) (x1 : Vec Ideal S80x64 .f32) (x2 : Vec Ideal S64 .f32)
    (x3 : Vec Ideal S64x64 .f32) (x4 : Vec Ideal S64 .f32) (x5 : Vec Ideal S64x64 .f32) (x6 : Vec Ideal S64 .f32) :
    out10_7 x0 x1 x2 x3 x4 x5 x6 = Cert.SpecMlp.mlp (M := 8192) x0 x1 x2 x3 x4 x5 x6 := by
  unfold out10_7
  rw [View.canon_unit_zero zero_off2]
  simp only [View.ld_unit_zero (S := S8192x80) zero_off2, View.ld_unit_zero (S := S80x64) zero_off2,
    View.ld_unit_zero (S := S64) zero_off1, View.ld_unit_zero (S := S64x64) zero_off2]
  exact body10_eq x0 x1 x2 x3 x4 x5 x6

theorem idx_facts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 1) = 0
    ∧ win10_3.index t (0 : Fin 2) = 0 ∧ win10_3.index t (1 : Fin 2) = 0
    ∧ win10_4.index t (0 : Fin 1) = 0
    ∧ win10_5.index t (0 : Fin 2) = 0 ∧ win10_5.index t (1 : Fin 2) = 0
    ∧ win10_6.index t (0 : Fin 1) = 0
    ∧ win10_7.index t (0 : Fin 2) = t.val ∧ win10_7.index t (1 : Fin 2) = 0 :=
  (by decide +kernel : ∀ t : Fin grid10.N, _)

theorem iblk10_0_apply (c : Dev nD) (t : Fin cfg10.N) (y : S8192x80.Idx) (i : S131072x80.Idx)
    (h0 : (i 0).val = t.val * 8192 + (y 0).val) (h1 : (i 1).val = (y 1).val) :
    (iblk10 V c 0 t : Vec Ideal S8192x80 .f32) y = (V c (Pipeline.arrRef spec10 0) : Vec Ideal S131072x80 .f32) i := by
  obtain ⟨e0, e1, -⟩ := idx_facts10 t
  unfold iblk10
  rw [View.read_apply]
  refine congrArg (V c (Pipeline.arrRef spec10 0)) (funext fun a => Fin.ext ?_)
  match a with
  | ⟨0, _⟩ => show win10_0.index t (0 : Fin 2) * 8192 + 1 * (y 0).val = (i 0).val; rw [e0, h0]; omega
  | ⟨1, _⟩ => show win10_0.index t (1 : Fin 2) * 80 + 1 * (y 1).val = (i 1).val; rw [e1, h1]; omega

theorem iblk10_1 (c : Dev nD) (t : Fin cfg10.N) : (iblk10 V c 1 t : Vec Ideal S80x64 .f32) = V c (Pipeline.arrRef spec10 1) := by
  obtain ⟨-, -, e0, e1, -⟩ := idx_facts10 t
  funext y
  unfold iblk10
  rw [View.read_apply]
  refine congrArg (V c (Pipeline.arrRef spec10 1)) (funext fun a => Fin.ext ?_)
  match a with
  | ⟨0, _⟩ => show win10_1.index t (0 : Fin 2) * 80 + 1 * (y 0).val = (y 0).val; rw [e0]; omega
  | ⟨1, _⟩ => show win10_1.index t (1 : Fin 2) * 64 + 1 * (y 1).val = (y 1).val; rw [e1]; omega

theorem iblk10_2 (c : Dev nD) (t : Fin cfg10.N) : (iblk10 V c 2 t : Vec Ideal S64 .f32) = V c (Pipeline.arrRef spec10 2) := by
  obtain ⟨-, -, -, -, e0, -⟩ := idx_facts10 t
  funext y
  unfold iblk10
  rw [View.read_apply]
  refine congrArg (V c (Pipeline.arrRef spec10 2)) (funext fun a => Fin.ext ?_)
  match a with
  | ⟨0, _⟩ => show win10_2.index t (0 : Fin 1) * 64 + 1 * (y 0).val = (y 0).val; rw [e0]; omega

theorem iblk10_3 (c : Dev nD) (t : Fin cfg10.N) : (iblk10 V c 3 t : Vec Ideal S64x64 .f32) = V c (Pipeline.arrRef spec10 3) := by
  obtain ⟨-, -, -, -, -, e0, e1, -⟩ := idx_facts10 t
  funext y
  unfold iblk10
  rw [View.read_apply]
  refine congrArg (V c (Pipeline.arrRef spec10 3)) (funext fun a => Fin.ext ?_)
  match a with
  | ⟨0, _⟩ => show win10_3.index t (0 : Fin 2) * 64 + 1 * (y 0).val = (y 0).val; rw [e0]; omega
  | ⟨1, _⟩ => show win10_3.index t (1 : Fin 2) * 64 + 1 * (y 1).val = (y 1).val; rw [e1]; omega

theorem iblk10_4 (c : Dev nD) (t : Fin cfg10.N) : (iblk10 V c 4 t : Vec Ideal S64 .f32) = V c (Pipeline.arrRef spec10 4) := by
  obtain ⟨-, -, -, -, -, -, -, e0, -⟩ := idx_facts10 t
  funext y
  unfold iblk10
  rw [View.read_apply]
  refine congrArg (V c (Pipeline.arrRef spec10 4)) (funext fun a => Fin.ext ?_)
  match a with
  | ⟨0, _⟩ => show win10_4.index t (0 : Fin 1) * 64 + 1 * (y 0).val = (y 0).val; rw [e0]; omega

theorem iblk10_5 (c : Dev nD) (t : Fin cfg10.N) : (iblk10 V c 5 t : Vec Ideal S64x64 .f32) = V c (Pipeline.arrRef spec10 5) := by
  obtain ⟨-, -, -, -, -, -, -, -, e0, e1, -⟩ := idx_facts10 t
  funext y
  unfold iblk10
  rw [View.read_apply]
  refine congrArg (V c (Pipeline.arrRef spec10 5)) (funext fun a => Fin.ext ?_)
  match a with
  | ⟨0, _⟩ => show win10_5.index t (0 : Fin 2) * 64 + 1 * (y 0).val = (y 0).val; rw [e0]; omega
  | ⟨1, _⟩ => show win10_5.index t (1 : Fin 2) * 64 + 1 * (y 1).val = (y 1).val; rw [e1]; omega

theorem iblk10_6 (c : Dev nD) (t : Fin cfg10.N) : (iblk10 V c 6 t : Vec Ideal S64 .f32) = V c (Pipeline.arrRef spec10 6) := by
  obtain ⟨-, -, -, -, -, -, -, -, -, -, e0, -⟩ := idx_facts10 t
  funext y
  unfold iblk10
  rw [View.read_apply]
  refine congrArg (V c (Pipeline.arrRef spec10 6)) (funext fun a => Fin.ext ?_)
  match a with
  | ⟨0, _⟩ => show win10_6.index t (0 : Fin 1) * 64 + 1 * (y 0).val = (y 0).val; rw [e0]; omega

abbrev head10 (c : Dev nD) : Vec Ideal S131072x64 .f32 :=
  Cert.SpecMlp.mlp (M := 131072) (V c (Pipeline.arrRef spec10 0)) (V c (Pipeline.arrRef spec10 1)) (V c (Pipeline.arrRef spec10 2))
    (V c (Pipeline.arrRef spec10 3)) (V c (Pipeline.arrRef spec10 4)) (V c (Pipeline.arrRef spec10 5)) (V c (Pipeline.arrRef spec10 6))

theorem head_block (c : Dev nD) (t : Fin cfg10.N) (y : S8192x64.Idx) :
    Cert.SpecMlp.mlp (M := 8192) (iblk10 V c 0 t : Vec Ideal S8192x80 .f32) (V c (Pipeline.arrRef spec10 1)) (V c (Pipeline.arrRef spec10 2))
        (V c (Pipeline.arrRef spec10 3)) (V c (Pipeline.arrRef spec10 4)) (V c (Pipeline.arrRef spec10 5)) (V c (Pipeline.arrRef spec10 6)) y
      = head10 V c (((cfg10.win 7).blk t).view.emb y) := by
  obtain ⟨-, -, -, -, -, -, -, -, -, -, -, f0, f1⟩ := idx_facts10 t
  obtain ⟨p, q, rfl⟩ : ∃ (p : Fin 8192) (q : Fin 64), y = ix2 p q := ⟨y 0, y 1, eq_ix2 y⟩
  have ht : t.val < 16 := lt_of_lt_of_eq t.isLt N_10
  have he : ((cfg10.win 7).blk t).view.emb (ix2 p q : S8192x64.Idx)
      = (ix2 (⟨t.val * 8192 + p.val, by have := p.isLt; omega⟩ : Fin 131072) q : S131072x64.Idx) := by
    funext a; apply Fin.ext
    match a with
    | ⟨0, _⟩ => show win10_7.index t (0 : Fin 2) * 8192 + 1 * p.val = t.val * 8192 + p.val; rw [f0]; omega
    | ⟨1, _⟩ => show win10_7.index t (1 : Fin 2) * 64 + 1 * q.val = q.val; rw [f1]; omega
  rw [he]
  exact Cert.SpecMlp.mlp_row _ _ _ _ _ _ _ _ p _ (fun k => iblk10_0_apply V c t (ix2 p k) (ix2 _ k) rfl rfl) q

theorem flushed10_7_eq (c : Dev nD) (t : Fin cfg10.N) :
    (dat10 V c).flushed 7 t = ((cfg10.win 7).blk t).view.read (Elt Ideal) (head10 V c) := by
  show (cfg10.win 7).cut (grid10.coords t) ((dat10 V c).after 7 t) = _
  rw [after10_7, out10_7_eq (iblk10 V c 0 t) (iblk10 V c 1 t) (iblk10 V c 2 t) (iblk10 V c 3 t) (iblk10 V c 4 t) (iblk10 V c 5 t) (iblk10 V c 6 t),
    iblk10_1 V c t, iblk10_2 V c t, iblk10_3 V c t, iblk10_4 V c t, iblk10_5 V c t, iblk10_6 V c t]
  funext y
  exact head_block V c t y

theorem mem_blk10_7 (t : Fin cfg10.N) (i : S131072x64.Idx) :
    i ∈ ((cfg10.win 7).blk t).view.set ↔ ∀ a : Fin 2, win10_7.index t a * S8192x64.size a ≤ (i a).val ∧ (i a).val < win10_7.index t a * S8192x64.size a + S8192x64.size a := by
  show i ∈ ((View.whole main_v248).slice (win10_7.rect t)).set ↔ _
  rw [View.set_slice_whole, Rect.mem_set_unit]
  exact Iff.rfl

theorem rows_cover (i : S131072x64.Idx) : ∃ t : Fin cfg10.N, (cfg10.win 7).flush t = true ∧ i ∈ ((cfg10.win 7).blk t).view.set := by
  have hi0 : (i 0).val < 131072 := (i 0).isLt
  have hi1 : (i 1).val < 64 := (i 1).isLt
  obtain ⟨t, ht⟩ : ∃ t : Fin cfg10.N, t.val = (i 0).val / 8192 :=
    ⟨⟨(i 0).val / 8192, lt_of_lt_of_eq (by omega : (i 0).val / 8192 < 16) N_10.symm⟩, rfl⟩
  obtain ⟨-, -, -, -, -, -, -, -, -, -, -, f0, f1⟩ := idx_facts10 t
  refine ⟨t, flush10_7 t, ?_⟩
  rw [mem_blk10_7]
  intro a
  match a with
  | ⟨0, _⟩ => show win10_7.index t (0 : Fin 2) * 8192 ≤ (i 0).val ∧ (i 0).val < win10_7.index t (0 : Fin 2) * 8192 + 8192; rw [f0, ht]; omega
  | ⟨1, _⟩ => show win10_7.index t (1 : Fin 2) * 64 ≤ (i 1).val ∧ (i 1).val < win10_7.index t (1 : Fin 2) * 64 + 64; rw [f1]; omega

theorem region10_val (c : Dev nD) :
    (dat10 (F := Ideal) V c).arrAt 7 cfg10.N
      = Cert.SpecMlp.mlp (M := 131072) (V c (Pipeline.arrRef spec10 0)) (V c (Pipeline.arrRef spec10 1)) (V c (Pipeline.arrRef spec10 2))
          (V c (Pipeline.arrRef spec10 3)) (V c (Pipeline.arrRef spec10 4)) (V c (Pipeline.arrRef spec10 5)) (V c (Pipeline.arrRef spec10 6)) :=
  (dat10 V c).arrAt_eq_of_cover 7 (head10 V c) (fun t _ => flushed10_7_eq V c t) rows_cover

end Cert.KernelIdeal.RegVal

end
-- ==== Proof.BridgeMlp.lean ====
import proofs.«415935_j25786983645203_2_alg».proof.Proof.KKeep
import proofs.«415935_j25786983645203_2_alg».proof.Proof.RKeep
import proofs.«415935_j25786983645203_2_alg».proof.Proof.Reg10

set_option maxRecDepth 16384

noncomputable section

namespace Cert.Bridge

open Idealize.ShloMosaic Idealize.ShloMosaic.TcCoe

theorem mlp_congr {M : Nat} {x x' : (⟨2, ![M, 80]⟩ : Shape).Idx → EReal}
    {w1 w1' : (⟨2, ![80, 64]⟩ : Shape).Idx → EReal} {b1 b1' : (⟨1, ![64]⟩ : Shape).Idx → EReal}
    {w2 w2' : (⟨2, ![64, 64]⟩ : Shape).Idx → EReal} {b2 b2' : (⟨1, ![64]⟩ : Shape).Idx → EReal}
    {w3 w3' : (⟨2, ![64, 64]⟩ : Shape).Idx → EReal} {b3 b3' : (⟨1, ![64]⟩ : Shape).Idx → EReal}
    (hx : x = x') (h1 : w1 = w1') (g1 : b1 = b1') (h2 : w2 = w2') (g2 : b2 = b2') (h3 : w3 = w3') (g3 : b3 = b3') :
    Cert.SpecMlp.mlp x w1 b1 w2 b2 w3 b3 = Cert.SpecMlp.mlp x' w1' b1' w2' b2' w3' b3' := by
  subst hx h1 g1 h2 g2 h3 g3
  rfl

section Kernel

open Cert.KernelIdeal Cert.KernelIdeal.Gen

variable (m : (ℓ : Loc nD τ sig) → Buf (Elt Ideal) ℓ) (ρ : Dev nD → PrngReg)

theorem kernel_v248 (c : Dev nD) :
    (W24 m ρ c (Proc.devRef .tc main_v248) : (⟨S131072x64, .f32⟩ : BufTy).Contents (Elt Ideal))
      = Cert.SpecMlp.mlp (M := 131072) (W24 m ρ c (Proc.devRef .tc main_v247))
          (W24 m ρ c (Proc.devRef .tc main_arg7)) (W24 m ρ c (Proc.devRef .tc main_arg8))
          (W24 m ρ c (Proc.devRef .tc main_arg9)) (W24 m ρ c (Proc.devRef .tc main_arg10))
          (W24 m ρ c (Proc.devRef .tc main_arg11)) (W24 m ρ c (Proc.devRef .tc main_arg12)) :=
  (keep22 m ρ c Cert.KernelIdeal.main_v248 (by decide)).trans ((W22_arr m ρ c 7).trans ((Cert.KernelIdeal.RegVal.region10_val (V21 m ρ) c).trans
    (mlp_congr (M := 131072) (keep21 m ρ c Cert.KernelIdeal.main_v247 (by decide)).symm (keep21 m ρ c Cert.KernelIdeal.main_arg7 (by decide)).symm (keep21 m ρ c Cert.KernelIdeal.main_arg8 (by decide)).symm
      (keep21 m ρ c Cert.KernelIdeal.main_arg9 (by decide)).symm (keep21 m ρ c Cert.KernelIdeal.main_arg10 (by decide)).symm (keep21 m ρ c Cert.KernelIdeal.main_arg11 (by decide)).symm
      (keep21 m ρ c Cert.KernelIdeal.main_arg12 (by decide)).symm)))

end Kernel

section Reference

open Cert.ReferenceIdeal Cert.ReferenceIdeal.Gen Cert.ReferenceIdeal.RefRun Idealize.ShloMosaic.StableHlo

section Pieces

variable (U : Valuation τ sig (Elt Ideal))

set_option maxHeartbeats 4000000 in

theorem piece19_v287 :
    (after pc19 U (Proc.devRef .tc main_v287) : (⟨S131072x64, .f32⟩ : BufTy).Contents (Elt Ideal))
      = Host.dotGeneral (F := Ideal) (φ₁ := .f32) (φ₂ := .f32) dot_S131072x64_S64x64_S131072x64_1_0_0_1_n_n none
          (Cert.SpecMlp.layer (M := 131072) (U (Proc.devRef .tc main_v281)) (U (Proc.devRef .tc main_arg7)) (U (Proc.devRef .tc main_arg8)))
          (U (Proc.devRef .tc main_arg9) : (⟨S64x64, .f32⟩ : BufTy).Contents (Elt Ideal)) := by
  after_results_simp
  simp only [TRef.toBuf, TRef.ofBuf, cast_eq, id_eq]
  exact congrArg
    (fun z => Host.dotGeneral (F := Ideal) (φ₁ := .f32) (φ₂ := .f32) dot_S131072x64_S64x64_S131072x64_1_0_0_1_n_n none z
      (U (Proc.devRef .tc main_arg9) : (⟨S64x64, .f32⟩ : BufTy).Contents (Elt Ideal)))
    (Cert.SpecMlp.layer_host dot_S131072x80_S80x64_S131072x64_1_0_0_1_n_n rfl rfl rfl rfl rfl rfl
      (![1] : Fin 1 → Fin S1x64.rank) (by decide) bcast_S64_S1x64_1
      (![0, 1] : Fin 2 → Fin S131072x64.rank) (by decide) bcast_S1x64_S131072x64_0_1
      (![] : Fin 0 → Fin S131072x64.rank) bcast_S_S131072x64
      (U (Proc.devRef .tc main_v281)) (U (Proc.devRef .tc main_arg7)) (U (Proc.devRef .tc main_arg8)))

set_option maxHeartbeats 4000000 in

theorem piece20_v296 (L1 : (⟨S131072x64, .f32⟩ : BufTy).Contents (Elt Ideal))
    (h287 : (U (Proc.devRef .tc main_v287) : (⟨S131072x64, .f32⟩ : BufTy).Contents (Elt Ideal))
      = Host.dotGeneral (F := Ideal) (φ₁ := .f32) (φ₂ := .f32) dot_S131072x64_S64x64_S131072x64_1_0_0_1_n_n none L1
          (U (Proc.devRef .tc main_arg9) : (⟨S64x64, .f32⟩ : BufTy).Contents (Elt Ideal))) :
    (after pc20 U (Proc.devRef .tc main_v296) : (⟨S131072x64, .f32⟩ : BufTy).Contents (Elt Ideal))
      = Cert.SpecMlp.layer (M := 131072) (Cert.SpecMlp.layer (M := 131072) L1 (U (Proc.devRef .tc main_arg9)) (U (Proc.devRef .tc main_arg10)))
          (U (Proc.devRef .tc main_arg11)) (U (Proc.devRef .tc main_arg12)) := by
  after_results_simp
  simp only [TRef.toBuf, TRef.ofBuf, cast_eq, id_eq]
  rw [h287]
  exact (Cert.SpecMlp.layer_host dot_S131072x64_S64x64_S131072x64_1_0_0_1_n_n rfl rfl rfl rfl rfl rfl
      (![1] : Fin 1 → Fin S1x64.rank) (by decide) bcast_S64_S1x64_1
      (![0, 1] : Fin 2 → Fin S131072x64.rank) (by decide) bcast_S1x64_S131072x64_0_1
      (![] : Fin 0 → Fin S131072x64.rank) bcast_S_S131072x64
      (Cert.SpecMlp.eluHost (![] : Fin 0 → Fin S131072x64.rank) bcast_S_S131072x64
        (Cert.SpecMlp.preHost dot_S131072x64_S64x64_S131072x64_1_0_0_1_n_n (![1] : Fin 1 → Fin S1x64.rank) bcast_S64_S1x64_1
          (![0, 1] : Fin 2 → Fin S131072x64.rank) bcast_S1x64_S131072x64_0_1
          L1 (U (Proc.devRef .tc main_arg9)) (U (Proc.devRef .tc main_arg10)))) (U (Proc.devRef .tc main_arg11)) (U (Proc.devRef .tc main_arg12))).trans
    (congrArg (fun z => Cert.SpecMlp.layer (M := 131072) z (U (Proc.devRef .tc main_arg11)) (U (Proc.devRef .tc main_arg12)))
      (Cert.SpecMlp.layer_host dot_S131072x64_S64x64_S131072x64_1_0_0_1_n_n rfl rfl rfl rfl rfl rfl
      (![1] : Fin 1 → Fin S1x64.rank) (by decide) bcast_S64_S1x64_1
      (![0, 1] : Fin 2 → Fin S131072x64.rank) (by decide) bcast_S1x64_S131072x64_0_1
      (![] : Fin 0 → Fin S131072x64.rank) bcast_S_S131072x64
      L1 (U (Proc.devRef .tc main_arg9)) (U (Proc.devRef .tc main_arg10))))

end Pieces

variable (V' : Valuation τ sig (Elt Ideal))

theorem ref_v296 :
    (RV23 V' (Proc.devRef .tc main_v296) : (⟨S131072x64, .f32⟩ : BufTy).Contents (Elt Ideal))
      = Cert.SpecMlp.mlp (M := 131072) (RV23 V' (Proc.devRef .tc main_v281))
          (RV23 V' (Proc.devRef .tc main_arg7)) (RV23 V' (Proc.devRef .tc main_arg8))
          (RV23 V' (Proc.devRef .tc main_arg9)) (RV23 V' (Proc.devRef .tc main_arg10))
          (RV23 V' (Proc.devRef .tc main_arg11)) (RV23 V' (Proc.devRef .tc main_arg12)) := by

  have k9 : RV20 V' (Proc.devRef .tc main_arg9) = RV19 V' (Proc.devRef .tc main_arg9) :=
    after_of_writes_sub pc19 (RV19 V') wr19_sub (by decide)
  have k10 : RV20 V' (Proc.devRef .tc main_arg10) = RV19 V' (Proc.devRef .tc main_arg10) :=
    after_of_writes_sub pc19 (RV19 V') wr19_sub (by decide)
  have k11 : RV20 V' (Proc.devRef .tc main_arg11) = RV19 V' (Proc.devRef .tc main_arg11) :=
    after_of_writes_sub pc19 (RV19 V') wr19_sub (by decide)
  have k12 : RV20 V' (Proc.devRef .tc main_arg12) = RV19 V' (Proc.devRef .tc main_arg12) :=
    after_of_writes_sub pc19 (RV19 V') wr19_sub (by decide)

  have p19 : (RV20 V' (Proc.devRef .tc main_v287) : (⟨S131072x64, .f32⟩ : BufTy).Contents (Elt Ideal))
      = Host.dotGeneral (F := Ideal) (φ₁ := .f32) (φ₂ := .f32) dot_S131072x64_S64x64_S131072x64_1_0_0_1_n_n none
          (Cert.SpecMlp.layer (M := 131072) (RV19 V' (Proc.devRef .tc main_v281)) (RV19 V' (Proc.devRef .tc main_arg7))
            (RV19 V' (Proc.devRef .tc main_arg8)))
          (RV20 V' (Proc.devRef .tc main_arg9) : (⟨S64x64, .f32⟩ : BufTy).Contents (Elt Ideal)) :=
    (congrFun (RV20_eq V') (Proc.devRef .tc main_v287)).trans ((piece19_v287 (RV19 V')).trans
      (congrArg (fun z => Host.dotGeneral (F := Ideal) (φ₁ := .f32) (φ₂ := .f32) dot_S131072x64_S64x64_S131072x64_1_0_0_1_n_n none
          (Cert.SpecMlp.layer (M := 131072) (RV19 V' (Proc.devRef .tc main_v281)) (RV19 V' (Proc.devRef .tc main_arg7))
            (RV19 V' (Proc.devRef .tc main_arg8))) z) k9.symm))

  have p20 := piece20_v296 (RV20 V') _ p19
  refine (rkeep21 V' Cert.ReferenceIdeal.main_v296 (by decide)).trans ((congrFun (RV21_eq V') (Proc.devRef .tc main_v296)).trans (p20.trans ?_))
  exact mlp_congr (M := 131072) (rkeep19 V' Cert.ReferenceIdeal.main_v281 (by decide)).symm (rkeep19 V' Cert.ReferenceIdeal.main_arg7 (by decide)).symm (rkeep19 V' Cert.ReferenceIdeal.main_arg8 (by decide)).symm
    (k9.trans (rkeep19 V' Cert.ReferenceIdeal.main_arg9 (by decide)).symm) (k10.trans (rkeep19 V' Cert.ReferenceIdeal.main_arg10 (by decide)).symm)
    (k11.trans (rkeep19 V' Cert.ReferenceIdeal.main_arg11 (by decide)).symm) (k12.trans (rkeep19 V' Cert.ReferenceIdeal.main_arg12 (by decide)).symm)

end Reference

theorem eq_v248 (m : (ℓ : Loc Cert.KernelIdeal.nD Cert.KernelIdeal.τ Cert.KernelIdeal.sig) → Buf (Elt Ideal) ℓ)
    (ρ : Dev Cert.KernelIdeal.nD → PrngReg) (V' : Valuation Cert.ReferenceIdeal.τ Cert.ReferenceIdeal.sig (Elt Ideal))
    (c : Dev Cert.KernelIdeal.nD)
    (h0 : (Cert.KernelIdeal.Gen.W24 m ρ c (Proc.devRef .tc Cert.KernelIdeal.main_v247) : (⟨Cert.KernelIdeal.S131072x80, .f32⟩ : BufTy).Contents (Elt Ideal))
      = Cert.ReferenceIdeal.RefRun.RV23 V' (Proc.devRef .tc Cert.ReferenceIdeal.main_v281))
    (h1 : (Cert.KernelIdeal.Gen.W24 m ρ c (Proc.devRef .tc Cert.KernelIdeal.main_arg7) : (⟨Cert.KernelIdeal.S80x64, .f32⟩ : BufTy).Contents (Elt Ideal))
      = Cert.ReferenceIdeal.RefRun.RV23 V' (Proc.devRef .tc Cert.ReferenceIdeal.main_arg7))
    (h2 : (Cert.KernelIdeal.Gen.W24 m ρ c (Proc.devRef .tc Cert.KernelIdeal.main_arg8) : (⟨Cert.KernelIdeal.S64, .f32⟩ : BufTy).Contents (Elt Ideal))
      = Cert.ReferenceIdeal.RefRun.RV23 V' (Proc.devRef .tc Cert.ReferenceIdeal.main_arg8))
    (h3 : (Cert.KernelIdeal.Gen.W24 m ρ c (Proc.devRef .tc Cert.KernelIdeal.main_arg9) : (⟨Cert.KernelIdeal.S64x64, .f32⟩ : BufTy).Contents (Elt Ideal))
      = Cert.ReferenceIdeal.RefRun.RV23 V' (Proc.devRef .tc Cert.ReferenceIdeal.main_arg9))
    (h4 : (Cert.KernelIdeal.Gen.W24 m ρ c (Proc.devRef .tc Cert.KernelIdeal.main_arg10) : (⟨Cert.KernelIdeal.S64, .f32⟩ : BufTy).Contents (Elt Ideal))
      = Cert.ReferenceIdeal.RefRun.RV23 V' (Proc.devRef .tc Cert.ReferenceIdeal.main_arg10))
    (h5 : (Cert.KernelIdeal.Gen.W24 m ρ c (Proc.devRef .tc Cert.KernelIdeal.main_arg11) : (⟨Cert.KernelIdeal.S64x64, .f32⟩ : BufTy).Contents (Elt Ideal))
      = Cert.ReferenceIdeal.RefRun.RV23 V' (Proc.devRef .tc Cert.ReferenceIdeal.main_arg11))
    (h6 : (Cert.KernelIdeal.Gen.W24 m ρ c (Proc.devRef .tc Cert.KernelIdeal.main_arg12) : (⟨Cert.KernelIdeal.S64, .f32⟩ : BufTy).Contents (Elt Ideal))
      = Cert.ReferenceIdeal.RefRun.RV23 V' (Proc.devRef .tc Cert.ReferenceIdeal.main_arg12)) :
    (Cert.KernelIdeal.Gen.W24 m ρ c (Proc.devRef .tc Cert.KernelIdeal.main_v248) : (⟨Cert.KernelIdeal.S131072x64, .f32⟩ : BufTy).Contents (Elt Ideal))
      = Cert.ReferenceIdeal.RefRun.RV23 V' (Proc.devRef .tc Cert.ReferenceIdeal.main_v296) :=
  (kernel_v248 m ρ c).trans ((mlp_congr (M := 131072) h0 h1 h2 h3 h4 h5 h6).trans (ref_v296 V').symm)

end Cert.Bridge

end
-- ==== Proof.BridgeAll.lean ====
import proofs.«415935_j25786983645203_2_alg».proof.Proof.BridgeStretch
import proofs.«415935_j25786983645203_2_alg».proof.Proof.BridgeElu
import proofs.«415935_j25786983645203_2_alg».proof.Proof.BridgeMsg0
import proofs.«415935_j25786983645203_2_alg».proof.Proof.BridgeMsg1
import proofs.«415935_j25786983645203_2_alg».proof.Proof.BridgeMsg2
import proofs.«415935_j25786983645203_2_alg».proof.Proof.BridgeMsg3
import proofs.«415935_j25786983645203_2_alg».proof.Proof.BridgeBnDot
import proofs.«415935_j25786983645203_2_alg».proof.Proof.BridgeMlp
import Idealize.ShloMosaic.PureOps.Ideal

set_option maxRecDepth 16384

noncomputable section

namespace Cert.Bridge

open Idealize.ShloMosaic Idealize.ShloMosaic.TcCoe Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (V' : Valuation Cert.ReferenceIdeal.τ Cert.ReferenceIdeal.sig (Elt Ideal)) (c : Dev Cert.KernelIdeal.nD)

theorem result_eq
    (hA0 : Cert.KernelIdeal.Gen.W24 m ρ c (Proc.devRef .tc Cert.KernelIdeal.main_arg0) = Cert.ReferenceIdeal.RefRun.RV23 V' (Proc.devRef .tc Cert.ReferenceIdeal.main_arg0))
    (hA1 : Cert.KernelIdeal.Gen.W24 m ρ c (Proc.devRef .tc Cert.KernelIdeal.main_arg1) = Cert.ReferenceIdeal.RefRun.RV23 V' (Proc.devRef .tc Cert.ReferenceIdeal.main_arg1))
    (hA2 : Cert.KernelIdeal.Gen.W24 m ρ c (Proc.devRef .tc Cert.KernelIdeal.main_arg2) = Cert.ReferenceIdeal.RefRun.RV23 V' (Proc.devRef .tc Cert.ReferenceIdeal.main_arg2))
    (hA3 : Cert.KernelIdeal.Gen.W24 m ρ c (Proc.devRef .tc Cert.KernelIdeal.main_arg3) = Cert.ReferenceIdeal.RefRun.RV23 V' (Proc.devRef .tc Cert.ReferenceIdeal.main_arg3))
    (hA4 : Cert.KernelIdeal.Gen.W24 m ρ c (Proc.devRef .tc Cert.KernelIdeal.main_arg4) = Cert.ReferenceIdeal.RefRun.RV23 V' (Proc.devRef .tc Cert.ReferenceIdeal.main_arg4))
    (hA5 : Cert.KernelIdeal.Gen.W24 m ρ c (Proc.devRef .tc Cert.KernelIdeal.main_arg5) = Cert.ReferenceIdeal.RefRun.RV23 V' (Proc.devRef .tc Cert.ReferenceIdeal.main_arg5))
    (hA6 : Cert.KernelIdeal.Gen.W24 m ρ c (Proc.devRef .tc Cert.KernelIdeal.main_arg6) = Cert.ReferenceIdeal.RefRun.RV23 V' (Proc.devRef .tc Cert.ReferenceIdeal.main_arg6))
    (hA7 : Cert.KernelIdeal.Gen.W24 m ρ c (Proc.devRef .tc Cert.KernelIdeal.main_arg7) = Cert.ReferenceIdeal.RefRun.RV23 V' (Proc.devRef .tc Cert.ReferenceIdeal.main_arg7))
    (hA8 : Cert.KernelIdeal.Gen.W24 m ρ c (Proc.devRef .tc Cert.KernelIdeal.main_arg8) = Cert.ReferenceIdeal.RefRun.RV23 V' (Proc.devRef .tc Cert.ReferenceIdeal.main_arg8))
    (hA9 : Cert.KernelIdeal.Gen.W24 m ρ c (Proc.devRef .tc Cert.KernelIdeal.main_arg9) = Cert.ReferenceIdeal.RefRun.RV23 V' (Proc.devRef .tc Cert.ReferenceIdeal.main_arg9))
    (hA10 : Cert.KernelIdeal.Gen.W24 m ρ c (Proc.devRef .tc Cert.KernelIdeal.main_arg10) = Cert.ReferenceIdeal.RefRun.RV23 V' (Proc.devRef .tc Cert.ReferenceIdeal.main_arg10))
    (hA11 : Cert.KernelIdeal.Gen.W24 m ρ c (Proc.devRef .tc Cert.KernelIdeal.main_arg11) = Cert.ReferenceIdeal.RefRun.RV23 V' (Proc.devRef .tc Cert.ReferenceIdeal.main_arg11))
    (hA12 : Cert.KernelIdeal.Gen.W24 m ρ c (Proc.devRef .tc Cert.KernelIdeal.main_arg12) = Cert.ReferenceIdeal.RefRun.RV23 V' (Proc.devRef .tc Cert.ReferenceIdeal.main_arg12))
    (hA13 : Cert.KernelIdeal.Gen.W24 m ρ c (Proc.devRef .tc Cert.KernelIdeal.main_arg13) = Cert.ReferenceIdeal.RefRun.RV23 V' (Proc.devRef .tc Cert.ReferenceIdeal.main_arg13))
    (hA14 : Cert.KernelIdeal.Gen.W24 m ρ c (Proc.devRef .tc Cert.KernelIdeal.main_arg14) = Cert.ReferenceIdeal.RefRun.RV23 V' (Proc.devRef .tc Cert.ReferenceIdeal.main_arg14))
    (hA15 : Cert.KernelIdeal.Gen.W24 m ρ c (Proc.devRef .tc Cert.KernelIdeal.main_arg15) = Cert.ReferenceIdeal.RefRun.RV23 V' (Proc.devRef .tc Cert.ReferenceIdeal.main_arg15))
    (hA16 : Cert.KernelIdeal.Gen.W24 m ρ c (Proc.devRef .tc Cert.KernelIdeal.main_arg16) = Cert.ReferenceIdeal.RefRun.RV23 V' (Proc.devRef .tc Cert.ReferenceIdeal.main_arg16))
    (hA17 : Cert.KernelIdeal.Gen.W24 m ρ c (Proc.devRef .tc Cert.KernelIdeal.main_arg17) = Cert.ReferenceIdeal.RefRun.RV23 V' (Proc.devRef .tc Cert.ReferenceIdeal.main_arg17))
    (hA18 : Cert.KernelIdeal.Gen.W24 m ρ c (Proc.devRef .tc Cert.KernelIdeal.main_arg18) = Cert.ReferenceIdeal.RefRun.RV23 V' (Proc.devRef .tc Cert.ReferenceIdeal.main_arg18))
    (hA19 : Cert.KernelIdeal.Gen.W24 m ρ c (Proc.devRef .tc Cert.KernelIdeal.main_arg19) = Cert.ReferenceIdeal.RefRun.RV23 V' (Proc.devRef .tc Cert.ReferenceIdeal.main_arg19))
    (hA20 : Cert.KernelIdeal.Gen.W24 m ρ c (Proc.devRef .tc Cert.KernelIdeal.main_arg20) = Cert.ReferenceIdeal.RefRun.RV23 V' (Proc.devRef .tc Cert.ReferenceIdeal.main_arg20))
    (hA21 : Cert.KernelIdeal.Gen.W24 m ρ c (Proc.devRef .tc Cert.KernelIdeal.main_arg21) = Cert.ReferenceIdeal.RefRun.RV23 V' (Proc.devRef .tc Cert.ReferenceIdeal.main_arg21))
    (hA22 : Cert.KernelIdeal.Gen.W24 m ρ c (Proc.devRef .tc Cert.KernelIdeal.main_arg22) = Cert.ReferenceIdeal.RefRun.RV23 V' (Proc.devRef .tc Cert.ReferenceIdeal.main_arg22))
    (hA23 : Cert.KernelIdeal.Gen.W24 m ρ c (Proc.devRef .tc Cert.KernelIdeal.main_arg23) = Cert.ReferenceIdeal.RefRun.RV23 V' (Proc.devRef .tc Cert.ReferenceIdeal.main_arg23))
    (hA24 : Cert.KernelIdeal.Gen.W24 m ρ c (Proc.devRef .tc Cert.KernelIdeal.main_arg24) = Cert.ReferenceIdeal.RefRun.RV23 V' (Proc.devRef .tc Cert.ReferenceIdeal.main_arg24))
    (hA25 : Cert.KernelIdeal.Gen.W24 m ρ c (Proc.devRef .tc Cert.KernelIdeal.main_arg25) = Cert.ReferenceIdeal.RefRun.RV23 V' (Proc.devRef .tc Cert.ReferenceIdeal.main_arg25))
    (hA26 : Cert.KernelIdeal.Gen.W24 m ρ c (Proc.devRef .tc Cert.KernelIdeal.main_arg26) = Cert.ReferenceIdeal.RefRun.RV23 V' (Proc.devRef .tc Cert.ReferenceIdeal.main_arg26))
    (hA27 : Cert.KernelIdeal.Gen.W24 m ρ c (Proc.devRef .tc Cert.KernelIdeal.main_arg27) = Cert.ReferenceIdeal.RefRun.RV23 V' (Proc.devRef .tc Cert.ReferenceIdeal.main_arg27)) :
    Cert.KernelIdeal.Gen.W24 m ρ c (Proc.devRef .tc Cert.KernelIdeal.main_v259) = Cert.ReferenceIdeal.RefRun.RV23 V' (Proc.devRef .tc Cert.ReferenceIdeal.main_v322) := by

  obtain ⟨e2, e9⟩ := eq_s0 m ρ V' c hA0

  have e10 := eq_v10 m ρ V' c hA0 hA1 hA2 e2 e9 hA3

  obtain ⟨e13, e20⟩ := eq_s1 m ρ V' c e10

  have e21 := eq_v21 m ρ V' c e10 e13 e20 hA4 hA5

  have e34 := eq_v34 m ρ V' c e21 hA6 hA16 hA17
  have e35 := eq_v35 m ρ V' c e21 e34

  obtain ⟨e42, e52⟩ := eq_s4 m ρ V' c e35 hA6 hA16 hA17 hA24

  have e65 := eq_v65 m ρ V' c e42 hA6 hA18 hA19
  have e66 := eq_v66 m ρ V' c e42 e65
  obtain ⟨e73, e83, e100⟩ := eq_s6 m ρ V' c e52 e66 hA6 hA16 hA17 hA18 hA19 hA24 hA25

  have e113 := eq_v113 m ρ V' c e73 hA6 hA20 hA21
  have e114 := eq_v114 m ρ V' c e73 e113
  obtain ⟨e121, e131, e148, e165⟩ := eq_s8 m ρ V' c e83 e100 e114 hA6 hA16 hA17 hA18 hA19 hA20 hA21 hA24 hA25 hA26

  have e178 := eq_v178 m ρ V' c e121 hA6 hA22 hA23
  have e179 := eq_v179 m ρ V' c e121 e178
  have e247 := eq_s10 m ρ V' c e131 e148 e165 e179 hA16 hA17 hA18 hA19 hA20 hA21 hA22 hA23 hA24 hA25 hA26 hA27

  have e248 := eq_v248 m ρ V' c e247 hA7 hA8 hA9 hA10 hA11 hA12
  obtain ⟨e251, e258⟩ := eq_s11 m ρ V' c e248
  exact eq_v259 m ρ V' c e248 e251 e258 hA13 hA14 hA15

end Cert.Bridge

end
-- ==== Proof.lean ====
import proofs.«415935_j25786983645203_2_alg».proof.Defs
import proofs.«415935_j25786983645203_2_alg».proof.Proof.Gen.Kernel
import proofs.«415935_j25786983645203_2_alg».proof.Proof.Gen.Kernel.Skeleton
import proofs.«415935_j25786983645203_2_alg».proof.Proof.Gen.Kernel.Launch
import proofs.«415935_j25786983645203_2_alg».proof.Proof.Gen.Kernel.Points
import proofs.«415935_j25786983645203_2_alg».proof.Proof.Gen.Kernel.Frame
import proofs.«415935_j25786983645203_2_alg».proof.Proof.Gen.KernelIdeal
import proofs.«415935_j25786983645203_2_alg».proof.Proof.Gen.KernelIdeal.Skeleton
import proofs.«415935_j25786983645203_2_alg».proof.Proof.Gen.KernelIdeal.Launch
import proofs.«415935_j25786983645203_2_alg».proof.Proof.Gen.KernelIdeal.Points
import proofs.«415935_j25786983645203_2_alg».proof.Proof.Gen.KernelIdeal.Frame
import proofs.«415935_j25786983645203_2_alg».proof.Proof.Gen.ReferenceIdeal
import proofs.«415935_j25786983645203_2_alg».proof.Proof.Gen.Pre_finite_inputs
import proofs.«415935_j25786983645203_2_alg».proof.Proof.KRun
import proofs.«415935_j25786983645203_2_alg».proof.Proof.RefRun
import proofs.«415935_j25786983645203_2_alg».proof.Proof.RKeep
import proofs.«415935_j25786983645203_2_alg».proof.Proof.BridgeAll
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ (c : Dev Cert.ReferenceIdeal.nD) (b : Ref Cert.ReferenceIdeal.sig .tc),
        r.2.mem ((c.tc : Thread Cert.ReferenceIdeal.nD Cert.ReferenceIdeal.τ).loc b) = Cert.ReferenceIdeal.RefRun.RV23 (launchContents m' c) (Proc.devRef .tc b)) :=
  (θ_run (Cert.ReferenceIdeal.defs (F := Ideal)) _ _).mono
    (fun r h c b => (h c b).trans (congrFun (Cert.ReferenceIdeal.RefRun.ops_fold (launchContents m' c)) _))
    (Cert.ReferenceIdeal.RefRun.run (F := Ideal) m' ρ')

/-- No operation of the reference writes an argument. -/
theorem frame_ri : Cert.frame_ReferenceIdeal := fun m ρ _ =>
  (θ_run (Cert.ReferenceIdeal.defs (F := Ideal)) _ _).mono (fun _ h c => by
    repeat' apply And.intro
    all_goals exact (h c _).trans (Cert.ReferenceIdeal.RefRun.rkeep0 (launchContents m c) _ (by decide))) (ref_run m ρ)

theorem preserves : Cert.preserves_Kernel_KernelIdeal := trivial

theorem algebraic : Cert.algebraic_KernelIdeal_ReferenceIdeal := by
  intro m ρ m' ρ' _ hagree
  refine ⟨fun c => Cert.KernelIdeal.Gen.W24 m ρ c (Proc.devRef .tc Cert.KernelIdeal.main_v259), Cert.KernelIdeal.Gen.run_val (F := Ideal) m ρ, ?_⟩
  refine (θ_run (Cert.ReferenceIdeal.defs (F := Ideal)) _ _).mono (fun r h c => ⟨(h c Cert.ReferenceIdeal.main_v322).trans ?_, by
    repeat' apply And.intro
    all_goals exact (h c _).trans (Cert.ReferenceIdeal.RefRun.rkeep0 (launchContents m' c) _ (by decide))⟩) (ref_run m' ρ')
  obtain ⟨a0, a1, a2, a3, a4, a5, a6, a7, a8, a9, a10, a11, a12, a13, a14, a15, a16, a17, a18, a19, a20, a21, a22, a23, a24, a25, a26, a27⟩ := hagree c
  refine (Cert.Bridge.result_eq m ρ (launchContents m' c) c
    ((Cert.KernelIdeal.Gen.W24_main_arg0 m ρ c).trans (a0.symm.trans (Cert.ReferenceIdeal.RefRun.rkeep0 (launchContents m' c) Cert.ReferenceIdeal.main_arg0 (by decide)).symm))
    ((Cert.KernelIdeal.Gen.W24_main_arg1 m ρ c).trans (a1.symm.trans (Cert.ReferenceIdeal.RefRun.rkeep0 (launchContents m' c) Cert.ReferenceIdeal.main_arg1 (by decide)).symm))
    ((Cert.KernelIdeal.Gen.W24_main_arg2 m ρ c).trans (a2.symm.trans (Cert.ReferenceIdeal.RefRun.rkeep0 (launchContents m' c) Cert.ReferenceIdeal.main_arg2 (by decide)).symm))
    ((Cert.KernelIdeal.Gen.W24_main_arg3 m ρ c).trans (a3.symm.trans (Cert.ReferenceIdeal.RefRun.rkeep0 (launchContents m' c) Cert.ReferenceIdeal.main_arg3 (by decide)).symm))
    ((Cert.KernelIdeal.Gen.W24_main_arg4 m ρ c).trans (a4.symm.trans (Cert.ReferenceIdeal.RefRun.rkeep0 (launchContents m' c) Cert.ReferenceIdeal.main_arg4 (by decide)).symm))
    ((Cert.KernelIdeal.Gen.W24_main_arg5 m ρ c).trans (a5.symm.trans (Cert.ReferenceIdeal.RefRun.rkeep0 (launchContents m' c) Cert.ReferenceIdeal.main_arg5 (by decide)).symm))
    ((Cert.KernelIdeal.Gen.W24_main_arg6 m ρ c).trans (a6.symm.trans (Cert.ReferenceIdeal.RefRun.rkeep0 (launchContents m' c) Cert.ReferenceIdeal.main_arg6 (by decide)).symm))
    ((Cert.KernelIdeal.Gen.W24_main_arg7 m ρ c).trans (a7.symm.trans (Cert.ReferenceIdeal.RefRun.rkeep0 (launchContents m' c) Cert.ReferenceIdeal.main_arg7 (by decide)).symm))
    ((Cert.KernelIdeal.Gen.W24_main_arg8 m ρ c).trans (a8.symm.trans (Cert.ReferenceIdeal.RefRun.rkeep0 (launchContents m' c) Cert.ReferenceIdeal.main_arg8 (by decide)).symm))
    ((Cert.KernelIdeal.Gen.W24_main_arg9 m ρ c).trans (a9.symm.trans (Cert.ReferenceIdeal.RefRun.rkeep0 (launchContents m' c) Cert.ReferenceIdeal.main_arg9 (by decide)).symm))
    ((Cert.KernelIdeal.Gen.W24_main_arg10 m ρ c).trans (a10.symm.trans (Cert.ReferenceIdeal.RefRun.rkeep0 (launchContents m' c) Cert.ReferenceIdeal.main_arg10 (by decide)).symm))
    ((Cert.KernelIdeal.Gen.W24_main_arg11 m ρ c).trans (a11.symm.trans (Cert.ReferenceIdeal.RefRun.rkeep0 (launchContents m' c) Cert.ReferenceIdeal.main_arg11 (by decide)).symm))
    ((Cert.KernelIdeal.Gen.W24_main_arg12 m ρ c).trans (a12.symm.trans (Cert.ReferenceIdeal.RefRun.rkeep0 (launchContents m' c) Cert.ReferenceIdeal.main_arg12 (by decide)).symm))
    ((Cert.KernelIdeal.Gen.W24_main_arg13 m ρ c).trans (a13.symm.trans (Cert.ReferenceIdeal.RefRun.rkeep0 (launchContents m' c) Cert.ReferenceIdeal.main_arg13 (by decide)).symm))
    ((Cert.KernelIdeal.Gen.W24_main_arg14 m ρ c).trans (a14.symm.trans (Cert.ReferenceIdeal.RefRun.rkeep0 (launchContents m' c) Cert.ReferenceIdeal.main_arg14 (by decide)).symm))
    ((Cert.KernelIdeal.Gen.W24_main_arg15 m ρ c).trans (a15.symm.trans (Cert.ReferenceIdeal.RefRun.rkeep0 (launchContents m' c) Cert.ReferenceIdeal.main_arg15 (by decide)).symm))
    ((Cert.KernelIdeal.Gen.W24_main_arg16 m ρ c).trans (a16.symm.trans (Cert.ReferenceIdeal.RefRun.rkeep0 (launchContents m' c) Cert.ReferenceIdeal.main_arg16 (by decide)).symm))
    ((Cert.KernelIdeal.Gen.W24_main_arg17 m ρ c).trans (a17.symm.trans (Cert.ReferenceIdeal.RefRun.rkeep0 (launchContents m' c) Cert.ReferenceIdeal.main_arg17 (by decide)).symm))
    ((Cert.KernelIdeal.Gen.W24_main_arg18 m ρ c).trans (a18.symm.trans (Cert.ReferenceIdeal.RefRun.rkeep0 (launchContents m' c) Cert.ReferenceIdeal.main_arg18 (by decide)).symm))
    ((Cert.KernelIdeal.Gen.W24_main_arg19 m ρ c).trans (a19.symm.trans (Cert.ReferenceIdeal.RefRun.rkeep0 (launchContents m' c) Cert.ReferenceIdeal.main_arg19 (by decide)).symm))
    ((Cert.KernelIdeal.Gen.W24_main_arg20 m ρ c).trans (a20.symm.trans (Cert.ReferenceIdeal.RefRun.rkeep0 (launchContents m' c) Cert.ReferenceIdeal.main_arg20 (by decide)).symm))
    ((Cert.KernelIdeal.Gen.W24_main_arg21 m ρ c).trans (a21.symm.trans (Cert.ReferenceIdeal.RefRun.rkeep0 (launchContents m' c) Cert.ReferenceIdeal.main_arg21 (by decide)).symm))
    ((Cert.KernelIdeal.Gen.W24_main_arg22 m ρ c).trans (a22.symm.trans (Cert.ReferenceIdeal.RefRun.rkeep0 (launchContents m' c) Cert.ReferenceIdeal.main_arg22 (by decide)).symm))
    ((Cert.KernelIdeal.Gen.W24_main_arg23 m ρ c).trans (a23.symm.trans (Cert.ReferenceIdeal.RefRun.rkeep0 (launchContents m' c) Cert.ReferenceIdeal.main_arg23 (by decide)).symm))
    ((Cert.KernelIdeal.Gen.W24_main_arg24 m ρ c).trans (a24.symm.trans (Cert.ReferenceIdeal.RefRun.rkeep0 (launchContents m' c) Cert.ReferenceIdeal.main_arg24 (by decide)).symm))
    ((Cert.KernelIdeal.Gen.W24_main_arg25 m ρ c).trans (a25.symm.trans (Cert.ReferenceIdeal.RefRun.rkeep0 (launchContents m' c) Cert.ReferenceIdeal.main_arg25 (by decide)).symm))
    ((Cert.KernelIdeal.Gen.W24_main_arg26 m ρ c).trans (a26.symm.trans (Cert.ReferenceIdeal.RefRun.rkeep0 (launchContents m' c) Cert.ReferenceIdeal.main_arg26 (by decide)).symm))
    ((Cert.KernelIdeal.Gen.W24_main_arg27 m ρ c).trans (a27.symm.trans (Cert.ReferenceIdeal.RefRun.rkeep0 (launchContents m' c) Cert.ReferenceIdeal.main_arg27 (by decide)).symm))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
